-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S50264x4096 : Shape := ⟨2, ![50264, 4096]⟩
abbrev S4096x4096 : Shape := ⟨2, ![4096, 4096]⟩
abbrev S4096 : Shape := ⟨1, ![4096]⟩
abbrev S_ : Shape := ⟨0, ![]⟩

class Facts : Prop where
  bcast_S_S50264x4096 : S_.BroadcastsInDim S50264x4096 (![] : Fin 0 → Fin S50264x4096.rank)
  reducesTo_S50264x4096_S_d0_1 : S50264x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg0 : IVec S4x4096 32) (main_v13 : IVec S_ 1) (main_v15 : IVec S4x4096 1) (main_c_5 : IVec S_ 1) : IVec S_ 1 :=
  let main_v16 : IVec S_ 1 := (fun x v => Host.reduce IntOp.andi x v reducesTo_S4x4096_S_d0_1 h_S_) main_v15 main_c_5
  let main_v17 : IVec S_ 1 := andi main_v13 main_v16
  let main_c_6 : IVec S_ 32 := constantI S_ 32 50264#32
  let main_v18 : IVec S4x4096 32 := broadcastInDim S4x4096 ![] bcast_S_S4x4096 main_c_6
  let main_v19 : IVec S4x4096 1 := cmpi .slt main_arg0 main_v18
  let main_c_7 : IVec S_ 1 := constantI S_ 1 1#1
  let main_v20 : IVec S_ 1 := (fun x v => Host.reduce IntOp.andi x v reducesTo_S4x4096_S_d0_1 h_S_) main_v19 main_c_7
  let main_v21 : IVec S_ 1 := andi main_v17 main_v20
  main_v21

def fn {F : FTy → Type} [FloatOps F] (main_arg0 : IVec S4x4096 32) (main_arg1 : FVec F S50264x4096 .f32) (main_arg2 : FVec F S4096x4096 .f32) (main_arg3 : FVec F S4096 .f32) : IVec S_ 1 :=
  let main_v0 : FVec F S50264x4096 .f32 := Host.absf main_arg1
  let main_cst : FVec F S_ .f32 := constant S_ .f32 0x7F800000#32
  let main_v1 : FVec F S50264x4096 .f32 := broadcastInDim S50264x4096 ![] bcast_S_S50264x4096 main_cst
  let main_v2 : IVec S50264x4096 1 := cmpf .olt main_v0 main_v1
  let main_c : IVec S_ 1 := constantI S_ 1 1#1
  let main_v3 : IVec S_ 1 := (fun x v => Host.reduce IntOp.andi x v reducesTo_S50264x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4x4096 32 := broadcastInDim S4x4096 ![] bcast_S_S4x4096 main_c_4
  let main_v15 : IVec S4x4096 1 := cmpi .sge main_arg0 main_v14
  let main_c_5 : IVec S_ 1 := constantI S_ 1 1#1
  fn_part1 (F := F) main_arg0 main_v13 main_v15 main_c_5
-- ==== Kernel.lean ====
abbrev S4x4096 : Shape := ⟨2, ![4, 4096]⟩
abbrev S50264x4096 : Shape := ⟨2, ![50264, 4096]⟩
abbrev S4096x4096 : Shape := ⟨2, ![4096, 4096]⟩
abbrev S4096 : Shape := ⟨1, ![4096]⟩
abbrev S16384 : Shape := ⟨1, ![16384]⟩
abbrev S16384x4096 : Shape := ⟨2, ![16384, 4096]⟩
abbrev S128x4096 : Shape := ⟨2, ![128, 4096]⟩
abbrev S128 : Shape := ⟨1, ![128]⟩
abbrev S1 : Shape := ⟨1, ![1]⟩
abbrev S_ : Shape := ⟨0, ![]⟩
abbrev S1x4096 : Shape := ⟨2, ![1, 4096]⟩
abbrev S1x1 : Shape := ⟨2, ![1, 1]⟩
abbrev S128x1 : Shape := ⟨2, ![128, 1]⟩

abbrev nBuf : Space → Nat
  | .hbm => 13
  | .vmem => 8
  | .smem => 1
  | _ => 0

abbrev bufTy : (tb : Table) → Fin (tcTables nBuf tb) → BufTy
  | .hbm, ⟨0, _⟩ => ⟨S4x4096, .i32⟩
  | .hbm, ⟨1, _⟩ => ⟨S50264x4096, .f32⟩
  | .hbm, ⟨2, _⟩ => ⟨S4096x4096, .f32⟩
  | .hbm, ⟨3, _⟩ => ⟨S4096, .f32⟩
  | .hbm, ⟨4, _⟩ => ⟨S16384x4096, .bf16⟩
  | .hbm, ⟨5, _⟩ => ⟨S4096x4096, .bf16⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S128x4096, .bf16⟩
  | .local _ .vmem, ⟨1, _⟩ => ⟨S128x4096, .bf16⟩
  | .local _ .vmem, ⟨2, _⟩ => ⟨S128x4096, .f32⟩
  | .local _ .vmem, ⟨3, _⟩ => ⟨S128x4096, .bf16⟩
  | .local _ .vmem, ⟨4, _⟩ => ⟨S128x4096, .bf16⟩
  | .local _ .vmem, ⟨5, _⟩ => ⟨S4096x4096, .bf16⟩
  | .local _ .vmem, ⟨6, _⟩ => ⟨S1x1, .f32⟩
  | .local _ .vmem, ⟨7, _⟩ => ⟨S1x1, .f32⟩
  | .local _ .smem, ⟨0, _⟩ => ⟨S16384, .i32⟩
  | _, _ => ⟨S4x4096, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_scratch0 : Ref sig .tc := ⟨.vmem, 7, rfl⟩
abbrev cc0_sem0_0 : DmaSem sig := 0
abbrev cc0_sem0_1 : DmaSem sig := 1
abbrev cc1_sem0_0 : DmaSem sig := 130
abbrev cc1_sem0_1 : DmaSem sig := 131
abbrev cc1_sem1_0 : DmaSem sig := 132
abbrev cc1_sem2_0 : DmaSem sig := 133

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_off5 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_off7 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_off9 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_off11 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_off13 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_off15 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_off17 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_off19 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_off21 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_off23 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_off25 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_off27 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_off29 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_off31 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_off33 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_off35 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_off37 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_off39 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_off41 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_off43 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_off45 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_off47 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_off49 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_off51 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_off53 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_off55 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_off57 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_off59 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_off61 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_off63 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_off65 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_off67 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_off69 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_off71 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_off73 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_off75 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_off77 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_off79 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_off81 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_off83 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_off85 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_off87 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_off89 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_off91 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_off93 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_off95 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_off97 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_off99 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_off101 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_off103 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_off105 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_off107 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_off109 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_off111 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_off113 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_off115 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_off117 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_off119 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_off121 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_off123 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_off125 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_off127 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_off129 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v577 : BitVec 32 := Scalar.addi v0 c64_i32
  let v578 : Index := Scalar.indexCast v577
  ![v578.toNat]
def k0_off130 (v579 : BitVec 32) : Fin 2 → Nat :=
  let c0_i32_259 : BitVec 32 := 0#32
  ![v579.toNat, 0]

def k0_off131 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v586 : BitVec 32 := Scalar.addi v0 c65_i32
  let v587 : Index := Scalar.indexCast v586
  ![v587.toNat]
def k0_off132 (v588 : BitVec 32) : Fin 2 → Nat :=
  let c0_i32_263 : BitVec 32 := 0#32
  ![v588.toNat, 0]

def k0_off133 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v595 : BitVec 32 := Scalar.addi v0 c66_i32
  let v596 : Index := Scalar.indexCast v595
  ![v596.toNat]
def k0_off134 (v597 : BitVec 32) : Fin 2 → Nat :=
  let c0_i32_267 : BitVec 32 := 0#32
  ![v597.toNat, 0]

def k0_off135 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v604 : BitVec 32 := Scalar.addi v0 c67_i32
  let v605 : Index := Scalar.indexCast v604
  ![v605.toNat]
def k0_off136 (v606 : BitVec 32) : Fin 2 → Nat :=
  let c0_i32_271 : BitVec 32 := 0#32
  ![v606.toNat, 0]

def k0_off137 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v613 : BitVec 32 := Scalar.addi v0 c68_i32
  let v614 : Index := Scalar.indexCast v613
  ![v614.toNat]
def k0_off138 (v615 : BitVec 32) : Fin 2 → Nat :=
  let c0_i32_275 : BitVec 32 := 0#32
  ![v615.toNat, 0]

def k0_off139 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v622 : BitVec 32 := Scalar.addi v0 c69_i32
  let v623 : Index := Scalar.indexCast v622
  ![v623.toNat]
def k0_off140 (v624 : BitVec 32) : Fin 2 → Nat :=
  let c0_i32_279 : BitVec 32 := 0#32
  ![v624.toNat, 0]

def k0_off141 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v631 : BitVec 32 := Scalar.addi v0 c70_i32
  let v632 : Index := Scalar.indexCast v631
  ![v632.toNat]
def k0_off142 (v633 : BitVec 32) : Fin 2 → Nat :=
  let c0_i32_283 : BitVec 32 := 0#32
  ![v633.toNat, 0]

def k0_off143 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v640 : BitVec 32 := Scalar.addi v0 c71_i32
  let v641 : Index := Scalar.indexCast v640
  ![v641.toNat]
def k0_off144 (v642 : BitVec 32) : Fin 2 → Nat :=
  let c0_i32_287 : BitVec 32 := 0#32
  ![v642.toNat, 0]

def k0_off145 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v649 : BitVec 32 := Scalar.addi v0 c72_i32
  let v650 : Index := Scalar.indexCast v649
  ![v650.toNat]
def k0_off146 (v651 : BitVec 32) : Fin 2 → Nat :=
  let c0_i32_291 : BitVec 32 := 0#32
  ![v651.toNat, 0]

def k0_off147 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v658 : BitVec 32 := Scalar.addi v0 c73_i32
  let v659 : Index := Scalar.indexCast v658
  ![v659.toNat]
def k0_off148 (v660 : BitVec 32) : Fin 2 → Nat :=
  let c0_i32_295 : BitVec 32 := 0#32
  ![v660.toNat, 0]

def k0_off149 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v667 : BitVec 32 := Scalar.addi v0 c74_i32
  let v668 : Index := Scalar.indexCast v667
  ![v668.toNat]
def k0_off150 (v669 : BitVec 32) : Fin 2 → Nat :=
  let c0_i32_299 : BitVec 32 := 0#32
  ![v669.toNat, 0]

def k0_off151 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v676 : BitVec 32 := Scalar.addi v0 c75_i32
  let v677 : Index := Scalar.indexCast v676
  ![v677.toNat]
def k0_off152 (v678 : BitVec 32) : Fin 2 → Nat :=
  let c0_i32_303 : BitVec 32 := 0#32
  ![v678.toNat, 0]

def k0_off153 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v685 : BitVec 32 := Scalar.addi v0 c76_i32
  let v686 : Index := Scalar.indexCast v685
  ![v686.toNat]
def k0_off154 (v687 : BitVec 32) : Fin 2 → Nat :=
  let c0_i32_307 : BitVec 32 := 0#32
  ![v687.toNat, 0]

def k0_off155 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v694 : BitVec 32 := Scalar.addi v0 c77_i32
  let v695 : Index := Scalar.indexCast v694
  ![v695.toNat]
def k0_off156 (v696 : BitVec 32) : Fin 2 → Nat :=
  let c0_i32_311 : BitVec 32 := 0#32
  ![v696.toNat, 0]

def k0_off157 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v703 : BitVec 32 := Scalar.addi v0 c78_i32
  let v704 : Index := Scalar.indexCast v703
  ![v704.toNat]
def k0_off158 (v705 : BitVec 32) : Fin 2 → Nat :=
  let c0_i32_315 : BitVec 32 := 0#32
  ![v705.toNat, 0]

def k0_off159 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v712 : BitVec 32 := Scalar.addi v0 c79_i32
  let v713 : Index := Scalar.indexCast v712
  ![v713.toNat]
def k0_off160 (v714 : BitVec 32) : Fin 2 → Nat :=
  let c0_i32_319 : BitVec 32 := 0#32
  ![v714.toNat, 0]

def k0_off161 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v721 : BitVec 32 := Scalar.addi v0 c80_i32
  let v722 : Index := Scalar.indexCast v721
  ![v722.toNat]
def k0_off162 (v723 : BitVec 32) : Fin 2 → Nat :=
  let c0_i32_323 : BitVec 32 := 0#32
  ![v723.toNat, 0]

def k0_off163 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v730 : BitVec 32 := Scalar.addi v0 c81_i32
  let v731 : Index := Scalar.indexCast v730
  ![v731.toNat]
def k0_off164 (v732 : BitVec 32) : Fin 2 → Nat :=
  let c0_i32_327 : BitVec 32 := 0#32
  ![v732.toNat, 0]

def k0_off165 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v739 : BitVec 32 := Scalar.addi v0 c82_i32
  let v740 : Index := Scalar.indexCast v739
  ![v740.toNat]
def k0_off166 (v741 : BitVec 32) : Fin 2 → Nat :=
  let c0_i32_331 : BitVec 32 := 0#32
  ![v741.toNat, 0]

def k0_off167 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v748 : BitVec 32 := Scalar.addi v0 c83_i32
  let v749 : Index := Scalar.indexCast v748
  ![v749.toNat]
def k0_off168 (v750 : BitVec 32) : Fin 2 → Nat :=
  let c0_i32_335 : BitVec 32 := 0#32
  ![v750.toNat, 0]

def k0_off169 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v757 : BitVec 32 := Scalar.addi v0 c84_i32
  let v758 : Index := Scalar.indexCast v757
  ![v758.toNat]
def k0_off170 (v759 : BitVec 32) : Fin 2 → Nat :=
  let c0_i32_339 : BitVec 32 := 0#32
  ![v759.toNat, 0]

def k0_off171 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v766 : BitVec 32 := Scalar.addi v0 c85_i32
  let v767 : Index := Scalar.indexCast v766
  ![v767.toNat]
def k0_off172 (v768 : BitVec 32) : Fin 2 → Nat :=
  let c0_i32_343 : BitVec 32 := 0#32
  ![v768.toNat, 0]

def k0_off173 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v775 : BitVec 32 := Scalar.addi v0 c86_i32
  let v776 : Index := Scalar.indexCast v775
  ![v776.toNat]
def k0_off174 (v777 : BitVec 32) : Fin 2 → Nat :=
  let c0_i32_347 : BitVec 32 := 0#32
  ![v777.toNat, 0]

def k0_off175 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v784 : BitVec 32 := Scalar.addi v0 c87_i32
  let v785 : Index := Scalar.indexCast v784
  ![v785.toNat]
def k0_off176 (v786 : BitVec 32) : Fin 2 → Nat :=
  let c0_i32_351 : BitVec 32 := 0#32
  ![v786.toNat, 0]

def k0_off177 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v793 : BitVec 32 := Scalar.addi v0 c88_i32
  let v794 : Index := Scalar.indexCast v793
  ![v794.toNat]
def k0_off178 (v795 : BitVec 32) : Fin 2 → Nat :=
  let c0_i32_355 : BitVec 32 := 0#32
  ![v795.toNat, 0]

def k0_off179 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v802 : BitVec 32 := Scalar.addi v0 c89_i32
  let v803 : Index := Scalar.indexCast v802
  ![v803.toNat]
def k0_off180 (v804 : BitVec 32) : Fin 2 → Nat :=
  let c0_i32_359 : BitVec 32 := 0#32
  ![v804.toNat, 0]

def k0_off181 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v811 : BitVec 32 := Scalar.addi v0 c90_i32
  let v812 : Index := Scalar.indexCast v811
  ![v812.toNat]
def k0_off182 (v813 : BitVec 32) : Fin 2 → Nat :=
  let c0_i32_363 : BitVec 32 := 0#32
  ![v813.toNat, 0]

def k0_off183 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v820 : BitVec 32 := Scalar.addi v0 c91_i32
  let v821 : Index := Scalar.indexCast v820
  ![v821.toNat]
def k0_off184 (v822 : BitVec 32) : Fin 2 → Nat :=
  let c0_i32_367 : BitVec 32 := 0#32
  ![v822.toNat, 0]

def k0_off185 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v829 : BitVec 32 := Scalar.addi v0 c92_i32
  let v830 : Index := Scalar.indexCast v829
  ![v830.toNat]
def k0_off186 (v831 : BitVec 32) : Fin 2 → Nat :=
  let c0_i32_371 : BitVec 32 := 0#32
  ![v831.toNat, 0]

def k0_off187 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v838 : BitVec 32 := Scalar.addi v0 c93_i32
  let v839 : Index := Scalar.indexCast v838
  ![v839.toNat]
def k0_off188 (v840 : BitVec 32) : Fin 2 → Nat :=
  let c0_i32_375 : BitVec 32 := 0#32
  ![v840.toNat, 0]

def k0_off189 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v847 : BitVec 32 := Scalar.addi v0 c94_i32
  let v848 : Index := Scalar.indexCast v847
  ![v848.toNat]
def k0_off190 (v849 : BitVec 32) : Fin 2 → Nat :=
  let c0_i32_379 : BitVec 32 := 0#32
  ![v849.toNat, 0]

def k0_off191 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v856 : BitVec 32 := Scalar.addi v0 c95_i32
  let v857 : Index := Scalar.indexCast v856
  ![v857.toNat]
def k0_off192 (v858 : BitVec 32) : Fin 2 → Nat :=
  let c0_i32_383 : BitVec 32 := 0#32
  ![v858.toNat, 0]

def k0_off193 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v865 : BitVec 32 := Scalar.addi v0 c96_i32
  let v866 : Index := Scalar.indexCast v865
  ![v866.toNat]
def k0_off194 (v867 : BitVec 32) : Fin 2 → Nat :=
  let c0_i32_387 : BitVec 32 := 0#32
  ![v867.toNat, 0]

def k0_off195 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v874 : BitVec 32 := Scalar.addi v0 c97_i32
  let v875 : Index := Scalar.indexCast v874
  ![v875.toNat]
def k0_off196 (v876 : BitVec 32) : Fin 2 → Nat :=
  let c0_i32_391 : BitVec 32 := 0#32
  ![v876.toNat, 0]

def k0_off197 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v883 : BitVec 32 := Scalar.addi v0 c98_i32
  let v884 : Index := Scalar.indexCast v883
  ![v884.toNat]
def k0_off198 (v885 : BitVec 32) : Fin 2 → Nat :=
  let c0_i32_395 : BitVec 32 := 0#32
  ![v885.toNat, 0]

def k0_off199 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v892 : BitVec 32 := Scalar.addi v0 c99_i32
  let v893 : Index := Scalar.indexCast v892
  ![v893.toNat]
def k0_off200 (v894 : BitVec 32) : Fin 2 → Nat :=
  let c0_i32_399 : BitVec 32 := 0#32
  ![v894.toNat, 0]

def k0_off201 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v901 : BitVec 32 := Scalar.addi v0 c100_i32
  let v902 : Index := Scalar.indexCast v901
  ![v902.toNat]
def k0_off202 (v903 : BitVec 32) : Fin 2 → Nat :=
  let c0_i32_403 : BitVec 32 := 0#32
  ![v903.toNat, 0]

def k0_off203 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v910 : BitVec 32 := Scalar.addi v0 c101_i32
  let v911 : Index := Scalar.indexCast v910
  ![v911.toNat]
def k0_off204 (v912 : BitVec 32) : Fin 2 → Nat :=
  let c0_i32_407 : BitVec 32 := 0#32
  ![v912.toNat, 0]

def k0_off205 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v919 : BitVec 32 := Scalar.addi v0 c102_i32
  let v920 : Index := Scalar.indexCast v919
  ![v920.toNat]
def k0_off206 (v921 : BitVec 32) : Fin 2 → Nat :=
  let c0_i32_411 : BitVec 32 := 0#32
  ![v921.toNat, 0]

def k0_off207 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v928 : BitVec 32 := Scalar.addi v0 c103_i32
  let v929 : Index := Scalar.indexCast v928
  ![v929.toNat]
def k0_off208 (v930 : BitVec 32) : Fin 2 → Nat :=
  let c0_i32_415 : BitVec 32 := 0#32
  ![v930.toNat, 0]

def k0_off209 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v937 : BitVec 32 := Scalar.addi v0 c104_i32
  let v938 : Index := Scalar.indexCast v937
  ![v938.toNat]
def k0_off210 (v939 : BitVec 32) : Fin 2 → Nat :=
  let c0_i32_419 : BitVec 32 := 0#32
  ![v939.toNat, 0]

def k0_off211 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v946 : BitVec 32 := Scalar.addi v0 c105_i32
  let v947 : Index := Scalar.indexCast v946
  ![v947.toNat]
def k0_off212 (v948 : BitVec 32) : Fin 2 → Nat :=
  let c0_i32_423 : BitVec 32 := 0#32
  ![v948.toNat, 0]

def k0_off213 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v955 : BitVec 32 := Scalar.addi v0 c106_i32
  let v956 : Index := Scalar.indexCast v955
  ![v956.toNat]
def k0_off214 (v957 : BitVec 32) : Fin 2 → Nat :=
  let c0_i32_427 : BitVec 32 := 0#32
  ![v957.toNat, 0]

def k0_off215 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v964 : BitVec 32 := Scalar.addi v0 c107_i32
  let v965 : Index := Scalar.indexCast v964
  ![v965.toNat]
def k0_off216 (v966 : BitVec 32) : Fin 2 → Nat :=
  let c0_i32_431 : BitVec 32 := 0#32
  ![v966.toNat, 0]

def k0_off217 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v973 : BitVec 32 := Scalar.addi v0 c108_i32
  let v974 : Index := Scalar.indexCast v973
  ![v974.toNat]
def k0_off218 (v975 : BitVec 32) : Fin 2 → Nat :=
  let c0_i32_435 : BitVec 32 := 0#32
  ![v975.toNat, 0]

def k0_off219 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v982 : BitVec 32 := Scalar.addi v0 c109_i32
  let v983 : Index := Scalar.indexCast v982
  ![v983.toNat]
def k0_off220 (v984 : BitVec 32) : Fin 2 → Nat :=
  let c0_i32_439 : BitVec 32 := 0#32
  ![v984.toNat, 0]

def k0_off221 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v991 : BitVec 32 := Scalar.addi v0 c110_i32
  let v992 : Index := Scalar.indexCast v991
  ![v992.toNat]
def k0_off222 (v993 : BitVec 32) : Fin 2 → Nat :=
  let c0_i32_443 : BitVec 32 := 0#32
  ![v993.toNat, 0]

def k0_off223 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1000 : BitVec 32 := Scalar.addi v0 c111_i32
  let v1001 : Index := Scalar.indexCast v1000
  ![v1001.toNat]
def k0_off224 (v1002 : BitVec 32) : Fin 2 → Nat :=
  let c0_i32_447 : BitVec 32 := 0#32
  ![v1002.toNat, 0]

def k0_off225 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1009 : BitVec 32 := Scalar.addi v0 c112_i32
  let v1010 : Index := Scalar.indexCast v1009
  ![v1010.toNat]
def k0_off226 (v1011 : BitVec 32) : Fin 2 → Nat :=
  let c0_i32_451 : BitVec 32 := 0#32
  ![v1011.toNat, 0]

def k0_off227 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1018 : BitVec 32 := Scalar.addi v0 c113_i32
  let v1019 : Index := Scalar.indexCast v1018
  ![v1019.toNat]
def k0_off228 (v1020 : BitVec 32) : Fin 2 → Nat :=
  let c0_i32_455 : BitVec 32 := 0#32
  ![v1020.toNat, 0]

def k0_off229 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1027 : BitVec 32 := Scalar.addi v0 c114_i32
  let v1028 : Index := Scalar.indexCast v1027
  ![v1028.toNat]
def k0_off230 (v1029 : BitVec 32) : Fin 2 → Nat :=
  let c0_i32_459 : BitVec 32 := 0#32
  ![v1029.toNat, 0]

def k0_off231 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1036 : BitVec 32 := Scalar.addi v0 c115_i32
  let v1037 : Index := Scalar.indexCast v1036
  ![v1037.toNat]
def k0_off232 (v1038 : BitVec 32) : Fin 2 → Nat :=
  let c0_i32_463 : BitVec 32 := 0#32
  ![v1038.toNat, 0]

def k0_off233 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1045 : BitVec 32 := Scalar.addi v0 c116_i32
  let v1046 : Index := Scalar.indexCast v1045
  ![v1046.toNat]
def k0_off234 (v1047 : BitVec 32) : Fin 2 → Nat :=
  let c0_i32_467 : BitVec 32 := 0#32
  ![v1047.toNat, 0]

def k0_off235 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1054 : BitVec 32 := Scalar.addi v0 c117_i32
  let v1055 : Index := Scalar.indexCast v1054
  ![v1055.toNat]
def k0_off236 (v1056 : BitVec 32) : Fin 2 → Nat :=
  let c0_i32_471 : BitVec 32 := 0#32
  ![v1056.toNat, 0]

def k0_off237 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1063 : BitVec 32 := Scalar.addi v0 c118_i32
  let v1064 : Index := Scalar.indexCast v1063
  ![v1064.toNat]
def k0_off238 (v1065 : BitVec 32) : Fin 2 → Nat :=
  let c0_i32_475 : BitVec 32 := 0#32
  ![v1065.toNat, 0]

def k0_off239 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1072 : BitVec 32 := Scalar.addi v0 c119_i32
  let v1073 : Index := Scalar.indexCast v1072
  ![v1073.toNat]
def k0_off240 (v1074 : BitVec 32) : Fin 2 → Nat :=
  let c0_i32_479 : BitVec 32 := 0#32
  ![v1074.toNat, 0]

def k0_off241 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1081 : BitVec 32 := Scalar.addi v0 c120_i32
  let v1082 : Index := Scalar.indexCast v1081
  ![v1082.toNat]
def k0_off242 (v1083 : BitVec 32) : Fin 2 → Nat :=
  let c0_i32_483 : BitVec 32 := 0#32
  ![v1083.toNat, 0]

def k0_off243 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1090 : BitVec 32 := Scalar.addi v0 c121_i32
  let v1091 : Index := Scalar.indexCast v1090
  ![v1091.toNat]
def k0_off244 (v1092 : BitVec 32) : Fin 2 → Nat :=
  let c0_i32_487 : BitVec 32 := 0#32
  ![v1092.toNat, 0]

def k0_off245 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1099 : BitVec 32 := Scalar.addi v0 c122_i32
  let v1100 : Index := Scalar.indexCast v1099
  ![v1100.toNat]
def k0_off246 (v1101 : BitVec 32) : Fin 2 → Nat :=
  let c0_i32_491 : BitVec 32 := 0#32
  ![v1101.toNat, 0]

def k0_off247 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1108 : BitVec 32 := Scalar.addi v0 c123_i32
  let v1109 : Index := Scalar.indexCast v1108
  ![v1109.toNat]
def k0_off248 (v1110 : BitVec 32) : Fin 2 → Nat :=
  let c0_i32_495 : BitVec 32 := 0#32
  ![v1110.toNat, 0]

def k0_off249 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1117 : BitVec 32 := Scalar.addi v0 c124_i32
  let v1118 : Index := Scalar.indexCast v1117
  ![v1118.toNat]
def k0_off250 (v1119 : BitVec 32) : Fin 2 → Nat :=
  let c0_i32_499 : BitVec 32 := 0#32
  ![v1119.toNat, 0]

def k0_off251 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1126 : BitVec 32 := Scalar.addi v0 c125_i32
  let v1127 : Index := Scalar.indexCast v1126
  ![v1127.toNat]
def k0_off252 (v1128 : BitVec 32) : Fin 2 → Nat :=
  let c0_i32_503 : BitVec 32 := 0#32
  ![v1128.toNat, 0]

def k0_off253 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1135 : BitVec 32 := Scalar.addi v0 c126_i32
  let v1136 : Index := Scalar.indexCast v1135
  ![v1136.toNat]
def k0_off254 (v1137 : BitVec 32) : Fin 2 → Nat :=
  let c0_i32_507 : BitVec 32 := 0#32
  ![v1137.toNat, 0]

def k0_off255 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1144 : BitVec 32 := Scalar.addi v0 c127_i32
  let v1145 : Index := Scalar.indexCast v1144
  ![v1145.toNat]
def k0_off256 (v1146 : BitVec 32) : Fin 2 → Nat :=
  let c0_i32_511 : BitVec 32 := 0#32
  ![v1146.toNat, 0]

def k0_chk128 (v1146 : BitVec 32) : Prop :=
  (∀ a, (k0_off256 v1146) a + S1x4096.size a ≤ S50264x4096.size a)
instance k0_chk128.dec : ∀ (v1146 : BitVec 32), Decidable (k0_chk128 v1146) := fun v1146 => decidable_of_iff' _ (Iff.of_eq (k0_chk128.eq_1 v1146))
theorem k0_off256_inb : ∀ (v1146 : BitVec 32) (k0_hw128 : k0_chk128 v1146), ∀ a, (k0_off256 v1146) a + S1x4096.size a ≤ S50264x4096.size a := fun v1146 k0_hw128 => k0_hw128

def k0_off257 (v3 : BitVec 32) : Fin 2 → Nat :=
  let c0_i32_515 : BitVec 32 := 0#32
  ![v3.toNat, 0]

def k0_chk1 (v3 : BitVec 32) : Prop :=
  (∀ a, (k0_off2 v3) a + S1x4096.size a ≤ S50264x4096.size a) ∧
  (∀ a, (k0_off257 v3) a + S1x4096.size a ≤ S50264x4096.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x4096.size a ≤ S50264x4096.size a := fun v3 k0_hw1 => k0_hw1.1
theorem k0_off257_inb : ∀ (v3 : BitVec 32) (k0_hw1 : k0_chk1 v3), ∀ a, (k0_off257 v3) a + S1x4096.size a ≤ S50264x4096.size a := fun v3 k0_hw1 => k0_hw1.2

def k0_off258 (v12 : BitVec 32) : Fin 2 → Nat :=
  let c0_i32_519 : BitVec 32 := 0#32
  ![v12.toNat, 0]

def k0_chk2 (v12 : BitVec 32) : Prop :=
  (∀ a, (k0_off4 v12) a + S1x4096.size a ≤ S50264x4096.size a) ∧
  (∀ a, (k0_off258 v12) a + S1x4096.size a ≤ S50264x4096.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x4096.size a ≤ S50264x4096.size a := fun v12 k0_hw2 => k0_hw2.1
theorem k0_off258_inb : ∀ (v12 : BitVec 32) (k0_hw2 : k0_chk2 v12), ∀ a, (k0_off258 v12) a + S1x4096.size a ≤ S50264x4096.size a := fun v12 k0_hw2 => k0_hw2.2

def k0_off259 (v21 : BitVec 32) : Fin 2 → Nat :=
  let c0_i32_523 : BitVec 32 := 0#32
  ![v21.toNat, 0]

def k0_chk3 (v21 : BitVec 32) : Prop :=
  (∀ a, (k0_off6 v21) a + S1x4096.size a ≤ S50264x4096.size a) ∧
  (∀ a, (k0_off259 v21) a + S1x4096.size a ≤ S50264x4096.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x4096.size a ≤ S50264x4096.size a := fun v21 k0_hw3 => k0_hw3.1
theorem k0_off259_inb : ∀ (v21 : BitVec 32) (k0_hw3 : k0_chk3 v21), ∀ a, (k0_off259 v21) a + S1x4096.size a ≤ S50264x4096.size a := fun v21 k0_hw3 => k0_hw3.2

def k0_off260 (v30 : BitVec 32) : Fin 2 → Nat :=
  let c0_i32_527 : BitVec 32 := 0#32
  ![v30.toNat, 0]

def k0_chk4 (v30 : BitVec 32) : Prop :=
  (∀ a, (k0_off8 v30) a + S1x4096.size a ≤ S50264x4096.size a) ∧
  (∀ a, (k0_off260 v30) a + S1x4096.size a ≤ S50264x4096.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x4096.size a ≤ S50264x4096.size a := fun v30 k0_hw4 => k0_hw4.1
theorem k0_off260_inb : ∀ (v30 : BitVec 32) (k0_hw4 : k0_chk4 v30), ∀ a, (k0_off260 v30) a + S1x4096.size a ≤ S50264x4096.size a := fun v30 k0_hw4 => k0_hw4.2

def k0_off261 (v39 : BitVec 32) : Fin 2 → Nat :=
  let c0_i32_531 : BitVec 32 := 0#32
  ![v39.toNat, 0]

def k0_chk5 (v39 : BitVec 32) : Prop :=
  (∀ a, (k0_off10 v39) a + S1x4096.size a ≤ S50264x4096.size a) ∧
  (∀ a, (k0_off261 v39) a + S1x4096.size a ≤ S50264x4096.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x4096.size a ≤ S50264x4096.size a := fun v39 k0_hw5 => k0_hw5.1
theorem k0_off261_inb : ∀ (v39 : BitVec 32) (k0_hw5 : k0_chk5 v39), ∀ a, (k0_off261 v39) a + S1x4096.size a ≤ S50264x4096.size a := fun v39 k0_hw5 => k0_hw5.2

def k0_off262 (v48 : BitVec 32) : Fin 2 → Nat :=
  let c0_i32_535 : BitVec 32 := 0#32
  ![v48.toNat, 0]

def k0_chk6 (v48 : BitVec 32) : Prop :=
  (∀ a, (k0_off12 v48) a + S1x4096.size a ≤ S50264x4096.size a) ∧
  (∀ a, (k0_off262 v48) a + S1x4096.size a ≤ S50264x4096.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x4096.size a ≤ S50264x4096.size a := fun v48 k0_hw6 => k0_hw6.1
theorem k0_off262_inb : ∀ (v48 : BitVec 32) (k0_hw6 : k0_chk6 v48), ∀ a, (k0_off262 v48) a + S1x4096.size a ≤ S50264x4096.size a := fun v48 k0_hw6 => k0_hw6.2

def k0_off263 (v57 : BitVec 32) : Fin 2 → Nat :=
  let c0_i32_539 : BitVec 32 := 0#32
  ![v57.toNat, 0]

def k0_chk7 (v57 : BitVec 32) : Prop :=
  (∀ a, (k0_off14 v57) a + S1x4096.size a ≤ S50264x4096.size a) ∧
  (∀ a, (k0_off263 v57) a + S1x4096.size a ≤ S50264x4096.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x4096.size a ≤ S50264x4096.size a := fun v57 k0_hw7 => k0_hw7.1
theorem k0_off263_inb : ∀ (v57 : BitVec 32) (k0_hw7 : k0_chk7 v57), ∀ a, (k0_off263 v57) a + S1x4096.size a ≤ S50264x4096.size a := fun v57 k0_hw7 => k0_hw7.2

def k0_off264 (v66 : BitVec 32) : Fin 2 → Nat :=
  let c0_i32_543 : BitVec 32 := 0#32
  ![v66.toNat, 0]

def k0_chk8 (v66 : BitVec 32) : Prop :=
  (∀ a, (k0_off16 v66) a + S1x4096.size a ≤ S50264x4096.size a) ∧
  (∀ a, (k0_off264 v66) a + S1x4096.size a ≤ S50264x4096.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x4096.size a ≤ S50264x4096.size a := fun v66 k0_hw8 => k0_hw8.1
theorem k0_off264_inb : ∀ (v66 : BitVec 32) (k0_hw8 : k0_chk8 v66), ∀ a, (k0_off264 v66) a + S1x4096.size a ≤ S50264x4096.size a := fun v66 k0_hw8 => k0_hw8.2

def k0_off265 (v75 : BitVec 32) : Fin 2 → Nat :=
  let c0_i32_547 : BitVec 32 := 0#32
  ![v75.toNat, 0]

def k0_chk9 (v75 : BitVec 32) : Prop :=
  (∀ a, (k0_off18 v75) a + S1x4096.size a ≤ S50264x4096.size a) ∧
  (∀ a, (k0_off265 v75) a + S1x4096.size a ≤ S50264x4096.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x4096.size a ≤ S50264x4096.size a := fun v75 k0_hw9 => k0_hw9.1
theorem k0_off265_inb : ∀ (v75 : BitVec 32) (k0_hw9 : k0_chk9 v75), ∀ a, (k0_off265 v75) a + S1x4096.size a ≤ S50264x4096.size a := fun v75 k0_hw9 => k0_hw9.2

def k0_off266 (v84 : BitVec 32) : Fin 2 → Nat :=
  let c0_i32_551 : BitVec 32 := 0#32
  ![v84.toNat, 0]

def k0_chk10 (v84 : BitVec 32) : Prop :=
  (∀ a, (k0_off20 v84) a + S1x4096.size a ≤ S50264x4096.size a) ∧
  (∀ a, (k0_off266 v84) a + S1x4096.size a ≤ S50264x4096.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x4096.size a ≤ S50264x4096.size a := fun v84 k0_hw10 => k0_hw10.1
theorem k0_off266_inb : ∀ (v84 : BitVec 32) (k0_hw10 : k0_chk10 v84), ∀ a, (k0_off266 v84) a + S1x4096.size a ≤ S50264x4096.size a := fun v84 k0_hw10 => k0_hw10.2

def k0_off267 (v93 : BitVec 32) : Fin 2 → Nat :=
  let c0_i32_555 : BitVec 32 := 0#32
  ![v93.toNat, 0]

def k0_chk11 (v93 : BitVec 32) : Prop :=
  (∀ a, (k0_off22 v93) a + S1x4096.size a ≤ S50264x4096.size a) ∧
  (∀ a, (k0_off267 v93) a + S1x4096.size a ≤ S50264x4096.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x4096.size a ≤ S50264x4096.size a := fun v93 k0_hw11 => k0_hw11.1
theorem k0_off267_inb : ∀ (v93 : BitVec 32) (k0_hw11 : k0_chk11 v93), ∀ a, (k0_off267 v93) a + S1x4096.size a ≤ S50264x4096.size a := fun v93 k0_hw11 => k0_hw11.2

def k0_off268 (v102 : BitVec 32) : Fin 2 → Nat :=
  let c0_i32_559 : BitVec 32 := 0#32
  ![v102.toNat, 0]

def k0_chk12 (v102 : BitVec 32) : Prop :=
  (∀ a, (k0_off24 v102) a + S1x4096.size a ≤ S50264x4096.size a) ∧
  (∀ a, (k0_off268 v102) a + S1x4096.size a ≤ S50264x4096.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x4096.size a ≤ S50264x4096.size a := fun v102 k0_hw12 => k0_hw12.1
theorem k0_off268_inb : ∀ (v102 : BitVec 32) (k0_hw12 : k0_chk12 v102), ∀ a, (k0_off268 v102) a + S1x4096.size a ≤ S50264x4096.size a := fun v102 k0_hw12 => k0_hw12.2

def k0_off269 (v111 : BitVec 32) : Fin 2 → Nat :=
  let c0_i32_563 : BitVec 32 := 0#32
  ![v111.toNat, 0]

def k0_chk13 (v111 : BitVec 32) : Prop :=
  (∀ a, (k0_off26 v111) a + S1x4096.size a ≤ S50264x4096.size a) ∧
  (∀ a, (k0_off269 v111) a + S1x4096.size a ≤ S50264x4096.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x4096.size a ≤ S50264x4096.size a := fun v111 k0_hw13 => k0_hw13.1
theorem k0_off269_inb : ∀ (v111 : BitVec 32) (k0_hw13 : k0_chk13 v111), ∀ a, (k0_off269 v111) a + S1x4096.size a ≤ S50264x4096.size a := fun v111 k0_hw13 => k0_hw13.2

def k0_off270 (v120 : BitVec 32) : Fin 2 → Nat :=
  let c0_i32_567 : BitVec 32 := 0#32
  ![v120.toNat, 0]

def k0_chk14 (v120 : BitVec 32) : Prop :=
  (∀ a, (k0_off28 v120) a + S1x4096.size a ≤ S50264x4096.size a) ∧
  (∀ a, (k0_off270 v120) a + S1x4096.size a ≤ S50264x4096.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x4096.size a ≤ S50264x4096.size a := fun v120 k0_hw14 => k0_hw14.1
theorem k0_off270_inb : ∀ (v120 : BitVec 32) (k0_hw14 : k0_chk14 v120), ∀ a, (k0_off270 v120) a + S1x4096.size a ≤ S50264x4096.size a := fun v120 k0_hw14 => k0_hw14.2

def k0_off271 (v129 : BitVec 32) : Fin 2 → Nat :=
  let c0_i32_571 : BitVec 32 := 0#32
  ![v129.toNat, 0]

def k0_chk15 (v129 : BitVec 32) : Prop :=
  (∀ a, (k0_off30 v129) a + S1x4096.size a ≤ S50264x4096.size a) ∧
  (∀ a, (k0_off271 v129) a + S1x4096.size a ≤ S50264x4096.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x4096.size a ≤ S50264x4096.size a := fun v129 k0_hw15 => k0_hw15.1
theorem k0_off271_inb : ∀ (v129 : BitVec 32) (k0_hw15 : k0_chk15 v129), ∀ a, (k0_off271 v129) a + S1x4096.size a ≤ S50264x4096.size a := fun v129 k0_hw15 => k0_hw15.2

def k0_off272 (v138 : BitVec 32) : Fin 2 → Nat :=
  let c0_i32_575 : BitVec 32 := 0#32
  ![v138.toNat, 0]

def k0_chk16 (v138 : BitVec 32) : Prop :=
  (∀ a, (k0_off32 v138) a + S1x4096.size a ≤ S50264x4096.size a) ∧
  (∀ a, (k0_off272 v138) a + S1x4096.size a ≤ S50264x4096.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x4096.size a ≤ S50264x4096.size a := fun v138 k0_hw16 => k0_hw16.1
theorem k0_off272_inb : ∀ (v138 : BitVec 32) (k0_hw16 : k0_chk16 v138), ∀ a, (k0_off272 v138) a + S1x4096.size a ≤ S50264x4096.size a := fun v138 k0_hw16 => k0_hw16.2

def k0_off273 (v147 : BitVec 32) : Fin 2 → Nat :=
  let c0_i32_579 : BitVec 32 := 0#32
  ![v147.toNat, 0]

def k0_chk17 (v147 : BitVec 32) : Prop :=
  (∀ a, (k0_off34 v147) a + S1x4096.size a ≤ S50264x4096.size a) ∧
  (∀ a, (k0_off273 v147) a + S1x4096.size a ≤ S50264x4096.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x4096.size a ≤ S50264x4096.size a := fun v147 k0_hw17 => k0_hw17.1
theorem k0_off273_inb : ∀ (v147 : BitVec 32) (k0_hw17 : k0_chk17 v147), ∀ a, (k0_off273 v147) a + S1x4096.size a ≤ S50264x4096.size a := fun v147 k0_hw17 => k0_hw17.2

def k0_off274 (v156 : BitVec 32) : Fin 2 → Nat :=
  let c0_i32_583 : BitVec 32 := 0#32
  ![v156.toNat, 0]

def k0_chk18 (v156 : BitVec 32) : Prop :=
  (∀ a, (k0_off36 v156) a + S1x4096.size a ≤ S50264x4096.size a) ∧
  (∀ a, (k0_off274 v156) a + S1x4096.size a ≤ S50264x4096.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x4096.size a ≤ S50264x4096.size a := fun v156 k0_hw18 => k0_hw18.1
theorem k0_off274_inb : ∀ (v156 : BitVec 32) (k0_hw18 : k0_chk18 v156), ∀ a, (k0_off274 v156) a + S1x4096.size a ≤ S50264x4096.size a := fun v156 k0_hw18 => k0_hw18.2

def k0_off275 (v165 : BitVec 32) : Fin 2 → Nat :=
  let c0_i32_587 : BitVec 32 := 0#32
  ![v165.toNat, 0]

def k0_chk19 (v165 : BitVec 32) : Prop :=
  (∀ a, (k0_off38 v165) a + S1x4096.size a ≤ S50264x4096.size a) ∧
  (∀ a, (k0_off275 v165) a + S1x4096.size a ≤ S50264x4096.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x4096.size a ≤ S50264x4096.size a := fun v165 k0_hw19 => k0_hw19.1
theorem k0_off275_inb : ∀ (v165 : BitVec 32) (k0_hw19 : k0_chk19 v165), ∀ a, (k0_off275 v165) a + S1x4096.size a ≤ S50264x4096.size a := fun v165 k0_hw19 => k0_hw19.2

def k0_off276 (v174 : BitVec 32) : Fin 2 → Nat :=
  let c0_i32_591 : BitVec 32 := 0#32
  ![v174.toNat, 0]

def k0_chk20 (v174 : BitVec 32) : Prop :=
  (∀ a, (k0_off40 v174) a + S1x4096.size a ≤ S50264x4096.size a) ∧
  (∀ a, (k0_off276 v174) a + S1x4096.size a ≤ S50264x4096.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x4096.size a ≤ S50264x4096.size a := fun v174 k0_hw20 => k0_hw20.1
theorem k0_off276_inb : ∀ (v174 : BitVec 32) (k0_hw20 : k0_chk20 v174), ∀ a, (k0_off276 v174) a + S1x4096.size a ≤ S50264x4096.size a := fun v174 k0_hw20 => k0_hw20.2

def k0_off277 (v183 : BitVec 32) : Fin 2 → Nat :=
  let c0_i32_595 : BitVec 32 := 0#32
  ![v183.toNat, 0]

def k0_chk21 (v183 : BitVec 32) : Prop :=
  (∀ a, (k0_off42 v183) a + S1x4096.size a ≤ S50264x4096.size a) ∧
  (∀ a, (k0_off277 v183) a + S1x4096.size a ≤ S50264x4096.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x4096.size a ≤ S50264x4096.size a := fun v183 k0_hw21 => k0_hw21.1
theorem k0_off277_inb : ∀ (v183 : BitVec 32) (k0_hw21 : k0_chk21 v183), ∀ a, (k0_off277 v183) a + S1x4096.size a ≤ S50264x4096.size a := fun v183 k0_hw21 => k0_hw21.2

def k0_off278 (v192 : BitVec 32) : Fin 2 → Nat :=
  let c0_i32_599 : BitVec 32 := 0#32
  ![v192.toNat, 0]

def k0_chk22 (v192 : BitVec 32) : Prop :=
  (∀ a, (k0_off44 v192) a + S1x4096.size a ≤ S50264x4096.size a) ∧
  (∀ a, (k0_off278 v192) a + S1x4096.size a ≤ S50264x4096.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x4096.size a ≤ S50264x4096.size a := fun v192 k0_hw22 => k0_hw22.1
theorem k0_off278_inb : ∀ (v192 : BitVec 32) (k0_hw22 : k0_chk22 v192), ∀ a, (k0_off278 v192) a + S1x4096.size a ≤ S50264x4096.size a := fun v192 k0_hw22 => k0_hw22.2

def k0_off279 (v201 : BitVec 32) : Fin 2 → Nat :=
  let c0_i32_603 : BitVec 32 := 0#32
  ![v201.toNat, 0]

def k0_chk23 (v201 : BitVec 32) : Prop :=
  (∀ a, (k0_off46 v201) a + S1x4096.size a ≤ S50264x4096.size a) ∧
  (∀ a, (k0_off279 v201) a + S1x4096.size a ≤ S50264x4096.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x4096.size a ≤ S50264x4096.size a := fun v201 k0_hw23 => k0_hw23.1
theorem k0_off279_inb : ∀ (v201 : BitVec 32) (k0_hw23 : k0_chk23 v201), ∀ a, (k0_off279 v201) a + S1x4096.size a ≤ S50264x4096.size a := fun v201 k0_hw23 => k0_hw23.2

def k0_off280 (v210 : BitVec 32) : Fin 2 → Nat :=
  let c0_i32_607 : BitVec 32 := 0#32
  ![v210.toNat, 0]

def k0_chk24 (v210 : BitVec 32) : Prop :=
  (∀ a, (k0_off48 v210) a + S1x4096.size a ≤ S50264x4096.size a) ∧
  (∀ a, (k0_off280 v210) a + S1x4096.size a ≤ S50264x4096.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x4096.size a ≤ S50264x4096.size a := fun v210 k0_hw24 => k0_hw24.1
theorem k0_off280_inb : ∀ (v210 : BitVec 32) (k0_hw24 : k0_chk24 v210), ∀ a, (k0_off280 v210) a + S1x4096.size a ≤ S50264x4096.size a := fun v210 k0_hw24 => k0_hw24.2

def k0_off281 (v219 : BitVec 32) : Fin 2 → Nat :=
  let c0_i32_611 : BitVec 32 := 0#32
  ![v219.toNat, 0]

def k0_chk25 (v219 : BitVec 32) : Prop :=
  (∀ a, (k0_off50 v219) a + S1x4096.size a ≤ S50264x4096.size a) ∧
  (∀ a, (k0_off281 v219) a + S1x4096.size a ≤ S50264x4096.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x4096.size a ≤ S50264x4096.size a := fun v219 k0_hw25 => k0_hw25.1
theorem k0_off281_inb : ∀ (v219 : BitVec 32) (k0_hw25 : k0_chk25 v219), ∀ a, (k0_off281 v219) a + S1x4096.size a ≤ S50264x4096.size a := fun v219 k0_hw25 => k0_hw25.2

def k0_off282 (v228 : BitVec 32) : Fin 2 → Nat :=
  let c0_i32_615 : BitVec 32 := 0#32
  ![v228.toNat, 0]

def k0_chk26 (v228 : BitVec 32) : Prop :=
  (∀ a, (k0_off52 v228) a + S1x4096.size a ≤ S50264x4096.size a) ∧
  (∀ a, (k0_off282 v228) a + S1x4096.size a ≤ S50264x4096.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x4096.size a ≤ S50264x4096.size a := fun v228 k0_hw26 => k0_hw26.1
theorem k0_off282_inb : ∀ (v228 : BitVec 32) (k0_hw26 : k0_chk26 v228), ∀ a, (k0_off282 v228) a + S1x4096.size a ≤ S50264x4096.size a := fun v228 k0_hw26 => k0_hw26.2

def k0_off283 (v237 : BitVec 32) : Fin 2 → Nat :=
  let c0_i32_619 : BitVec 32 := 0#32
  ![v237.toNat, 0]

def k0_chk27 (v237 : BitVec 32) : Prop :=
  (∀ a, (k0_off54 v237) a + S1x4096.size a ≤ S50264x4096.size a) ∧
  (∀ a, (k0_off283 v237) a + S1x4096.size a ≤ S50264x4096.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x4096.size a ≤ S50264x4096.size a := fun v237 k0_hw27 => k0_hw27.1
theorem k0_off283_inb : ∀ (v237 : BitVec 32) (k0_hw27 : k0_chk27 v237), ∀ a, (k0_off283 v237) a + S1x4096.size a ≤ S50264x4096.size a := fun v237 k0_hw27 => k0_hw27.2

def k0_off284 (v246 : BitVec 32) : Fin 2 → Nat :=
  let c0_i32_623 : BitVec 32 := 0#32
  ![v246.toNat, 0]

def k0_chk28 (v246 : BitVec 32) : Prop :=
  (∀ a, (k0_off56 v246) a + S1x4096.size a ≤ S50264x4096.size a) ∧
  (∀ a, (k0_off284 v246) a + S1x4096.size a ≤ S50264x4096.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x4096.size a ≤ S50264x4096.size a := fun v246 k0_hw28 => k0_hw28.1
theorem k0_off284_inb : ∀ (v246 : BitVec 32) (k0_hw28 : k0_chk28 v246), ∀ a, (k0_off284 v246) a + S1x4096.size a ≤ S50264x4096.size a := fun v246 k0_hw28 => k0_hw28.2

def k0_off285 (v255 : BitVec 32) : Fin 2 → Nat :=
  let c0_i32_627 : BitVec 32 := 0#32
  ![v255.toNat, 0]

def k0_chk29 (v255 : BitVec 32) : Prop :=
  (∀ a, (k0_off58 v255) a + S1x4096.size a ≤ S50264x4096.size a) ∧
  (∀ a, (k0_off285 v255) a + S1x4096.size a ≤ S50264x4096.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x4096.size a ≤ S50264x4096.size a := fun v255 k0_hw29 => k0_hw29.1
theorem k0_off285_inb : ∀ (v255 : BitVec 32) (k0_hw29 : k0_chk29 v255), ∀ a, (k0_off285 v255) a + S1x4096.size a ≤ S50264x4096.size a := fun v255 k0_hw29 => k0_hw29.2

def k0_off286 (v264 : BitVec 32) : Fin 2 → Nat :=
  let c0_i32_631 : BitVec 32 := 0#32
  ![v264.toNat, 0]

def k0_chk30 (v264 : BitVec 32) : Prop :=
  (∀ a, (k0_off60 v264) a + S1x4096.size a ≤ S50264x4096.size a) ∧
  (∀ a, (k0_off286 v264) a + S1x4096.size a ≤ S50264x4096.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x4096.size a ≤ S50264x4096.size a := fun v264 k0_hw30 => k0_hw30.1
theorem k0_off286_inb : ∀ (v264 : BitVec 32) (k0_hw30 : k0_chk30 v264), ∀ a, (k0_off286 v264) a + S1x4096.size a ≤ S50264x4096.size a := fun v264 k0_hw30 => k0_hw30.2

def k0_off287 (v273 : BitVec 32) : Fin 2 → Nat :=
  let c0_i32_635 : BitVec 32 := 0#32
  ![v273.toNat, 0]

def k0_chk31 (v273 : BitVec 32) : Prop :=
  (∀ a, (k0_off62 v273) a + S1x4096.size a ≤ S50264x4096.size a) ∧
  (∀ a, (k0_off287 v273) a + S1x4096.size a ≤ S50264x4096.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x4096.size a ≤ S50264x4096.size a := fun v273 k0_hw31 => k0_hw31.1
theorem k0_off287_inb : ∀ (v273 : BitVec 32) (k0_hw31 : k0_chk31 v273), ∀ a, (k0_off287 v273) a + S1x4096.size a ≤ S50264x4096.size a := fun v273 k0_hw31 => k0_hw31.2

def k0_off288 (v282 : BitVec 32) : Fin 2 → Nat :=
  let c0_i32_639 : BitVec 32 := 0#32
  ![v282.toNat, 0]

def k0_chk32 (v282 : BitVec 32) : Prop :=
  (∀ a, (k0_off64 v282) a + S1x4096.size a ≤ S50264x4096.size a) ∧
  (∀ a, (k0_off288 v282) a + S1x4096.size a ≤ S50264x4096.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x4096.size a ≤ S50264x4096.size a := fun v282 k0_hw32 => k0_hw32.1
theorem k0_off288_inb : ∀ (v282 : BitVec 32) (k0_hw32 : k0_chk32 v282), ∀ a, (k0_off288 v282) a + S1x4096.size a ≤ S50264x4096.size a := fun v282 k0_hw32 => k0_hw32.2

def k0_off289 (v291 : BitVec 32) : Fin 2 → Nat :=
  let c0_i32_643 : BitVec 32 := 0#32
  ![v291.toNat, 0]

def k0_chk33 (v291 : BitVec 32) : Prop :=
  (∀ a, (k0_off66 v291) a + S1x4096.size a ≤ S50264x4096.size a) ∧
  (∀ a, (k0_off289 v291) a + S1x4096.size a ≤ S50264x4096.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x4096.size a ≤ S50264x4096.size a := fun v291 k0_hw33 => k0_hw33.1
theorem k0_off289_inb : ∀ (v291 : BitVec 32) (k0_hw33 : k0_chk33 v291), ∀ a, (k0_off289 v291) a + S1x4096.size a ≤ S50264x4096.size a := fun v291 k0_hw33 => k0_hw33.2

def k0_off290 (v300 : BitVec 32) : Fin 2 → Nat :=
  let c0_i32_647 : BitVec 32 := 0#32
  ![v300.toNat, 0]

def k0_chk34 (v300 : BitVec 32) : Prop :=
  (∀ a, (k0_off68 v300) a + S1x4096.size a ≤ S50264x4096.size a) ∧
  (∀ a, (k0_off290 v300) a + S1x4096.size a ≤ S50264x4096.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x4096.size a ≤ S50264x4096.size a := fun v300 k0_hw34 => k0_hw34.1
theorem k0_off290_inb : ∀ (v300 : BitVec 32) (k0_hw34 : k0_chk34 v300), ∀ a, (k0_off290 v300) a + S1x4096.size a ≤ S50264x4096.size a := fun v300 k0_hw34 => k0_hw34.2

def k0_off291 (v309 : BitVec 32) : Fin 2 → Nat :=
  let c0_i32_651 : BitVec 32 := 0#32
  ![v309.toNat, 0]

def k0_chk35 (v309 : BitVec 32) : Prop :=
  (∀ a, (k0_off70 v309) a + S1x4096.size a ≤ S50264x4096.size a) ∧
  (∀ a, (k0_off291 v309) a + S1x4096.size a ≤ S50264x4096.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x4096.size a ≤ S50264x4096.size a := fun v309 k0_hw35 => k0_hw35.1
theorem k0_off291_inb : ∀ (v309 : BitVec 32) (k0_hw35 : k0_chk35 v309), ∀ a, (k0_off291 v309) a + S1x4096.size a ≤ S50264x4096.size a := fun v309 k0_hw35 => k0_hw35.2

def k0_off292 (v318 : BitVec 32) : Fin 2 → Nat :=
  let c0_i32_655 : BitVec 32 := 0#32
  ![v318.toNat, 0]

def k0_chk36 (v318 : BitVec 32) : Prop :=
  (∀ a, (k0_off72 v318) a + S1x4096.size a ≤ S50264x4096.size a) ∧
  (∀ a, (k0_off292 v318) a + S1x4096.size a ≤ S50264x4096.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x4096.size a ≤ S50264x4096.size a := fun v318 k0_hw36 => k0_hw36.1
theorem k0_off292_inb : ∀ (v318 : BitVec 32) (k0_hw36 : k0_chk36 v318), ∀ a, (k0_off292 v318) a + S1x4096.size a ≤ S50264x4096.size a := fun v318 k0_hw36 => k0_hw36.2

def k0_off293 (v327 : BitVec 32) : Fin 2 → Nat :=
  let c0_i32_659 : BitVec 32 := 0#32
  ![v327.toNat, 0]

def k0_chk37 (v327 : BitVec 32) : Prop :=
  (∀ a, (k0_off74 v327) a + S1x4096.size a ≤ S50264x4096.size a) ∧
  (∀ a, (k0_off293 v327) a + S1x4096.size a ≤ S50264x4096.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x4096.size a ≤ S50264x4096.size a := fun v327 k0_hw37 => k0_hw37.1
theorem k0_off293_inb : ∀ (v327 : BitVec 32) (k0_hw37 : k0_chk37 v327), ∀ a, (k0_off293 v327) a + S1x4096.size a ≤ S50264x4096.size a := fun v327 k0_hw37 => k0_hw37.2

def k0_off294 (v336 : BitVec 32) : Fin 2 → Nat :=
  let c0_i32_663 : BitVec 32 := 0#32
  ![v336.toNat, 0]

def k0_chk38 (v336 : BitVec 32) : Prop :=
  (∀ a, (k0_off76 v336) a + S1x4096.size a ≤ S50264x4096.size a) ∧
  (∀ a, (k0_off294 v336) a + S1x4096.size a ≤ S50264x4096.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x4096.size a ≤ S50264x4096.size a := fun v336 k0_hw38 => k0_hw38.1
theorem k0_off294_inb : ∀ (v336 : BitVec 32) (k0_hw38 : k0_chk38 v336), ∀ a, (k0_off294 v336) a + S1x4096.size a ≤ S50264x4096.size a := fun v336 k0_hw38 => k0_hw38.2

def k0_off295 (v345 : BitVec 32) : Fin 2 → Nat :=
  let c0_i32_667 : BitVec 32 := 0#32
  ![v345.toNat, 0]

def k0_chk39 (v345 : BitVec 32) : Prop :=
  (∀ a, (k0_off78 v345) a + S1x4096.size a ≤ S50264x4096.size a) ∧
  (∀ a, (k0_off295 v345) a + S1x4096.size a ≤ S50264x4096.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x4096.size a ≤ S50264x4096.size a := fun v345 k0_hw39 => k0_hw39.1
theorem k0_off295_inb : ∀ (v345 : BitVec 32) (k0_hw39 : k0_chk39 v345), ∀ a, (k0_off295 v345) a + S1x4096.size a ≤ S50264x4096.size a := fun v345 k0_hw39 => k0_hw39.2

def k0_off296 (v354 : BitVec 32) : Fin 2 → Nat :=
  let c0_i32_671 : BitVec 32 := 0#32
  ![v354.toNat, 0]

def k0_chk40 (v354 : BitVec 32) : Prop :=
  (∀ a, (k0_off80 v354) a + S1x4096.size a ≤ S50264x4096.size a) ∧
  (∀ a, (k0_off296 v354) a + S1x4096.size a ≤ S50264x4096.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x4096.size a ≤ S50264x4096.size a := fun v354 k0_hw40 => k0_hw40.1
theorem k0_off296_inb : ∀ (v354 : BitVec 32) (k0_hw40 : k0_chk40 v354), ∀ a, (k0_off296 v354) a + S1x4096.size a ≤ S50264x4096.size a := fun v354 k0_hw40 => k0_hw40.2

def k0_off297 (v363 : BitVec 32) : Fin 2 → Nat :=
  let c0_i32_675 : BitVec 32 := 0#32
  ![v363.toNat, 0]

def k0_chk41 (v363 : BitVec 32) : Prop :=
  (∀ a, (k0_off82 v363) a + S1x4096.size a ≤ S50264x4096.size a) ∧
  (∀ a, (k0_off297 v363) a + S1x4096.size a ≤ S50264x4096.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x4096.size a ≤ S50264x4096.size a := fun v363 k0_hw41 => k0_hw41.1
theorem k0_off297_inb : ∀ (v363 : BitVec 32) (k0_hw41 : k0_chk41 v363), ∀ a, (k0_off297 v363) a + S1x4096.size a ≤ S50264x4096.size a := fun v363 k0_hw41 => k0_hw41.2

def k0_off298 (v372 : BitVec 32) : Fin 2 → Nat :=
  let c0_i32_679 : BitVec 32 := 0#32
  ![v372.toNat, 0]

def k0_chk42 (v372 : BitVec 32) : Prop :=
  (∀ a, (k0_off84 v372) a + S1x4096.size a ≤ S50264x4096.size a) ∧
  (∀ a, (k0_off298 v372) a + S1x4096.size a ≤ S50264x4096.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x4096.size a ≤ S50264x4096.size a := fun v372 k0_hw42 => k0_hw42.1
theorem k0_off298_inb : ∀ (v372 : BitVec 32) (k0_hw42 : k0_chk42 v372), ∀ a, (k0_off298 v372) a + S1x4096.size a ≤ S50264x4096.size a := fun v372 k0_hw42 => k0_hw42.2

def k0_off299 (v381 : BitVec 32) : Fin 2 → Nat :=
  let c0_i32_683 : BitVec 32 := 0#32
  ![v381.toNat, 0]

def k0_chk43 (v381 : BitVec 32) : Prop :=
  (∀ a, (k0_off86 v381) a + S1x4096.size a ≤ S50264x4096.size a) ∧
  (∀ a, (k0_off299 v381) a + S1x4096.size a ≤ S50264x4096.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x4096.size a ≤ S50264x4096.size a := fun v381 k0_hw43 => k0_hw43.1
theorem k0_off299_inb : ∀ (v381 : BitVec 32) (k0_hw43 : k0_chk43 v381), ∀ a, (k0_off299 v381) a + S1x4096.size a ≤ S50264x4096.size a := fun v381 k0_hw43 => k0_hw43.2

def k0_off300 (v390 : BitVec 32) : Fin 2 → Nat :=
  let c0_i32_687 : BitVec 32 := 0#32
  ![v390.toNat, 0]

def k0_chk44 (v390 : BitVec 32) : Prop :=
  (∀ a, (k0_off88 v390) a + S1x4096.size a ≤ S50264x4096.size a) ∧
  (∀ a, (k0_off300 v390) a + S1x4096.size a ≤ S50264x4096.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x4096.size a ≤ S50264x4096.size a := fun v390 k0_hw44 => k0_hw44.1
theorem k0_off300_inb : ∀ (v390 : BitVec 32) (k0_hw44 : k0_chk44 v390), ∀ a, (k0_off300 v390) a + S1x4096.size a ≤ S50264x4096.size a := fun v390 k0_hw44 => k0_hw44.2

def k0_off301 (v399 : BitVec 32) : Fin 2 → Nat :=
  let c0_i32_691 : BitVec 32 := 0#32
  ![v399.toNat, 0]

def k0_chk45 (v399 : BitVec 32) : Prop :=
  (∀ a, (k0_off90 v399) a + S1x4096.size a ≤ S50264x4096.size a) ∧
  (∀ a, (k0_off301 v399) a + S1x4096.size a ≤ S50264x4096.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x4096.size a ≤ S50264x4096.size a := fun v399 k0_hw45 => k0_hw45.1
theorem k0_off301_inb : ∀ (v399 : BitVec 32) (k0_hw45 : k0_chk45 v399), ∀ a, (k0_off301 v399) a + S1x4096.size a ≤ S50264x4096.size a := fun v399 k0_hw45 => k0_hw45.2

def k0_off302 (v408 : BitVec 32) : Fin 2 → Nat :=
  let c0_i32_695 : BitVec 32 := 0#32
  ![v408.toNat, 0]

def k0_chk46 (v408 : BitVec 32) : Prop :=
  (∀ a, (k0_off92 v408) a + S1x4096.size a ≤ S50264x4096.size a) ∧
  (∀ a, (k0_off302 v408) a + S1x4096.size a ≤ S50264x4096.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x4096.size a ≤ S50264x4096.size a := fun v408 k0_hw46 => k0_hw46.1
theorem k0_off302_inb : ∀ (v408 : BitVec 32) (k0_hw46 : k0_chk46 v408), ∀ a, (k0_off302 v408) a + S1x4096.size a ≤ S50264x4096.size a := fun v408 k0_hw46 => k0_hw46.2

def k0_off303 (v417 : BitVec 32) : Fin 2 → Nat :=
  let c0_i32_699 : BitVec 32 := 0#32
  ![v417.toNat, 0]

def k0_chk47 (v417 : BitVec 32) : Prop :=
  (∀ a, (k0_off94 v417) a + S1x4096.size a ≤ S50264x4096.size a) ∧
  (∀ a, (k0_off303 v417) a + S1x4096.size a ≤ S50264x4096.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x4096.size a ≤ S50264x4096.size a := fun v417 k0_hw47 => k0_hw47.1
theorem k0_off303_inb : ∀ (v417 : BitVec 32) (k0_hw47 : k0_chk47 v417), ∀ a, (k0_off303 v417) a + S1x4096.size a ≤ S50264x4096.size a := fun v417 k0_hw47 => k0_hw47.2

def k0_off304 (v426 : BitVec 32) : Fin 2 → Nat :=
  let c0_i32_703 : BitVec 32 := 0#32
  ![v426.toNat, 0]

def k0_chk48 (v426 : BitVec 32) : Prop :=
  (∀ a, (k0_off96 v426) a + S1x4096.size a ≤ S50264x4096.size a) ∧
  (∀ a, (k0_off304 v426) a + S1x4096.size a ≤ S50264x4096.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x4096.size a ≤ S50264x4096.size a := fun v426 k0_hw48 => k0_hw48.1
theorem k0_off304_inb : ∀ (v426 : BitVec 32) (k0_hw48 : k0_chk48 v426), ∀ a, (k0_off304 v426) a + S1x4096.size a ≤ S50264x4096.size a := fun v426 k0_hw48 => k0_hw48.2

def k0_off305 (v435 : BitVec 32) : Fin 2 → Nat :=
  let c0_i32_707 : BitVec 32 := 0#32
  ![v435.toNat, 0]

def k0_chk49 (v435 : BitVec 32) : Prop :=
  (∀ a, (k0_off98 v435) a + S1x4096.size a ≤ S50264x4096.size a) ∧
  (∀ a, (k0_off305 v435) a + S1x4096.size a ≤ S50264x4096.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x4096.size a ≤ S50264x4096.size a := fun v435 k0_hw49 => k0_hw49.1
theorem k0_off305_inb : ∀ (v435 : BitVec 32) (k0_hw49 : k0_chk49 v435), ∀ a, (k0_off305 v435) a + S1x4096.size a ≤ S50264x4096.size a := fun v435 k0_hw49 => k0_hw49.2

def k0_off306 (v444 : BitVec 32) : Fin 2 → Nat :=
  let c0_i32_711 : BitVec 32 := 0#32
  ![v444.toNat, 0]

def k0_chk50 (v444 : BitVec 32) : Prop :=
  (∀ a, (k0_off100 v444) a + S1x4096.size a ≤ S50264x4096.size a) ∧
  (∀ a, (k0_off306 v444) a + S1x4096.size a ≤ S50264x4096.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x4096.size a ≤ S50264x4096.size a := fun v444 k0_hw50 => k0_hw50.1
theorem k0_off306_inb : ∀ (v444 : BitVec 32) (k0_hw50 : k0_chk50 v444), ∀ a, (k0_off306 v444) a + S1x4096.size a ≤ S50264x4096.size a := fun v444 k0_hw50 => k0_hw50.2

def k0_off307 (v453 : BitVec 32) : Fin 2 → Nat :=
  let c0_i32_715 : BitVec 32 := 0#32
  ![v453.toNat, 0]

def k0_chk51 (v453 : BitVec 32) : Prop :=
  (∀ a, (k0_off102 v453) a + S1x4096.size a ≤ S50264x4096.size a) ∧
  (∀ a, (k0_off307 v453) a + S1x4096.size a ≤ S50264x4096.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x4096.size a ≤ S50264x4096.size a := fun v453 k0_hw51 => k0_hw51.1
theorem k0_off307_inb : ∀ (v453 : BitVec 32) (k0_hw51 : k0_chk51 v453), ∀ a, (k0_off307 v453) a + S1x4096.size a ≤ S50264x4096.size a := fun v453 k0_hw51 => k0_hw51.2

def k0_off308 (v462 : BitVec 32) : Fin 2 → Nat :=
  let c0_i32_719 : BitVec 32 := 0#32
  ![v462.toNat, 0]

def k0_chk52 (v462 : BitVec 32) : Prop :=
  (∀ a, (k0_off104 v462) a + S1x4096.size a ≤ S50264x4096.size a) ∧
  (∀ a, (k0_off308 v462) a + S1x4096.size a ≤ S50264x4096.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x4096.size a ≤ S50264x4096.size a := fun v462 k0_hw52 => k0_hw52.1
theorem k0_off308_inb : ∀ (v462 : BitVec 32) (k0_hw52 : k0_chk52 v462), ∀ a, (k0_off308 v462) a + S1x4096.size a ≤ S50264x4096.size a := fun v462 k0_hw52 => k0_hw52.2

def k0_off309 (v471 : BitVec 32) : Fin 2 → Nat :=
  let c0_i32_723 : BitVec 32 := 0#32
  ![v471.toNat, 0]

def k0_chk53 (v471 : BitVec 32) : Prop :=
  (∀ a, (k0_off106 v471) a + S1x4096.size a ≤ S50264x4096.size a) ∧
  (∀ a, (k0_off309 v471) a + S1x4096.size a ≤ S50264x4096.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x4096.size a ≤ S50264x4096.size a := fun v471 k0_hw53 => k0_hw53.1
theorem k0_off309_inb : ∀ (v471 : BitVec 32) (k0_hw53 : k0_chk53 v471), ∀ a, (k0_off309 v471) a + S1x4096.size a ≤ S50264x4096.size a := fun v471 k0_hw53 => k0_hw53.2

def k0_off310 (v480 : BitVec 32) : Fin 2 → Nat :=
  let c0_i32_727 : BitVec 32 := 0#32
  ![v480.toNat, 0]

def k0_chk54 (v480 : BitVec 32) : Prop :=
  (∀ a, (k0_off108 v480) a + S1x4096.size a ≤ S50264x4096.size a) ∧
  (∀ a, (k0_off310 v480) a + S1x4096.size a ≤ S50264x4096.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x4096.size a ≤ S50264x4096.size a := fun v480 k0_hw54 => k0_hw54.1
theorem k0_off310_inb : ∀ (v480 : BitVec 32) (k0_hw54 : k0_chk54 v480), ∀ a, (k0_off310 v480) a + S1x4096.size a ≤ S50264x4096.size a := fun v480 k0_hw54 => k0_hw54.2

def k0_off311 (v489 : BitVec 32) : Fin 2 → Nat :=
  let c0_i32_731 : BitVec 32 := 0#32
  ![v489.toNat, 0]

def k0_chk55 (v489 : BitVec 32) : Prop :=
  (∀ a, (k0_off110 v489) a + S1x4096.size a ≤ S50264x4096.size a) ∧
  (∀ a, (k0_off311 v489) a + S1x4096.size a ≤ S50264x4096.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x4096.size a ≤ S50264x4096.size a := fun v489 k0_hw55 => k0_hw55.1
theorem k0_off311_inb : ∀ (v489 : BitVec 32) (k0_hw55 : k0_chk55 v489), ∀ a, (k0_off311 v489) a + S1x4096.size a ≤ S50264x4096.size a := fun v489 k0_hw55 => k0_hw55.2

def k0_off312 (v498 : BitVec 32) : Fin 2 → Nat :=
  let c0_i32_735 : BitVec 32 := 0#32
  ![v498.toNat, 0]

def k0_chk56 (v498 : BitVec 32) : Prop :=
  (∀ a, (k0_off112 v498) a + S1x4096.size a ≤ S50264x4096.size a) ∧
  (∀ a, (k0_off312 v498) a + S1x4096.size a ≤ S50264x4096.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x4096.size a ≤ S50264x4096.size a := fun v498 k0_hw56 => k0_hw56.1
theorem k0_off312_inb : ∀ (v498 : BitVec 32) (k0_hw56 : k0_chk56 v498), ∀ a, (k0_off312 v498) a + S1x4096.size a ≤ S50264x4096.size a := fun v498 k0_hw56 => k0_hw56.2

def k0_off313 (v507 : BitVec 32) : Fin 2 → Nat :=
  let c0_i32_739 : BitVec 32 := 0#32
  ![v507.toNat, 0]

def k0_chk57 (v507 : BitVec 32) : Prop :=
  (∀ a, (k0_off114 v507) a + S1x4096.size a ≤ S50264x4096.size a) ∧
  (∀ a, (k0_off313 v507) a + S1x4096.size a ≤ S50264x4096.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x4096.size a ≤ S50264x4096.size a := fun v507 k0_hw57 => k0_hw57.1
theorem k0_off313_inb : ∀ (v507 : BitVec 32) (k0_hw57 : k0_chk57 v507), ∀ a, (k0_off313 v507) a + S1x4096.size a ≤ S50264x4096.size a := fun v507 k0_hw57 => k0_hw57.2

def k0_off314 (v516 : BitVec 32) : Fin 2 → Nat :=
  let c0_i32_743 : BitVec 32 := 0#32
  ![v516.toNat, 0]

def k0_chk58 (v516 : BitVec 32) : Prop :=
  (∀ a, (k0_off116 v516) a + S1x4096.size a ≤ S50264x4096.size a) ∧
  (∀ a, (k0_off314 v516) a + S1x4096.size a ≤ S50264x4096.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x4096.size a ≤ S50264x4096.size a := fun v516 k0_hw58 => k0_hw58.1
theorem k0_off314_inb : ∀ (v516 : BitVec 32) (k0_hw58 : k0_chk58 v516), ∀ a, (k0_off314 v516) a + S1x4096.size a ≤ S50264x4096.size a := fun v516 k0_hw58 => k0_hw58.2

def k0_off315 (v525 : BitVec 32) : Fin 2 → Nat :=
  let c0_i32_747 : BitVec 32 := 0#32
  ![v525.toNat, 0]

def k0_chk59 (v525 : BitVec 32) : Prop :=
  (∀ a, (k0_off118 v525) a + S1x4096.size a ≤ S50264x4096.size a) ∧
  (∀ a, (k0_off315 v525) a + S1x4096.size a ≤ S50264x4096.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x4096.size a ≤ S50264x4096.size a := fun v525 k0_hw59 => k0_hw59.1
theorem k0_off315_inb : ∀ (v525 : BitVec 32) (k0_hw59 : k0_chk59 v525), ∀ a, (k0_off315 v525) a + S1x4096.size a ≤ S50264x4096.size a := fun v525 k0_hw59 => k0_hw59.2

def k0_off316 (v534 : BitVec 32) : Fin 2 → Nat :=
  let c0_i32_751 : BitVec 32 := 0#32
  ![v534.toNat, 0]

def k0_chk60 (v534 : BitVec 32) : Prop :=
  (∀ a, (k0_off120 v534) a + S1x4096.size a ≤ S50264x4096.size a) ∧
  (∀ a, (k0_off316 v534) a + S1x4096.size a ≤ S50264x4096.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x4096.size a ≤ S50264x4096.size a := fun v534 k0_hw60 => k0_hw60.1
theorem k0_off316_inb : ∀ (v534 : BitVec 32) (k0_hw60 : k0_chk60 v534), ∀ a, (k0_off316 v534) a + S1x4096.size a ≤ S50264x4096.size a := fun v534 k0_hw60 => k0_hw60.2

def k0_off317 (v543 : BitVec 32) : Fin 2 → Nat :=
  let c0_i32_755 : BitVec 32 := 0#32
  ![v543.toNat, 0]

def k0_chk61 (v543 : BitVec 32) : Prop :=
  (∀ a, (k0_off122 v543) a + S1x4096.size a ≤ S50264x4096.size a) ∧
  (∀ a, (k0_off317 v543) a + S1x4096.size a ≤ S50264x4096.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x4096.size a ≤ S50264x4096.size a := fun v543 k0_hw61 => k0_hw61.1
theorem k0_off317_inb : ∀ (v543 : BitVec 32) (k0_hw61 : k0_chk61 v543), ∀ a, (k0_off317 v543) a + S1x4096.size a ≤ S50264x4096.size a := fun v543 k0_hw61 => k0_hw61.2

def k0_off318 (v552 : BitVec 32) : Fin 2 → Nat :=
  let c0_i32_759 : BitVec 32 := 0#32
  ![v552.toNat, 0]

def k0_chk62 (v552 : BitVec 32) : Prop :=
  (∀ a, (k0_off124 v552) a + S1x4096.size a ≤ S50264x4096.size a) ∧
  (∀ a, (k0_off318 v552) a + S1x4096.size a ≤ S50264x4096.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x4096.size a ≤ S50264x4096.size a := fun v552 k0_hw62 => k0_hw62.1
theorem k0_off318_inb : ∀ (v552 : BitVec 32) (k0_hw62 : k0_chk62 v552), ∀ a, (k0_off318 v552) a + S1x4096.size a ≤ S50264x4096.size a := fun v552 k0_hw62 => k0_hw62.2

def k0_off319 (v561 : BitVec 32) : Fin 2 → Nat :=
  let c0_i32_763 : BitVec 32 := 0#32
  ![v561.toNat, 0]

def k0_chk63 (v561 : BitVec 32) : Prop :=
  (∀ a, (k0_off126 v561) a + S1x4096.size a ≤ S50264x4096.size a) ∧
  (∀ a, (k0_off319 v561) a + S1x4096.size a ≤ S50264x4096.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x4096.size a ≤ S50264x4096.size a := fun v561 k0_hw63 => k0_hw63.1
theorem k0_off319_inb : ∀ (v561 : BitVec 32) (k0_hw63 : k0_chk63 v561), ∀ a, (k0_off319 v561) a + S1x4096.size a ≤ S50264x4096.size a := fun v561 k0_hw63 => k0_hw63.2

def k0_off320 (v570 : BitVec 32) : Fin 2 → Nat :=
  let c0_i32_767 : BitVec 32 := 0#32
  ![v570.toNat, 0]

def k0_chk64 (v570 : BitVec 32) : Prop :=
  (∀ a, (k0_off128 v570) a + S1x4096.size a ≤ S50264x4096.size a) ∧
  (∀ a, (k0_off320 v570) a + S1x4096.size a ≤ S50264x4096.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x4096.size a ≤ S50264x4096.size a := fun v570 k0_hw64 => k0_hw64.1
theorem k0_off320_inb : ∀ (v570 : BitVec 32) (k0_hw64 : k0_chk64 v570), ∀ a, (k0_off320 v570) a + S1x4096.size a ≤ S50264x4096.size a := fun v570 k0_hw64 => k0_hw64.2

def k0_off321 (v579 : BitVec 32) : Fin 2 → Nat :=
  let c0_i32_771 : BitVec 32 := 0#32
  ![v579.toNat, 0]

def k0_chk65 (v579 : BitVec 32) : Prop :=
  (∀ a, (k0_off130 v579) a + S1x4096.size a ≤ S50264x4096.size a) ∧
  (∀ a, (k0_off321 v579) a + S1x4096.size a ≤ S50264x4096.size a)
instance k0_chk65.dec : ∀ (v579 : BitVec 32), Decidable (k0_chk65 v579) := fun v579 => decidable_of_iff' _ (Iff.of_eq (k0_chk65.eq_1 v579))
theorem k0_off130_inb : ∀ (v579 : BitVec 32) (k0_hw65 : k0_chk65 v579), ∀ a, (k0_off130 v579) a + S1x4096.size a ≤ S50264x4096.size a := fun v579 k0_hw65 => k0_hw65.1
theorem k0_off321_inb : ∀ (v579 : BitVec 32) (k0_hw65 : k0_chk65 v579), ∀ a, (k0_off321 v579) a + S1x4096.size a ≤ S50264x4096.size a := fun v579 k0_hw65 => k0_hw65.2

def k0_off322 (v588 : BitVec 32) : Fin 2 → Nat :=
  let c0_i32_775 : BitVec 32 := 0#32
  ![v588.toNat, 0]

def k0_chk66 (v588 : BitVec 32) : Prop :=
  (∀ a, (k0_off132 v588) a + S1x4096.size a ≤ S50264x4096.size a) ∧
  (∀ a, (k0_off322 v588) a + S1x4096.size a ≤ S50264x4096.size a)
instance k0_chk66.dec : ∀ (v588 : BitVec 32), Decidable (k0_chk66 v588) := fun v588 => decidable_of_iff' _ (Iff.of_eq (k0_chk66.eq_1 v588))
theorem k0_off132_inb : ∀ (v588 : BitVec 32) (k0_hw66 : k0_chk66 v588), ∀ a, (k0_off132 v588) a + S1x4096.size a ≤ S50264x4096.size a := fun v588 k0_hw66 => k0_hw66.1
theorem k0_off322_inb : ∀ (v588 : BitVec 32) (k0_hw66 : k0_chk66 v588), ∀ a, (k0_off322 v588) a + S1x4096.size a ≤ S50264x4096.size a := fun v588 k0_hw66 => k0_hw66.2

def k0_off323 (v597 : BitVec 32) : Fin 2 → Nat :=
  let c0_i32_779 : BitVec 32 := 0#32
  ![v597.toNat, 0]

def k0_chk67 (v597 : BitVec 32) : Prop :=
  (∀ a, (k0_off134 v597) a + S1x4096.size a ≤ S50264x4096.size a) ∧
  (∀ a, (k0_off323 v597) a + S1x4096.size a ≤ S50264x4096.size a)
instance k0_chk67.dec : ∀ (v597 : BitVec 32), Decidable (k0_chk67 v597) := fun v597 => decidable_of_iff' _ (Iff.of_eq (k0_chk67.eq_1 v597))
theorem k0_off134_inb : ∀ (v597 : BitVec 32) (k0_hw67 : k0_chk67 v597), ∀ a, (k0_off134 v597) a + S1x4096.size a ≤ S50264x4096.size a := fun v597 k0_hw67 => k0_hw67.1
theorem k0_off323_inb : ∀ (v597 : BitVec 32) (k0_hw67 : k0_chk67 v597), ∀ a, (k0_off323 v597) a + S1x4096.size a ≤ S50264x4096.size a := fun v597 k0_hw67 => k0_hw67.2

def k0_off324 (v606 : BitVec 32) : Fin 2 → Nat :=
  let c0_i32_783 : BitVec 32 := 0#32
  ![v606.toNat, 0]

def k0_chk68 (v606 : BitVec 32) : Prop :=
  (∀ a, (k0_off136 v606) a + S1x4096.size a ≤ S50264x4096.size a) ∧
  (∀ a, (k0_off324 v606) a + S1x4096.size a ≤ S50264x4096.size a)
instance k0_chk68.dec : ∀ (v606 : BitVec 32), Decidable (k0_chk68 v606) := fun v606 => decidable_of_iff' _ (Iff.of_eq (k0_chk68.eq_1 v606))
theorem k0_off136_inb : ∀ (v606 : BitVec 32) (k0_hw68 : k0_chk68 v606), ∀ a, (k0_off136 v606) a + S1x4096.size a ≤ S50264x4096.size a := fun v606 k0_hw68 => k0_hw68.1
theorem k0_off324_inb : ∀ (v606 : BitVec 32) (k0_hw68 : k0_chk68 v606), ∀ a, (k0_off324 v606) a + S1x4096.size a ≤ S50264x4096.size a := fun v606 k0_hw68 => k0_hw68.2

def k0_off325 (v615 : BitVec 32) : Fin 2 → Nat :=
  let c0_i32_787 : BitVec 32 := 0#32
  ![v615.toNat, 0]

def k0_chk69 (v615 : BitVec 32) : Prop :=
  (∀ a, (k0_off138 v615) a + S1x4096.size a ≤ S50264x4096.size a) ∧
  (∀ a, (k0_off325 v615) a + S1x4096.size a ≤ S50264x4096.size a)
instance k0_chk69.dec : ∀ (v615 : BitVec 32), Decidable (k0_chk69 v615) := fun v615 => decidable_of_iff' _ (Iff.of_eq (k0_chk69.eq_1 v615))
theorem k0_off138_inb : ∀ (v615 : BitVec 32) (k0_hw69 : k0_chk69 v615), ∀ a, (k0_off138 v615) a + S1x4096.size a ≤ S50264x4096.size a := fun v615 k0_hw69 => k0_hw69.1
theorem k0_off325_inb : ∀ (v615 : BitVec 32) (k0_hw69 : k0_chk69 v615), ∀ a, (k0_off325 v615) a + S1x4096.size a ≤ S50264x4096.size a := fun v615 k0_hw69 => k0_hw69.2

def k0_off326 (v624 : BitVec 32) : Fin 2 → Nat :=
  let c0_i32_791 : BitVec 32 := 0#32
  ![v624.toNat, 0]

def k0_chk70 (v624 : BitVec 32) : Prop :=
  (∀ a, (k0_off140 v624) a + S1x4096.size a ≤ S50264x4096.size a) ∧
  (∀ a, (k0_off326 v624) a + S1x4096.size a ≤ S50264x4096.size a)
instance k0_chk70.dec : ∀ (v624 : BitVec 32), Decidable (k0_chk70 v624) := fun v624 => decidable_of_iff' _ (Iff.of_eq (k0_chk70.eq_1 v624))
theorem k0_off140_inb : ∀ (v624 : BitVec 32) (k0_hw70 : k0_chk70 v624), ∀ a, (k0_off140 v624) a + S1x4096.size a ≤ S50264x4096.size a := fun v624 k0_hw70 => k0_hw70.1
theorem k0_off326_inb : ∀ (v624 : BitVec 32) (k0_hw70 : k0_chk70 v624), ∀ a, (k0_off326 v624) a + S1x4096.size a ≤ S50264x4096.size a := fun v624 k0_hw70 => k0_hw70.2

def k0_off327 (v633 : BitVec 32) : Fin 2 → Nat :=
  let c0_i32_795 : BitVec 32 := 0#32
  ![v633.toNat, 0]

def k0_chk71 (v633 : BitVec 32) : Prop :=
  (∀ a, (k0_off142 v633) a + S1x4096.size a ≤ S50264x4096.size a) ∧
  (∀ a, (k0_off327 v633) a + S1x4096.size a ≤ S50264x4096.size a)
instance k0_chk71.dec : ∀ (v633 : BitVec 32), Decidable (k0_chk71 v633) := fun v633 => decidable_of_iff' _ (Iff.of_eq (k0_chk71.eq_1 v633))
theorem k0_off142_inb : ∀ (v633 : BitVec 32) (k0_hw71 : k0_chk71 v633), ∀ a, (k0_off142 v633) a + S1x4096.size a ≤ S50264x4096.size a := fun v633 k0_hw71 => k0_hw71.1
theorem k0_off327_inb : ∀ (v633 : BitVec 32) (k0_hw71 : k0_chk71 v633), ∀ a, (k0_off327 v633) a + S1x4096.size a ≤ S50264x4096.size a := fun v633 k0_hw71 => k0_hw71.2

def k0_off328 (v642 : BitVec 32) : Fin 2 → Nat :=
  let c0_i32_799 : BitVec 32 := 0#32
  ![v642.toNat, 0]

def k0_chk72 (v642 : BitVec 32) : Prop :=
  (∀ a, (k0_off144 v642) a + S1x4096.size a ≤ S50264x4096.size a) ∧
  (∀ a, (k0_off328 v642) a + S1x4096.size a ≤ S50264x4096.size a)
instance k0_chk72.dec : ∀ (v642 : BitVec 32), Decidable (k0_chk72 v642) := fun v642 => decidable_of_iff' _ (Iff.of_eq (k0_chk72.eq_1 v642))
theorem k0_off144_inb : ∀ (v642 : BitVec 32) (k0_hw72 : k0_chk72 v642), ∀ a, (k0_off144 v642) a + S1x4096.size a ≤ S50264x4096.size a := fun v642 k0_hw72 => k0_hw72.1
theorem k0_off328_inb : ∀ (v642 : BitVec 32) (k0_hw72 : k0_chk72 v642), ∀ a, (k0_off328 v642) a + S1x4096.size a ≤ S50264x4096.size a := fun v642 k0_hw72 => k0_hw72.2

def k0_off329 (v651 : BitVec 32) : Fin 2 → Nat :=
  let c0_i32_803 : BitVec 32 := 0#32
  ![v651.toNat, 0]

def k0_chk73 (v651 : BitVec 32) : Prop :=
  (∀ a, (k0_off146 v651) a + S1x4096.size a ≤ S50264x4096.size a) ∧
  (∀ a, (k0_off329 v651) a + S1x4096.size a ≤ S50264x4096.size a)
instance k0_chk73.dec : ∀ (v651 : BitVec 32), Decidable (k0_chk73 v651) := fun v651 => decidable_of_iff' _ (Iff.of_eq (k0_chk73.eq_1 v651))
theorem k0_off146_inb : ∀ (v651 : BitVec 32) (k0_hw73 : k0_chk73 v651), ∀ a, (k0_off146 v651) a + S1x4096.size a ≤ S50264x4096.size a := fun v651 k0_hw73 => k0_hw73.1
theorem k0_off329_inb : ∀ (v651 : BitVec 32) (k0_hw73 : k0_chk73 v651), ∀ a, (k0_off329 v651) a + S1x4096.size a ≤ S50264x4096.size a := fun v651 k0_hw73 => k0_hw73.2

def k0_off330 (v660 : BitVec 32) : Fin 2 → Nat :=
  let c0_i32_807 : BitVec 32 := 0#32
  ![v660.toNat, 0]

def k0_chk74 (v660 : BitVec 32) : Prop :=
  (∀ a, (k0_off148 v660) a + S1x4096.size a ≤ S50264x4096.size a) ∧
  (∀ a, (k0_off330 v660) a + S1x4096.size a ≤ S50264x4096.size a)
instance k0_chk74.dec : ∀ (v660 : BitVec 32), Decidable (k0_chk74 v660) := fun v660 => decidable_of_iff' _ (Iff.of_eq (k0_chk74.eq_1 v660))
theorem k0_off148_inb : ∀ (v660 : BitVec 32) (k0_hw74 : k0_chk74 v660), ∀ a, (k0_off148 v660) a + S1x4096.size a ≤ S50264x4096.size a := fun v660 k0_hw74 => k0_hw74.1
theorem k0_off330_inb : ∀ (v660 : BitVec 32) (k0_hw74 : k0_chk74 v660), ∀ a, (k0_off330 v660) a + S1x4096.size a ≤ S50264x4096.size a := fun v660 k0_hw74 => k0_hw74.2

def k0_off331 (v669 : BitVec 32) : Fin 2 → Nat :=
  let c0_i32_811 : BitVec 32 := 0#32
  ![v669.toNat, 0]

def k0_chk75 (v669 : BitVec 32) : Prop :=
  (∀ a, (k0_off150 v669) a + S1x4096.size a ≤ S50264x4096.size a) ∧
  (∀ a, (k0_off331 v669) a + S1x4096.size a ≤ S50264x4096.size a)
instance k0_chk75.dec : ∀ (v669 : BitVec 32), Decidable (k0_chk75 v669) := fun v669 => decidable_of_iff' _ (Iff.of_eq (k0_chk75.eq_1 v669))
theorem k0_off150_inb : ∀ (v669 : BitVec 32) (k0_hw75 : k0_chk75 v669), ∀ a, (k0_off150 v669) a + S1x4096.size a ≤ S50264x4096.size a := fun v669 k0_hw75 => k0_hw75.1
theorem k0_off331_inb : ∀ (v669 : BitVec 32) (k0_hw75 : k0_chk75 v669), ∀ a, (k0_off331 v669) a + S1x4096.size a ≤ S50264x4096.size a := fun v669 k0_hw75 => k0_hw75.2

def k0_off332 (v678 : BitVec 32) : Fin 2 → Nat :=
  let c0_i32_815 : BitVec 32 := 0#32
  ![v678.toNat, 0]

def k0_chk76 (v678 : BitVec 32) : Prop :=
  (∀ a, (k0_off152 v678) a + S1x4096.size a ≤ S50264x4096.size a) ∧
  (∀ a, (k0_off332 v678) a + S1x4096.size a ≤ S50264x4096.size a)
instance k0_chk76.dec : ∀ (v678 : BitVec 32), Decidable (k0_chk76 v678) := fun v678 => decidable_of_iff' _ (Iff.of_eq (k0_chk76.eq_1 v678))
theorem k0_off152_inb : ∀ (v678 : BitVec 32) (k0_hw76 : k0_chk76 v678), ∀ a, (k0_off152 v678) a + S1x4096.size a ≤ S50264x4096.size a := fun v678 k0_hw76 => k0_hw76.1
theorem k0_off332_inb : ∀ (v678 : BitVec 32) (k0_hw76 : k0_chk76 v678), ∀ a, (k0_off332 v678) a + S1x4096.size a ≤ S50264x4096.size a := fun v678 k0_hw76 => k0_hw76.2

def k0_off333 (v687 : BitVec 32) : Fin 2 → Nat :=
  let c0_i32_819 : BitVec 32 := 0#32
  ![v687.toNat, 0]

def k0_chk77 (v687 : BitVec 32) : Prop :=
  (∀ a, (k0_off154 v687) a + S1x4096.size a ≤ S50264x4096.size a) ∧
  (∀ a, (k0_off333 v687) a + S1x4096.size a ≤ S50264x4096.size a)
instance k0_chk77.dec : ∀ (v687 : BitVec 32), Decidable (k0_chk77 v687) := fun v687 => decidable_of_iff' _ (Iff.of_eq (k0_chk77.eq_1 v687))
theorem k0_off154_inb : ∀ (v687 : BitVec 32) (k0_hw77 : k0_chk77 v687), ∀ a, (k0_off154 v687) a + S1x4096.size a ≤ S50264x4096.size a := fun v687 k0_hw77 => k0_hw77.1
theorem k0_off333_inb : ∀ (v687 : BitVec 32) (k0_hw77 : k0_chk77 v687), ∀ a, (k0_off333 v687) a + S1x4096.size a ≤ S50264x4096.size a := fun v687 k0_hw77 => k0_hw77.2

def k0_off334 (v696 : BitVec 32) : Fin 2 → Nat :=
  let c0_i32_823 : BitVec 32 := 0#32
  ![v696.toNat, 0]

def k0_chk78 (v696 : BitVec 32) : Prop :=
  (∀ a, (k0_off156 v696) a + S1x4096.size a ≤ S50264x4096.size a) ∧
  (∀ a, (k0_off334 v696) a + S1x4096.size a ≤ S50264x4096.size a)
instance k0_chk78.dec : ∀ (v696 : BitVec 32), Decidable (k0_chk78 v696) := fun v696 => decidable_of_iff' _ (Iff.of_eq (k0_chk78.eq_1 v696))
theorem k0_off156_inb : ∀ (v696 : BitVec 32) (k0_hw78 : k0_chk78 v696), ∀ a, (k0_off156 v696) a + S1x4096.size a ≤ S50264x4096.size a := fun v696 k0_hw78 => k0_hw78.1
theorem k0_off334_inb : ∀ (v696 : BitVec 32) (k0_hw78 : k0_chk78 v696), ∀ a, (k0_off334 v696) a + S1x4096.size a ≤ S50264x4096.size a := fun v696 k0_hw78 => k0_hw78.2

def k0_off335 (v705 : BitVec 32) : Fin 2 → Nat :=
  let c0_i32_827 : BitVec 32 := 0#32
  ![v705.toNat, 0]

def k0_chk79 (v705 : BitVec 32) : Prop :=
  (∀ a, (k0_off158 v705) a + S1x4096.size a ≤ S50264x4096.size a) ∧
  (∀ a, (k0_off335 v705) a + S1x4096.size a ≤ S50264x4096.size a)
instance k0_chk79.dec : ∀ (v705 : BitVec 32), Decidable (k0_chk79 v705) := fun v705 => decidable_of_iff' _ (Iff.of_eq (k0_chk79.eq_1 v705))
theorem k0_off158_inb : ∀ (v705 : BitVec 32) (k0_hw79 : k0_chk79 v705), ∀ a, (k0_off158 v705) a + S1x4096.size a ≤ S50264x4096.size a := fun v705 k0_hw79 => k0_hw79.1
theorem k0_off335_inb : ∀ (v705 : BitVec 32) (k0_hw79 : k0_chk79 v705), ∀ a, (k0_off335 v705) a + S1x4096.size a ≤ S50264x4096.size a := fun v705 k0_hw79 => k0_hw79.2

def k0_off336 (v714 : BitVec 32) : Fin 2 → Nat :=
  let c0_i32_831 : BitVec 32 := 0#32
  ![v714.toNat, 0]

def k0_chk80 (v714 : BitVec 32) : Prop :=
  (∀ a, (k0_off160 v714) a + S1x4096.size a ≤ S50264x4096.size a) ∧
  (∀ a, (k0_off336 v714) a + S1x4096.size a ≤ S50264x4096.size a)
instance k0_chk80.dec : ∀ (v714 : BitVec 32), Decidable (k0_chk80 v714) := fun v714 => decidable_of_iff' _ (Iff.of_eq (k0_chk80.eq_1 v714))
theorem k0_off160_inb : ∀ (v714 : BitVec 32) (k0_hw80 : k0_chk80 v714), ∀ a, (k0_off160 v714) a + S1x4096.size a ≤ S50264x4096.size a := fun v714 k0_hw80 => k0_hw80.1
theorem k0_off336_inb : ∀ (v714 : BitVec 32) (k0_hw80 : k0_chk80 v714), ∀ a, (k0_off336 v714) a + S1x4096.size a ≤ S50264x4096.size a := fun v714 k0_hw80 => k0_hw80.2

def k0_off337 (v723 : BitVec 32) : Fin 2 → Nat :=
  let c0_i32_835 : BitVec 32 := 0#32
  ![v723.toNat, 0]

def k0_chk81 (v723 : BitVec 32) : Prop :=
  (∀ a, (k0_off162 v723) a + S1x4096.size a ≤ S50264x4096.size a) ∧
  (∀ a, (k0_off337 v723) a + S1x4096.size a ≤ S50264x4096.size a)
instance k0_chk81.dec : ∀ (v723 : BitVec 32), Decidable (k0_chk81 v723) := fun v723 => decidable_of_iff' _ (Iff.of_eq (k0_chk81.eq_1 v723))
theorem k0_off162_inb : ∀ (v723 : BitVec 32) (k0_hw81 : k0_chk81 v723), ∀ a, (k0_off162 v723) a + S1x4096.size a ≤ S50264x4096.size a := fun v723 k0_hw81 => k0_hw81.1
theorem k0_off337_inb : ∀ (v723 : BitVec 32) (k0_hw81 : k0_chk81 v723), ∀ a, (k0_off337 v723) a + S1x4096.size a ≤ S50264x4096.size a := fun v723 k0_hw81 => k0_hw81.2

def k0_off338 (v732 : BitVec 32) : Fin 2 → Nat :=
  let c0_i32_839 : BitVec 32 := 0#32
  ![v732.toNat, 0]

def k0_chk82 (v732 : BitVec 32) : Prop :=
  (∀ a, (k0_off164 v732) a + S1x4096.size a ≤ S50264x4096.size a) ∧
  (∀ a, (k0_off338 v732) a + S1x4096.size a ≤ S50264x4096.size a)
instance k0_chk82.dec : ∀ (v732 : BitVec 32), Decidable (k0_chk82 v732) := fun v732 => decidable_of_iff' _ (Iff.of_eq (k0_chk82.eq_1 v732))
theorem k0_off164_inb : ∀ (v732 : BitVec 32) (k0_hw82 : k0_chk82 v732), ∀ a, (k0_off164 v732) a + S1x4096.size a ≤ S50264x4096.size a := fun v732 k0_hw82 => k0_hw82.1
theorem k0_off338_inb : ∀ (v732 : BitVec 32) (k0_hw82 : k0_chk82 v732), ∀ a, (k0_off338 v732) a + S1x4096.size a ≤ S50264x4096.size a := fun v732 k0_hw82 => k0_hw82.2

def k0_off339 (v741 : BitVec 32) : Fin 2 → Nat :=
  let c0_i32_843 : BitVec 32 := 0#32
  ![v741.toNat, 0]

def k0_chk83 (v741 : BitVec 32) : Prop :=
  (∀ a, (k0_off166 v741) a + S1x4096.size a ≤ S50264x4096.size a) ∧
  (∀ a, (k0_off339 v741) a + S1x4096.size a ≤ S50264x4096.size a)
instance k0_chk83.dec : ∀ (v741 : BitVec 32), Decidable (k0_chk83 v741) := fun v741 => decidable_of_iff' _ (Iff.of_eq (k0_chk83.eq_1 v741))
theorem k0_off166_inb : ∀ (v741 : BitVec 32) (k0_hw83 : k0_chk83 v741), ∀ a, (k0_off166 v741) a + S1x4096.size a ≤ S50264x4096.size a := fun v741 k0_hw83 => k0_hw83.1
theorem k0_off339_inb : ∀ (v741 : BitVec 32) (k0_hw83 : k0_chk83 v741), ∀ a, (k0_off339 v741) a + S1x4096.size a ≤ S50264x4096.size a := fun v741 k0_hw83 => k0_hw83.2

def k0_off340 (v750 : BitVec 32) : Fin 2 → Nat :=
  let c0_i32_847 : BitVec 32 := 0#32
  ![v750.toNat, 0]

def k0_chk84 (v750 : BitVec 32) : Prop :=
  (∀ a, (k0_off168 v750) a + S1x4096.size a ≤ S50264x4096.size a) ∧
  (∀ a, (k0_off340 v750) a + S1x4096.size a ≤ S50264x4096.size a)
instance k0_chk84.dec : ∀ (v750 : BitVec 32), Decidable (k0_chk84 v750) := fun v750 => decidable_of_iff' _ (Iff.of_eq (k0_chk84.eq_1 v750))
theorem k0_off168_inb : ∀ (v750 : BitVec 32) (k0_hw84 : k0_chk84 v750), ∀ a, (k0_off168 v750) a + S1x4096.size a ≤ S50264x4096.size a := fun v750 k0_hw84 => k0_hw84.1
theorem k0_off340_inb : ∀ (v750 : BitVec 32) (k0_hw84 : k0_chk84 v750), ∀ a, (k0_off340 v750) a + S1x4096.size a ≤ S50264x4096.size a := fun v750 k0_hw84 => k0_hw84.2

def k0_off341 (v759 : BitVec 32) : Fin 2 → Nat :=
  let c0_i32_851 : BitVec 32 := 0#32
  ![v759.toNat, 0]

def k0_chk85 (v759 : BitVec 32) : Prop :=
  (∀ a, (k0_off170 v759) a + S1x4096.size a ≤ S50264x4096.size a) ∧
  (∀ a, (k0_off341 v759) a + S1x4096.size a ≤ S50264x4096.size a)
instance k0_chk85.dec : ∀ (v759 : BitVec 32), Decidable (k0_chk85 v759) := fun v759 => decidable_of_iff' _ (Iff.of_eq (k0_chk85.eq_1 v759))
theorem k0_off170_inb : ∀ (v759 : BitVec 32) (k0_hw85 : k0_chk85 v759), ∀ a, (k0_off170 v759) a + S1x4096.size a ≤ S50264x4096.size a := fun v759 k0_hw85 => k0_hw85.1
theorem k0_off341_inb : ∀ (v759 : BitVec 32) (k0_hw85 : k0_chk85 v759), ∀ a, (k0_off341 v759) a + S1x4096.size a ≤ S50264x4096.size a := fun v759 k0_hw85 => k0_hw85.2

def k0_off342 (v768 : BitVec 32) : Fin 2 → Nat :=
  let c0_i32_855 : BitVec 32 := 0#32
  ![v768.toNat, 0]

def k0_chk86 (v768 : BitVec 32) : Prop :=
  (∀ a, (k0_off172 v768) a + S1x4096.size a ≤ S50264x4096.size a) ∧
  (∀ a, (k0_off342 v768) a + S1x4096.size a ≤ S50264x4096.size a)
instance k0_chk86.dec : ∀ (v768 : BitVec 32), Decidable (k0_chk86 v768) := fun v768 => decidable_of_iff' _ (Iff.of_eq (k0_chk86.eq_1 v768))
theorem k0_off172_inb : ∀ (v768 : BitVec 32) (k0_hw86 : k0_chk86 v768), ∀ a, (k0_off172 v768) a + S1x4096.size a ≤ S50264x4096.size a := fun v768 k0_hw86 => k0_hw86.1
theorem k0_off342_inb : ∀ (v768 : BitVec 32) (k0_hw86 : k0_chk86 v768), ∀ a, (k0_off342 v768) a + S1x4096.size a ≤ S50264x4096.size a := fun v768 k0_hw86 => k0_hw86.2

def k0_off343 (v777 : BitVec 32) : Fin 2 → Nat :=
  let c0_i32_859 : BitVec 32 := 0#32
  ![v777.toNat, 0]

def k0_chk87 (v777 : BitVec 32) : Prop :=
  (∀ a, (k0_off174 v777) a + S1x4096.size a ≤ S50264x4096.size a) ∧
  (∀ a, (k0_off343 v777) a + S1x4096.size a ≤ S50264x4096.size a)
instance k0_chk87.dec : ∀ (v777 : BitVec 32), Decidable (k0_chk87 v777) := fun v777 => decidable_of_iff' _ (Iff.of_eq (k0_chk87.eq_1 v777))
theorem k0_off174_inb : ∀ (v777 : BitVec 32) (k0_hw87 : k0_chk87 v777), ∀ a, (k0_off174 v777) a + S1x4096.size a ≤ S50264x4096.size a := fun v777 k0_hw87 => k0_hw87.1
theorem k0_off343_inb : ∀ (v777 : BitVec 32) (k0_hw87 : k0_chk87 v777), ∀ a, (k0_off343 v777) a + S1x4096.size a ≤ S50264x4096.size a := fun v777 k0_hw87 => k0_hw87.2

def k0_off344 (v786 : BitVec 32) : Fin 2 → Nat :=
  let c0_i32_863 : BitVec 32 := 0#32
  ![v786.toNat, 0]

def k0_chk88 (v786 : BitVec 32) : Prop :=
  (∀ a, (k0_off176 v786) a + S1x4096.size a ≤ S50264x4096.size a) ∧
  (∀ a, (k0_off344 v786) a + S1x4096.size a ≤ S50264x4096.size a)
instance k0_chk88.dec : ∀ (v786 : BitVec 32), Decidable (k0_chk88 v786) := fun v786 => decidable_of_iff' _ (Iff.of_eq (k0_chk88.eq_1 v786))
theorem k0_off176_inb : ∀ (v786 : BitVec 32) (k0_hw88 : k0_chk88 v786), ∀ a, (k0_off176 v786) a + S1x4096.size a ≤ S50264x4096.size a := fun v786 k0_hw88 => k0_hw88.1
theorem k0_off344_inb : ∀ (v786 : BitVec 32) (k0_hw88 : k0_chk88 v786), ∀ a, (k0_off344 v786) a + S1x4096.size a ≤ S50264x4096.size a := fun v786 k0_hw88 => k0_hw88.2

def k0_off345 (v795 : BitVec 32) : Fin 2 → Nat :=
  let c0_i32_867 : BitVec 32 := 0#32
  ![v795.toNat, 0]

def k0_chk89 (v795 : BitVec 32) : Prop :=
  (∀ a, (k0_off178 v795) a + S1x4096.size a ≤ S50264x4096.size a) ∧
  (∀ a, (k0_off345 v795) a + S1x4096.size a ≤ S50264x4096.size a)
instance k0_chk89.dec : ∀ (v795 : BitVec 32), Decidable (k0_chk89 v795) := fun v795 => decidable_of_iff' _ (Iff.of_eq (k0_chk89.eq_1 v795))
theorem k0_off178_inb : ∀ (v795 : BitVec 32) (k0_hw89 : k0_chk89 v795), ∀ a, (k0_off178 v795) a + S1x4096.size a ≤ S50264x4096.size a := fun v795 k0_hw89 => k0_hw89.1
theorem k0_off345_inb : ∀ (v795 : BitVec 32) (k0_hw89 : k0_chk89 v795), ∀ a, (k0_off345 v795) a + S1x4096.size a ≤ S50264x4096.size a := fun v795 k0_hw89 => k0_hw89.2

def k0_off346 (v804 : BitVec 32) : Fin 2 → Nat :=
  let c0_i32_871 : BitVec 32 := 0#32
  ![v804.toNat, 0]

def k0_chk90 (v804 : BitVec 32) : Prop :=
  (∀ a, (k0_off180 v804) a + S1x4096.size a ≤ S50264x4096.size a) ∧
  (∀ a, (k0_off346 v804) a + S1x4096.size a ≤ S50264x4096.size a)
instance k0_chk90.dec : ∀ (v804 : BitVec 32), Decidable (k0_chk90 v804) := fun v804 => decidable_of_iff' _ (Iff.of_eq (k0_chk90.eq_1 v804))
theorem k0_off180_inb : ∀ (v804 : BitVec 32) (k0_hw90 : k0_chk90 v804), ∀ a, (k0_off180 v804) a + S1x4096.size a ≤ S50264x4096.size a := fun v804 k0_hw90 => k0_hw90.1
theorem k0_off346_inb : ∀ (v804 : BitVec 32) (k0_hw90 : k0_chk90 v804), ∀ a, (k0_off346 v804) a + S1x4096.size a ≤ S50264x4096.size a := fun v804 k0_hw90 => k0_hw90.2

def k0_off347 (v813 : BitVec 32) : Fin 2 → Nat :=
  let c0_i32_875 : BitVec 32 := 0#32
  ![v813.toNat, 0]

def k0_chk91 (v813 : BitVec 32) : Prop :=
  (∀ a, (k0_off182 v813) a + S1x4096.size a ≤ S50264x4096.size a) ∧
  (∀ a, (k0_off347 v813) a + S1x4096.size a ≤ S50264x4096.size a)
instance k0_chk91.dec : ∀ (v813 : BitVec 32), Decidable (k0_chk91 v813) := fun v813 => decidable_of_iff' _ (Iff.of_eq (k0_chk91.eq_1 v813))
theorem k0_off182_inb : ∀ (v813 : BitVec 32) (k0_hw91 : k0_chk91 v813), ∀ a, (k0_off182 v813) a + S1x4096.size a ≤ S50264x4096.size a := fun v813 k0_hw91 => k0_hw91.1
theorem k0_off347_inb : ∀ (v813 : BitVec 32) (k0_hw91 : k0_chk91 v813), ∀ a, (k0_off347 v813) a + S1x4096.size a ≤ S50264x4096.size a := fun v813 k0_hw91 => k0_hw91.2

def k0_off348 (v822 : BitVec 32) : Fin 2 → Nat :=
  let c0_i32_879 : BitVec 32 := 0#32
  ![v822.toNat, 0]

def k0_chk92 (v822 : BitVec 32) : Prop :=
  (∀ a, (k0_off184 v822) a + S1x4096.size a ≤ S50264x4096.size a) ∧
  (∀ a, (k0_off348 v822) a + S1x4096.size a ≤ S50264x4096.size a)
instance k0_chk92.dec : ∀ (v822 : BitVec 32), Decidable (k0_chk92 v822) := fun v822 => decidable_of_iff' _ (Iff.of_eq (k0_chk92.eq_1 v822))
theorem k0_off184_inb : ∀ (v822 : BitVec 32) (k0_hw92 : k0_chk92 v822), ∀ a, (k0_off184 v822) a + S1x4096.size a ≤ S50264x4096.size a := fun v822 k0_hw92 => k0_hw92.1
theorem k0_off348_inb : ∀ (v822 : BitVec 32) (k0_hw92 : k0_chk92 v822), ∀ a, (k0_off348 v822) a + S1x4096.size a ≤ S50264x4096.size a := fun v822 k0_hw92 => k0_hw92.2

def k0_off349 (v831 : BitVec 32) : Fin 2 → Nat :=
  let c0_i32_883 : BitVec 32 := 0#32
  ![v831.toNat, 0]

def k0_chk93 (v831 : BitVec 32) : Prop :=
  (∀ a, (k0_off186 v831) a + S1x4096.size a ≤ S50264x4096.size a) ∧
  (∀ a, (k0_off349 v831) a + S1x4096.size a ≤ S50264x4096.size a)
instance k0_chk93.dec : ∀ (v831 : BitVec 32), Decidable (k0_chk93 v831) := fun v831 => decidable_of_iff' _ (Iff.of_eq (k0_chk93.eq_1 v831))
theorem k0_off186_inb : ∀ (v831 : BitVec 32) (k0_hw93 : k0_chk93 v831), ∀ a, (k0_off186 v831) a + S1x4096.size a ≤ S50264x4096.size a := fun v831 k0_hw93 => k0_hw93.1
theorem k0_off349_inb : ∀ (v831 : BitVec 32) (k0_hw93 : k0_chk93 v831), ∀ a, (k0_off349 v831) a + S1x4096.size a ≤ S50264x4096.size a := fun v831 k0_hw93 => k0_hw93.2

def k0_off350 (v840 : BitVec 32) : Fin 2 → Nat :=
  let c0_i32_887 : BitVec 32 := 0#32
  ![v840.toNat, 0]

def k0_chk94 (v840 : BitVec 32) : Prop :=
  (∀ a, (k0_off188 v840) a + S1x4096.size a ≤ S50264x4096.size a) ∧
  (∀ a, (k0_off350 v840) a + S1x4096.size a ≤ S50264x4096.size a)
instance k0_chk94.dec : ∀ (v840 : BitVec 32), Decidable (k0_chk94 v840) := fun v840 => decidable_of_iff' _ (Iff.of_eq (k0_chk94.eq_1 v840))
theorem k0_off188_inb : ∀ (v840 : BitVec 32) (k0_hw94 : k0_chk94 v840), ∀ a, (k0_off188 v840) a + S1x4096.size a ≤ S50264x4096.size a := fun v840 k0_hw94 => k0_hw94.1
theorem k0_off350_inb : ∀ (v840 : BitVec 32) (k0_hw94 : k0_chk94 v840), ∀ a, (k0_off350 v840) a + S1x4096.size a ≤ S50264x4096.size a := fun v840 k0_hw94 => k0_hw94.2

def k0_off351 (v849 : BitVec 32) : Fin 2 → Nat :=
  let c0_i32_891 : BitVec 32 := 0#32
  ![v849.toNat, 0]

def k0_chk95 (v849 : BitVec 32) : Prop :=
  (∀ a, (k0_off190 v849) a + S1x4096.size a ≤ S50264x4096.size a) ∧
  (∀ a, (k0_off351 v849) a + S1x4096.size a ≤ S50264x4096.size a)
instance k0_chk95.dec : ∀ (v849 : BitVec 32), Decidable (k0_chk95 v849) := fun v849 => decidable_of_iff' _ (Iff.of_eq (k0_chk95.eq_1 v849))
theorem k0_off190_inb : ∀ (v849 : BitVec 32) (k0_hw95 : k0_chk95 v849), ∀ a, (k0_off190 v849) a + S1x4096.size a ≤ S50264x4096.size a := fun v849 k0_hw95 => k0_hw95.1
theorem k0_off351_inb : ∀ (v849 : BitVec 32) (k0_hw95 : k0_chk95 v849), ∀ a, (k0_off351 v849) a + S1x4096.size a ≤ S50264x4096.size a := fun v849 k0_hw95 => k0_hw95.2

def k0_off352 (v858 : BitVec 32) : Fin 2 → Nat :=
  let c0_i32_895 : BitVec 32 := 0#32
  ![v858.toNat, 0]

def k0_chk96 (v858 : BitVec 32) : Prop :=
  (∀ a, (k0_off192 v858) a + S1x4096.size a ≤ S50264x4096.size a) ∧
  (∀ a, (k0_off352 v858) a + S1x4096.size a ≤ S50264x4096.size a)
instance k0_chk96.dec : ∀ (v858 : BitVec 32), Decidable (k0_chk96 v858) := fun v858 => decidable_of_iff' _ (Iff.of_eq (k0_chk96.eq_1 v858))
theorem k0_off192_inb : ∀ (v858 : BitVec 32) (k0_hw96 : k0_chk96 v858), ∀ a, (k0_off192 v858) a + S1x4096.size a ≤ S50264x4096.size a := fun v858 k0_hw96 => k0_hw96.1
theorem k0_off352_inb : ∀ (v858 : BitVec 32) (k0_hw96 : k0_chk96 v858), ∀ a, (k0_off352 v858) a + S1x4096.size a ≤ S50264x4096.size a := fun v858 k0_hw96 => k0_hw96.2

def k0_off353 (v867 : BitVec 32) : Fin 2 → Nat :=
  let c0_i32_899 : BitVec 32 := 0#32
  ![v867.toNat, 0]

def k0_chk97 (v867 : BitVec 32) : Prop :=
  (∀ a, (k0_off194 v867) a + S1x4096.size a ≤ S50264x4096.size a) ∧
  (∀ a, (k0_off353 v867) a + S1x4096.size a ≤ S50264x4096.size a)
instance k0_chk97.dec : ∀ (v867 : BitVec 32), Decidable (k0_chk97 v867) := fun v867 => decidable_of_iff' _ (Iff.of_eq (k0_chk97.eq_1 v867))
theorem k0_off194_inb : ∀ (v867 : BitVec 32) (k0_hw97 : k0_chk97 v867), ∀ a, (k0_off194 v867) a + S1x4096.size a ≤ S50264x4096.size a := fun v867 k0_hw97 => k0_hw97.1
theorem k0_off353_inb : ∀ (v867 : BitVec 32) (k0_hw97 : k0_chk97 v867), ∀ a, (k0_off353 v867) a + S1x4096.size a ≤ S50264x4096.size a := fun v867 k0_hw97 => k0_hw97.2

def k0_off354 (v876 : BitVec 32) : Fin 2 → Nat :=
  let c0_i32_903 : BitVec 32 := 0#32
  ![v876.toNat, 0]

def k0_chk98 (v876 : BitVec 32) : Prop :=
  (∀ a, (k0_off196 v876) a + S1x4096.size a ≤ S50264x4096.size a) ∧
  (∀ a, (k0_off354 v876) a + S1x4096.size a ≤ S50264x4096.size a)
instance k0_chk98.dec : ∀ (v876 : BitVec 32), Decidable (k0_chk98 v876) := fun v876 => decidable_of_iff' _ (Iff.of_eq (k0_chk98.eq_1 v876))
theorem k0_off196_inb : ∀ (v876 : BitVec 32) (k0_hw98 : k0_chk98 v876), ∀ a, (k0_off196 v876) a + S1x4096.size a ≤ S50264x4096.size a := fun v876 k0_hw98 => k0_hw98.1
theorem k0_off354_inb : ∀ (v876 : BitVec 32) (k0_hw98 : k0_chk98 v876), ∀ a, (k0_off354 v876) a + S1x4096.size a ≤ S50264x4096.size a := fun v876 k0_hw98 => k0_hw98.2

def k0_off355 (v885 : BitVec 32) : Fin 2 → Nat :=
  let c0_i32_907 : BitVec 32 := 0#32
  ![v885.toNat, 0]

def k0_chk99 (v885 : BitVec 32) : Prop :=
  (∀ a, (k0_off198 v885) a + S1x4096.size a ≤ S50264x4096.size a) ∧
  (∀ a, (k0_off355 v885) a + S1x4096.size a ≤ S50264x4096.size a)
instance k0_chk99.dec : ∀ (v885 : BitVec 32), Decidable (k0_chk99 v885) := fun v885 => decidable_of_iff' _ (Iff.of_eq (k0_chk99.eq_1 v885))
theorem k0_off198_inb : ∀ (v885 : BitVec 32) (k0_hw99 : k0_chk99 v885), ∀ a, (k0_off198 v885) a + S1x4096.size a ≤ S50264x4096.size a := fun v885 k0_hw99 => k0_hw99.1
theorem k0_off355_inb : ∀ (v885 : BitVec 32) (k0_hw99 : k0_chk99 v885), ∀ a, (k0_off355 v885) a + S1x4096.size a ≤ S50264x4096.size a := fun v885 k0_hw99 => k0_hw99.2

def k0_off356 (v894 : BitVec 32) : Fin 2 → Nat :=
  let c0_i32_911 : BitVec 32 := 0#32
  ![v894.toNat, 0]

def k0_chk100 (v894 : BitVec 32) : Prop :=
  (∀ a, (k0_off200 v894) a + S1x4096.size a ≤ S50264x4096.size a) ∧
  (∀ a, (k0_off356 v894) a + S1x4096.size a ≤ S50264x4096.size a)
instance k0_chk100.dec : ∀ (v894 : BitVec 32), Decidable (k0_chk100 v894) := fun v894 => decidable_of_iff' _ (Iff.of_eq (k0_chk100.eq_1 v894))
theorem k0_off200_inb : ∀ (v894 : BitVec 32) (k0_hw100 : k0_chk100 v894), ∀ a, (k0_off200 v894) a + S1x4096.size a ≤ S50264x4096.size a := fun v894 k0_hw100 => k0_hw100.1
theorem k0_off356_inb : ∀ (v894 : BitVec 32) (k0_hw100 : k0_chk100 v894), ∀ a, (k0_off356 v894) a + S1x4096.size a ≤ S50264x4096.size a := fun v894 k0_hw100 => k0_hw100.2

def k0_off357 (v903 : BitVec 32) : Fin 2 → Nat :=
  let c0_i32_915 : BitVec 32 := 0#32
  ![v903.toNat, 0]

def k0_chk101 (v903 : BitVec 32) : Prop :=
  (∀ a, (k0_off202 v903) a + S1x4096.size a ≤ S50264x4096.size a) ∧
  (∀ a, (k0_off357 v903) a + S1x4096.size a ≤ S50264x4096.size a)
instance k0_chk101.dec : ∀ (v903 : BitVec 32), Decidable (k0_chk101 v903) := fun v903 => decidable_of_iff' _ (Iff.of_eq (k0_chk101.eq_1 v903))
theorem k0_off202_inb : ∀ (v903 : BitVec 32) (k0_hw101 : k0_chk101 v903), ∀ a, (k0_off202 v903) a + S1x4096.size a ≤ S50264x4096.size a := fun v903 k0_hw101 => k0_hw101.1
theorem k0_off357_inb : ∀ (v903 : BitVec 32) (k0_hw101 : k0_chk101 v903), ∀ a, (k0_off357 v903) a + S1x4096.size a ≤ S50264x4096.size a := fun v903 k0_hw101 => k0_hw101.2

def k0_off358 (v912 : BitVec 32) : Fin 2 → Nat :=
  let c0_i32_919 : BitVec 32 := 0#32
  ![v912.toNat, 0]

def k0_chk102 (v912 : BitVec 32) : Prop :=
  (∀ a, (k0_off204 v912) a + S1x4096.size a ≤ S50264x4096.size a) ∧
  (∀ a, (k0_off358 v912) a + S1x4096.size a ≤ S50264x4096.size a)
instance k0_chk102.dec : ∀ (v912 : BitVec 32), Decidable (k0_chk102 v912) := fun v912 => decidable_of_iff' _ (Iff.of_eq (k0_chk102.eq_1 v912))
theorem k0_off204_inb : ∀ (v912 : BitVec 32) (k0_hw102 : k0_chk102 v912), ∀ a, (k0_off204 v912) a + S1x4096.size a ≤ S50264x4096.size a := fun v912 k0_hw102 => k0_hw102.1
theorem k0_off358_inb : ∀ (v912 : BitVec 32) (k0_hw102 : k0_chk102 v912), ∀ a, (k0_off358 v912) a + S1x4096.size a ≤ S50264x4096.size a := fun v912 k0_hw102 => k0_hw102.2

def k0_off359 (v921 : BitVec 32) : Fin 2 → Nat :=
  let c0_i32_923 : BitVec 32 := 0#32
  ![v921.toNat, 0]

def k0_chk103 (v921 : BitVec 32) : Prop :=
  (∀ a, (k0_off206 v921) a + S1x4096.size a ≤ S50264x4096.size a) ∧
  (∀ a, (k0_off359 v921) a + S1x4096.size a ≤ S50264x4096.size a)
instance k0_chk103.dec : ∀ (v921 : BitVec 32), Decidable (k0_chk103 v921) := fun v921 => decidable_of_iff' _ (Iff.of_eq (k0_chk103.eq_1 v921))
theorem k0_off206_inb : ∀ (v921 : BitVec 32) (k0_hw103 : k0_chk103 v921), ∀ a, (k0_off206 v921) a + S1x4096.size a ≤ S50264x4096.size a := fun v921 k0_hw103 => k0_hw103.1
theorem k0_off359_inb : ∀ (v921 : BitVec 32) (k0_hw103 : k0_chk103 v921), ∀ a, (k0_off359 v921) a + S1x4096.size a ≤ S50264x4096.size a := fun v921 k0_hw103 => k0_hw103.2

def k0_off360 (v930 : BitVec 32) : Fin 2 → Nat :=
  let c0_i32_927 : BitVec 32 := 0#32
  ![v930.toNat, 0]

def k0_chk104 (v930 : BitVec 32) : Prop :=
  (∀ a, (k0_off208 v930) a + S1x4096.size a ≤ S50264x4096.size a) ∧
  (∀ a, (k0_off360 v930) a + S1x4096.size a ≤ S50264x4096.size a)
instance k0_chk104.dec : ∀ (v930 : BitVec 32), Decidable (k0_chk104 v930) := fun v930 => decidable_of_iff' _ (Iff.of_eq (k0_chk104.eq_1 v930))
theorem k0_off208_inb : ∀ (v930 : BitVec 32) (k0_hw104 : k0_chk104 v930), ∀ a, (k0_off208 v930) a + S1x4096.size a ≤ S50264x4096.size a := fun v930 k0_hw104 => k0_hw104.1
theorem k0_off360_inb : ∀ (v930 : BitVec 32) (k0_hw104 : k0_chk104 v930), ∀ a, (k0_off360 v930) a + S1x4096.size a ≤ S50264x4096.size a := fun v930 k0_hw104 => k0_hw104.2

def k0_off361 (v939 : BitVec 32) : Fin 2 → Nat :=
  let c0_i32_931 : BitVec 32 := 0#32
  ![v939.toNat, 0]

def k0_chk105 (v939 : BitVec 32) : Prop :=
  (∀ a, (k0_off210 v939) a + S1x4096.size a ≤ S50264x4096.size a) ∧
  (∀ a, (k0_off361 v939) a + S1x4096.size a ≤ S50264x4096.size a)
instance k0_chk105.dec : ∀ (v939 : BitVec 32), Decidable (k0_chk105 v939) := fun v939 => decidable_of_iff' _ (Iff.of_eq (k0_chk105.eq_1 v939))
theorem k0_off210_inb : ∀ (v939 : BitVec 32) (k0_hw105 : k0_chk105 v939), ∀ a, (k0_off210 v939) a + S1x4096.size a ≤ S50264x4096.size a := fun v939 k0_hw105 => k0_hw105.1
theorem k0_off361_inb : ∀ (v939 : BitVec 32) (k0_hw105 : k0_chk105 v939), ∀ a, (k0_off361 v939) a + S1x4096.size a ≤ S50264x4096.size a := fun v939 k0_hw105 => k0_hw105.2

def k0_off362 (v948 : BitVec 32) : Fin 2 → Nat :=
  let c0_i32_935 : BitVec 32 := 0#32
  ![v948.toNat, 0]

def k0_chk106 (v948 : BitVec 32) : Prop :=
  (∀ a, (k0_off212 v948) a + S1x4096.size a ≤ S50264x4096.size a) ∧
  (∀ a, (k0_off362 v948) a + S1x4096.size a ≤ S50264x4096.size a)
instance k0_chk106.dec : ∀ (v948 : BitVec 32), Decidable (k0_chk106 v948) := fun v948 => decidable_of_iff' _ (Iff.of_eq (k0_chk106.eq_1 v948))
theorem k0_off212_inb : ∀ (v948 : BitVec 32) (k0_hw106 : k0_chk106 v948), ∀ a, (k0_off212 v948) a + S1x4096.size a ≤ S50264x4096.size a := fun v948 k0_hw106 => k0_hw106.1
theorem k0_off362_inb : ∀ (v948 : BitVec 32) (k0_hw106 : k0_chk106 v948), ∀ a, (k0_off362 v948) a + S1x4096.size a ≤ S50264x4096.size a := fun v948 k0_hw106 => k0_hw106.2

def k0_off363 (v957 : BitVec 32) : Fin 2 → Nat :=
  let c0_i32_939 : BitVec 32 := 0#32
  ![v957.toNat, 0]

def k0_chk107 (v957 : BitVec 32) : Prop :=
  (∀ a, (k0_off214 v957) a + S1x4096.size a ≤ S50264x4096.size a) ∧
  (∀ a, (k0_off363 v957) a + S1x4096.size a ≤ S50264x4096.size a)
instance k0_chk107.dec : ∀ (v957 : BitVec 32), Decidable (k0_chk107 v957) := fun v957 => decidable_of_iff' _ (Iff.of_eq (k0_chk107.eq_1 v957))
theorem k0_off214_inb : ∀ (v957 : BitVec 32) (k0_hw107 : k0_chk107 v957), ∀ a, (k0_off214 v957) a + S1x4096.size a ≤ S50264x4096.size a := fun v957 k0_hw107 => k0_hw107.1
theorem k0_off363_inb : ∀ (v957 : BitVec 32) (k0_hw107 : k0_chk107 v957), ∀ a, (k0_off363 v957) a + S1x4096.size a ≤ S50264x4096.size a := fun v957 k0_hw107 => k0_hw107.2

def k0_off364 (v966 : BitVec 32) : Fin 2 → Nat :=
  let c0_i32_943 : BitVec 32 := 0#32
  ![v966.toNat, 0]

def k0_chk108 (v966 : BitVec 32) : Prop :=
  (∀ a, (k0_off216 v966) a + S1x4096.size a ≤ S50264x4096.size a) ∧
  (∀ a, (k0_off364 v966) a + S1x4096.size a ≤ S50264x4096.size a)
instance k0_chk108.dec : ∀ (v966 : BitVec 32), Decidable (k0_chk108 v966) := fun v966 => decidable_of_iff' _ (Iff.of_eq (k0_chk108.eq_1 v966))
theorem k0_off216_inb : ∀ (v966 : BitVec 32) (k0_hw108 : k0_chk108 v966), ∀ a, (k0_off216 v966) a + S1x4096.size a ≤ S50264x4096.size a := fun v966 k0_hw108 => k0_hw108.1
theorem k0_off364_inb : ∀ (v966 : BitVec 32) (k0_hw108 : k0_chk108 v966), ∀ a, (k0_off364 v966) a + S1x4096.size a ≤ S50264x4096.size a := fun v966 k0_hw108 => k0_hw108.2

def k0_off365 (v975 : BitVec 32) : Fin 2 → Nat :=
  let c0_i32_947 : BitVec 32 := 0#32
  ![v975.toNat, 0]

def k0_chk109 (v975 : BitVec 32) : Prop :=
  (∀ a, (k0_off218 v975) a + S1x4096.size a ≤ S50264x4096.size a) ∧
  (∀ a, (k0_off365 v975) a + S1x4096.size a ≤ S50264x4096.size a)
instance k0_chk109.dec : ∀ (v975 : BitVec 32), Decidable (k0_chk109 v975) := fun v975 => decidable_of_iff' _ (Iff.of_eq (k0_chk109.eq_1 v975))
theorem k0_off218_inb : ∀ (v975 : BitVec 32) (k0_hw109 : k0_chk109 v975), ∀ a, (k0_off218 v975) a + S1x4096.size a ≤ S50264x4096.size a := fun v975 k0_hw109 => k0_hw109.1
theorem k0_off365_inb : ∀ (v975 : BitVec 32) (k0_hw109 : k0_chk109 v975), ∀ a, (k0_off365 v975) a + S1x4096.size a ≤ S50264x4096.size a := fun v975 k0_hw109 => k0_hw109.2

def k0_off366 (v984 : BitVec 32) : Fin 2 → Nat :=
  let c0_i32_951 : BitVec 32 := 0#32
  ![v984.toNat, 0]

def k0_chk110 (v984 : BitVec 32) : Prop :=
  (∀ a, (k0_off220 v984) a + S1x4096.size a ≤ S50264x4096.size a) ∧
  (∀ a, (k0_off366 v984) a + S1x4096.size a ≤ S50264x4096.size a)
instance k0_chk110.dec : ∀ (v984 : BitVec 32), Decidable (k0_chk110 v984) := fun v984 => decidable_of_iff' _ (Iff.of_eq (k0_chk110.eq_1 v984))
theorem k0_off220_inb : ∀ (v984 : BitVec 32) (k0_hw110 : k0_chk110 v984), ∀ a, (k0_off220 v984) a + S1x4096.size a ≤ S50264x4096.size a := fun v984 k0_hw110 => k0_hw110.1
theorem k0_off366_inb : ∀ (v984 : BitVec 32) (k0_hw110 : k0_chk110 v984), ∀ a, (k0_off366 v984) a + S1x4096.size a ≤ S50264x4096.size a := fun v984 k0_hw110 => k0_hw110.2

def k0_off367 (v993 : BitVec 32) : Fin 2 → Nat :=
  let c0_i32_955 : BitVec 32 := 0#32
  ![v993.toNat, 0]

def k0_chk111 (v993 : BitVec 32) : Prop :=
  (∀ a, (k0_off222 v993) a + S1x4096.size a ≤ S50264x4096.size a) ∧
  (∀ a, (k0_off367 v993) a + S1x4096.size a ≤ S50264x4096.size a)
instance k0_chk111.dec : ∀ (v993 : BitVec 32), Decidable (k0_chk111 v993) := fun v993 => decidable_of_iff' _ (Iff.of_eq (k0_chk111.eq_1 v993))
theorem k0_off222_inb : ∀ (v993 : BitVec 32) (k0_hw111 : k0_chk111 v993), ∀ a, (k0_off222 v993) a + S1x4096.size a ≤ S50264x4096.size a := fun v993 k0_hw111 => k0_hw111.1
theorem k0_off367_inb : ∀ (v993 : BitVec 32) (k0_hw111 : k0_chk111 v993), ∀ a, (k0_off367 v993) a + S1x4096.size a ≤ S50264x4096.size a := fun v993 k0_hw111 => k0_hw111.2

def k0_off368 (v1002 : BitVec 32) : Fin 2 → Nat :=
  let c0_i32_959 : BitVec 32 := 0#32
  ![v1002.toNat, 0]

def k0_chk112 (v1002 : BitVec 32) : Prop :=
  (∀ a, (k0_off224 v1002) a + S1x4096.size a ≤ S50264x4096.size a) ∧
  (∀ a, (k0_off368 v1002) a + S1x4096.size a ≤ S50264x4096.size a)
instance k0_chk112.dec : ∀ (v1002 : BitVec 32), Decidable (k0_chk112 v1002) := fun v1002 => decidable_of_iff' _ (Iff.of_eq (k0_chk112.eq_1 v1002))
theorem k0_off224_inb : ∀ (v1002 : BitVec 32) (k0_hw112 : k0_chk112 v1002), ∀ a, (k0_off224 v1002) a + S1x4096.size a ≤ S50264x4096.size a := fun v1002 k0_hw112 => k0_hw112.1
theorem k0_off368_inb : ∀ (v1002 : BitVec 32) (k0_hw112 : k0_chk112 v1002), ∀ a, (k0_off368 v1002) a + S1x4096.size a ≤ S50264x4096.size a := fun v1002 k0_hw112 => k0_hw112.2

def k0_off369 (v1011 : BitVec 32) : Fin 2 → Nat :=
  let c0_i32_963 : BitVec 32 := 0#32
  ![v1011.toNat, 0]

def k0_chk113 (v1011 : BitVec 32) : Prop :=
  (∀ a, (k0_off226 v1011) a + S1x4096.size a ≤ S50264x4096.size a) ∧
  (∀ a, (k0_off369 v1011) a + S1x4096.size a ≤ S50264x4096.size a)
instance k0_chk113.dec : ∀ (v1011 : BitVec 32), Decidable (k0_chk113 v1011) := fun v1011 => decidable_of_iff' _ (Iff.of_eq (k0_chk113.eq_1 v1011))
theorem k0_off226_inb : ∀ (v1011 : BitVec 32) (k0_hw113 : k0_chk113 v1011), ∀ a, (k0_off226 v1011) a + S1x4096.size a ≤ S50264x4096.size a := fun v1011 k0_hw113 => k0_hw113.1
theorem k0_off369_inb : ∀ (v1011 : BitVec 32) (k0_hw113 : k0_chk113 v1011), ∀ a, (k0_off369 v1011) a + S1x4096.size a ≤ S50264x4096.size a := fun v1011 k0_hw113 => k0_hw113.2

def k0_off370 (v1020 : BitVec 32) : Fin 2 → Nat :=
  let c0_i32_967 : BitVec 32 := 0#32
  ![v1020.toNat, 0]

def k0_chk114 (v1020 : BitVec 32) : Prop :=
  (∀ a, (k0_off228 v1020) a + S1x4096.size a ≤ S50264x4096.size a) ∧
  (∀ a, (k0_off370 v1020) a + S1x4096.size a ≤ S50264x4096.size a)
instance k0_chk114.dec : ∀ (v1020 : BitVec 32), Decidable (k0_chk114 v1020) := fun v1020 => decidable_of_iff' _ (Iff.of_eq (k0_chk114.eq_1 v1020))
theorem k0_off228_inb : ∀ (v1020 : BitVec 32) (k0_hw114 : k0_chk114 v1020), ∀ a, (k0_off228 v1020) a + S1x4096.size a ≤ S50264x4096.size a := fun v1020 k0_hw114 => k0_hw114.1
theorem k0_off370_inb : ∀ (v1020 : BitVec 32) (k0_hw114 : k0_chk114 v1020), ∀ a, (k0_off370 v1020) a + S1x4096.size a ≤ S50264x4096.size a := fun v1020 k0_hw114 => k0_hw114.2

def k0_off371 (v1029 : BitVec 32) : Fin 2 → Nat :=
  let c0_i32_971 : BitVec 32 := 0#32
  ![v1029.toNat, 0]

def k0_chk115 (v1029 : BitVec 32) : Prop :=
  (∀ a, (k0_off230 v1029) a + S1x4096.size a ≤ S50264x4096.size a) ∧
  (∀ a, (k0_off371 v1029) a + S1x4096.size a ≤ S50264x4096.size a)
instance k0_chk115.dec : ∀ (v1029 : BitVec 32), Decidable (k0_chk115 v1029) := fun v1029 => decidable_of_iff' _ (Iff.of_eq (k0_chk115.eq_1 v1029))
theorem k0_off230_inb : ∀ (v1029 : BitVec 32) (k0_hw115 : k0_chk115 v1029), ∀ a, (k0_off230 v1029) a + S1x4096.size a ≤ S50264x4096.size a := fun v1029 k0_hw115 => k0_hw115.1
theorem k0_off371_inb : ∀ (v1029 : BitVec 32) (k0_hw115 : k0_chk115 v1029), ∀ a, (k0_off371 v1029) a + S1x4096.size a ≤ S50264x4096.size a := fun v1029 k0_hw115 => k0_hw115.2

def k0_off372 (v1038 : BitVec 32) : Fin 2 → Nat :=
  let c0_i32_975 : BitVec 32 := 0#32
  ![v1038.toNat, 0]

def k0_chk116 (v1038 : BitVec 32) : Prop :=
  (∀ a, (k0_off232 v1038) a + S1x4096.size a ≤ S50264x4096.size a) ∧
  (∀ a, (k0_off372 v1038) a + S1x4096.size a ≤ S50264x4096.size a)
instance k0_chk116.dec : ∀ (v1038 : BitVec 32), Decidable (k0_chk116 v1038) := fun v1038 => decidable_of_iff' _ (Iff.of_eq (k0_chk116.eq_1 v1038))
theorem k0_off232_inb : ∀ (v1038 : BitVec 32) (k0_hw116 : k0_chk116 v1038), ∀ a, (k0_off232 v1038) a + S1x4096.size a ≤ S50264x4096.size a := fun v1038 k0_hw116 => k0_hw116.1
theorem k0_off372_inb : ∀ (v1038 : BitVec 32) (k0_hw116 : k0_chk116 v1038), ∀ a, (k0_off372 v1038) a + S1x4096.size a ≤ S50264x4096.size a := fun v1038 k0_hw116 => k0_hw116.2

def k0_off373 (v1047 : BitVec 32) : Fin 2 → Nat :=
  let c0_i32_979 : BitVec 32 := 0#32
  ![v1047.toNat, 0]

def k0_chk117 (v1047 : BitVec 32) : Prop :=
  (∀ a, (k0_off234 v1047) a + S1x4096.size a ≤ S50264x4096.size a) ∧
  (∀ a, (k0_off373 v1047) a + S1x4096.size a ≤ S50264x4096.size a)
instance k0_chk117.dec : ∀ (v1047 : BitVec 32), Decidable (k0_chk117 v1047) := fun v1047 => decidable_of_iff' _ (Iff.of_eq (k0_chk117.eq_1 v1047))
theorem k0_off234_inb : ∀ (v1047 : BitVec 32) (k0_hw117 : k0_chk117 v1047), ∀ a, (k0_off234 v1047) a + S1x4096.size a ≤ S50264x4096.size a := fun v1047 k0_hw117 => k0_hw117.1
theorem k0_off373_inb : ∀ (v1047 : BitVec 32) (k0_hw117 : k0_chk117 v1047), ∀ a, (k0_off373 v1047) a + S1x4096.size a ≤ S50264x4096.size a := fun v1047 k0_hw117 => k0_hw117.2

def k0_off374 (v1056 : BitVec 32) : Fin 2 → Nat :=
  let c0_i32_983 : BitVec 32 := 0#32
  ![v1056.toNat, 0]

def k0_chk118 (v1056 : BitVec 32) : Prop :=
  (∀ a, (k0_off236 v1056) a + S1x4096.size a ≤ S50264x4096.size a) ∧
  (∀ a, (k0_off374 v1056) a + S1x4096.size a ≤ S50264x4096.size a)
instance k0_chk118.dec : ∀ (v1056 : BitVec 32), Decidable (k0_chk118 v1056) := fun v1056 => decidable_of_iff' _ (Iff.of_eq (k0_chk118.eq_1 v1056))
theorem k0_off236_inb : ∀ (v1056 : BitVec 32) (k0_hw118 : k0_chk118 v1056), ∀ a, (k0_off236 v1056) a + S1x4096.size a ≤ S50264x4096.size a := fun v1056 k0_hw118 => k0_hw118.1
theorem k0_off374_inb : ∀ (v1056 : BitVec 32) (k0_hw118 : k0_chk118 v1056), ∀ a, (k0_off374 v1056) a + S1x4096.size a ≤ S50264x4096.size a := fun v1056 k0_hw118 => k0_hw118.2

def k0_off375 (v1065 : BitVec 32) : Fin 2 → Nat :=
  let c0_i32_987 : BitVec 32 := 0#32
  ![v1065.toNat, 0]

def k0_chk119 (v1065 : BitVec 32) : Prop :=
  (∀ a, (k0_off238 v1065) a + S1x4096.size a ≤ S50264x4096.size a) ∧
  (∀ a, (k0_off375 v1065) a + S1x4096.size a ≤ S50264x4096.size a)
instance k0_chk119.dec : ∀ (v1065 : BitVec 32), Decidable (k0_chk119 v1065) := fun v1065 => decidable_of_iff' _ (Iff.of_eq (k0_chk119.eq_1 v1065))
theorem k0_off238_inb : ∀ (v1065 : BitVec 32) (k0_hw119 : k0_chk119 v1065), ∀ a, (k0_off238 v1065) a + S1x4096.size a ≤ S50264x4096.size a := fun v1065 k0_hw119 => k0_hw119.1
theorem k0_off375_inb : ∀ (v1065 : BitVec 32) (k0_hw119 : k0_chk119 v1065), ∀ a, (k0_off375 v1065) a + S1x4096.size a ≤ S50264x4096.size a := fun v1065 k0_hw119 => k0_hw119.2

def k0_off376 (v1074 : BitVec 32) : Fin 2 → Nat :=
  let c0_i32_991 : BitVec 32 := 0#32
  ![v1074.toNat, 0]

def k0_chk120 (v1074 : BitVec 32) : Prop :=
  (∀ a, (k0_off240 v1074) a + S1x4096.size a ≤ S50264x4096.size a) ∧
  (∀ a, (k0_off376 v1074) a + S1x4096.size a ≤ S50264x4096.size a)
instance k0_chk120.dec : ∀ (v1074 : BitVec 32), Decidable (k0_chk120 v1074) := fun v1074 => decidable_of_iff' _ (Iff.of_eq (k0_chk120.eq_1 v1074))
theorem k0_off240_inb : ∀ (v1074 : BitVec 32) (k0_hw120 : k0_chk120 v1074), ∀ a, (k0_off240 v1074) a + S1x4096.size a ≤ S50264x4096.size a := fun v1074 k0_hw120 => k0_hw120.1
theorem k0_off376_inb : ∀ (v1074 : BitVec 32) (k0_hw120 : k0_chk120 v1074), ∀ a, (k0_off376 v1074) a + S1x4096.size a ≤ S50264x4096.size a := fun v1074 k0_hw120 => k0_hw120.2

def k0_off377 (v1083 : BitVec 32) : Fin 2 → Nat :=
  let c0_i32_995 : BitVec 32 := 0#32
  ![v1083.toNat, 0]

def k0_chk121 (v1083 : BitVec 32) : Prop :=
  (∀ a, (k0_off242 v1083) a + S1x4096.size a ≤ S50264x4096.size a) ∧
  (∀ a, (k0_off377 v1083) a + S1x4096.size a ≤ S50264x4096.size a)
instance k0_chk121.dec : ∀ (v1083 : BitVec 32), Decidable (k0_chk121 v1083) := fun v1083 => decidable_of_iff' _ (Iff.of_eq (k0_chk121.eq_1 v1083))
theorem k0_off242_inb : ∀ (v1083 : BitVec 32) (k0_hw121 : k0_chk121 v1083), ∀ a, (k0_off242 v1083) a + S1x4096.size a ≤ S50264x4096.size a := fun v1083 k0_hw121 => k0_hw121.1
theorem k0_off377_inb : ∀ (v1083 : BitVec 32) (k0_hw121 : k0_chk121 v1083), ∀ a, (k0_off377 v1083) a + S1x4096.size a ≤ S50264x4096.size a := fun v1083 k0_hw121 => k0_hw121.2

def k0_off378 (v1092 : BitVec 32) : Fin 2 → Nat :=
  let c0_i32_999 : BitVec 32 := 0#32
  ![v1092.toNat, 0]

def k0_chk122 (v1092 : BitVec 32) : Prop :=
  (∀ a, (k0_off244 v1092) a + S1x4096.size a ≤ S50264x4096.size a) ∧
  (∀ a, (k0_off378 v1092) a + S1x4096.size a ≤ S50264x4096.size a)
instance k0_chk122.dec : ∀ (v1092 : BitVec 32), Decidable (k0_chk122 v1092) := fun v1092 => decidable_of_iff' _ (Iff.of_eq (k0_chk122.eq_1 v1092))
theorem k0_off244_inb : ∀ (v1092 : BitVec 32) (k0_hw122 : k0_chk122 v1092), ∀ a, (k0_off244 v1092) a + S1x4096.size a ≤ S50264x4096.size a := fun v1092 k0_hw122 => k0_hw122.1
theorem k0_off378_inb : ∀ (v1092 : BitVec 32) (k0_hw122 : k0_chk122 v1092), ∀ a, (k0_off378 v1092) a + S1x4096.size a ≤ S50264x4096.size a := fun v1092 k0_hw122 => k0_hw122.2

def k0_off379 (v1101 : BitVec 32) : Fin 2 → Nat :=
  let c0_i32_1003 : BitVec 32 := 0#32
  ![v1101.toNat, 0]

def k0_chk123 (v1101 : BitVec 32) : Prop :=
  (∀ a, (k0_off246 v1101) a + S1x4096.size a ≤ S50264x4096.size a) ∧
  (∀ a, (k0_off379 v1101) a + S1x4096.size a ≤ S50264x4096.size a)
instance k0_chk123.dec : ∀ (v1101 : BitVec 32), Decidable (k0_chk123 v1101) := fun v1101 => decidable_of_iff' _ (Iff.of_eq (k0_chk123.eq_1 v1101))
theorem k0_off246_inb : ∀ (v1101 : BitVec 32) (k0_hw123 : k0_chk123 v1101), ∀ a, (k0_off246 v1101) a + S1x4096.size a ≤ S50264x4096.size a := fun v1101 k0_hw123 => k0_hw123.1
theorem k0_off379_inb : ∀ (v1101 : BitVec 32) (k0_hw123 : k0_chk123 v1101), ∀ a, (k0_off379 v1101) a + S1x4096.size a ≤ S50264x4096.size a := fun v1101 k0_hw123 => k0_hw123.2

def k0_off380 (v1110 : BitVec 32) : Fin 2 → Nat :=
  let c0_i32_1007 : BitVec 32 := 0#32
  ![v1110.toNat, 0]

def k0_chk124 (v1110 : BitVec 32) : Prop :=
  (∀ a, (k0_off248 v1110) a + S1x4096.size a ≤ S50264x4096.size a) ∧
  (∀ a, (k0_off380 v1110) a + S1x4096.size a ≤ S50264x4096.size a)
instance k0_chk124.dec : ∀ (v1110 : BitVec 32), Decidable (k0_chk124 v1110) := fun v1110 => decidable_of_iff' _ (Iff.of_eq (k0_chk124.eq_1 v1110))
theorem k0_off248_inb : ∀ (v1110 : BitVec 32) (k0_hw124 : k0_chk124 v1110), ∀ a, (k0_off248 v1110) a + S1x4096.size a ≤ S50264x4096.size a := fun v1110 k0_hw124 => k0_hw124.1
theorem k0_off380_inb : ∀ (v1110 : BitVec 32) (k0_hw124 : k0_chk124 v1110), ∀ a, (k0_off380 v1110) a + S1x4096.size a ≤ S50264x4096.size a := fun v1110 k0_hw124 => k0_hw124.2

def k0_off381 (v1119 : BitVec 32) : Fin 2 → Nat :=
  let c0_i32_1011 : BitVec 32 := 0#32
  ![v1119.toNat, 0]

def k0_chk125 (v1119 : BitVec 32) : Prop :=
  (∀ a, (k0_off250 v1119) a + S1x4096.size a ≤ S50264x4096.size a) ∧
  (∀ a, (k0_off381 v1119) a + S1x4096.size a ≤ S50264x4096.size a)
instance k0_chk125.dec : ∀ (v1119 : BitVec 32), Decidable (k0_chk125 v1119) := fun v1119 => decidable_of_iff' _ (Iff.of_eq (k0_chk125.eq_1 v1119))
theorem k0_off250_inb : ∀ (v1119 : BitVec 32) (k0_hw125 : k0_chk125 v1119), ∀ a, (k0_off250 v1119) a + S1x4096.size a ≤ S50264x4096.size a := fun v1119 k0_hw125 => k0_hw125.1
theorem k0_off381_inb : ∀ (v1119 : BitVec 32) (k0_hw125 : k0_chk125 v1119), ∀ a, (k0_off381 v1119) a + S1x4096.size a ≤ S50264x4096.size a := fun v1119 k0_hw125 => k0_hw125.2

def k0_off382 (v1128 : BitVec 32) : Fin 2 → Nat :=
  let c0_i32_1015 : BitVec 32 := 0#32
  ![v1128.toNat, 0]

def k0_chk126 (v1128 : BitVec 32) : Prop :=
  (∀ a, (k0_off252 v1128) a + S1x4096.size a ≤ S50264x4096.size a) ∧
  (∀ a, (k0_off382 v1128) a + S1x4096.size a ≤ S50264x4096.size a)
instance k0_chk126.dec : ∀ (v1128 : BitVec 32), Decidable (k0_chk126 v1128) := fun v1128 => decidable_of_iff' _ (Iff.of_eq (k0_chk126.eq_1 v1128))
theorem k0_off252_inb : ∀ (v1128 : BitVec 32) (k0_hw126 : k0_chk126 v1128), ∀ a, (k0_off252 v1128) a + S1x4096.size a ≤ S50264x4096.size a := fun v1128 k0_hw126 => k0_hw126.1
theorem k0_off382_inb : ∀ (v1128 : BitVec 32) (k0_hw126 : k0_chk126 v1128), ∀ a, (k0_off382 v1128) a + S1x4096.size a ≤ S50264x4096.size a := fun v1128 k0_hw126 => k0_hw126.2

def k0_off383 (v1137 : BitVec 32) : Fin 2 → Nat :=
  let c0_i32_1019 : BitVec 32 := 0#32
  ![v1137.toNat, 0]

def k0_chk127 (v1137 : BitVec 32) : Prop :=
  (∀ a, (k0_off254 v1137) a + S1x4096.size a ≤ S50264x4096.size a) ∧
  (∀ a, (k0_off383 v1137) a + S1x4096.size a ≤ S50264x4096.size a)
instance k0_chk127.dec : ∀ (v1137 : BitVec 32), Decidable (k0_chk127 v1137) := fun v1137 => decidable_of_iff' _ (Iff.of_eq (k0_chk127.eq_1 v1137))
theorem k0_off254_inb : ∀ (v1137 : BitVec 32) (k0_hw127 : k0_chk127 v1137), ∀ a, (k0_off254 v1137) a + S1x4096.size a ≤ S50264x4096.size a := fun v1137 k0_hw127 => k0_hw127.1
theorem k0_off383_inb : ∀ (v1137 : BitVec 32) (k0_hw127 : k0_chk127 v1137), ∀ a, (k0_off383 v1137) a + S1x4096.size a ≤ S50264x4096.size a := fun v1137 k0_hw127 => k0_hw127.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![128], ![false]⟩

def k1_cond2 (i : grid1.Coords) : BitVec 1 :=
  let arg0 : BitVec 32 := BitVec.ofNat 32 (i 0).val
  let c127_i32 : BitVec 32 := 127#32
  let v17 : BitVec 1 := Scalar.cmpi .eq arg0 c127_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S4x4096_S16384 : S4x4096.ShapeCasts S16384
  numel1_S1 : S1.numel = 1
  inb_S128_S1_0 : ∀ a, (![0] : Fin 1 → Nat) a + S1.size a ≤ S128.size a
  squeezes_S1_S_ : S1.Squeezes S_
  inb_S128x4096_S1x4096_0_0 : ∀ a, (![0, 0] : Fin 2 → Nat) a + S1x4096.size a ≤ S128x4096.size a
  squeezes_S1x4096_S4096 : S1x4096.Squeezes S4096
  inb_S128_S1_1 : ∀ a, (![1] : Fin 1 → Nat) a + S1.size a ≤ S128.size a
  inb_S128x4096_S1x4096_1_0 : ∀ a, (![1, 0] : Fin 2 → Nat) a + S1x4096.size a ≤ S128x4096.size a
  inb_S128_S1_2 : ∀ a, (![2] : Fin 1 → Nat) a + S1.size a ≤ S128.size a
  inb_S128x4096_S1x4096_2_0 : ∀ a, (![2, 0] : Fin 2 → Nat) a + S1x4096.size a ≤ S128x4096.size a
  inb_S128_S1_3 : ∀ a, (![3] : Fin 1 → Nat) a + S1.size a ≤ S128.size a
  inb_S128x4096_S1x4096_3_0 : ∀ a, (![3, 0] : Fin 2 → Nat) a + S1x4096.size a ≤ S128x4096.size a
  inb_S128_S1_4 : ∀ a, (![4] : Fin 1 → Nat) a + S1.size a ≤ S128.size a
  inb_S128x4096_S1x4096_4_0 : ∀ a, (![4, 0] : Fin 2 → Nat) a + S1x4096.size a ≤ S128x4096.size a
  inb_S128_S1_5 : ∀ a, (![5] : Fin 1 → Nat) a + S1.size a ≤ S128.size a
  inb_S128x4096_S1x4096_5_0 : ∀ a, (![5, 0] : Fin 2 → Nat) a + S1x4096.size a ≤ S128x4096.size a
  inb_S128_S1_6 : ∀ a, (![6] : Fin 1 → Nat) a + S1.size a ≤ S128.size a
  inb_S128x4096_S1x4096_6_0 : ∀ a, (![6, 0] : Fin 2 → Nat) a + S1x4096.size a ≤ S128x4096.size a
  inb_S128_S1_7 : ∀ a, (![7] : Fin 1 → Nat) a + S1.size a ≤ S128.size a
  inb_S128x4096_S1x4096_7_0 : ∀ a, (![7, 0] : Fin 2 → Nat) a + S1x4096.size a ≤ S128x4096.size a
  inb_S128_S1_8 : ∀ a, (![8] : Fin 1 → Nat) a + S1.size a ≤ S128.size a
  inb_S128x4096_S1x4096_8_0 : ∀ a, (![8, 0] : Fin 2 → Nat) a + S1x4096.size a ≤ S128x4096.size a
  inb_S128_S1_9 : ∀ a, (![9] : Fin 1 → Nat) a + S1.size a ≤ S128.size a
  inb_S128x4096_S1x4096_9_0 : ∀ a, (![9, 0] : Fin 2 → Nat) a + S1x4096.size a ≤ S128x4096.size a
  inb_S128_S1_10 : ∀ a, (![10] : Fin 1 → Nat) a + S1.size a ≤ S128.size a
  inb_S128x4096_S1x4096_10_0 : ∀ a, (![10, 0] : Fin 2 → Nat) a + S1x4096.size a ≤ S128x4096.size a
  inb_S128_S1_11 : ∀ a, (![11] : Fin 1 → Nat) a + S1.size a ≤ S128.size a
  inb_S128x4096_S1x4096_11_0 : ∀ a, (![11, 0] : Fin 2 → Nat) a + S1x4096.size a ≤ S128x4096.size a
  inb_S128_S1_12 : ∀ a, (![12] : Fin 1 → Nat) a + S1.size a ≤ S128.size a
  inb_S128x4096_S1x4096_12_0 : ∀ a, (![12, 0] : Fin 2 → Nat) a + S1x4096.size a ≤ S128x4096.size a
  inb_S128_S1_13 : ∀ a, (![13] : Fin 1 → Nat) a + S1.size a ≤ S128.size a
  inb_S128x4096_S1x4096_13_0 : ∀ a, (![13, 0] : Fin 2 → Nat) a + S1x4096.size a ≤ S128x4096.size a
  inb_S128_S1_14 : ∀ a, (![14] : Fin 1 → Nat) a + S1.size a ≤ S128.size a
  inb_S128x4096_S1x4096_14_0 : ∀ a, (![14, 0] : Fin 2 → Nat) a + S1x4096.size a ≤ S128x4096.size a
  inb_S128_S1_15 : ∀ a, (![15] : Fin 1 → Nat) a + S1.size a ≤ S128.size a
  inb_S128x4096_S1x4096_15_0 : ∀ a, (![15, 0] : Fin 2 → Nat) a + S1x4096.size a ≤ S128x4096.size a
  inb_S128_S1_16 : ∀ a, (![16] : Fin 1 → Nat) a + S1.size a ≤ S128.size a
  inb_S128x4096_S1x4096_16_0 : ∀ a, (![16, 0] : Fin 2 → Nat) a + S1x4096.size a ≤ S128x4096.size a
  inb_S128_S1_17 : ∀ a, (![17] : Fin 1 → Nat) a + S1.size a ≤ S128.size a
  inb_S128x4096_S1x4096_17_0 : ∀ a, (![17, 0] : Fin 2 → Nat) a + S1x4096.size a ≤ S128x4096.size a
  inb_S128_S1_18 : ∀ a, (![18] : Fin 1 → Nat) a + S1.size a ≤ S128.size a
  inb_S128x4096_S1x4096_18_0 : ∀ a, (![18, 0] : Fin 2 → Nat) a + S1x4096.size a ≤ S128x4096.size a
  inb_S128_S1_19 : ∀ a, (![19] : Fin 1 → Nat) a + S1.size a ≤ S128.size a
  inb_S128x4096_S1x4096_19_0 : ∀ a, (![19, 0] : Fin 2 → Nat) a + S1x4096.size a ≤ S128x4096.size a
  inb_S128_S1_20 : ∀ a, (![20] : Fin 1 → Nat) a + S1.size a ≤ S128.size a
  inb_S128x4096_S1x4096_20_0 : ∀ a, (![20, 0] : Fin 2 → Nat) a + S1x4096.size a ≤ S128x4096.size a
  inb_S128_S1_21 : ∀ a, (![21] : Fin 1 → Nat) a + S1.size a ≤ S128.size a
  inb_S128x4096_S1x4096_21_0 : ∀ a, (![21, 0] : Fin 2 → Nat) a + S1x4096.size a ≤ S128x4096.size a
  inb_S128_S1_22 : ∀ a, (![22] : Fin 1 → Nat) a + S1.size a ≤ S128.size a
  inb_S128x4096_S1x4096_22_0 : ∀ a, (![22, 0] : Fin 2 → Nat) a + S1x4096.size a ≤ S128x4096.size a
  inb_S128_S1_23 : ∀ a, (![23] : Fin 1 → Nat) a + S1.size a ≤ S128.size a
  inb_S128x4096_S1x4096_23_0 : ∀ a, (![23, 0] : Fin 2 → Nat) a + S1x4096.size a ≤ S128x4096.size a
  inb_S128_S1_24 : ∀ a, (![24] : Fin 1 → Nat) a + S1.size a ≤ S128.size a
  inb_S128x4096_S1x4096_24_0 : ∀ a, (![24, 0] : Fin 2 → Nat) a + S1x4096.size a ≤ S128x4096.size a
  inb_S128_S1_25 : ∀ a, (![25] : Fin 1 → Nat) a + S1.size a ≤ S128.size a
  inb_S128x4096_S1x4096_25_0 : ∀ a, (![25, 0] : Fin 2 → Nat) a + S1x4096.size a ≤ S128x4096.size a
  inb_S128_S1_26 : ∀ a, (![26] : Fin 1 → Nat) a + S1.size a ≤ S128.size a
  inb_S128x4096_S1x4096_26_0 : ∀ a, (![26, 0] : Fin 2 → Nat) a + S1x4096.size a ≤ S128x4096.size a
  inb_S128_S1_27 : ∀ a, (![27] : Fin 1 → Nat) a + S1.size a ≤ S128.size a
  inb_S128x4096_S1x4096_27_0 : ∀ a, (![27, 0] : Fin 2 → Nat) a + S1x4096.size a ≤ S128x4096.size a
  inb_S128_S1_28 : ∀ a, (![28] : Fin 1 → Nat) a + S1.size a ≤ S128.size a
  inb_S128x4096_S1x4096_28_0 : ∀ a, (![28, 0] : Fin 2 → Nat) a + S1x4096.size a ≤ S128x4096.size a
  inb_S128_S1_29 : ∀ a, (![29] : Fin 1 → Nat) a + S1.size a ≤ S128.size a
  inb_S128x4096_S1x4096_29_0 : ∀ a, (![29, 0] : Fin 2 → Nat) a + S1x4096.size a ≤ S128x4096.size a
  inb_S128_S1_30 : ∀ a, (![30] : Fin 1 → Nat) a + S1.size a ≤ S128.size a
  inb_S128x4096_S1x4096_30_0 : ∀ a, (![30, 0] : Fin 2 → Nat) a + S1x4096.size a ≤ S128x4096.size a
  inb_S128_S1_31 : ∀ a, (![31] : Fin 1 → Nat) a + S1.size a ≤ S128.size a
  inb_S128x4096_S1x4096_31_0 : ∀ a, (![31, 0] : Fin 2 → Nat) a + S1x4096.size a ≤ S128x4096.size a
  inb_S128_S1_32 : ∀ a, (![32] : Fin 1 → Nat) a + S1.size a ≤ S128.size a
  inb_S128x4096_S1x4096_32_0 : ∀ a, (![32, 0] : Fin 2 → Nat) a + S1x4096.size a ≤ S128x4096.size a
  inb_S128_S1_33 : ∀ a, (![33] : Fin 1 → Nat) a + S1.size a ≤ S128.size a
  inb_S128x4096_S1x4096_33_0 : ∀ a, (![33, 0] : Fin 2 → Nat) a + S1x4096.size a ≤ S128x4096.size a
  inb_S128_S1_34 : ∀ a, (![34] : Fin 1 → Nat) a + S1.size a ≤ S128.size a
  inb_S128x4096_S1x4096_34_0 : ∀ a, (![34, 0] : Fin 2 → Nat) a + S1x4096.size a ≤ S128x4096.size a
  inb_S128_S1_35 : ∀ a, (![35] : Fin 1 → Nat) a + S1.size a ≤ S128.size a
  inb_S128x4096_S1x4096_35_0 : ∀ a, (![35, 0] : Fin 2 → Nat) a + S1x4096.size a ≤ S128x4096.size a
  inb_S128_S1_36 : ∀ a, (![36] : Fin 1 → Nat) a + S1.size a ≤ S128.size a
  inb_S128x4096_S1x4096_36_0 : ∀ a, (![36, 0] : Fin 2 → Nat) a + S1x4096.size a ≤ S128x4096.size a
  inb_S128_S1_37 : ∀ a, (![37] : Fin 1 → Nat) a + S1.size a ≤ S128.size a
  inb_S128x4096_S1x4096_37_0 : ∀ a, (![37, 0] : Fin 2 → Nat) a + S1x4096.size a ≤ S128x4096.size a
  inb_S128_S1_38 : ∀ a, (![38] : Fin 1 → Nat) a + S1.size a ≤ S128.size a
  inb_S128x4096_S1x4096_38_0 : ∀ a, (![38, 0] : Fin 2 → Nat) a + S1x4096.size a ≤ S128x4096.size a
  inb_S128_S1_39 : ∀ a, (![39] : Fin 1 → Nat) a + S1.size a ≤ S128.size a
  inb_S128x4096_S1x4096_39_0 : ∀ a, (![39, 0] : Fin 2 → Nat) a + S1x4096.size a ≤ S128x4096.size a
  inb_S128_S1_40 : ∀ a, (![40] : Fin 1 → Nat) a + S1.size a ≤ S128.size a
  inb_S128x4096_S1x4096_40_0 : ∀ a, (![40, 0] : Fin 2 → Nat) a + S1x4096.size a ≤ S128x4096.size a
  inb_S128_S1_41 : ∀ a, (![41] : Fin 1 → Nat) a + S1.size a ≤ S128.size a
  inb_S128x4096_S1x4096_41_0 : ∀ a, (![41, 0] : Fin 2 → Nat) a + S1x4096.size a ≤ S128x4096.size a
  inb_S128_S1_42 : ∀ a, (![42] : Fin 1 → Nat) a + S1.size a ≤ S128.size a
  inb_S128x4096_S1x4096_42_0 : ∀ a, (![42, 0] : Fin 2 → Nat) a + S1x4096.size a ≤ S128x4096.size a
  inb_S128_S1_43 : ∀ a, (![43] : Fin 1 → Nat) a + S1.size a ≤ S128.size a
  inb_S128x4096_S1x4096_43_0 : ∀ a, (![43, 0] : Fin 2 → Nat) a + S1x4096.size a ≤ S128x4096.size a
  inb_S128_S1_44 : ∀ a, (![44] : Fin 1 → Nat) a + S1.size a ≤ S128.size a
  inb_S128x4096_S1x4096_44_0 : ∀ a, (![44, 0] : Fin 2 → Nat) a + S1x4096.size a ≤ S128x4096.size a
  inb_S128_S1_45 : ∀ a, (![45] : Fin 1 → Nat) a + S1.size a ≤ S128.size a
  inb_S128x4096_S1x4096_45_0 : ∀ a, (![45, 0] : Fin 2 → Nat) a + S1x4096.size a ≤ S128x4096.size a
  inb_S128_S1_46 : ∀ a, (![46] : Fin 1 → Nat) a + S1.size a ≤ S128.size a
  inb_S128x4096_S1x4096_46_0 : ∀ a, (![46, 0] : Fin 2 → Nat) a + S1x4096.size a ≤ S128x4096.size a
  inb_S128_S1_47 : ∀ a, (![47] : Fin 1 → Nat) a + S1.size a ≤ S128.size a
  inb_S128x4096_S1x4096_47_0 : ∀ a, (![47, 0] : Fin 2 → Nat) a + S1x4096.size a ≤ S128x4096.size a
  inb_S128_S1_48 : ∀ a, (![48] : Fin 1 → Nat) a + S1.size a ≤ S128.size a
  inb_S128x4096_S1x4096_48_0 : ∀ a, (![48, 0] : Fin 2 → Nat) a + S1x4096.size a ≤ S128x4096.size a
  inb_S128_S1_49 : ∀ a, (![49] : Fin 1 → Nat) a + S1.size a ≤ S128.size a
  inb_S128x4096_S1x4096_49_0 : ∀ a, (![49, 0] : Fin 2 → Nat) a + S1x4096.size a ≤ S128x4096.size a
  inb_S128_S1_50 : ∀ a, (![50] : Fin 1 → Nat) a + S1.size a ≤ S128.size a
  inb_S128x4096_S1x4096_50_0 : ∀ a, (![50, 0] : Fin 2 → Nat) a + S1x4096.size a ≤ S128x4096.size a
  inb_S128_S1_51 : ∀ a, (![51] : Fin 1 → Nat) a + S1.size a ≤ S128.size a
  inb_S128x4096_S1x4096_51_0 : ∀ a, (![51, 0] : Fin 2 → Nat) a + S1x4096.size a ≤ S128x4096.size a
  inb_S128_S1_52 : ∀ a, (![52] : Fin 1 → Nat) a + S1.size a ≤ S128.size a
  inb_S128x4096_S1x4096_52_0 : ∀ a, (![52, 0] : Fin 2 → Nat) a + S1x4096.size a ≤ S128x4096.size a
  inb_S128_S1_53 : ∀ a, (![53] : Fin 1 → Nat) a + S1.size a ≤ S128.size a
  inb_S128x4096_S1x4096_53_0 : ∀ a, (![53, 0] : Fin 2 → Nat) a + S1x4096.size a ≤ S128x4096.size a
  inb_S128_S1_54 : ∀ a, (![54] : Fin 1 → Nat) a + S1.size a ≤ S128.size a
  inb_S128x4096_S1x4096_54_0 : ∀ a, (![54, 0] : Fin 2 → Nat) a + S1x4096.size a ≤ S128x4096.size a
  inb_S128_S1_55 : ∀ a, (![55] : Fin 1 → Nat) a + S1.size a ≤ S128.size a
  inb_S128x4096_S1x4096_55_0 : ∀ a, (![55, 0] : Fin 2 → Nat) a + S1x4096.size a ≤ S128x4096.size a
  inb_S128_S1_56 : ∀ a, (![56] : Fin 1 → Nat) a + S1.size a ≤ S128.size a
  inb_S128x4096_S1x4096_56_0 : ∀ a, (![56, 0] : Fin 2 → Nat) a + S1x4096.size a ≤ S128x4096.size a
  inb_S128_S1_57 : ∀ a, (![57] : Fin 1 → Nat) a + S1.size a ≤ S128.size a
  inb_S128x4096_S1x4096_57_0 : ∀ a, (![57, 0] : Fin 2 → Nat) a + S1x4096.size a ≤ S128x4096.size a
  inb_S128_S1_58 : ∀ a, (![58] : Fin 1 → Nat) a + S1.size a ≤ S128.size a
  inb_S128x4096_S1x4096_58_0 : ∀ a, (![58, 0] : Fin 2 → Nat) a + S1x4096.size a ≤ S128x4096.size a
  inb_S128_S1_59 : ∀ a, (![59] : Fin 1 → Nat) a + S1.size a ≤ S128.size a
  inb_S128x4096_S1x4096_59_0 : ∀ a, (![59, 0] : Fin 2 → Nat) a + S1x4096.size a ≤ S128x4096.size a
  inb_S128_S1_60 : ∀ a, (![60] : Fin 1 → Nat) a + S1.size a ≤ S128.size a
  inb_S128x4096_S1x4096_60_0 : ∀ a, (![60, 0] : Fin 2 → Nat) a + S1x4096.size a ≤ S128x4096.size a
  inb_S128_S1_61 : ∀ a, (![61] : Fin 1 → Nat) a + S1.size a ≤ S128.size a
  inb_S128x4096_S1x4096_61_0 : ∀ a, (![61, 0] : Fin 2 → Nat) a + S1x4096.size a ≤ S128x4096.size a
  inb_S128_S1_62 : ∀ a, (![62] : Fin 1 → Nat) a + S1.size a ≤ S128.size a
  inb_S128x4096_S1x4096_62_0 : ∀ a, (![62, 0] : Fin 2 → Nat) a + S1x4096.size a ≤ S128x4096.size a
  inb_S128_S1_63 : ∀ a, (![63] : Fin 1 → Nat) a + S1.size a ≤ S128.size a
  inb_S128x4096_S1x4096_63_0 : ∀ a, (![63, 0] : Fin 2 → Nat) a + S1x4096.size a ≤ S128x4096.size a
  inb_S128_S1_64 : ∀ a, (![64] : Fin 1 → Nat) a + S1.size a ≤ S128.size a
  inb_S128x4096_S1x4096_64_0 : ∀ a, (![64, 0] : Fin 2 → Nat) a + S1x4096.size a ≤ S128x4096.size a
  inb_S128_S1_65 : ∀ a, (![65] : Fin 1 → Nat) a + S1.size a ≤ S128.size a
  inb_S128x4096_S1x4096_65_0 : ∀ a, (![65, 0] : Fin 2 → Nat) a + S1x4096.size a ≤ S128x4096.size a
  inb_S128_S1_66 : ∀ a, (![66] : Fin 1 → Nat) a + S1.size a ≤ S128.size a
  inb_S128x4096_S1x4096_66_0 : ∀ a, (![66, 0] : Fin 2 → Nat) a + S1x4096.size a ≤ S128x4096.size a
  inb_S128_S1_67 : ∀ a, (![67] : Fin 1 → Nat) a + S1.size a ≤ S128.size a
  inb_S128x4096_S1x4096_67_0 : ∀ a, (![67, 0] : Fin 2 → Nat) a + S1x4096.size a ≤ S128x4096.size a
  inb_S128_S1_68 : ∀ a, (![68] : Fin 1 → Nat) a + S1.size a ≤ S128.size a
  inb_S128x4096_S1x4096_68_0 : ∀ a, (![68, 0] : Fin 2 → Nat) a + S1x4096.size a ≤ S128x4096.size a
  inb_S128_S1_69 : ∀ a, (![69] : Fin 1 → Nat) a + S1.size a ≤ S128.size a
  inb_S128x4096_S1x4096_69_0 : ∀ a, (![69, 0] : Fin 2 → Nat) a + S1x4096.size a ≤ S128x4096.size a
  inb_S128_S1_70 : ∀ a, (![70] : Fin 1 → Nat) a + S1.size a ≤ S128.size a
  inb_S128x4096_S1x4096_70_0 : ∀ a, (![70, 0] : Fin 2 → Nat) a + S1x4096.size a ≤ S128x4096.size a
  inb_S128_S1_71 : ∀ a, (![71] : Fin 1 → Nat) a + S1.size a ≤ S128.size a
  inb_S128x4096_S1x4096_71_0 : ∀ a, (![71, 0] : Fin 2 → Nat) a + S1x4096.size a ≤ S128x4096.size a
  inb_S128_S1_72 : ∀ a, (![72] : Fin 1 → Nat) a + S1.size a ≤ S128.size a
  inb_S128x4096_S1x4096_72_0 : ∀ a, (![72, 0] : Fin 2 → Nat) a + S1x4096.size a ≤ S128x4096.size a
  inb_S128_S1_73 : ∀ a, (![73] : Fin 1 → Nat) a + S1.size a ≤ S128.size a
  inb_S128x4096_S1x4096_73_0 : ∀ a, (![73, 0] : Fin 2 → Nat) a + S1x4096.size a ≤ S128x4096.size a
  inb_S128_S1_74 : ∀ a, (![74] : Fin 1 → Nat) a + S1.size a ≤ S128.size a
  inb_S128x4096_S1x4096_74_0 : ∀ a, (![74, 0] : Fin 2 → Nat) a + S1x4096.size a ≤ S128x4096.size a
  inb_S128_S1_75 : ∀ a, (![75] : Fin 1 → Nat) a + S1.size a ≤ S128.size a
  inb_S128x4096_S1x4096_75_0 : ∀ a, (![75, 0] : Fin 2 → Nat) a + S1x4096.size a ≤ S128x4096.size a
  inb_S128_S1_76 : ∀ a, (![76] : Fin 1 → Nat) a + S1.size a ≤ S128.size a
  inb_S128x4096_S1x4096_76_0 : ∀ a, (![76, 0] : Fin 2 → Nat) a + S1x4096.size a ≤ S128x4096.size a
  inb_S128_S1_77 : ∀ a, (![77] : Fin 1 → Nat) a + S1.size a ≤ S128.size a
  inb_S128x4096_S1x4096_77_0 : ∀ a, (![77, 0] : Fin 2 → Nat) a + S1x4096.size a ≤ S128x4096.size a
  inb_S128_S1_78 : ∀ a, (![78] : Fin 1 → Nat) a + S1.size a ≤ S128.size a
  inb_S128x4096_S1x4096_78_0 : ∀ a, (![78, 0] : Fin 2 → Nat) a + S1x4096.size a ≤ S128x4096.size a
  inb_S128_S1_79 : ∀ a, (![79] : Fin 1 → Nat) a + S1.size a ≤ S128.size a
  inb_S128x4096_S1x4096_79_0 : ∀ a, (![79, 0] : Fin 2 → Nat) a + S1x4096.size a ≤ S128x4096.size a
  inb_S128_S1_80 : ∀ a, (![80] : Fin 1 → Nat) a + S1.size a ≤ S128.size a
  inb_S128x4096_S1x4096_80_0 : ∀ a, (![80, 0] : Fin 2 → Nat) a + S1x4096.size a ≤ S128x4096.size a
  inb_S128_S1_81 : ∀ a, (![81] : Fin 1 → Nat) a + S1.size a ≤ S128.size a
  inb_S128x4096_S1x4096_81_0 : ∀ a, (![81, 0] : Fin 2 → Nat) a + S1x4096.size a ≤ S128x4096.size a
  inb_S128_S1_82 : ∀ a, (![82] : Fin 1 → Nat) a + S1.size a ≤ S128.size a
  inb_S128x4096_S1x4096_82_0 : ∀ a, (![82, 0] : Fin 2 → Nat) a + S1x4096.size a ≤ S128x4096.size a
  inb_S128_S1_83 : ∀ a, (![83] : Fin 1 → Nat) a + S1.size a ≤ S128.size a
  inb_S128x4096_S1x4096_83_0 : ∀ a, (![83, 0] : Fin 2 → Nat) a + S1x4096.size a ≤ S128x4096.size a
  inb_S128_S1_84 : ∀ a, (![84] : Fin 1 → Nat) a + S1.size a ≤ S128.size a
  inb_S128x4096_S1x4096_84_0 : ∀ a, (![84, 0] : Fin 2 → Nat) a + S1x4096.size a ≤ S128x4096.size a
  inb_S128_S1_85 : ∀ a, (![85] : Fin 1 → Nat) a + S1.size a ≤ S128.size a
  inb_S128x4096_S1x4096_85_0 : ∀ a, (![85, 0] : Fin 2 → Nat) a + S1x4096.size a ≤ S128x4096.size a
  inb_S128_S1_86 : ∀ a, (![86] : Fin 1 → Nat) a + S1.size a ≤ S128.size a
  inb_S128x4096_S1x4096_86_0 : ∀ a, (![86, 0] : Fin 2 → Nat) a + S1x4096.size a ≤ S128x4096.size a
  inb_S128_S1_87 : ∀ a, (![87] : Fin 1 → Nat) a + S1.size a ≤ S128.size a
  inb_S128x4096_S1x4096_87_0 : ∀ a, (![87, 0] : Fin 2 → Nat) a + S1x4096.size a ≤ S128x4096.size a
  inb_S128_S1_88 : ∀ a, (![88] : Fin 1 → Nat) a + S1.size a ≤ S128.size a
  inb_S128x4096_S1x4096_88_0 : ∀ a, (![88, 0] : Fin 2 → Nat) a + S1x4096.size a ≤ S128x4096.size a
  inb_S128_S1_89 : ∀ a, (![89] : Fin 1 → Nat) a + S1.size a ≤ S128.size a
  inb_S128x4096_S1x4096_89_0 : ∀ a, (![89, 0] : Fin 2 → Nat) a + S1x4096.size a ≤ S128x4096.size a
  inb_S128_S1_90 : ∀ a, (![90] : Fin 1 → Nat) a + S1.size a ≤ S128.size a
  inb_S128x4096_S1x4096_90_0 : ∀ a, (![90, 0] : Fin 2 → Nat) a + S1x4096.size a ≤ S128x4096.size a
  inb_S128_S1_91 : ∀ a, (![91] : Fin 1 → Nat) a + S1.size a ≤ S128.size a
  inb_S128x4096_S1x4096_91_0 : ∀ a, (![91, 0] : Fin 2 → Nat) a + S1x4096.size a ≤ S128x4096.size a
  inb_S128_S1_92 : ∀ a, (![92] : Fin 1 → Nat) a + S1.size a ≤ S128.size a
  inb_S128x4096_S1x4096_92_0 : ∀ a, (![92, 0] : Fin 2 → Nat) a + S1x4096.size a ≤ S128x4096.size a
  inb_S128_S1_93 : ∀ a, (![93] : Fin 1 → Nat) a + S1.size a ≤ S128.size a
  inb_S128x4096_S1x4096_93_0 : ∀ a, (![93, 0] : Fin 2 → Nat) a + S1x4096.size a ≤ S128x4096.size a
  inb_S128_S1_94 : ∀ a, (![94] : Fin 1 → Nat) a + S1.size a ≤ S128.size a
  inb_S128x4096_S1x4096_94_0 : ∀ a, (![94, 0] : Fin 2 → Nat) a + S1x4096.size a ≤ S128x4096.size a
  inb_S128_S1_95 : ∀ a, (![95] : Fin 1 → Nat) a + S1.size a ≤ S128.size a
  inb_S128x4096_S1x4096_95_0 : ∀ a, (![95, 0] : Fin 2 → Nat) a + S1x4096.size a ≤ S128x4096.size a
  inb_S128_S1_96 : ∀ a, (![96] : Fin 1 → Nat) a + S1.size a ≤ S128.size a
  inb_S128x4096_S1x4096_96_0 : ∀ a, (![96, 0] : Fin 2 → Nat) a + S1x4096.size a ≤ S128x4096.size a
  inb_S128_S1_97 : ∀ a, (![97] : Fin 1 → Nat) a + S1.size a ≤ S128.size a
  inb_S128x4096_S1x4096_97_0 : ∀ a, (![97, 0] : Fin 2 → Nat) a + S1x4096.size a ≤ S128x4096.size a
  inb_S128_S1_98 : ∀ a, (![98] : Fin 1 → Nat) a + S1.size a ≤ S128.size a
  inb_S128x4096_S1x4096_98_0 : ∀ a, (![98, 0] : Fin 2 → Nat) a + S1x4096.size a ≤ S128x4096.size a
  inb_S128_S1_99 : ∀ a, (![99] : Fin 1 → Nat) a + S1.size a ≤ S128.size a
  inb_S128x4096_S1x4096_99_0 : ∀ a, (![99, 0] : Fin 2 → Nat) a + S1x4096.size a ≤ S128x4096.size a
  inb_S128_S1_100 : ∀ a, (![100] : Fin 1 → Nat) a + S1.size a ≤ S128.size a
  inb_S128x4096_S1x4096_100_0 : ∀ a, (![100, 0] : Fin 2 → Nat) a + S1x4096.size a ≤ S128x4096.size a
  inb_S128_S1_101 : ∀ a, (![101] : Fin 1 → Nat) a + S1.size a ≤ S128.size a
  inb_S128x4096_S1x4096_101_0 : ∀ a, (![101, 0] : Fin 2 → Nat) a + S1x4096.size a ≤ S128x4096.size a
  inb_S128_S1_102 : ∀ a, (![102] : Fin 1 → Nat) a + S1.size a ≤ S128.size a
  inb_S128x4096_S1x4096_102_0 : ∀ a, (![102, 0] : Fin 2 → Nat) a + S1x4096.size a ≤ S128x4096.size a
  inb_S128_S1_103 : ∀ a, (![103] : Fin 1 → Nat) a + S1.size a ≤ S128.size a
  inb_S128x4096_S1x4096_103_0 : ∀ a, (![103, 0] : Fin 2 → Nat) a + S1x4096.size a ≤ S128x4096.size a
  inb_S128_S1_104 : ∀ a, (![104] : Fin 1 → Nat) a + S1.size a ≤ S128.size a
  inb_S128x4096_S1x4096_104_0 : ∀ a, (![104, 0] : Fin 2 → Nat) a + S1x4096.size a ≤ S128x4096.size a
  inb_S128_S1_105 : ∀ a, (![105] : Fin 1 → Nat) a + S1.size a ≤ S128.size a
  inb_S128x4096_S1x4096_105_0 : ∀ a, (![105, 0] : Fin 2 → Nat) a + S1x4096.size a ≤ S128x4096.size a
  inb_S128_S1_106 : ∀ a, (![106] : Fin 1 → Nat) a + S1.size a ≤ S128.size a
  inb_S128x4096_S1x4096_106_0 : ∀ a, (![106, 0] : Fin 2 → Nat) a + S1x4096.size a ≤ S128x4096.size a
  inb_S128_S1_107 : ∀ a, (![107] : Fin 1 → Nat) a + S1.size a ≤ S128.size a
  inb_S128x4096_S1x4096_107_0 : ∀ a, (![107, 0] : Fin 2 → Nat) a + S1x4096.size a ≤ S128x4096.size a
  inb_S128_S1_108 : ∀ a, (![108] : Fin 1 → Nat) a + S1.size a ≤ S128.size a
  inb_S128x4096_S1x4096_108_0 : ∀ a, (![108, 0] : Fin 2 → Nat) a + S1x4096.size a ≤ S128x4096.size a
  inb_S128_S1_109 : ∀ a, (![109] : Fin 1 → Nat) a + S1.size a ≤ S128.size a
  inb_S128x4096_S1x4096_109_0 : ∀ a, (![109, 0] : Fin 2 → Nat) a + S1x4096.size a ≤ S128x4096.size a
  inb_S128_S1_110 : ∀ a, (![110] : Fin 1 → Nat) a + S1.size a ≤ S128.size a
  inb_S128x4096_S1x4096_110_0 : ∀ a, (![110, 0] : Fin 2 → Nat) a + S1x4096.size a ≤ S128x4096.size a
  inb_S128_S1_111 : ∀ a, (![111] : Fin 1 → Nat) a + S1.size a ≤ S128.size a
  inb_S128x4096_S1x4096_111_0 : ∀ a, (![111, 0] : Fin 2 → Nat) a + S1x4096.size a ≤ S128x4096.size a
  inb_S128_S1_112 : ∀ a, (![112] : Fin 1 → Nat) a + S1.size a ≤ S128.size a
  inb_S128x4096_S1x4096_112_0 : ∀ a, (![112, 0] : Fin 2 → Nat) a + S1x4096.size a ≤ S128x4096.size a
  inb_S128_S1_113 : ∀ a, (![113] : Fin 1 → Nat) a + S1.size a ≤ S128.size a
  inb_S128x4096_S1x4096_113_0 : ∀ a, (![113, 0] : Fin 2 → Nat) a + S1x4096.size a ≤ S128x4096.size a
  inb_S128_S1_114 : ∀ a, (![114] : Fin 1 → Nat) a + S1.size a ≤ S128.size a
  inb_S128x4096_S1x4096_114_0 : ∀ a, (![114, 0] : Fin 2 → Nat) a + S1x4096.size a ≤ S128x4096.size a
  inb_S128_S1_115 : ∀ a, (![115] : Fin 1 → Nat) a + S1.size a ≤ S128.size a
  inb_S128x4096_S1x4096_115_0 : ∀ a, (![115, 0] : Fin 2 → Nat) a + S1x4096.size a ≤ S128x4096.size a
  inb_S128_S1_116 : ∀ a, (![116] : Fin 1 → Nat) a + S1.size a ≤ S128.size a
  inb_S128x4096_S1x4096_116_0 : ∀ a, (![116, 0] : Fin 2 → Nat) a + S1x4096.size a ≤ S128x4096.size a
  inb_S128_S1_117 : ∀ a, (![117] : Fin 1 → Nat) a + S1.size a ≤ S128.size a
  inb_S128x4096_S1x4096_117_0 : ∀ a, (![117, 0] : Fin 2 → Nat) a + S1x4096.size a ≤ S128x4096.size a
  inb_S128_S1_118 : ∀ a, (![118] : Fin 1 → Nat) a + S1.size a ≤ S128.size a
  inb_S128x4096_S1x4096_118_0 : ∀ a, (![118, 0] : Fin 2 → Nat) a + S1x4096.size a ≤ S128x4096.size a
  inb_S128_S1_119 : ∀ a, (![119] : Fin 1 → Nat) a + S1.size a ≤ S128.size a
  inb_S128x4096_S1x4096_119_0 : ∀ a, (![119, 0] : Fin 2 → Nat) a + S1x4096.size a ≤ S128x4096.size a
  inb_S128_S1_120 : ∀ a, (![120] : Fin 1 → Nat) a + S1.size a ≤ S128.size a
  inb_S128x4096_S1x4096_120_0 : ∀ a, (![120, 0] : Fin 2 → Nat) a + S1x4096.size a ≤ S128x4096.size a
  inb_S128_S1_121 : ∀ a, (![121] : Fin 1 → Nat) a + S1.size a ≤ S128.size a
  inb_S128x4096_S1x4096_121_0 : ∀ a, (![121, 0] : Fin 2 → Nat) a + S1x4096.size a ≤ S128x4096.size a
  inb_S128_S1_122 : ∀ a, (![122] : Fin 1 → Nat) a + S1.size a ≤ S128.size a
  inb_S128x4096_S1x4096_122_0 : ∀ a, (![122, 0] : Fin 2 → Nat) a + S1x4096.size a ≤ S128x4096.size a
  inb_S128_S1_123 : ∀ a, (![123] : Fin 1 → Nat) a + S1.size a ≤ S128.size a
  inb_S128x4096_S1x4096_123_0 : ∀ a, (![123, 0] : Fin 2 → Nat) a + S1x4096.size a ≤ S128x4096.size a
  inb_S128_S1_124 : ∀ a, (![124] : Fin 1 → Nat) a + S1.size a ≤ S128.size a
  inb_S128x4096_S1x4096_124_0 : ∀ a, (![124, 0] : Fin 2 → Nat) a + S1x4096.size a ≤ S128x4096.size a
  inb_S128_S1_125 : ∀ a, (![125] : Fin 1 → Nat) a + S1.size a ≤ S128.size a
  inb_S128x4096_S1x4096_125_0 : ∀ a, (![125, 0] : Fin 2 → Nat) a + S1x4096.size a ≤ S128x4096.size a
  inb_S128_S1_126 : ∀ a, (![126] : Fin 1 → Nat) a + S1.size a ≤ S128.size a
  inb_S128x4096_S1x4096_126_0 : ∀ a, (![126, 0] : Fin 2 → Nat) a + S1x4096.size a ≤ S128x4096.size a
  inb_S128_S1_127 : ∀ a, (![127] : Fin 1 → Nat) a + S1.size a ≤ S128.size a
  inb_S128x4096_S1x4096_127_0 : ∀ a, (![127, 0] : Fin 2 → Nat) a + S1x4096.size a ≤ S128x4096.size a
  inb_S128x4096_S128x4096_0_0 : ∀ a, (![0, 0] : Fin 2 → Nat) a + S128x4096.size a ≤ S128x4096.size a
  h_S128x4096 : 0 < S128x4096.numel
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  reduces_S128x4096_S128 : S128x4096.Reduces [1] S128
  shapeCasts_S128_S128x1 : S128.ShapeCasts S128x1
  reduces_S128x1_S1 : S128x1.Reduces [0] S1
  shapeCasts_S1_S1x1 : S1.ShapeCasts S1x1
  reducesTo_S4096_S_d0 : S4096.ReducesTo [0] S_
  h_S_ : 0 < S_.numel
  shapeCasts_S1x1_S_ : S1x1.ShapeCasts S_
  dot_S128x4096_S4096x4096_S128x4096_1_1_0_0_n_n_wf : DotDims.WF S128x4096 S4096x4096 S128x4096 [1] [1] [0] [0] [] []
  hcc0_scratch1 : 2 + S128.numel ≤ 134
  hrank0 : 0 < grid0.rank
  k0_off1_inb : ∀ i : grid0.Coords, ∀ a, (k0_off1 i) a + S1.size a ≤ S16384.size a
  k0_off3_inb : ∀ i : grid0.Coords, ∀ a, (k0_off3 i) a + S1.size a ≤ S16384.size a
  k0_off5_inb : ∀ i : grid0.Coords, ∀ a, (k0_off5 i) a + S1.size a ≤ S16384.size a
  k0_off7_inb : ∀ i : grid0.Coords, ∀ a, (k0_off7 i) a + S1.size a ≤ S16384.size a
  k0_off9_inb : ∀ i : grid0.Coords, ∀ a, (k0_off9 i) a + S1.size a ≤ S16384.size a
  k0_off11_inb : ∀ i : grid0.Coords, ∀ a, (k0_off11 i) a + S1.size a ≤ S16384.size a
  k0_off13_inb : ∀ i : grid0.Coords, ∀ a, (k0_off13 i) a + S1.size a ≤ S16384.size a
  k0_off15_inb : ∀ i : grid0.Coords, ∀ a, (k0_off15 i) a + S1.size a ≤ S16384.size a
  k0_off17_inb : ∀ i : grid0.Coords, ∀ a, (k0_off17 i) a + S1.size a ≤ S16384.size a
  k0_off19_inb : ∀ i : grid0.Coords, ∀ a, (k0_off19 i) a + S1.size a ≤ S16384.size a
  k0_off21_inb : ∀ i : grid0.Coords, ∀ a, (k0_off21 i) a + S1.size a ≤ S16384.size a
  k0_off23_inb : ∀ i : grid0.Coords, ∀ a, (k0_off23 i) a + S1.size a ≤ S16384.size a
  k0_off25_inb : ∀ i : grid0.Coords, ∀ a, (k0_off25 i) a + S1.size a ≤ S16384.size a
  k0_off27_inb : ∀ i : grid0.Coords, ∀ a, (k0_off27 i) a + S1.size a ≤ S16384.size a
  k0_off29_inb : ∀ i : grid0.Coords, ∀ a, (k0_off29 i) a + S1.size a ≤ S16384.size a
  k0_off31_inb : ∀ i : grid0.Coords, ∀ a, (k0_off31 i) a + S1.size a ≤ S16384.size a
  k0_off33_inb : ∀ i : grid0.Coords, ∀ a, (k0_off33 i) a + S1.size a ≤ S16384.size a
  k0_off35_inb : ∀ i : grid0.Coords, ∀ a, (k0_off35 i) a + S1.size a ≤ S16384.size a
  k0_off37_inb : ∀ i : grid0.Coords, ∀ a, (k0_off37 i) a + S1.size a ≤ S16384.size a
  k0_off39_inb : ∀ i : grid0.Coords, ∀ a, (k0_off39 i) a + S1.size a ≤ S16384.size a
  k0_off41_inb : ∀ i : grid0.Coords, ∀ a, (k0_off41 i) a + S1.size a ≤ S16384.size a
  k0_off43_inb : ∀ i : grid0.Coords, ∀ a, (k0_off43 i) a + S1.size a ≤ S16384.size a
  k0_off45_inb : ∀ i : grid0.Coords, ∀ a, (k0_off45 i) a + S1.size a ≤ S16384.size a
  k0_off47_inb : ∀ i : grid0.Coords, ∀ a, (k0_off47 i) a + S1.size a ≤ S16384.size a
  k0_off49_inb : ∀ i : grid0.Coords, ∀ a, (k0_off49 i) a + S1.size a ≤ S16384.size a
  k0_off51_inb : ∀ i : grid0.Coords, ∀ a, (k0_off51 i) a + S1.size a ≤ S16384.size a
  k0_off53_inb : ∀ i : grid0.Coords, ∀ a, (k0_off53 i) a + S1.size a ≤ S16384.size a
  k0_off55_inb : ∀ i : grid0.Coords, ∀ a, (k0_off55 i) a + S1.size a ≤ S16384.size a
  k0_off57_inb : ∀ i : grid0.Coords, ∀ a, (k0_off57 i) a + S1.size a ≤ S16384.size a
  k0_off59_inb : ∀ i : grid0.Coords, ∀ a, (k0_off59 i) a + S1.size a ≤ S16384.size a
  k0_off61_inb : ∀ i : grid0.Coords, ∀ a, (k0_off61 i) a + S1.size a ≤ S16384.size a
  k0_off63_inb : ∀ i : grid0.Coords, ∀ a, (k0_off63 i) a + S1.size a ≤ S16384.size a
  k0_off65_inb : ∀ i : grid0.Coords, ∀ a, (k0_off65 i) a + S1.size a ≤ S16384.size a
  k0_off67_inb : ∀ i : grid0.Coords, ∀ a, (k0_off67 i) a + S1.size a ≤ S16384.size a
  k0_off69_inb : ∀ i : grid0.Coords, ∀ a, (k0_off69 i) a + S1.size a ≤ S16384.size a
  k0_off71_inb : ∀ i : grid0.Coords, ∀ a, (k0_off71 i) a + S1.size a ≤ S16384.size a
  k0_off73_inb : ∀ i : grid0.Coords, ∀ a, (k0_off73 i) a + S1.size a ≤ S16384.size a
  k0_off75_inb : ∀ i : grid0.Coords, ∀ a, (k0_off75 i) a + S1.size a ≤ S16384.size a
  k0_off77_inb : ∀ i : grid0.Coords, ∀ a, (k0_off77 i) a + S1.size a ≤ S16384.size a
  k0_off79_inb : ∀ i : grid0.Coords, ∀ a, (k0_off79 i) a + S1.size a ≤ S16384.size a
  k0_off81_inb : ∀ i : grid0.Coords, ∀ a, (k0_off81 i) a + S1.size a ≤ S16384.size a
  k0_off83_inb : ∀ i : grid0.Coords, ∀ a, (k0_off83 i) a + S1.size a ≤ S16384.size a
  k0_off85_inb : ∀ i : grid0.Coords, ∀ a, (k0_off85 i) a + S1.size a ≤ S16384.size a
  k0_off87_inb : ∀ i : grid0.Coords, ∀ a, (k0_off87 i) a + S1.size a ≤ S16384.size a
  k0_off89_inb : ∀ i : grid0.Coords, ∀ a, (k0_off89 i) a + S1.size a ≤ S16384.size a
  k0_off91_inb : ∀ i : grid0.Coords, ∀ a, (k0_off91 i) a + S1.size a ≤ S16384.size a
  k0_off93_inb : ∀ i : grid0.Coords, ∀ a, (k0_off93 i) a + S1.size a ≤ S16384.size a
  k0_off95_inb : ∀ i : grid0.Coords, ∀ a, (k0_off95 i) a + S1.size a ≤ S16384.size a
  k0_off97_inb : ∀ i : grid0.Coords, ∀ a, (k0_off97 i) a + S1.size a ≤ S16384.size a
  k0_off99_inb : ∀ i : grid0.Coords, ∀ a, (k0_off99 i) a + S1.size a ≤ S16384.size a
  k0_off101_inb : ∀ i : grid0.Coords, ∀ a, (k0_off101 i) a + S1.size a ≤ S16384.size a
  k0_off103_inb : ∀ i : grid0.Coords, ∀ a, (k0_off103 i) a + S1.size a ≤ S16384.size a
  k0_off105_inb : ∀ i : grid0.Coords, ∀ a, (k0_off105 i) a + S1.size a ≤ S16384.size a
  k0_off107_inb : ∀ i : grid0.Coords, ∀ a, (k0_off107 i) a + S1.size a ≤ S16384.size a
  k0_off109_inb : ∀ i : grid0.Coords, ∀ a, (k0_off109 i) a + S1.size a ≤ S16384.size a
  k0_off111_inb : ∀ i : grid0.Coords, ∀ a, (k0_off111 i) a + S1.size a ≤ S16384.size a
  k0_off113_inb : ∀ i : grid0.Coords, ∀ a, (k0_off113 i) a + S1.size a ≤ S16384.size a
  k0_off115_inb : ∀ i : grid0.Coords, ∀ a, (k0_off115 i) a + S1.size a ≤ S16384.size a
  k0_off117_inb : ∀ i : grid0.Coords, ∀ a, (k0_off117 i) a + S1.size a ≤ S16384.size a
  k0_off119_inb : ∀ i : grid0.Coords, ∀ a, (k0_off119 i) a + S1.size a ≤ S16384.size a
  k0_off121_inb : ∀ i : grid0.Coords, ∀ a, (k0_off121 i) a + S1.size a ≤ S16384.size a
  k0_off123_inb : ∀ i : grid0.Coords, ∀ a, (k0_off123 i) a + S1.size a ≤ S16384.size a
  k0_off125_inb : ∀ i : grid0.Coords, ∀ a, (k0_off125 i) a + S1.size a ≤ S16384.size a
  k0_off127_inb : ∀ i : grid0.Coords, ∀ a, (k0_off127 i) a + S1.size a ≤ S16384.size a
  k0_off129_inb : ∀ i : grid0.Coords, ∀ a, (k0_off129 i) a + S1.size a ≤ S16384.size a
  k0_off131_inb : ∀ i : grid0.Coords, ∀ a, (k0_off131 i) a + S1.size a ≤ S16384.size a
  k0_off133_inb : ∀ i : grid0.Coords, ∀ a, (k0_off133 i) a + S1.size a ≤ S16384.size a
  k0_off135_inb : ∀ i : grid0.Coords, ∀ a, (k0_off135 i) a + S1.size a ≤ S16384.size a
  k0_off137_inb : ∀ i : grid0.Coords, ∀ a, (k0_off137 i) a + S1.size a ≤ S16384.size a
  k0_off139_inb : ∀ i : grid0.Coords, ∀ a, (k0_off139 i) a + S1.size a ≤ S16384.size a
  k0_off141_inb : ∀ i : grid0.Coords, ∀ a, (k0_off141 i) a + S1.size a ≤ S16384.size a
  k0_off143_inb : ∀ i : grid0.Coords, ∀ a, (k0_off143 i) a + S1.size a ≤ S16384.size a
  k0_off145_inb : ∀ i : grid0.Coords, ∀ a, (k0_off145 i) a + S1.size a ≤ S16384.size a
  k0_off147_inb : ∀ i : grid0.Coords, ∀ a, (k0_off147 i) a + S1.size a ≤ S16384.size a
  k0_off149_inb : ∀ i : grid0.Coords, ∀ a, (k0_off149 i) a + S1.size a ≤ S16384.size a
  k0_off151_inb : ∀ i : grid0.Coords, ∀ a, (k0_off151 i) a + S1.size a ≤ S16384.size a
  k0_off153_inb : ∀ i : grid0.Coords, ∀ a, (k0_off153 i) a + S1.size a ≤ S16384.size a
  k0_off155_inb : ∀ i : grid0.Coords, ∀ a, (k0_off155 i) a + S1.size a ≤ S16384.size a
  k0_off157_inb : ∀ i : grid0.Coords, ∀ a, (k0_off157 i) a + S1.size a ≤ S16384.size a
  k0_off159_inb : ∀ i : grid0.Coords, ∀ a, (k0_off159 i) a + S1.size a ≤ S16384.size a
  k0_off161_inb : ∀ i : grid0.Coords, ∀ a, (k0_off161 i) a + S1.size a ≤ S16384.size a
  k0_off163_inb : ∀ i : grid0.Coords, ∀ a, (k0_off163 i) a + S1.size a ≤ S16384.size a
  k0_off165_inb : ∀ i : grid0.Coords, ∀ a, (k0_off165 i) a + S1.size a ≤ S16384.size a
  k0_off167_inb : ∀ i : grid0.Coords, ∀ a, (k0_off167 i) a + S1.size a ≤ S16384.size a
  k0_off169_inb : ∀ i : grid0.Coords, ∀ a, (k0_off169 i) a + S1.size a ≤ S16384.size a
  k0_off171_inb : ∀ i : grid0.Coords, ∀ a, (k0_off171 i) a + S1.size a ≤ S16384.size a
  k0_off173_inb : ∀ i : grid0.Coords, ∀ a, (k0_off173 i) a + S1.size a ≤ S16384.size a
  k0_off175_inb : ∀ i : grid0.Coords, ∀ a, (k0_off175 i) a + S1.size a ≤ S16384.size a
  k0_off177_inb : ∀ i : grid0.Coords, ∀ a, (k0_off177 i) a + S1.size a ≤ S16384.size a
  k0_off179_inb : ∀ i : grid0.Coords, ∀ a, (k0_off179 i) a + S1.size a ≤ S16384.size a
  k0_off181_inb : ∀ i : grid0.Coords, ∀ a, (k0_off181 i) a + S1.size a ≤ S16384.size a
  k0_off183_inb : ∀ i : grid0.Coords, ∀ a, (k0_off183 i) a + S1.size a ≤ S16384.size a
  k0_off185_inb : ∀ i : grid0.Coords, ∀ a, (k0_off185 i) a + S1.size a ≤ S16384.size a
  k0_off187_inb : ∀ i : grid0.Coords, ∀ a, (k0_off187 i) a + S1.size a ≤ S16384.size a
  k0_off189_inb : ∀ i : grid0.Coords, ∀ a, (k0_off189 i) a + S1.size a ≤ S16384.size a
  k0_off191_inb : ∀ i : grid0.Coords, ∀ a, (k0_off191 i) a + S1.size a ≤ S16384.size a
  k0_off193_inb : ∀ i : grid0.Coords, ∀ a, (k0_off193 i) a + S1.size a ≤ S16384.size a
  k0_off195_inb : ∀ i : grid0.Coords, ∀ a, (k0_off195 i) a + S1.size a ≤ S16384.size a
  k0_off197_inb : ∀ i : grid0.Coords, ∀ a, (k0_off197 i) a + S1.size a ≤ S16384.size a
  k0_off199_inb : ∀ i : grid0.Coords, ∀ a, (k0_off199 i) a + S1.size a ≤ S16384.size a
  k0_off201_inb : ∀ i : grid0.Coords, ∀ a, (k0_off201 i) a + S1.size a ≤ S16384.size a
  k0_off203_inb : ∀ i : grid0.Coords, ∀ a, (k0_off203 i) a + S1.size a ≤ S16384.size a
  k0_off205_inb : ∀ i : grid0.Coords, ∀ a, (k0_off205 i) a + S1.size a ≤ S16384.size a
  k0_off207_inb : ∀ i : grid0.Coords, ∀ a, (k0_off207 i) a + S1.size a ≤ S16384.size a
  k0_off209_inb : ∀ i : grid0.Coords, ∀ a, (k0_off209 i) a + S1.size a ≤ S16384.size a
  k0_off211_inb : ∀ i : grid0.Coords, ∀ a, (k0_off211 i) a + S1.size a ≤ S16384.size a
  k0_off213_inb : ∀ i : grid0.Coords, ∀ a, (k0_off213 i) a + S1.size a ≤ S16384.size a
  k0_off215_inb : ∀ i : grid0.Coords, ∀ a, (k0_off215 i) a + S1.size a ≤ S16384.size a
  k0_off217_inb : ∀ i : grid0.Coords, ∀ a, (k0_off217 i) a + S1.size a ≤ S16384.size a
  k0_off219_inb : ∀ i : grid0.Coords, ∀ a, (k0_off219 i) a + S1.size a ≤ S16384.size a
  k0_off221_inb : ∀ i : grid0.Coords, ∀ a, (k0_off221 i) a + S1.size a ≤ S16384.size a
  k0_off223_inb : ∀ i : grid0.Coords, ∀ a, (k0_off223 i) a + S1.size a ≤ S16384.size a
  k0_off225_inb : ∀ i : grid0.Coords, ∀ a, (k0_off225 i) a + S1.size a ≤ S16384.size a
  k0_off227_inb : ∀ i : grid0.Coords, ∀ a, (k0_off227 i) a + S1.size a ≤ S16384.size a
  k0_off229_inb : ∀ i : grid0.Coords, ∀ a, (k0_off229 i) a + S1.size a ≤ S16384.size a
  k0_off231_inb : ∀ i : grid0.Coords, ∀ a, (k0_off231 i) a + S1.size a ≤ S16384.size a
  k0_off233_inb : ∀ i : grid0.Coords, ∀ a, (k0_off233 i) a + S1.size a ≤ S16384.size a
  k0_off235_inb : ∀ i : grid0.Coords, ∀ a, (k0_off235 i) a + S1.size a ≤ S16384.size a
  k0_off237_inb : ∀ i : grid0.Coords, ∀ a, (k0_off237 i) a + S1.size a ≤ S16384.size a
  k0_off239_inb : ∀ i : grid0.Coords, ∀ a, (k0_off239 i) a + S1.size a ≤ S16384.size a
  k0_off241_inb : ∀ i : grid0.Coords, ∀ a, (k0_off241 i) a + S1.size a ≤ S16384.size a
  k0_off243_inb : ∀ i : grid0.Coords, ∀ a, (k0_off243 i) a + S1.size a ≤ S16384.size a
  k0_off245_inb : ∀ i : grid0.Coords, ∀ a, (k0_off245 i) a + S1.size a ≤ S16384.size a
  k0_off247_inb : ∀ i : grid0.Coords, ∀ a, (k0_off247 i) a + S1.size a ≤ S16384.size a
  k0_off249_inb : ∀ i : grid0.Coords, ∀ a, (k0_off249 i) a + S1.size a ≤ S16384.size a
  k0_off251_inb : ∀ i : grid0.Coords, ∀ a, (k0_off251 i) a + S1.size a ≤ S16384.size a
  k0_off253_inb : ∀ i : grid0.Coords, ∀ a, (k0_off253 i) a + S1.size a ≤ S16384.size a
  k0_off255_inb : ∀ i : grid0.Coords, ∀ a, (k0_off255 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S128x4096.size a ≤ S16384x4096.size a
  hwx0_0 : ∀ i : grid0.Coords, EltTy.bits .bf16 = 32 ∨ (Rect.block (s := S16384x4096) S128x4096.size (cc0_transform_1 i) (hinb0_0 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S16384x4096.size a
  hwx1_0 : ∀ i : grid1.Coords, EltTy.bits .bf16 = 32 ∨ (Rect.block (s := S16384x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev cc0_scratch1 : DmaSems sig S128 := SemArray.consecutive 2 S128 hcc0_scratch1
def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev spec0_0 : Pipeline.WinSpec sig grid0.rank :=
  Pipeline.WinSpec.ofSpec (Memref.whole main_v1) S128x4096.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_v1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4x4096 : Shape := ⟨2, ![4, 4096]⟩
abbrev S50264x4096 : Shape := ⟨2, ![50264, 4096]⟩
abbrev S4096x4096 : Shape := ⟨2, ![4096, 4096]⟩
abbrev S4096 : Shape := ⟨1, ![4096]⟩
abbrev S_ : Shape := ⟨0, ![]⟩
abbrev S4x4096x1 : Shape := ⟨3, ![4, 4096, 1]⟩
abbrev S4x4096x4096 : Shape := ⟨3, ![4, 4096, 4096]⟩
abbrev S1x1x4096 : Shape := ⟨3, ![1, 1, 4096]⟩
abbrev S4x4096x32x128 : Shape := ⟨4, ![4, 4096, 32, 128]⟩
abbrev S4x32x4096x128 : Shape := ⟨4, ![4, 32, 4096, 128]⟩

abbrev nBuf : Space → Nat
  | .hbm => 21
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S50264x4096, .f32⟩
  | .hbm, ⟨2, _⟩ => ⟨S4096x4096, .f32⟩
  | .hbm, ⟨3, _⟩ => ⟨S4096, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S4x4096x4096, .f32⟩
  | .hbm, ⟨13, _⟩ => ⟨S4x4096x4096, .f32⟩
  | .hbm, ⟨14, _⟩ => ⟨S1x1x4096, .f32⟩
  | .hbm, ⟨15, _⟩ => ⟨S4x4096x4096, .f32⟩
  | .hbm, ⟨16, _⟩ => ⟨S4x4096x4096, .f32⟩
  | .hbm, ⟨17, _⟩ => ⟨S4x4096x32x128, .f32⟩
  | .hbm, ⟨18, _⟩ => ⟨S4x32x4096x128, .f32⟩
  | .hbm, ⟨19, _⟩ => ⟨S_, .f32⟩
  | .hbm, ⟨20, _⟩ => ⟨S_, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  shapeCasts_S4x4096x4096_S4x4096x32x128 : S4x4096x4096.ShapeCasts S4x4096x32x128
  transposes_S4x4096x32x128_S4x32x4096x128_0_2_1_3 : S4x4096x32x128.Transposes [0, 2, 1, 3] S4x32x4096x128
  reducesTo_S4x32x4096x128_S_d0_1_2_3 : S4x32x4096x128.ReducesTo [0, 1, 2, 3] S_
  h_S_ : 0 < S_.numel
  gather_S50264x4096_S4x4096x1_S4x4096x4096_2_0_n_n_0_2_14096_wf : GatherDims.WF S50264x4096 S4x4096x1 S4x4096x4096 [2] [0] [] [0] [] 2 ![1, 4096]
  dot_S4x4096x4096_S4096x4096_S4x4096x4096_2_1_01_0_n_n_wf : DotDims.WF S4x4096x4096 S4096x4096 S4x4096x4096 [2] [1] [0, 1] [0] [] []

variable [Facts₀]

def gather_S50264x4096_S4x4096x1_S4x4096x4096_2_0_n_n_0_2_14096 : GatherDims S50264x4096 S4x4096x1 S4x4096x4096 where
  offsetDims := [2]
  collapsedSliceDims := [0]
  operandBatchingDims := []
  startIndicesBatchingDims := []
  startIndexMap := [0]
  indexVectorDim := 2
  sliceSizes := ![1, 4096]
  wf := gather_S50264x4096_S4x4096x1_S4x4096x4096_2_0_n_n_0_2_14096_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.PreFacts.lean ====
import proofs.«402818_j61933428412865_1_alg».proof.Pre_finite_inputs
import Idealize.ShloMosaic.Lib.ReduceAll
import Idealize.ShloMosaic.Lib.StableHlo.Predicate
import Idealize.ShloMosaic.Lib.IdealHost

noncomputable section

namespace Cert.PreFacts

open Idealize.ShloMosaic Idealize.ShloMosaic.ValueIdx Cert.Pre_finite_inputs

variable [Cert.Pre_finite_inputs.Facts]

instance : Subsingleton S_.Idx := ⟨fun a b => funext fun d => d.elim0⟩

theorem conjuncts {F : FTy → Type} [FloatOps F] (ids : IVec S4x4096 32) (E : FVec F S50264x4096 .f32)
    (W : FVec F S4096x4096 .f32) (b : FVec F S4096 .f32)
    (h : Cert.Pre_finite_inputs.fn (F := F) ids E W b = fun _ => 1#1) :
    (∀ i, FloatOps.cmpf .olt (FloatOps.hostAbsf (E i)) (FloatOps.ofBits (F := F) .f32 0x7F800000#32) = 1#1)
    ∧ (∀ i, FloatOps.cmpf .olt (FloatOps.hostAbsf (W i)) (FloatOps.ofBits (F := F) .f32 0x7F800000#32) = 1#1)
    ∧ (∀ i, FloatOps.cmpf .olt (FloatOps.hostAbsf (b i)) (FloatOps.ofBits (F := F) .f32 0x7F800000#32) = 1#1)
    ∧ (∀ i, IntOp.cmpi .sge (ids i) 0#32 = 1#1)
    ∧ (∀ i, IntOp.cmpi .slt (ids i) 50264#32 = 1#1) := by
  have h0 := congrFun h ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun i => ?_⟩
  · have e := Host.reduce_andi_all _ _ _ _ _ h1 i
    rw [cmpf_apply, broadcastInDim_scalar_apply] at e
    exact e
  · have e := Host.reduce_andi_all _ _ _ _ _ h2 i
    rw [cmpf_apply, broadcastInDim_scalar_apply] at e
    exact e
  · have e := Host.reduce_andi_all _ _ _ _ _ h3 i
    rw [cmpf_apply, broadcastInDim_scalar_apply] at e
    exact e
  · have e := Host.reduce_andi_all _ _ _ _ _ h4 i
    have e' : IntOp.cmpi .sge (ids i) (broadcastInDim S4x4096 ![] Facts.bcast_S_S4x4096 (constantI S_ 32 0#32) i) = 1#1 := e
    rw [broadcastInDim_scalar_apply] at e'
    exact e'
  · have e := Host.reduce_andi_all _ _ _ _ _ h5 i
    have e' : IntOp.cmpi .slt (ids i) (broadcastInDim S4x4096 ![] Facts.bcast_S_S4x4096 (constantI S_ 32 50264#32) i) = 1#1 := e
    rw [broadcastInDim_scalar_apply] at e'
    exact e'

theorem toNat_lt_of_signed (w : BitVec 32) (h0 : IntOp.cmpi .sge w 0#32 = 1#1) (h1 : IntOp.cmpi .slt w 50264#32 = 1#1) :
    w.toNat < 50264 := by
  rw [IntOp.cmpi_sge] at h0
  rw [IntOp.cmpi_slt] at h1
  have z : (0#32 : BitVec 32).toInt = 0 := by decide
  have c : (50264#32 : BitVec 32).toInt = 50264 := by decide
  rw [z] at h0
  rw [c] at h1
  have hw := w.isLt
  rw [BitVec.toInt_eq_toNat_cond] at h0 h1
  split at h0 <;> omega

/-- An extended real whose absolute value is below +∞ is a real. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  rw [StableHlo.Predicate.ofBool_eq_one_iff] at h'
  have hlt : max x (-x) < ⊤ := of_decide_eq_true h'
  induction x using EReal.rec with
  | bot => simp at hlt
  | coe r => exact ⟨r, rfl⟩
  | top => simp at hlt

/-- The conjuncts 0 ≤ id and id < 50264, compares of signed words, put every id below the table's height. -/
theorem ids_lt {F : FTy → Type} [FloatOps F] (ids : IVec S4x4096 32) (E : FVec F S50264x4096 .f32)
    (W : FVec F S4096x4096 .f32) (b : FVec F S4096 .f32)
    (h : Cert.Pre_finite_inputs.fn (F := F) ids E W b = fun _ => 1#1) : ∀ i, (ids i).toNat < 50264 := fun i =>
  toNat_lt_of_signed (ids i) ((conjuncts ids E W b h).2.2.2.1 i) ((conjuncts ids E W b h).2.2.2.2 i)

theorem finite_E (ids : IVec S4x4096 32) (E : FVec Ideal S50264x4096 .f32) (W : FVec Ideal S4096x4096 .f32)
    (b : FVec Ideal S4096 .f32) (h : Cert.Pre_finite_inputs.fn (F := Ideal) ids E W b = fun _ => 1#1) :
    ∀ i, ∃ r : ℝ, E i = (r : EReal) := fun i => real_of_abs_lt_inf (E i) ((conjuncts ids E W b h).1 i)

theorem finite_W (ids : IVec S4x4096 32) (E : FVec Ideal S50264x4096 .f32) (W : FVec Ideal S4096x4096 .f32)
    (b : FVec Ideal S4096 .f32) (h : Cert.Pre_finite_inputs.fn (F := Ideal) ids E W b = fun _ => 1#1) :
    ∀ i, ∃ r : ℝ, W i = (r : EReal) := fun i => real_of_abs_lt_inf (W i) ((conjuncts ids E W b h).2.1 i)

theorem finite_b (ids : IVec S4x4096 32) (E : FVec Ideal S50264x4096 .f32) (W : FVec Ideal S4096x4096 .f32)
    (b : FVec Ideal S4096 .f32) (h : Cert.Pre_finite_inputs.fn (F := Ideal) ids E W b = fun _ => 1#1) :
    ∀ i, ∃ r : ℝ, b i = (r : EReal) := fun i => real_of_abs_lt_inf (b i) ((conjuncts ids E W b h).2.2.1 i)

end Cert.PreFacts

end
-- ==== Proof.Spec.lean ====
import Idealize.ShloMosaic.Lib.ValueIdx
import Idealize.ShloMosaic.PureOps.Ideal

noncomputable section

namespace Cert.Spec

open Idealize.ShloMosaic Idealize.ShloMosaic.ValueIdx

abbrev SIds : Shape := ⟨2, ![4, 4096]⟩
abbrev STab : Shape := ⟨2, ![50264, 4096]⟩
abbrev SW : Shape := ⟨2, ![4096, 4096]⟩
abbrev SB : Shape := ⟨1, ![4096]⟩

def rowOf (v : BitVec 32) : Fin 50264 := ⟨v.toNat % 50264, Nat.mod_lt _ (by decide)⟩

theorem rowOf_val_of_lt {v : BitVec 32} (h : v.toNat < 50264) : (rowOf v).val = v.toNat := Nat.mod_eq_of_lt h

def tok (ids : SIds.Idx → BitVec 32) (n : Fin 16384) : BitVec 32 :=
  ids (ix2 ⟨n.val / 4096, by have := n.isLt; omega⟩ ⟨n.val % 4096, Nat.mod_lt _ (by decide)⟩)

def emb (ids : SIds.Idx → BitVec 32) (E : STab.Idx → EReal) (n : Fin 16384) (d : Fin 4096) : EReal :=
  E (ix2 (rowOf (tok ids n)) d)

/-- The projection summed whole: over tokens, features and the contracted axis, the id's table row times the weight row. -/
def mm (ids : SIds.Idx → BitVec 32) (E : STab.Idx → EReal) (W : SW.Idx → EReal) : EReal :=
  ∑ n : Fin 16384, ∑ e : Fin 4096, ∑ d : Fin 4096, emb ids E n d * W (ix2 e d)

/-- The common value both programs end at: the projection's sum plus 16384 times the bias' sum. -/
def total (ids : SIds.Idx → BitVec 32) (E : STab.Idx → EReal) (W : SW.Idx → EReal) (b : SB.Idx → EReal) : EReal :=
  mm ids E W + (∑ e : Fin 4096, b (ix1 e)) * ((16384 : ℝ) : EReal)

end Cert.Spec

end
-- ==== Proof.RefValue.lean ====
import proofs.«402818_j61933428412865_1_alg».proof.Proof.Spec
import proofs.«402818_j61933428412865_1_alg».proof.Proof.Gen.ReferenceIdeal.Run
import proofs.«402818_j61933428412865_1_alg».proof.Proof.Gen.ReferenceIdeal.Read
import Idealize.ShloMosaic.Lib.ValueIdx
import Idealize.ShloMosaic.Lib.StableHlo.Predicate
import Idealize.ShloMosaic.PureOps.Ideal.Laws
import Mathlib.Data.EReal.Basic
import Mathlib.Algebra.BigOperators.Fin
import Mathlib.Algebra.BigOperators.Ring.Finset

noncomputable section

open scoped BigOperators

namespace Cert.RefValue

open Idealize.ShloMosaic Idealize.ShloMosaic.ValueIdx
open Cert.ReferenceIdeal Cert.ReferenceIdeal.Gen Cert.ReferenceIdeal.Read
open Cert.Spec

theorem slt_zero_of_lt {v : BitVec 32} (h : v.toNat < 50264) : IntOp.cmpi .slt v 0#32 = 0#1 := by
  refine eq_zero_of_ne_one fun h1 => ?_
  have h2 := (StableHlo.Predicate.slt_iff_toNat (a := v) (b := 0#32) (by omega) (by decide)).mp h1
  exact absurd h2 (Nat.not_lt_zero _)

theorem toInt_toNat_of_lt {v : BitVec 32} (h : v.toNat < 50264) : v.toInt.toNat = v.toNat := by
  rw [BitVec.toInt_eq_toNat_of_lt (by omega)]
  omega

section Ids

variable (ids : (⟨S4x4096, .i32⟩ : BufTy).Contents (Elt Ideal)) (hids : ∀ i, (ids i).toNat < 50264)
include hids

theorem val_main_v4_of_lt (i : S4x4096.Idx) : val_main_v4 (F := Ideal) ids i = ids i := by
  rw [val_main_v4_apply, val_main_v1_apply, val_main_v0_apply, val_main_c_apply, slt_zero_of_lt (hids i), select_zero]

theorem val_main_v5_of_lt (b : Fin 4) (s : Fin 4096) :
    val_main_v5 (F := Ideal) ids (ix3 b s (0 : Fin 1)) = ids (ix2 b s) := by
  have e5 : idx_main_v5 (ix3 b s (0 : Fin 1)) = ix2 b s := by
    funext a
    match a with
    | ⟨0, _⟩ => rfl
    | ⟨1, _⟩ => rfl
  rw [val_main_v5_apply, val_main_v4_of_lt ids hids, e5]

end Ids

/-- The reference's gather reads, of the table, the row its clamped index names. -/
theorem gather_row {α : Type} (x : S50264x4096.Idx → α) (idx : IVec S4x4096x1 32) (b : Fin 4) (s : Fin 4096) (k : Fin 4096)
    (r : Fin 50264) (hr : r.val = min (idx (ix3 b s (0 : Fin 1))).toInt.toNat 50263) :
    Host.gather gather_S50264x4096_S4x4096x1_S4x4096x4096_2_0_n_n_0_2_14096 x idx (ix3 b s k) = x (ix2 r k) := by
  unfold Host.gather
  congr 1
  funext a
  refine Fin.ext ?_
  match a with
  | ⟨0, _⟩ =>
    show gather_S50264x4096_S4x4096x1_S4x4096x4096_2_0_n_n_0_2_14096.start (ix3 b s k) idx 0
        + gather_S50264x4096_S4x4096x1_S4x4096x4096_2_0_n_n_0_2_14096.batchCoord (ix3 b s k) 0
        + gather_S50264x4096_S4x4096x1_S4x4096x4096_2_0_n_n_0_2_14096.offCoord (ix3 b s k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50264x4096_S4x4096x1_S4x4096x4096_2_0_n_n_0_2_14096.startIndexMap from
      List.mem_singleton.mpr rfl)]
    have hsi : gather_S50264x4096_S4x4096x1_S4x4096x4096_2_0_n_n_0_2_14096.siIdx (ix3 b s k)
        ⟨List.idxOf (0 : Fin 2) gather_S50264x4096_S4x4096x1_S4x4096x4096_2_0_n_n_0_2_14096.startIndexMap,
          List.idxOf_lt_length_iff.2 (List.mem_singleton.mpr rfl)⟩ = ix3 b s (0 : Fin 1) := by
      funext c
      refine Fin.ext ?_
      match c with
      | ⟨0, _⟩ => rfl
      | ⟨1, _⟩ => rfl
      | ⟨2, _⟩ => rfl
    rw [hsi, hr]
    rfl
  | ⟨1, _⟩ =>
    show gather_S50264x4096_S4x4096x1_S4x4096x4096_2_0_n_n_0_2_14096.start (ix3 b s k) idx 1
        + gather_S50264x4096_S4x4096x1_S4x4096x4096_2_0_n_n_0_2_14096.batchCoord (ix3 b s k) 1
        + gather_S50264x4096_S4x4096x1_S4x4096x4096_2_0_n_n_0_2_14096.offCoord (ix3 b s k) 1 = k.val
    rw [GatherDims.batchCoord_eq_zero _ _ _ List.not_mem_nil]
    unfold GatherDims.start
    rw [dif_neg (show ¬(1 : Fin 2) ∈ gather_S50264x4096_S4x4096x1_S4x4096x4096_2_0_n_n_0_2_14096.startIndexMap by decide)]
    unfold GatherDims.offCoord
    rw [dif_pos (show (1 : Fin 2) ∈ gather_S50264x4096_S4x4096x1_S4x4096x4096_2_0_n_n_0_2_14096.sKept by decide),
      Nat.zero_add]
    rfl

section Stages

variable (ids : (⟨S4x4096, .i32⟩ : BufTy).Contents (Elt Ideal))
  (E : (⟨S50264x4096, .f32⟩ : BufTy).Contents (Elt Ideal))
  (Wt : (⟨S4096x4096, .f32⟩ : BufTy).Contents (Elt Ideal))
  (bs : (⟨S4096, .f32⟩ : BufTy).Contents (Elt Ideal))
  (hids : ∀ i, (ids i).toNat < 50264)
include hids

theorem val_main_v6_apply (b : Fin 4) (s : Fin 4096) (k : Fin 4096) :
    val_main_v6 (F := Ideal) ids E (ix3 b s k) = E (ix2 (rowOf (ids (ix2 b s))) k) := by
  unfold val_main_v6
  refine gather_row E (val_main_v5 (F := Ideal) ids) b s k (rowOf (ids (ix2 b s))) ?_
  rw [val_main_v5_of_lt ids hids, toInt_toNat_of_lt (hids _), rowOf_val_of_lt (hids _)]
  exact (Nat.min_eq_left (by have := hids (ix2 b s); omega)).symm

theorem val_main_v12_at (b : Fin 4) (h : Fin 32) (s : Fin 4096) (x : Fin 128) (e : Fin 4096)
    (he : e.val = h.val * 128 + x.val) :
    val_main_v12 (F := Ideal) ids E Wt bs (ix4 b h s x)
      = (∑ k : Fin 4096, E (ix2 (rowOf (ids (ix2 b s))) k) * Wt (ix2 e k)) + bs (ix1 e) := by
  have e11 : idx_main_v11 (idx_main_v12 (ix4 b h s x)) = ix3 b s e := by
    have hb := b.isLt; have hh := h.isLt; have hs := s.isLt; have hx := x.isLt
    funext a
    match a with
    | ⟨0, _⟩ => exact Fin.ext (by show (((b.val * 4096 + s.val) * 32 + h.val) * 128 + x.val) / 16777216 = b.val; omega)
    | ⟨1, _⟩ => exact Fin.ext (by show (((b.val * 4096 + s.val) * 32 + h.val) * 128 + x.val) / 4096 % 4096 = s.val; omega)
    | ⟨2, _⟩ => exact Fin.ext (by show (((b.val * 4096 + s.val) * 32 + h.val) * 128 + x.val) % 4096 = e.val; omega)
  have e9 : idx_main_v8 (idx_main_v9 (ix3 b s e)) = ix1 e := by
    funext a
    match a with
    | ⟨0, _⟩ => rfl
  rw [val_main_v12_apply, val_main_v11_apply, e11, val_main_v10_apply, val_main_v7_apply, val_main_v9_apply,
    val_main_v8_apply, e9, Ideal.addf_def]
  congr 1
  refine Finset.sum_congr rfl fun k _ => ?_
  have el : lidx_main_v7 (ix3 b s e) k = ix3 b s k := by
    funext a
    match a with
    | ⟨0, _⟩ => rfl
    | ⟨1, _⟩ => rfl
    | ⟨2, _⟩ => rfl
  have er : ridx_main_v7 (ix3 b s e) k = ix2 e k := by
    funext a
    match a with
    | ⟨0, _⟩ => rfl
    | ⟨1, _⟩ => rfl
  rw [el, er, val_main_v6_apply ids E hids]

theorem val_main_v12_tok (n : Fin 16384) (e : Fin 4096) :
    val_main_v12 (F := Ideal) ids E Wt bs
        (ix4 (⟨n.val / 4096, by have := n.isLt; omega⟩ : Fin 4) (⟨e.val / 128, by have := e.isLt; omega⟩ : Fin 32)
          (⟨n.val % 4096, Nat.mod_lt _ (by decide)⟩ : Fin 4096) (⟨e.val % 128, Nat.mod_lt _ (by decide)⟩ : Fin 128))
      = (∑ d : Fin 4096, emb ids E n d * Wt (ix2 e d)) + bs (ix1 e) := by
  rw [val_main_v12_at ids E Wt bs hids _ _ _ _ e (by show e.val = e.val / 128 * 128 + e.val % 128; omega)]
  simp only [emb, tok]

end Stages

def idxEquiv : S4x32x4096x128.Idx ≃ Fin 16384 × Fin 4096 where
  toFun j :=
    (⟨(j 0).val * 4096 + (j 2).val, by
        have h0 : (j 0).val < 4 := (j 0).isLt
        have h2 : (j 2).val < 4096 := (j 2).isLt
        omega⟩,
     ⟨(j 1).val * 128 + (j 3).val, by
        have h1 : (j 1).val < 32 := (j 1).isLt
        have h3 : (j 3).val < 128 := (j 3).isLt
        omega⟩)
  invFun p :=
    ix4 (⟨p.1.val / 4096, by have := p.1.isLt; omega⟩ : Fin 4) (⟨p.2.val / 128, by have := p.2.isLt; omega⟩ : Fin 32)
      (⟨p.1.val % 4096, Nat.mod_lt _ (by decide)⟩ : Fin 4096) (⟨p.2.val % 128, Nat.mod_lt _ (by decide)⟩ : Fin 128)
  left_inv j := by
    have h0 : (j 0).val < 4 := (j 0).isLt
    have h1 : (j 1).val < 32 := (j 1).isLt
    have h2 : (j 2).val < 4096 := (j 2).isLt
    have h3 : (j 3).val < 128 := (j 3).isLt
    funext a
    match a with
    | ⟨0, _⟩ => exact Fin.ext (by show ((j 0).val * 4096 + (j 2).val) / 4096 = (j 0).val; omega)
    | ⟨1, _⟩ => exact Fin.ext (by show ((j 1).val * 128 + (j 3).val) / 128 = (j 1).val; omega)
    | ⟨2, _⟩ => exact Fin.ext (by show ((j 0).val * 4096 + (j 2).val) % 4096 = (j 2).val; omega)
    | ⟨3, _⟩ => exact Fin.ext (by show ((j 1).val * 128 + (j 3).val) % 128 = (j 3).val; omega)
  right_inv p := by
    obtain ⟨n, e⟩ := p
    refine Prod.ext (Fin.ext ?_) (Fin.ext ?_)
    · show n.val / 4096 * 4096 + n.val % 4096 = n.val
      omega
    · show e.val / 128 * 128 + e.val % 128 = e.val
      omega

theorem coe_sum {ι : Type} (s : Finset ι) (f : ι → ℝ) : ∑ i ∈ s, ((f i : ℝ) : EReal) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

theorem sum_const_tokens (r : ℝ) : ∑ _n : Fin 16384, (r : EReal) = (r : EReal) * ((16384 : ℝ) : EReal) := by
  rw [Finset.sum_const, Finset.card_univ, Fintype.card_fin, ← EReal.coe_nsmul, ← EReal.coe_mul, nsmul_eq_mul,
    Nat.cast_ofNat, mul_comm]

/-- The reference's result is the common value: its heads-and-lanes layout is a bijection of (token, feature) pairs, and the bias sums apart from the projection because every entry is a real. -/
theorem ref_eq
    (ids : (⟨S4x4096, .i32⟩ : BufTy).Contents (Elt Ideal))
    (E : (⟨S50264x4096, .f32⟩ : BufTy).Contents (Elt Ideal))
    (Wt : (⟨S4096x4096, .f32⟩ : BufTy).Contents (Elt Ideal))
    (bs : (⟨S4096, .f32⟩ : BufTy).Contents (Elt Ideal))
    (hids : ∀ i, (ids i).toNat < 50264)
    (hE : ∀ i, ∃ r : ℝ, E i = (r : EReal)) (hW : ∀ i, ∃ r : ℝ, Wt i = (r : EReal)) (hb : ∀ i, ∃ r : ℝ, bs i = (r : EReal)) :
    val_main_v13 (F := Ideal) ids E Wt bs = fun _ => Cert.Spec.total ids E Wt bs := by
  funext i
  show val_main_v13 (F := Ideal) ids E Wt bs i = total ids E Wt bs
  rw [val_main_v13_apply, val_main_cst_apply,
    show (FloatOps.ofBits .f32 0x00000000#32 : Ideal .f32) = 0 from Ideal.ofBits_zero_f32, zero_add]

  refine ((Equiv.sum_comp idxEquiv.symm _).symm.trans ?_)
  rw [Fintype.sum_prod_type]
  have hterm : ∀ (n : Fin 16384) (e : Fin 4096), val_main_v12 (F := Ideal) ids E Wt bs (idxEquiv.symm (n, e))
      = (∑ d : Fin 4096, emb ids E n d * Wt (ix2 e d)) + bs (ix1 e) := fun n e => val_main_v12_tok ids E Wt bs hids n e
  simp only [hterm, Finset.sum_add_distrib]

  choose rb hrb using hb
  have hB : ∑ e : Fin 4096, bs (ix1 e) = ((∑ e : Fin 4096, rb (ix1 e) : ℝ) : EReal) := by
    simp only [hrb]
    exact coe_sum _ _
  rw [total, mm, hB, sum_const_tokens]

end Cert.RefValue

end
-- ==== Proof.K.Common.lean ====
import proofs.«402818_j61933428412865_1_alg».proof.Proof.Gen.Kernel.Launch
import proofs.«402818_j61933428412865_1_alg».proof.Proof.Gen.Kernel.Skeleton
import proofs.«402818_j61933428412865_1_alg».proof.Proof.Gen.Kernel.Points
import proofs.«402818_j61933428412865_1_alg».proof.Proof.Gen.Kernel.Regions
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev c0 : Dev nD := 0

def tbl : pre0.Contents (Elt F) := fun k => match k with
  | ⟨0, _⟩ => V1 m c0 main_v0

def adm : (p : Fin 2) → (pcfgs (F := F) p).Adm
  | ⟨0, _⟩ => ⟨tbl m, trivial⟩
  | ⟨1, _⟩ => cfg1.toPCfg_adm

abbrev osem0 : Fin 128 → SemLoc sig := fun j => SemLoc.dma ⟨2 + j.val, by have := j.isLt; show 2 + j.val < 134; omega⟩

theorem ownSemFacts0 : Pipeline.OwnSemFacts spec0 osem0 := by decide

abbrev scM0 : Memref sig .tc .vmem S128x4096 .f32 := Memref.whole cc0_scratch0
abbrev hbM0 : Memref sig .tc .hbm S50264x4096 .f32 := Memref.whole main_arg1
abbrev tbM0 : Memref sig .tc .smem S16384 .i32 := Memref.whole main_v0
abbrev accM1 : Memref sig .tc .vmem S1x1 .f32 := Memref.whole cc1_scratch0

end Cert.Kernel.Hand

end
-- ==== Proof.K.TableFacts.lean ====
import proofs.«402818_j61933428412865_1_alg».proof.Proof.Gen.Kernel.Launch
import proofs.«402818_j61933428412865_1_alg».proof.Proof.Gen.Kernel.Skeleton
import proofs.«402818_j61933428412865_1_alg».proof.Proof.Gen.Kernel.Points
import proofs.«402818_j61933428412865_1_alg».proof.Proof.Gen.Kernel.Regions
import proofs.«402818_j61933428412865_1_alg».proof.Proof.K.Common
import proofs.«402818_j61933428412865_1_alg».proof.Proof.Spec
import Idealize.ShloMosaic.Lib.Pipeline.Value
import Idealize.ShloMosaic.Lib.ValueIdx
import Idealize.ShloMosaic.Lib.StableHlo.Run
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ)

abbrev idsOf : Buf (Elt F) ((c0 : Thread nD τ).loc main_arg0) := m ((c0 : Thread nD τ).loc main_arg0)

theorem tbl_eq : (tbl m ⟨0, Nat.zero_lt_one⟩ : S16384.Idx → BitVec 32) = shapeCast S16384 (idsOf m) shapeCasts_S4x4096_S16384 := by
  show StableHlo.after hostOps0 (fun b => m (c0, b)) (Proc.devRef .tc main_v0) = _
  after_results
  rfl

theorem tbl_apply (n : Fin 16384) :
    (tbl m ⟨0, Nat.zero_lt_one⟩ : S16384.Idx → BitVec 32) (ix1 n)
      = (idsOf m : S4x4096.Idx → BitVec 32) (ix2 ⟨n.val / 4096, by have := n.isLt; omega⟩ ⟨n.val % 4096, Nat.mod_lt _ (by decide)⟩) := by
  rw [tbl_eq]
  refine shapeCast_apply _ _ _ _ ?_
  show ((⟨2, ![4, 4096]⟩ : Shape).rowMajor _).val = ((⟨1, ![16384]⟩ : Shape).rowMajor _).val
  rw [Shape.rowMajor_val_two, Shape.rowMajor_val_one]
  show (n.val / 4096) * 4096 + n.val % 4096 = n.val
  omega

theorem tbl_lt (h : ∀ i, ((idsOf m : S4x4096.Idx → BitVec 32) i).toNat < 50264) (k : S16384.Idx) :
    ((tbl m ⟨0, Nat.zero_lt_one⟩ : S16384.Idx → BitVec 32) k).toNat < 50264 := by
  obtain ⟨n, rfl⟩ : ∃ n : Fin 16384, k = ix1 n := ⟨k 0, eq_ix1 k⟩
  rw [tbl_apply]; exact h _

/-- Entry `n` of the flattened table is the id of token `n`. -/
theorem tbl_tok (n : Fin 16384) :
    (tbl m ⟨0, Nat.zero_lt_one⟩ : S16384.Idx → BitVec 32) (ix1 n) = Cert.Spec.tok (idsOf m : S4x4096.Idx → BitVec 32) n := by
  rw [tbl_apply]; rfl

end Cert.Kernel.Hand

end
-- ==== Proof.LibRowsJoin.lean ====
import Idealize.ShloMosaic.Lib.Pipeline.Frame
import Idealize.ShloMosaic.Rules.PointsTo
import Idealize.ShloMosaic.Lib.ValueIdx
import Idealize.ShloMosaic.Lib.Writes

noncomputable section

namespace Idealize.ShloMosaic.RowsJoin

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.ValueIdx

variable {sig : RefSig} {κ : Kind} {sp : Space} {e : EltTy} {Val : EltTy → Type} {R C : ℕ}

abbrev rowOf (M : Memref sig κ sp ⟨2, ![R, C]⟩ e) (j : ℕ)
    (hinb : ∀ a, (![j, 0] : Fin 2 → ℕ) a + (![1, C] : Fin 2 → ℕ) a ≤ (⟨2, ![R, C]⟩ : Shape).size a)
    (hfun : ∀ a, (Rect.unit (s := ⟨2, ![R, C]⟩) ![j, 0] ![1, C] hinb).stride a = 1)
    (hsq : (Rect.unit (s := ⟨2, ![R, C]⟩) ![j, 0] ![1, C] hinb).shape.Squeezes ⟨1, ![C]⟩) :
    Memref sig κ sp ⟨1, ![C]⟩ e :=
  (M.slice (Rect.unit (s := ⟨2, ![R, C]⟩) ![j, 0] ![1, C] hinb) hfun).squeeze ⟨1, ![C]⟩ hsq

theorem row_inb {j : ℕ} (hj : j < R) :
    ∀ a, (![j, 0] : Fin 2 → ℕ) a + (![1, C] : Fin 2 → ℕ) a ≤ (⟨2, ![R, C]⟩ : Shape).size a :=
  Rect.inb₂ (by simpa using hj) (by simp)

theorem row_lt {j : ℕ}
    (hinb : ∀ a, (![j, 0] : Fin 2 → ℕ) a + (![1, C] : Fin 2 → ℕ) a ≤ (⟨2, ![R, C]⟩ : Shape).size a) : j < R := by
  have h := hinb 0
  simp at h
  omega

theorem reshape_row {s' : Shape} (hs' : s' = ⟨2, ![1, C]⟩) (h : (⟨1, ![C]⟩ : Shape).numel = s'.numel) (y : Fin C) :
    Shape.reshapeEquiv h (ix1 y) = hs' ▸ (ix2 (⟨0, Nat.one_pos⟩ : Fin 1) y) := by
  subst hs'
  exact Shape.reshapeEquiv_eq_of_rowMajor h (by
    rw [Shape.rowMajor_val_two, Shape.rowMajor_val_one]
    show (0 : ℕ) * C + (y : ℕ) = (y : ℕ)
    omega)

/-- Row `j`'s index `y` sits in the buffer where the whole memref's index (j, y) sits. -/
theorem rowOf_emb (M : Memref sig κ sp ⟨2, ![R, C]⟩ e) (j : ℕ) (hinb) (hfun) (hsq) (hj : j < R) (y : Fin C) :
    (rowOf M j hinb hfun hsq).view.emb (ix1 y) = M.view.emb (ix2 ⟨j, hj⟩ y) := by
  show M.view.emb ((Rect.unit (s := ⟨2, ![R, C]⟩) ![j, 0] ![1, C] hinb).emb
    (Shape.reshapeEquiv (Shape.Squeezes.numel_eq hsq) (ix1 y))) = _
  congr 1
  rw [reshape_row (s' := (Rect.unit (s := ⟨2, ![R, C]⟩) ![j, 0] ![1, C] hinb).shape) rfl]
  funext a
  apply Fin.ext
  match a with
  | ⟨0, _⟩ => simp [Rect.emb_apply]
  | ⟨1, _⟩ => simp [Rect.emb_apply]

theorem row_set_eq (M : Memref sig κ sp ⟨2, ![R, C]⟩ e) (j : ℕ) (hinb) (hfun) (hsq) :
    (rowOf M j hinb hfun hsq).view.set
      = (Rect.unit (s := ⟨2, ![R, C]⟩) ![j, 0] ![1, C] hinb).set.map M.view.emb := by
  show ((M.view.slice _).reshape _ _).set = _
  rw [View.set_reshape, View.set_slice]

theorem row_set_subset (M : Memref sig κ sp ⟨2, ![R, C]⟩ e) (j : ℕ) (hinb) (hfun) (hsq) :
    (rowOf M j hinb hfun hsq).view.set ⊆ M.view.set := by
  show ((M.view.slice _).reshape _ _).set ⊆ _
  rw [View.set_reshape]
  exact View.set_slice_subset _ _

theorem row_set_disjoint (M : Memref sig κ sp ⟨2, ![R, C]⟩ e) {j j' : ℕ} (hinb) (hfun) (hsq) (hinb') (hfun') (hsq')
    (h : j ≠ j') :
    Disjoint (rowOf M j hinb hfun hsq).view.set (rowOf M j' hinb' hfun' hsq').view.set := by
  rw [row_set_eq, row_set_eq, Finset.disjoint_map]
  refine Rect.unit_disjoint (0 : Fin 2) ?_
  show j + 1 ≤ j' ∨ j' + 1 ≤ j
  omega

theorem row_set_biUnion (M : Memref sig κ sp ⟨2, ![R, C]⟩ e)
    (hinb : ∀ j : Fin R, ∀ a, (![j.val, 0] : Fin 2 → ℕ) a + (![1, C] : Fin 2 → ℕ) a ≤ (⟨2, ![R, C]⟩ : Shape).size a)
    (hfun : ∀ j : Fin R, ∀ a, (Rect.unit (s := ⟨2, ![R, C]⟩) ![j.val, 0] ![1, C] (hinb j)).stride a = 1)
    (hsq : ∀ j : Fin R, (Rect.unit (s := ⟨2, ![R, C]⟩) ![j.val, 0] ![1, C] (hinb j)).shape.Squeezes ⟨1, ![C]⟩) :
    (Finset.univ : Finset (Fin R)).biUnion
        (fun j => ((rowOf M j.val (hinb j) (hfun j) (hsq j)).view.set : Finset M.view.ty.Idx))
      = M.view.set := by
  ext i
  simp only [Finset.mem_biUnion, Finset.mem_univ, true_and]
  constructor
  · rintro ⟨j, hj⟩
    exact row_set_subset M j.val (hinb j) (hfun j) (hsq j) hj
  · intro hi
    obtain ⟨z, -, rfl⟩ := Finset.mem_map.mp hi
    refine ⟨z 0, ?_⟩
    have hz : M.view.emb z = (rowOf M (z 0).val (hinb (z 0)) (hfun (z 0)) (hsq (z 0))).view.emb (ix1 (z 1)) := by
      rw [rowOf_emb M (z 0).val (hinb (z 0)) (hfun (z 0)) (hsq (z 0)) (z 0).isLt (z 1)]
      exact congrArg _ (eq_ix2 z)
    rw [hz]
    exact View.emb_mem_set _ _

theorem unread_emb {s : Shape} {m : Memref sig κ sp s e} (hm : m.IsWhole) (X : s.Idx → Val e) (z : s.Idx) :
    hm.unread X (m.view.emb z) = cast (congrArg Val m.view.elt_eq.symm) (X z) := by
  have h := congrFun (hm.read_unread X) z
  rw [View.read_apply] at h
  rw [← h, cast_cast, cast_eq]

theorem unread_agrees_row (M : Memref sig κ sp ⟨2, ![R, C]⟩ e) (hM : M.IsWhole) (X : (⟨2, ![R, C]⟩ : Shape).Idx → Val e)
    (f₀ : M.view.ty.Contents Val) (j : Fin R) (hinb) (hfun) (hsq) (p : (⟨1, ![C]⟩ : Shape).Idx → Val e)
    (hp : ∀ y : Fin C, p (ix1 y) = X (ix2 j y)) :
    ∀ idx ∈ (rowOf M j.val hinb hfun hsq).view.set,
      hM.unread X idx = (rowOf M j.val hinb hfun hsq).view.write Val f₀ p Finset.univ idx := by
  intro idx hidx
  obtain ⟨y, -, rfl⟩ := Finset.mem_map.mp hidx
  obtain ⟨y₀, rfl⟩ : ∃ y₀ : Fin C, y = ix1 y₀ := ⟨y 0, eq_ix1 (n := C) y⟩
  rw [View.write_emb_of_mem _ _ (Finset.mem_univ _), hp, rowOf_emb M j.val hinb hfun hsq j.isLt y₀]
  exact unread_emb hM X _

theorem write_slice_whole_univ {s : Shape} (v : View sig κ sp s e) (f : v.ty.Contents Val) (w : s.Idx → Val e) :
    (v.slice (Rect.whole s)).write Val f w Finset.univ = v.write Val f w Finset.univ := by
  funext i
  by_cases hi : i ∈ v.set
  · obtain ⟨x, -, rfl⟩ := Finset.mem_map.mp hi
    have hx : v.emb x = (v.slice (Rect.whole s)).emb x := by
      show v.emb x = v.emb ((Rect.whole s).emb x)
      rw [Rect.emb_whole_apply]
    conv_lhs => rw [hx, View.write_emb_of_mem _ _ (Finset.mem_univ _)]
    rw [View.write_emb_of_mem _ _ (Finset.mem_univ _)]
  · rw [View.write_of_not_mem _ _ _ (by rwa [View.setOn_univ, View.set_slice, Rect.set_whole]),
      View.write_of_not_mem _ _ _ (by rwa [View.setOn_univ])]

theorem writes_whole {s : Shape} (v : View sig κ sp s e) (f : v.ty.Contents Val) (w : s.Idx → Val e) :
    v.writes Val f [⟨Rect.whole s, w⟩] = v.write Val f w Finset.univ :=
  write_slice_whole_univ v f w

/-- On row `j` the contents that read `X` are any contents overwritten there, whole, by row `j` of `X`. -/
theorem unread_agrees_row_writes (M : Memref sig κ sp ⟨2, ![R, C]⟩ e) (hM : M.IsWhole)
    (X : (⟨2, ![R, C]⟩ : Shape).Idx → Val e) (f₀ : M.view.ty.Contents Val) (j : Fin R) (hinb) (hfun) (hsq)
    (p : (⟨1, ![C]⟩ : Shape).Idx → Val e) (hp : ∀ y : Fin C, p (ix1 y) = X (ix2 j y)) :
    ∀ idx ∈ (rowOf M j.val hinb hfun hsq).view.set,
      hM.unread X idx
        = (rowOf M j.val hinb hfun hsq).view.writes Val f₀ [⟨Rect.whole ⟨1, ![C]⟩, p⟩] idx := by
  intro idx hidx
  rw [writes_whole]
  exact unread_agrees_row M hM X f₀ j hinb hfun hsq p hp idx hidx

section Join

variable {nD : Nat} {τ : Topo} {Ix : Type} [DecidableEq Ix] {Name : Type} [DecidableEq Name] {U : Type} [URA U] {Lvl : Type}

local notation "𝕄" => MT nD τ sig Ix Val Name U Lvl

/-- A rank-2 buffer held whole is its rows held side by side at the same contents: the rows are pairwise disjoint and cover it. -/
theorem rows_split (c : Thread nD τ) (q : PosShare TreeShare) (M : Memref sig c.2.kind sp ⟨2, ![R, C]⟩ e)
    (f : M.view.ty.Contents Val)
    (hinb : ∀ j : Fin R, ∀ a, (![j.val, 0] : Fin 2 → ℕ) a + (![1, C] : Fin 2 → ℕ) a ≤ (⟨2, ![R, C]⟩ : Shape).size a)
    (hfun : ∀ j : Fin R, ∀ a, (Rect.unit (s := ⟨2, ![R, C]⟩) ![j.val, 0] ![1, C] (hinb j)).stride a = 1)
    (hsq : ∀ j : Fin R, (Rect.unit (s := ⟨2, ![R, C]⟩) ![j.val, 0] ![1, C] (hinb j)).shape.Squeezes ⟨1, ![C]⟩) :
    (M.view.loc c ↦[M.view.set]{q} f : sProp 𝕄)
      = bigSep Finset.univ fun j : Fin R =>
          ((rowOf M j.val (hinb j) (hfun j) (hsq j)).view.loc c
            ↦[(rowOf M j.val (hinb j) (hfun j) (hsq j)).view.set]{q} f : sProp 𝕄) := by
  have hcov := row_set_biUnion M hinb hfun hsq
  have hdis : ∀ j ∈ (Finset.univ : Finset (Fin R)), ∀ j' ∈ (Finset.univ : Finset (Fin R)), j ≠ j' →
      Disjoint ((rowOf M j.val (hinb j) (hfun j) (hsq j)).view.set : Finset (Idx (M.view.loc c)))
        ((rowOf M j'.val (hinb j') (hfun j') (hsq j')).view.set) :=
    fun j _ j' _ h => row_set_disjoint M (hinb j) (hfun j) (hsq j) (hinb j') (hfun j') (hsq j')
      (fun hv => h (Fin.ext hv))
  show _ = bigSep Finset.univ fun j : Fin R =>
    (M.view.loc c ↦[(rowOf M j.val (hinb j) (hfun j) (hsq j)).view.set]{q} f : sProp 𝕄)
  rw [← pointsTo_biUnion Finset.univ _ hdis]
  exact congrArg (fun I => (M.view.loc c ↦[I]{q} f : sProp 𝕄)) hcov.symm

end Join

end Idealize.ShloMosaic.RowsJoin
-- ==== Proof.K.Rows0.lean ====
import proofs.«402818_j61933428412865_1_alg».proof.Proof.Gen.Kernel.Launch
import proofs.«402818_j61933428412865_1_alg».proof.Proof.Gen.Kernel.Skeleton
import proofs.«402818_j61933428412865_1_alg».proof.Proof.Gen.Kernel.Points
import proofs.«402818_j61933428412865_1_alg».proof.Proof.K.Common
import proofs.«402818_j61933428412865_1_alg».proof.Proof.LibRowsJoin
import Idealize.ShloMosaic.Lib.Pipeline.FrameBody
import Idealize.ShloMosaic.Lib.Pipeline.Frame
import Idealize.ShloMosaic.Lib.Transfers
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- A word below the array's height names a row inside it. -/
theorem chk_of_lt (v : BitVec 32) (h : v.toNat < 50264) : ∀ a : Fin 2, (![v.toNat, 0] : Fin 2 → Nat) a + S1x4096.size a ≤ S50264x4096.size a := by
  intro a; fin_cases a
  · show v.toNat + 1 ≤ 50264; omega
  · show 0 + 4096 ≤ 4096; omega

theorem rows_hinb (j : Fin 128) : ∀ a, (![j.val, 0] : Fin 2 → ℕ) a + (![1, 4096] : Fin 2 → ℕ) a ≤ (⟨2, ![128, 4096]⟩ : Shape).size a := RowsJoin.row_inb j.isLt
theorem rows_hsq (j : Fin 128) : (Rect.unit (s := (⟨2, ![128, 4096]⟩ : Shape)) ![j.val, 0] ![1, 4096] (rows_hinb j)).shape.Squeezes ⟨1, ![4096]⟩ := Facts₀.squeezes_S1x4096_S4096

/-- Row `j` of the scratch, a rank-1 memref: the destination of the kernel's `j`-th copy. -/
abbrev rowM0 (j : ℕ) (h : ∀ a, (![j, 0] : Fin 2 → Nat) a + S1x4096.size a ≤ S128x4096.size a) : Memref sig .tc .vmem S4096 .f32 :=
  (scM0.slice (Rect.unit (s := S128x4096) ![j, 0] S1x4096.size h) (fun _ => rfl)).squeeze S4096 Facts₀.squeezes_S1x4096_S4096

abbrev rowPt0 (c : Dev nD) (f : HbBuf0 (F := F) c scM0) (j : ℕ) (h : ∀ a, (![j, 0] : Fin 2 → Nat) a + S1x4096.size a ≤ S128x4096.size a) : sProp 𝕄 :=
  (rowM0 j h).view.loc (c : Thread nD τ) ↦[(rowM0 j h).view.set]{fullShare} f

abbrev semZ0 (c : Dev nD) (s : SemLoc sig) : sProp 𝕄 := semVal ((c : Thread nD τ), s) 0

abbrev tokN0 (c : Dev nD) (fh : HbBuf0 (F := F) c hbM0) (k : ℕ) : sProp 𝕄 :=
  hbM0.view.loc (c : Thread nD τ) ↦{Transfers.shareTokN fullShare k} fh

/-- The rows of a whole rank-2 buffer are pairwise disjoint and cover it. -/
theorem rows_chain (c : Dev nD) (f : HbBuf0 (F := F) c scM0) :
    (scM0.view.loc (c : Thread nD τ) ↦[scM0.view.set]{fullShare} f : sProp 𝕄)
      = iprop(rowPt0 c f 0 Facts₀.inb_S128x4096_S1x4096_0_0 ∗ rowPt0 c f 1 Facts₀.inb_S128x4096_S1x4096_1_0 ∗ rowPt0 c f 2 Facts₀.inb_S128x4096_S1x4096_2_0 ∗ rowPt0 c f 3 Facts₀.inb_S128x4096_S1x4096_3_0 ∗ rowPt0 c f 4 Facts₀.inb_S128x4096_S1x4096_4_0 ∗ rowPt0 c f 5 Facts₀.inb_S128x4096_S1x4096_5_0 ∗ rowPt0 c f 6 Facts₀.inb_S128x4096_S1x4096_6_0 ∗ rowPt0 c f 7 Facts₀.inb_S128x4096_S1x4096_7_0 ∗ rowPt0 c f 8 Facts₀.inb_S128x4096_S1x4096_8_0 ∗ rowPt0 c f 9 Facts₀.inb_S128x4096_S1x4096_9_0 ∗ rowPt0 c f 10 Facts₀.inb_S128x4096_S1x4096_10_0 ∗ rowPt0 c f 11 Facts₀.inb_S128x4096_S1x4096_11_0 ∗ rowPt0 c f 12 Facts₀.inb_S128x4096_S1x4096_12_0 ∗ rowPt0 c f 13 Facts₀.inb_S128x4096_S1x4096_13_0 ∗ rowPt0 c f 14 Facts₀.inb_S128x4096_S1x4096_14_0 ∗ rowPt0 c f 15 Facts₀.inb_S128x4096_S1x4096_15_0 ∗ rowPt0 c f 16 Facts₀.inb_S128x4096_S1x4096_16_0 ∗ rowPt0 c f 17 Facts₀.inb_S128x4096_S1x4096_17_0 ∗ rowPt0 c f 18 Facts₀.inb_S128x4096_S1x4096_18_0 ∗ rowPt0 c f 19 Facts₀.inb_S128x4096_S1x4096_19_0 ∗ rowPt0 c f 20 Facts₀.inb_S128x4096_S1x4096_20_0 ∗ rowPt0 c f 21 Facts₀.inb_S128x4096_S1x4096_21_0 ∗ rowPt0 c f 22 Facts₀.inb_S128x4096_S1x4096_22_0 ∗ rowPt0 c f 23 Facts₀.inb_S128x4096_S1x4096_23_0 ∗ rowPt0 c f 24 Facts₀.inb_S128x4096_S1x4096_24_0 ∗ rowPt0 c f 25 Facts₀.inb_S128x4096_S1x4096_25_0 ∗ rowPt0 c f 26 Facts₀.inb_S128x4096_S1x4096_26_0 ∗ rowPt0 c f 27 Facts₀.inb_S128x4096_S1x4096_27_0 ∗ rowPt0 c f 28 Facts₀.inb_S128x4096_S1x4096_28_0 ∗ rowPt0 c f 29 Facts₀.inb_S128x4096_S1x4096_29_0 ∗ rowPt0 c f 30 Facts₀.inb_S128x4096_S1x4096_30_0 ∗ rowPt0 c f 31 Facts₀.inb_S128x4096_S1x4096_31_0 ∗ rowPt0 c f 32 Facts₀.inb_S128x4096_S1x4096_32_0 ∗ rowPt0 c f 33 Facts₀.inb_S128x4096_S1x4096_33_0 ∗ rowPt0 c f 34 Facts₀.inb_S128x4096_S1x4096_34_0 ∗ rowPt0 c f 35 Facts₀.inb_S128x4096_S1x4096_35_0 ∗ rowPt0 c f 36 Facts₀.inb_S128x4096_S1x4096_36_0 ∗ rowPt0 c f 37 Facts₀.inb_S128x4096_S1x4096_37_0 ∗ rowPt0 c f 38 Facts₀.inb_S128x4096_S1x4096_38_0 ∗ rowPt0 c f 39 Facts₀.inb_S128x4096_S1x4096_39_0 ∗ rowPt0 c f 40 Facts₀.inb_S128x4096_S1x4096_40_0 ∗ rowPt0 c f 41 Facts₀.inb_S128x4096_S1x4096_41_0 ∗ rowPt0 c f 42 Facts₀.inb_S128x4096_S1x4096_42_0 ∗ rowPt0 c f 43 Facts₀.inb_S128x4096_S1x4096_43_0 ∗ rowPt0 c f 44 Facts₀.inb_S128x4096_S1x4096_44_0 ∗ rowPt0 c f 45 Facts₀.inb_S128x4096_S1x4096_45_0 ∗ rowPt0 c f 46 Facts₀.inb_S128x4096_S1x4096_46_0 ∗ rowPt0 c f 47 Facts₀.inb_S128x4096_S1x4096_47_0 ∗ rowPt0 c f 48 Facts₀.inb_S128x4096_S1x4096_48_0 ∗ rowPt0 c f 49 Facts₀.inb_S128x4096_S1x4096_49_0 ∗ rowPt0 c f 50 Facts₀.inb_S128x4096_S1x4096_50_0 ∗ rowPt0 c f 51 Facts₀.inb_S128x4096_S1x4096_51_0 ∗ rowPt0 c f 52 Facts₀.inb_S128x4096_S1x4096_52_0 ∗ rowPt0 c f 53 Facts₀.inb_S128x4096_S1x4096_53_0 ∗ rowPt0 c f 54 Facts₀.inb_S128x4096_S1x4096_54_0 ∗ rowPt0 c f 55 Facts₀.inb_S128x4096_S1x4096_55_0 ∗ rowPt0 c f 56 Facts₀.inb_S128x4096_S1x4096_56_0 ∗ rowPt0 c f 57 Facts₀.inb_S128x4096_S1x4096_57_0 ∗ rowPt0 c f 58 Facts₀.inb_S128x4096_S1x4096_58_0 ∗ rowPt0 c f 59 Facts₀.inb_S128x4096_S1x4096_59_0 ∗ rowPt0 c f 60 Facts₀.inb_S128x4096_S1x4096_60_0 ∗ rowPt0 c f 61 Facts₀.inb_S128x4096_S1x4096_61_0 ∗ rowPt0 c f 62 Facts₀.inb_S128x4096_S1x4096_62_0 ∗ rowPt0 c f 63 Facts₀.inb_S128x4096_S1x4096_63_0 ∗ rowPt0 c f 64 Facts₀.inb_S128x4096_S1x4096_64_0 ∗ rowPt0 c f 65 Facts₀.inb_S128x4096_S1x4096_65_0 ∗ rowPt0 c f 66 Facts₀.inb_S128x4096_S1x4096_66_0 ∗ rowPt0 c f 67 Facts₀.inb_S128x4096_S1x4096_67_0 ∗ rowPt0 c f 68 Facts₀.inb_S128x4096_S1x4096_68_0 ∗ rowPt0 c f 69 Facts₀.inb_S128x4096_S1x4096_69_0 ∗ rowPt0 c f 70 Facts₀.inb_S128x4096_S1x4096_70_0 ∗ rowPt0 c f 71 Facts₀.inb_S128x4096_S1x4096_71_0 ∗ rowPt0 c f 72 Facts₀.inb_S128x4096_S1x4096_72_0 ∗ rowPt0 c f 73 Facts₀.inb_S128x4096_S1x4096_73_0 ∗ rowPt0 c f 74 Facts₀.inb_S128x4096_S1x4096_74_0 ∗ rowPt0 c f 75 Facts₀.inb_S128x4096_S1x4096_75_0 ∗ rowPt0 c f 76 Facts₀.inb_S128x4096_S1x4096_76_0 ∗ rowPt0 c f 77 Facts₀.inb_S128x4096_S1x4096_77_0 ∗ rowPt0 c f 78 Facts₀.inb_S128x4096_S1x4096_78_0 ∗ rowPt0 c f 79 Facts₀.inb_S128x4096_S1x4096_79_0 ∗ rowPt0 c f 80 Facts₀.inb_S128x4096_S1x4096_80_0 ∗ rowPt0 c f 81 Facts₀.inb_S128x4096_S1x4096_81_0 ∗ rowPt0 c f 82 Facts₀.inb_S128x4096_S1x4096_82_0 ∗ rowPt0 c f 83 Facts₀.inb_S128x4096_S1x4096_83_0 ∗ rowPt0 c f 84 Facts₀.inb_S128x4096_S1x4096_84_0 ∗ rowPt0 c f 85 Facts₀.inb_S128x4096_S1x4096_85_0 ∗ rowPt0 c f 86 Facts₀.inb_S128x4096_S1x4096_86_0 ∗ rowPt0 c f 87 Facts₀.inb_S128x4096_S1x4096_87_0 ∗ rowPt0 c f 88 Facts₀.inb_S128x4096_S1x4096_88_0 ∗ rowPt0 c f 89 Facts₀.inb_S128x4096_S1x4096_89_0 ∗ rowPt0 c f 90 Facts₀.inb_S128x4096_S1x4096_90_0 ∗ rowPt0 c f 91 Facts₀.inb_S128x4096_S1x4096_91_0 ∗ rowPt0 c f 92 Facts₀.inb_S128x4096_S1x4096_92_0 ∗ rowPt0 c f 93 Facts₀.inb_S128x4096_S1x4096_93_0 ∗ rowPt0 c f 94 Facts₀.inb_S128x4096_S1x4096_94_0 ∗ rowPt0 c f 95 Facts₀.inb_S128x4096_S1x4096_95_0 ∗ rowPt0 c f 96 Facts₀.inb_S128x4096_S1x4096_96_0 ∗ rowPt0 c f 97 Facts₀.inb_S128x4096_S1x4096_97_0 ∗ rowPt0 c f 98 Facts₀.inb_S128x4096_S1x4096_98_0 ∗ rowPt0 c f 99 Facts₀.inb_S128x4096_S1x4096_99_0 ∗ rowPt0 c f 100 Facts₀.inb_S128x4096_S1x4096_100_0 ∗ rowPt0 c f 101 Facts₀.inb_S128x4096_S1x4096_101_0 ∗ rowPt0 c f 102 Facts₀.inb_S128x4096_S1x4096_102_0 ∗ rowPt0 c f 103 Facts₀.inb_S128x4096_S1x4096_103_0 ∗ rowPt0 c f 104 Facts₀.inb_S128x4096_S1x4096_104_0 ∗ rowPt0 c f 105 Facts₀.inb_S128x4096_S1x4096_105_0 ∗ rowPt0 c f 106 Facts₀.inb_S128x4096_S1x4096_106_0 ∗ rowPt0 c f 107 Facts₀.inb_S128x4096_S1x4096_107_0 ∗ rowPt0 c f 108 Facts₀.inb_S128x4096_S1x4096_108_0 ∗ rowPt0 c f 109 Facts₀.inb_S128x4096_S1x4096_109_0 ∗ rowPt0 c f 110 Facts₀.inb_S128x4096_S1x4096_110_0 ∗ rowPt0 c f 111 Facts₀.inb_S128x4096_S1x4096_111_0 ∗ rowPt0 c f 112 Facts₀.inb_S128x4096_S1x4096_112_0 ∗ rowPt0 c f 113 Facts₀.inb_S128x4096_S1x4096_113_0 ∗ rowPt0 c f 114 Facts₀.inb_S128x4096_S1x4096_114_0 ∗ rowPt0 c f 115 Facts₀.inb_S128x4096_S1x4096_115_0 ∗ rowPt0 c f 116 Facts₀.inb_S128x4096_S1x4096_116_0 ∗ rowPt0 c f 117 Facts₀.inb_S128x4096_S1x4096_117_0 ∗ rowPt0 c f 118 Facts₀.inb_S128x4096_S1x4096_118_0 ∗ rowPt0 c f 119 Facts₀.inb_S128x4096_S1x4096_119_0 ∗ rowPt0 c f 120 Facts₀.inb_S128x4096_S1x4096_120_0 ∗ rowPt0 c f 121 Facts₀.inb_S128x4096_S1x4096_121_0 ∗ rowPt0 c f 122 Facts₀.inb_S128x4096_S1x4096_122_0 ∗ rowPt0 c f 123 Facts₀.inb_S128x4096_S1x4096_123_0 ∗ rowPt0 c f 124 Facts₀.inb_S128x4096_S1x4096_124_0 ∗ rowPt0 c f 125 Facts₀.inb_S128x4096_S1x4096_125_0 ∗ rowPt0 c f 126 Facts₀.inb_S128x4096_S1x4096_126_0 ∗ rowPt0 c f 127 Facts₀.inb_S128x4096_S1x4096_127_0) := by
  rw [RowsJoin.rows_split (c : Thread nD τ) fullShare scM0 f rows_hinb (fun _ _ => rfl) rows_hsq,
    bigSep_univ_eq_bigSepL (List.finRange 128) (List.toFinset_finRange 128).symm (List.nodup_finRange 128)]
  rfl

theorem sems_chain (c : Dev nD) :
    (Pipeline.ownSems0 (Ix := Unit) (Name := ℕ) (U := Pipeline.UD sig nD τ) (Lvl := ℕ) (Val := Elt F) (τ := τ) osem0 c : sProp 𝕄)
      = iprop(semZ0 c (.dma ⟨2, by decide⟩) ∗ semZ0 c (.dma ⟨3, by decide⟩) ∗ semZ0 c (.dma ⟨4, by decide⟩) ∗ semZ0 c (.dma ⟨5, by decide⟩) ∗ semZ0 c (.dma ⟨6, by decide⟩) ∗ semZ0 c (.dma ⟨7, by decide⟩) ∗ semZ0 c (.dma ⟨8, by decide⟩) ∗ semZ0 c (.dma ⟨9, by decide⟩) ∗ semZ0 c (.dma ⟨10, by decide⟩) ∗ semZ0 c (.dma ⟨11, by decide⟩) ∗ semZ0 c (.dma ⟨12, by decide⟩) ∗ semZ0 c (.dma ⟨13, by decide⟩) ∗ semZ0 c (.dma ⟨14, by decide⟩) ∗ semZ0 c (.dma ⟨15, by decide⟩) ∗ semZ0 c (.dma ⟨16, by decide⟩) ∗ semZ0 c (.dma ⟨17, by decide⟩) ∗ semZ0 c (.dma ⟨18, by decide⟩) ∗ semZ0 c (.dma ⟨19, by decide⟩) ∗ semZ0 c (.dma ⟨20, by decide⟩) ∗ semZ0 c (.dma ⟨21, by decide⟩) ∗ semZ0 c (.dma ⟨22, by decide⟩) ∗ semZ0 c (.dma ⟨23, by decide⟩) ∗ semZ0 c (.dma ⟨24, by decide⟩) ∗ semZ0 c (.dma ⟨25, by decide⟩) ∗ semZ0 c (.dma ⟨26, by decide⟩) ∗ semZ0 c (.dma ⟨27, by decide⟩) ∗ semZ0 c (.dma ⟨28, by decide⟩) ∗ semZ0 c (.dma ⟨29, by decide⟩) ∗ semZ0 c (.dma ⟨30, by decide⟩) ∗ semZ0 c (.dma ⟨31, by decide⟩) ∗ semZ0 c (.dma ⟨32, by decide⟩) ∗ semZ0 c (.dma ⟨33, by decide⟩) ∗ semZ0 c (.dma ⟨34, by decide⟩) ∗ semZ0 c (.dma ⟨35, by decide⟩) ∗ semZ0 c (.dma ⟨36, by decide⟩) ∗ semZ0 c (.dma ⟨37, by decide⟩) ∗ semZ0 c (.dma ⟨38, by decide⟩) ∗ semZ0 c (.dma ⟨39, by decide⟩) ∗ semZ0 c (.dma ⟨40, by decide⟩) ∗ semZ0 c (.dma ⟨41, by decide⟩) ∗ semZ0 c (.dma ⟨42, by decide⟩) ∗ semZ0 c (.dma ⟨43, by decide⟩) ∗ semZ0 c (.dma ⟨44, by decide⟩) ∗ semZ0 c (.dma ⟨45, by decide⟩) ∗ semZ0 c (.dma ⟨46, by decide⟩) ∗ semZ0 c (.dma ⟨47, by decide⟩) ∗ semZ0 c (.dma ⟨48, by decide⟩) ∗ semZ0 c (.dma ⟨49, by decide⟩) ∗ semZ0 c (.dma ⟨50, by decide⟩) ∗ semZ0 c (.dma ⟨51, by decide⟩) ∗ semZ0 c (.dma ⟨52, by decide⟩) ∗ semZ0 c (.dma ⟨53, by decide⟩) ∗ semZ0 c (.dma ⟨54, by decide⟩) ∗ semZ0 c (.dma ⟨55, by decide⟩) ∗ semZ0 c (.dma ⟨56, by decide⟩) ∗ semZ0 c (.dma ⟨57, by decide⟩) ∗ semZ0 c (.dma ⟨58, by decide⟩) ∗ semZ0 c (.dma ⟨59, by decide⟩) ∗ semZ0 c (.dma ⟨60, by decide⟩) ∗ semZ0 c (.dma ⟨61, by decide⟩) ∗ semZ0 c (.dma ⟨62, by decide⟩) ∗ semZ0 c (.dma ⟨63, by decide⟩) ∗ semZ0 c (.dma ⟨64, by decide⟩) ∗ semZ0 c (.dma ⟨65, by decide⟩) ∗ semZ0 c (.dma ⟨66, by decide⟩) ∗ semZ0 c (.dma ⟨67, by decide⟩) ∗ semZ0 c (.dma ⟨68, by decide⟩) ∗ semZ0 c (.dma ⟨69, by decide⟩) ∗ semZ0 c (.dma ⟨70, by decide⟩) ∗ semZ0 c (.dma ⟨71, by decide⟩) ∗ semZ0 c (.dma ⟨72, by decide⟩) ∗ semZ0 c (.dma ⟨73, by decide⟩) ∗ semZ0 c (.dma ⟨74, by decide⟩) ∗ semZ0 c (.dma ⟨75, by decide⟩) ∗ semZ0 c (.dma ⟨76, by decide⟩) ∗ semZ0 c (.dma ⟨77, by decide⟩) ∗ semZ0 c (.dma ⟨78, by decide⟩) ∗ semZ0 c (.dma ⟨79, by decide⟩) ∗ semZ0 c (.dma ⟨80, by decide⟩) ∗ semZ0 c (.dma ⟨81, by decide⟩) ∗ semZ0 c (.dma ⟨82, by decide⟩) ∗ semZ0 c (.dma ⟨83, by decide⟩) ∗ semZ0 c (.dma ⟨84, by decide⟩) ∗ semZ0 c (.dma ⟨85, by decide⟩) ∗ semZ0 c (.dma ⟨86, by decide⟩) ∗ semZ0 c (.dma ⟨87, by decide⟩) ∗ semZ0 c (.dma ⟨88, by decide⟩) ∗ semZ0 c (.dma ⟨89, by decide⟩) ∗ semZ0 c (.dma ⟨90, by decide⟩) ∗ semZ0 c (.dma ⟨91, by decide⟩) ∗ semZ0 c (.dma ⟨92, by decide⟩) ∗ semZ0 c (.dma ⟨93, by decide⟩) ∗ semZ0 c (.dma ⟨94, by decide⟩) ∗ semZ0 c (.dma ⟨95, by decide⟩) ∗ semZ0 c (.dma ⟨96, by decide⟩) ∗ semZ0 c (.dma ⟨97, by decide⟩) ∗ semZ0 c (.dma ⟨98, by decide⟩) ∗ semZ0 c (.dma ⟨99, by decide⟩) ∗ semZ0 c (.dma ⟨100, by decide⟩) ∗ semZ0 c (.dma ⟨101, by decide⟩) ∗ semZ0 c (.dma ⟨102, by decide⟩) ∗ semZ0 c (.dma ⟨103, by decide⟩) ∗ semZ0 c (.dma ⟨104, by decide⟩) ∗ semZ0 c (.dma ⟨105, by decide⟩) ∗ semZ0 c (.dma ⟨106, by decide⟩) ∗ semZ0 c (.dma ⟨107, by decide⟩) ∗ semZ0 c (.dma ⟨108, by decide⟩) ∗ semZ0 c (.dma ⟨109, by decide⟩) ∗ semZ0 c (.dma ⟨110, by decide⟩) ∗ semZ0 c (.dma ⟨111, by decide⟩) ∗ semZ0 c (.dma ⟨112, by decide⟩) ∗ semZ0 c (.dma ⟨113, by decide⟩) ∗ semZ0 c (.dma ⟨114, by decide⟩) ∗ semZ0 c (.dma ⟨115, by decide⟩) ∗ semZ0 c (.dma ⟨116, by decide⟩) ∗ semZ0 c (.dma ⟨117, by decide⟩) ∗ semZ0 c (.dma ⟨118, by decide⟩) ∗ semZ0 c (.dma ⟨119, by decide⟩) ∗ semZ0 c (.dma ⟨120, by decide⟩) ∗ semZ0 c (.dma ⟨121, by decide⟩) ∗ semZ0 c (.dma ⟨122, by decide⟩) ∗ semZ0 c (.dma ⟨123, by decide⟩) ∗ semZ0 c (.dma ⟨124, by decide⟩) ∗ semZ0 c (.dma ⟨125, by decide⟩) ∗ semZ0 c (.dma ⟨126, by decide⟩) ∗ semZ0 c (.dma ⟨127, by decide⟩) ∗ semZ0 c (.dma ⟨128, by decide⟩) ∗ semZ0 c (.dma ⟨129, by decide⟩)) := by
  rw [Pipeline.ownSems0_eq_of_list c osem0 (List.finRange 128) (List.toFinset_finRange 128).symm (List.nodup_finRange 128)]; rfl

/-- One read share per semaphore cell, so that any number of copies may read the array at once. -/
theorem toks_chain (c : Dev nD) (fh : HbBuf0 (F := F) c hbM0) :
    (hbM0.view.loc (c : Thread nD τ) ↦{fullShare} fh : sProp 𝕄)
      ⊣⊢ iprop((hbM0.view.loc (c : Thread nD τ) ↦{Transfers.shareDrop fullShare 130} fh) ∗ tokN0 c fh 0 ∗ tokN0 c fh 1 ∗ tokN0 c fh 2 ∗ tokN0 c fh 3 ∗ tokN0 c fh 4 ∗ tokN0 c fh 5 ∗ tokN0 c fh 6 ∗ tokN0 c fh 7 ∗ tokN0 c fh 8 ∗ tokN0 c fh 9 ∗ tokN0 c fh 10 ∗ tokN0 c fh 11 ∗ tokN0 c fh 12 ∗ tokN0 c fh 13 ∗ tokN0 c fh 14 ∗ tokN0 c fh 15 ∗ tokN0 c fh 16 ∗ tokN0 c fh 17 ∗ tokN0 c fh 18 ∗ tokN0 c fh 19 ∗ tokN0 c fh 20 ∗ tokN0 c fh 21 ∗ tokN0 c fh 22 ∗ tokN0 c fh 23 ∗ tokN0 c fh 24 ∗ tokN0 c fh 25 ∗ tokN0 c fh 26 ∗ tokN0 c fh 27 ∗ tokN0 c fh 28 ∗ tokN0 c fh 29 ∗ tokN0 c fh 30 ∗ tokN0 c fh 31 ∗ tokN0 c fh 32 ∗ tokN0 c fh 33 ∗ tokN0 c fh 34 ∗ tokN0 c fh 35 ∗ tokN0 c fh 36 ∗ tokN0 c fh 37 ∗ tokN0 c fh 38 ∗ tokN0 c fh 39 ∗ tokN0 c fh 40 ∗ tokN0 c fh 41 ∗ tokN0 c fh 42 ∗ tokN0 c fh 43 ∗ tokN0 c fh 44 ∗ tokN0 c fh 45 ∗ tokN0 c fh 46 ∗ tokN0 c fh 47 ∗ tokN0 c fh 48 ∗ tokN0 c fh 49 ∗ tokN0 c fh 50 ∗ tokN0 c fh 51 ∗ tokN0 c fh 52 ∗ tokN0 c fh 53 ∗ tokN0 c fh 54 ∗ tokN0 c fh 55 ∗ tokN0 c fh 56 ∗ tokN0 c fh 57 ∗ tokN0 c fh 58 ∗ tokN0 c fh 59 ∗ tokN0 c fh 60 ∗ tokN0 c fh 61 ∗ tokN0 c fh 62 ∗ tokN0 c fh 63 ∗ tokN0 c fh 64 ∗ tokN0 c fh 65 ∗ tokN0 c fh 66 ∗ tokN0 c fh 67 ∗ tokN0 c fh 68 ∗ tokN0 c fh 69 ∗ tokN0 c fh 70 ∗ tokN0 c fh 71 ∗ tokN0 c fh 72 ∗ tokN0 c fh 73 ∗ tokN0 c fh 74 ∗ tokN0 c fh 75 ∗ tokN0 c fh 76 ∗ tokN0 c fh 77 ∗ tokN0 c fh 78 ∗ tokN0 c fh 79 ∗ tokN0 c fh 80 ∗ tokN0 c fh 81 ∗ tokN0 c fh 82 ∗ tokN0 c fh 83 ∗ tokN0 c fh 84 ∗ tokN0 c fh 85 ∗ tokN0 c fh 86 ∗ tokN0 c fh 87 ∗ tokN0 c fh 88 ∗ tokN0 c fh 89 ∗ tokN0 c fh 90 ∗ tokN0 c fh 91 ∗ tokN0 c fh 92 ∗ tokN0 c fh 93 ∗ tokN0 c fh 94 ∗ tokN0 c fh 95 ∗ tokN0 c fh 96 ∗ tokN0 c fh 97 ∗ tokN0 c fh 98 ∗ tokN0 c fh 99 ∗ tokN0 c fh 100 ∗ tokN0 c fh 101 ∗ tokN0 c fh 102 ∗ tokN0 c fh 103 ∗ tokN0 c fh 104 ∗ tokN0 c fh 105 ∗ tokN0 c fh 106 ∗ tokN0 c fh 107 ∗ tokN0 c fh 108 ∗ tokN0 c fh 109 ∗ tokN0 c fh 110 ∗ tokN0 c fh 111 ∗ tokN0 c fh 112 ∗ tokN0 c fh 113 ∗ tokN0 c fh 114 ∗ tokN0 c fh 115 ∗ tokN0 c fh 116 ∗ tokN0 c fh 117 ∗ tokN0 c fh 118 ∗ tokN0 c fh 119 ∗ tokN0 c fh 120 ∗ tokN0 c fh 121 ∗ tokN0 c fh 122 ∗ tokN0 c fh 123 ∗ tokN0 c fh 124 ∗ tokN0 c fh 125 ∗ tokN0 c fh 126 ∗ tokN0 c fh 127 ∗ tokN0 c fh 128 ∗ tokN0 c fh 129) := by
  have h : (hbM0.view.loc (c : Thread nD τ) ↦{fullShare} fh : sProp 𝕄) ⊣⊢ _ := Transfers.pointsTo_toks_range (ℓ := hbM0.view.loc (c : Thread nD τ)) (S := Finset.univ) (f := fh) fullShare 130
  rw [BI.bigSep_eq_bigSepL_of_eq (List.range 130) (List.toFinset_range 130).symm List.nodup_range] at h
  exact h

def offOf (i : grid0.Coords) (j : Fin 128) : Fin 1 → Nat :=
  ![(Scalar.indexCast (Scalar.addi (Scalar.muli (BitVec.ofNat 32 (i 0).val) 128#32) (BitVec.ofNat 32 j.val))).toNat]
theorem offOf_inb : ∀ (i : grid0.Coords) (j : Fin 128), ∀ a, (offOf i j) a + S1.size a ≤ S16384.size a := by decide +kernel
theorem offOf_val : ∀ (i : grid0.Coords) (j : Fin 128), offOf i j 0 = 128 * (i 0).val + j.val := by decide +kernel

def word (c : Dev nD) (i : grid0.Coords) (ft : HbBuf0 (F := F) c tbM0) (j : Fin 128) : Elt F .i32 :=
  View.readAt (Elt F) tbM0.view (Rect.unit (s := S16384) (offOf i j) S1.size (offOf_inb i j)).toLoadRect ft (Shape.Idx.first (Nat.lt_of_lt_of_eq Nat.one_pos Facts₀.numel1_S1.symm))

def XrowsAt (c : Dev nD) (i : grid0.Coords) (ft : HbBuf0 (F := F) c tbM0) (fh : HbBuf0 (F := F) c hbM0)
    (hlt : ∀ k, (tbM0.view.read (Elt F) ft k).toNat < 50264) (j : Fin 128) (d : Fin 4096) : Elt F .f32 :=
  ReadAs.same.apply (View.read (Elt F) ((hbM0.slice (Rect.unit (s := S50264x4096) ![(word c i ft j).toNat, 0] S1x4096.size (chk_of_lt _ (hlt _))) (fun _ => rfl)).squeeze S4096 Facts₀.squeezes_S1x4096_S4096).view fh) (ix1 d)
def Xrows (c : Dev nD) (i : grid0.Coords) (ft : HbBuf0 (F := F) c tbM0) (fh : HbBuf0 (F := F) c hbM0)
    (hlt : ∀ k, (tbM0.view.read (Elt F) ft k).toNat < 50264) : S128x4096.Idx → Elt F .f32 :=
  fun y => XrowsAt c i ft fh hlt (y 0) (y 1)
/-- The scratch's contents after the 128 copies: those whose read is the gathered block. -/
def Gsc (c : Dev nD) (i : grid0.Coords) (ft : HbBuf0 (F := F) c tbM0) (fh : HbBuf0 (F := F) c hbM0)
    (hlt : ∀ k, (tbM0.view.read (Elt F) ft k).toNat < 50264) : HbBuf0 (F := F) c scM0 :=
  (Memref.isWhole_whole cc0_scratch0).unread (Xrows c i ft fh hlt)

/-- On row `j` the contents that read the gathered block are any contents overwritten there by row `j` of the block. -/
theorem row_done (c : Dev nD) (i : grid0.Coords) (ft : HbBuf0 (F := F) c tbM0) (fh : HbBuf0 (F := F) c hbM0)
    (hlt : ∀ k, (tbM0.view.read (Elt F) ft k).toNat < 50264) (fs0 : HbBuf0 (F := F) c scM0) (j : ℕ)
    (h : ∀ a, (![j, 0] : Fin 2 → Nat) a + S1x4096.size a ≤ S128x4096.size a) (p : S4096.Idx → Elt F .f32)
    (hp : ∀ y : Fin 4096, p (ix1 y) = Xrows c i ft fh hlt (ix2 ⟨j, RowsJoin.row_lt (R := 128) (C := 4096) h⟩ y)) :
    rowPt0 c ((rowM0 j h).view.writes (Elt F) fs0 [⟨Rect.whole S4096, p⟩]) j h ⊢ rowPt0 c (Gsc c i ft fh hlt) j h :=
  Entails.of_eq (pointsTo_congr fun idx hidx =>
    (RowsJoin.unread_agrees_row_writes scM0 (Memref.isWhole_whole cc0_scratch0) (Xrows c i ft fh hlt) fs0
      ⟨j, RowsJoin.row_lt (R := 128) (C := 4096) h⟩ h (fun _ => rfl) Facts₀.squeezes_S1x4096_S4096 p hp idx hidx).symm)

end Cert.Kernel.Hand

end
-- ==== Proof.K.Body0.lean ====
import proofs.«402818_j61933428412865_1_alg».proof.Proof.Gen.Kernel.Launch
import proofs.«402818_j61933428412865_1_alg».proof.Proof.Gen.Kernel.Skeleton
import proofs.«402818_j61933428412865_1_alg».proof.Proof.Gen.Kernel.Points
import proofs.«402818_j61933428412865_1_alg».proof.Proof.K.Common
import proofs.«402818_j61933428412865_1_alg».proof.Proof.K.Rows0
import proofs.«402818_j61933428412865_1_alg».proof.Proof.LibRowsJoin
import Idealize.ShloMosaic.Lib.Pipeline.FrameBody
import Idealize.ShloMosaic.Lib.Pipeline.Frame
import Idealize.ShloMosaic.Lib.Transfers
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- From the output block at anything, the scratch whole, the kernel's 128 cells at zero and the array and the table whole, the body at a grid point runs to its end and leaves the output block written with the pieces `L1`; every id's check holds since the table's entries are below the array's height. -/
noncomputable def kernelRun0 (c : Dev nD) (i : grid0.Coords) (arg3 : Memref sig .tc .vmem S128x4096 .bf16) (harg3 : arg3.IsWhole)
    (ft : HbBuf0 (F := F) c tbM0) (fh : HbBuf0 (F := F) c hbM0)
    (hlt : ∀ k, (tbM0.view.read (Elt F) ft k).toNat < 50264) :
    { L1 : List (View.Piece (Elt F) S128x4096 .bf16) //
      ∀ (fs0 : HbBuf0 (F := F) c scM0) (W : Waits sig Unit) (K : PUnit → sProp 𝕄),
        iprop((∃ d, owns (c : Thread nD τ) arg3 fullShare d) ∗ (scM0.view.loc (c : Thread nD τ) ↦[scM0.view.set]{fullShare} fs0)
            ∗ Pipeline.ownSems0 (Ix := Unit) (Name := ℕ) (U := Pipeline.UD sig nD τ) (Lvl := ℕ) (Val := Elt F) (τ := τ) osem0 c
            ∗ hbPt0 c hbM0 fh ∗ hbPt0 c tbM0 ft ∗ owes (c : Thread nD τ) 0 W
            ∗ (iprop((∃ f, arg3.view.loc (c : Thread nD τ) ↦[arg3.view.set]{fullShare} arg3.view.writes (Elt F) f L1)
                ∗ (∃ f, scM0.view.loc (c : Thread nD τ) ↦[scM0.view.set]{fullShare} f)
                ∗ Pipeline.ownSems0 (Ix := Unit) (Name := ℕ) (U := Pipeline.UD sig nD τ) (Lvl := ℕ) (Val := Elt F) (τ := τ) osem0 c
                ∗ hbPt0 c hbM0 fh ∗ hbPt0 c tbM0 ft ∗ (∃ W', owes (c : Thread nD τ) 0 W')) -∗ K ⟨⟩))
          ⊢ wp frame (wpE (defs₀ (F := F)) Variants.none c none) Set.univ (cc0__gather_kernel i tbM0 (Memref.isWhole_whole _) hbM0 (Memref.isWhole_whole _) arg3 harg3 scM0 (Memref.isWhole_whole _) cc0_scratch1) K } := by
  refine ⟨?_, fun fs0 W K => ?run⟩
  case run =>
    rw [sems_chain, rows_chain c fs0]
    unfold owns
    iintro ⟨⟨%d1, %f1, -, H1⟩, ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HR66, HR67, HR68, HR69, HR70, HR71, HR72, HR73, HR74, HR75, HR76, HR77, HR78, HR79, HR80, HR81, HR82, HR83, HR84, HR85, HR86, HR87, HR88, HR89, HR90, HR91, HR92, HR93, HR94, HR95, HR96, HR97, HR98, HR99, HR100, HR101, HR102, HR103, HR104, HR105, HR106, HR107, HR108, HR109, HR110, HR111, HR112, HR113, HR114, HR115, HR116, HR117, HR118, HR119, HR120, HR121, HR122, HR123, HR124, HR125, HR126, HR127⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127⟩, Hh, Ht0, HW, Hk⟩
    ihave Hh' := (toks_chain c fh).1 $$ Hh
    icases Hh' with ⟨Hdrop, Htk0, Htk1, Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hs58, Hs59, Hs60, Hs61, Hs62, Hs63, Hs64, Hs65, Hs66, Hs67, Hs68, Hs69, Hs70, Hs71, Hs72, Hs73, Hs74, Hs75, Hs76, Hs77, Hs78, Hs79, Hs80, Hs81, Hs82, Hs83, Hs84, Hs85, Hs86, Hs87, Hs88, Hs89, Hs90, Hs91, Hs92, Hs93, Hs94, Hs95, Hs96, Hs97, Hs98, Hs99, Hs100, Hs101, Hs102, Hs103, Hs104, Hs105, Hs106, Hs107, Hs108, Hs109, Hs110, Hs111, Hs112, Hs113, Hs114, Hs115, Hs116, Hs117, Hs118, Hs119, Hs120, Hs121, Hs122, Hs123, Hs124, Hs125, Hs126, Hs127⟩
    sl_exec_parts! (disch := first | exact ⟨chk_of_lt _ (hlt _), chk_of_lt _ (hlt _)⟩ | exact chk_of_lt _ (hlt _))
    have rd := row_done c i ft fh hlt fs0
    ihave HR0 := rd 0 Facts₀.inb_S128x4096_S1x4096_0_0 (kernelRun0.sl.dma1 c i ft fh hlt) (fun _ => rfl) $$ HR0
    ihave HR1 := rd 1 Facts₀.inb_S128x4096_S1x4096_1_0 (kernelRun0.sl.dma2 c i ft fh hlt) (fun _ => rfl) $$ HR1
    ihave HR2 := rd 2 Facts₀.inb_S128x4096_S1x4096_2_0 (kernelRun0.sl.dma3 c i ft fh hlt) (fun _ => rfl) $$ HR2
    ihave HR3 := rd 3 Facts₀.inb_S128x4096_S1x4096_3_0 (kernelRun0.sl.dma4 c i ft fh hlt) (fun _ => rfl) $$ HR3
    ihave HR4 := rd 4 Facts₀.inb_S128x4096_S1x4096_4_0 (kernelRun0.sl.dma5 c i ft fh hlt) (fun _ => rfl) $$ HR4
    ihave HR5 := rd 5 Facts₀.inb_S128x4096_S1x4096_5_0 (kernelRun0.sl.dma6 c i ft fh hlt) (fun _ => rfl) $$ HR5
    ihave HR6 := rd 6 Facts₀.inb_S128x4096_S1x4096_6_0 (kernelRun0.sl.dma7 c i ft fh hlt) (fun _ => rfl) $$ HR6
    ihave HR7 := rd 7 Facts₀.inb_S128x4096_S1x4096_7_0 (kernelRun0.sl.dma8 c i ft fh hlt) (fun _ => rfl) $$ HR7
    ihave HR8 := rd 8 Facts₀.inb_S128x4096_S1x4096_8_0 (kernelRun0.sl.dma9 c i ft fh hlt) (fun _ => rfl) $$ HR8
    ihave HR9 := rd 9 Facts₀.inb_S128x4096_S1x4096_9_0 (kernelRun0.sl.dma10 c i ft fh hlt) (fun _ => rfl) $$ HR9
    ihave HR10 := rd 10 Facts₀.inb_S128x4096_S1x4096_10_0 (kernelRun0.sl.dma11 c i ft fh hlt) (fun _ => rfl) $$ HR10
    ihave HR11 := rd 11 Facts₀.inb_S128x4096_S1x4096_11_0 (kernelRun0.sl.dma12 c i ft fh hlt) (fun _ => rfl) $$ HR11
    ihave HR12 := rd 12 Facts₀.inb_S128x4096_S1x4096_12_0 (kernelRun0.sl.dma13 c i ft fh hlt) (fun _ => rfl) $$ HR12
    ihave HR13 := rd 13 Facts₀.inb_S128x4096_S1x4096_13_0 (kernelRun0.sl.dma14 c i ft fh hlt) (fun _ => rfl) $$ HR13
    ihave HR14 := rd 14 Facts₀.inb_S128x4096_S1x4096_14_0 (kernelRun0.sl.dma15 c i ft fh hlt) (fun _ => rfl) $$ HR14
    ihave HR15 := rd 15 Facts₀.inb_S128x4096_S1x4096_15_0 (kernelRun0.sl.dma16 c i ft fh hlt) (fun _ => rfl) $$ HR15
    ihave HR16 := rd 16 Facts₀.inb_S128x4096_S1x4096_16_0 (kernelRun0.sl.dma17 c i ft fh hlt) (fun _ => rfl) $$ HR16
    ihave HR17 := rd 17 Facts₀.inb_S128x4096_S1x4096_17_0 (kernelRun0.sl.dma18 c i ft fh hlt) (fun _ => rfl) $$ HR17
    ihave HR18 := rd 18 Facts₀.inb_S128x4096_S1x4096_18_0 (kernelRun0.sl.dma19 c i ft fh hlt) (fun _ => rfl) $$ HR18
    ihave HR19 := rd 19 Facts₀.inb_S128x4096_S1x4096_19_0 (kernelRun0.sl.dma20 c i ft fh hlt) (fun _ => rfl) $$ HR19
    ihave HR20 := rd 20 Facts₀.inb_S128x4096_S1x4096_20_0 (kernelRun0.sl.dma21 c i ft fh hlt) (fun _ => rfl) $$ HR20
    ihave HR21 := rd 21 Facts₀.inb_S128x4096_S1x4096_21_0 (kernelRun0.sl.dma22 c i ft fh hlt) (fun _ => rfl) $$ HR21
    ihave HR22 := rd 22 Facts₀.inb_S128x4096_S1x4096_22_0 (kernelRun0.sl.dma23 c i ft fh hlt) (fun _ => rfl) $$ HR22
    ihave HR23 := rd 23 Facts₀.inb_S128x4096_S1x4096_23_0 (kernelRun0.sl.dma24 c i ft fh hlt) (fun _ => rfl) $$ HR23
    ihave HR24 := rd 24 Facts₀.inb_S128x4096_S1x4096_24_0 (kernelRun0.sl.dma25 c i ft fh hlt) (fun _ => rfl) $$ HR24
    ihave HR25 := rd 25 Facts₀.inb_S128x4096_S1x4096_25_0 (kernelRun0.sl.dma26 c i ft fh hlt) (fun _ => rfl) $$ HR25
    ihave HR26 := rd 26 Facts₀.inb_S128x4096_S1x4096_26_0 (kernelRun0.sl.dma27 c i ft fh hlt) (fun _ => rfl) $$ HR26
    ihave HR27 := rd 27 Facts₀.inb_S128x4096_S1x4096_27_0 (kernelRun0.sl.dma28 c i ft fh hlt) (fun _ => rfl) $$ HR27
    ihave HR28 := rd 28 Facts₀.inb_S128x4096_S1x4096_28_0 (kernelRun0.sl.dma29 c i ft fh hlt) (fun _ => rfl) $$ HR28
    ihave HR29 := rd 29 Facts₀.inb_S128x4096_S1x4096_29_0 (kernelRun0.sl.dma30 c i ft fh hlt) (fun _ => rfl) $$ HR29
    ihave HR30 := rd 30 Facts₀.inb_S128x4096_S1x4096_30_0 (kernelRun0.sl.dma31 c i ft fh hlt) (fun _ => rfl) $$ HR30
    ihave HR31 := rd 31 Facts₀.inb_S128x4096_S1x4096_31_0 (kernelRun0.sl.dma32 c i ft fh hlt) (fun _ => rfl) $$ HR31
    ihave HR32 := rd 32 Facts₀.inb_S128x4096_S1x4096_32_0 (kernelRun0.sl.dma33 c i ft fh hlt) (fun _ => rfl) $$ HR32
    ihave HR33 := rd 33 Facts₀.inb_S128x4096_S1x4096_33_0 (kernelRun0.sl.dma34 c i ft fh hlt) (fun _ => rfl) $$ HR33
    ihave HR34 := rd 34 Facts₀.inb_S128x4096_S1x4096_34_0 (kernelRun0.sl.dma35 c i ft fh hlt) (fun _ => rfl) $$ HR34
    ihave HR35 := rd 35 Facts₀.inb_S128x4096_S1x4096_35_0 (kernelRun0.sl.dma36 c i ft fh hlt) (fun _ => rfl) $$ HR35
    ihave HR36 := rd 36 Facts₀.inb_S128x4096_S1x4096_36_0 (kernelRun0.sl.dma37 c i ft fh hlt) (fun _ => rfl) $$ HR36
    ihave HR37 := rd 37 Facts₀.inb_S128x4096_S1x4096_37_0 (kernelRun0.sl.dma38 c i ft fh hlt) (fun _ => rfl) $$ HR37
    ihave HR38 := rd 38 Facts₀.inb_S128x4096_S1x4096_38_0 (kernelRun0.sl.dma39 c i ft fh hlt) (fun _ => rfl) $$ HR38
    ihave HR39 := rd 39 Facts₀.inb_S128x4096_S1x4096_39_0 (kernelRun0.sl.dma40 c i ft fh hlt) (fun _ => rfl) $$ HR39
    ihave HR40 := rd 40 Facts₀.inb_S128x4096_S1x4096_40_0 (kernelRun0.sl.dma41 c i ft fh hlt) (fun _ => rfl) $$ HR40
    ihave HR41 := rd 41 Facts₀.inb_S128x4096_S1x4096_41_0 (kernelRun0.sl.dma42 c i ft fh hlt) (fun _ => rfl) $$ HR41
    ihave HR42 := rd 42 Facts₀.inb_S128x4096_S1x4096_42_0 (kernelRun0.sl.dma43 c i ft fh hlt) (fun _ => rfl) $$ HR42
    ihave HR43 := rd 43 Facts₀.inb_S128x4096_S1x4096_43_0 (kernelRun0.sl.dma44 c i ft fh hlt) (fun _ => rfl) $$ HR43
    ihave HR44 := rd 44 Facts₀.inb_S128x4096_S1x4096_44_0 (kernelRun0.sl.dma45 c i ft fh hlt) (fun _ => rfl) $$ HR44
    ihave HR45 := rd 45 Facts₀.inb_S128x4096_S1x4096_45_0 (kernelRun0.sl.dma46 c i ft fh hlt) (fun _ => rfl) $$ HR45
    ihave HR46 := rd 46 Facts₀.inb_S128x4096_S1x4096_46_0 (kernelRun0.sl.dma47 c i ft fh hlt) (fun _ => rfl) $$ HR46
    ihave HR47 := rd 47 Facts₀.inb_S128x4096_S1x4096_47_0 (kernelRun0.sl.dma48 c i ft fh hlt) (fun _ => rfl) $$ HR47
    ihave HR48 := rd 48 Facts₀.inb_S128x4096_S1x4096_48_0 (kernelRun0.sl.dma49 c i ft fh hlt) (fun _ => rfl) $$ HR48
    ihave HR49 := rd 49 Facts₀.inb_S128x4096_S1x4096_49_0 (kernelRun0.sl.dma50 c i ft fh hlt) (fun _ => rfl) $$ HR49
    ihave HR50 := rd 50 Facts₀.inb_S128x4096_S1x4096_50_0 (kernelRun0.sl.dma51 c i ft fh hlt) (fun _ => rfl) $$ HR50
    ihave HR51 := rd 51 Facts₀.inb_S128x4096_S1x4096_51_0 (kernelRun0.sl.dma52 c i ft fh hlt) (fun _ => rfl) $$ HR51
    ihave HR52 := rd 52 Facts₀.inb_S128x4096_S1x4096_52_0 (kernelRun0.sl.dma53 c i ft fh hlt) (fun _ => rfl) $$ HR52
    ihave HR53 := rd 53 Facts₀.inb_S128x4096_S1x4096_53_0 (kernelRun0.sl.dma54 c i ft fh hlt) (fun _ => rfl) $$ HR53
    ihave HR54 := rd 54 Facts₀.inb_S128x4096_S1x4096_54_0 (kernelRun0.sl.dma55 c i ft fh hlt) (fun _ => rfl) $$ HR54
    ihave HR55 := rd 55 Facts₀.inb_S128x4096_S1x4096_55_0 (kernelRun0.sl.dma56 c i ft fh hlt) (fun _ => rfl) $$ HR55
    ihave HR56 := rd 56 Facts₀.inb_S128x4096_S1x4096_56_0 (kernelRun0.sl.dma57 c i ft fh hlt) (fun _ => rfl) $$ HR56
    ihave HR57 := rd 57 Facts₀.inb_S128x4096_S1x4096_57_0 (kernelRun0.sl.dma58 c i ft fh hlt) (fun _ => rfl) $$ HR57
    ihave HR58 := rd 58 Facts₀.inb_S128x4096_S1x4096_58_0 (kernelRun0.sl.dma59 c i ft fh hlt) (fun _ => rfl) $$ HR58
    ihave HR59 := rd 59 Facts₀.inb_S128x4096_S1x4096_59_0 (kernelRun0.sl.dma60 c i ft fh hlt) (fun _ => rfl) $$ HR59
    ihave HR60 := rd 60 Facts₀.inb_S128x4096_S1x4096_60_0 (kernelRun0.sl.dma61 c i ft fh hlt) (fun _ => rfl) $$ HR60
    ihave HR61 := rd 61 Facts₀.inb_S128x4096_S1x4096_61_0 (kernelRun0.sl.dma62 c i ft fh hlt) (fun _ => rfl) $$ HR61
    ihave HR62 := rd 62 Facts₀.inb_S128x4096_S1x4096_62_0 (kernelRun0.sl.dma63 c i ft fh hlt) (fun _ => rfl) $$ HR62
    ihave HR63 := rd 63 Facts₀.inb_S128x4096_S1x4096_63_0 (kernelRun0.sl.dma64 c i ft fh hlt) (fun _ => rfl) $$ HR63
    ihave HR64 := rd 64 Facts₀.inb_S128x4096_S1x4096_64_0 (kernelRun0.sl.dma65 c i ft fh hlt) (fun _ => rfl) $$ HR64
    ihave HR65 := rd 65 Facts₀.inb_S128x4096_S1x4096_65_0 (kernelRun0.sl.dma66 c i ft fh hlt) (fun _ => rfl) $$ HR65
    ihave HR66 := rd 66 Facts₀.inb_S128x4096_S1x4096_66_0 (kernelRun0.sl.dma67 c i ft fh hlt) (fun _ => rfl) $$ HR66
    ihave HR67 := rd 67 Facts₀.inb_S128x4096_S1x4096_67_0 (kernelRun0.sl.dma68 c i ft fh hlt) (fun _ => rfl) $$ HR67
    ihave HR68 := rd 68 Facts₀.inb_S128x4096_S1x4096_68_0 (kernelRun0.sl.dma69 c i ft fh hlt) (fun _ => rfl) $$ HR68
    ihave HR69 := rd 69 Facts₀.inb_S128x4096_S1x4096_69_0 (kernelRun0.sl.dma70 c i ft fh hlt) (fun _ => rfl) $$ HR69
    ihave HR70 := rd 70 Facts₀.inb_S128x4096_S1x4096_70_0 (kernelRun0.sl.dma71 c i ft fh hlt) (fun _ => rfl) $$ HR70
    ihave HR71 := rd 71 Facts₀.inb_S128x4096_S1x4096_71_0 (kernelRun0.sl.dma72 c i ft fh hlt) (fun _ => rfl) $$ HR71
    ihave HR72 := rd 72 Facts₀.inb_S128x4096_S1x4096_72_0 (kernelRun0.sl.dma73 c i ft fh hlt) (fun _ => rfl) $$ HR72
    ihave HR73 := rd 73 Facts₀.inb_S128x4096_S1x4096_73_0 (kernelRun0.sl.dma74 c i ft fh hlt) (fun _ => rfl) $$ HR73
    ihave HR74 := rd 74 Facts₀.inb_S128x4096_S1x4096_74_0 (kernelRun0.sl.dma75 c i ft fh hlt) (fun _ => rfl) $$ HR74
    ihave HR75 := rd 75 Facts₀.inb_S128x4096_S1x4096_75_0 (kernelRun0.sl.dma76 c i ft fh hlt) (fun _ => rfl) $$ HR75
    ihave HR76 := rd 76 Facts₀.inb_S128x4096_S1x4096_76_0 (kernelRun0.sl.dma77 c i ft fh hlt) (fun _ => rfl) $$ HR76
    ihave HR77 := rd 77 Facts₀.inb_S128x4096_S1x4096_77_0 (kernelRun0.sl.dma78 c i ft fh hlt) (fun _ => rfl) $$ HR77
    ihave HR78 := rd 78 Facts₀.inb_S128x4096_S1x4096_78_0 (kernelRun0.sl.dma79 c i ft fh hlt) (fun _ => rfl) $$ HR78
    ihave HR79 := rd 79 Facts₀.inb_S128x4096_S1x4096_79_0 (kernelRun0.sl.dma80 c i ft fh hlt) (fun _ => rfl) $$ HR79
    ihave HR80 := rd 80 Facts₀.inb_S128x4096_S1x4096_80_0 (kernelRun0.sl.dma81 c i ft fh hlt) (fun _ => rfl) $$ HR80
    ihave HR81 := rd 81 Facts₀.inb_S128x4096_S1x4096_81_0 (kernelRun0.sl.dma82 c i ft fh hlt) (fun _ => rfl) $$ HR81
    ihave HR82 := rd 82 Facts₀.inb_S128x4096_S1x4096_82_0 (kernelRun0.sl.dma83 c i ft fh hlt) (fun _ => rfl) $$ HR82
    ihave HR83 := rd 83 Facts₀.inb_S128x4096_S1x4096_83_0 (kernelRun0.sl.dma84 c i ft fh hlt) (fun _ => rfl) $$ HR83
    ihave HR84 := rd 84 Facts₀.inb_S128x4096_S1x4096_84_0 (kernelRun0.sl.dma85 c i ft fh hlt) (fun _ => rfl) $$ HR84
    ihave HR85 := rd 85 Facts₀.inb_S128x4096_S1x4096_85_0 (kernelRun0.sl.dma86 c i ft fh hlt) (fun _ => rfl) $$ HR85
    ihave HR86 := rd 86 Facts₀.inb_S128x4096_S1x4096_86_0 (kernelRun0.sl.dma87 c i ft fh hlt) (fun _ => rfl) $$ HR86
    ihave HR87 := rd 87 Facts₀.inb_S128x4096_S1x4096_87_0 (kernelRun0.sl.dma88 c i ft fh hlt) (fun _ => rfl) $$ HR87
    ihave HR88 := rd 88 Facts₀.inb_S128x4096_S1x4096_88_0 (kernelRun0.sl.dma89 c i ft fh hlt) (fun _ => rfl) $$ HR88
    ihave HR89 := rd 89 Facts₀.inb_S128x4096_S1x4096_89_0 (kernelRun0.sl.dma90 c i ft fh hlt) (fun _ => rfl) $$ HR89
    ihave HR90 := rd 90 Facts₀.inb_S128x4096_S1x4096_90_0 (kernelRun0.sl.dma91 c i ft fh hlt) (fun _ => rfl) $$ HR90
    ihave HR91 := rd 91 Facts₀.inb_S128x4096_S1x4096_91_0 (kernelRun0.sl.dma92 c i ft fh hlt) (fun _ => rfl) $$ HR91
    ihave HR92 := rd 92 Facts₀.inb_S128x4096_S1x4096_92_0 (kernelRun0.sl.dma93 c i ft fh hlt) (fun _ => rfl) $$ HR92
    ihave HR93 := rd 93 Facts₀.inb_S128x4096_S1x4096_93_0 (kernelRun0.sl.dma94 c i ft fh hlt) (fun _ => rfl) $$ HR93
    ihave HR94 := rd 94 Facts₀.inb_S128x4096_S1x4096_94_0 (kernelRun0.sl.dma95 c i ft fh hlt) (fun _ => rfl) $$ HR94
    ihave HR95 := rd 95 Facts₀.inb_S128x4096_S1x4096_95_0 (kernelRun0.sl.dma96 c i ft fh hlt) (fun _ => rfl) $$ HR95
    ihave HR96 := rd 96 Facts₀.inb_S128x4096_S1x4096_96_0 (kernelRun0.sl.dma97 c i ft fh hlt) (fun _ => rfl) $$ HR96
    ihave HR97 := rd 97 Facts₀.inb_S128x4096_S1x4096_97_0 (kernelRun0.sl.dma98 c i ft fh hlt) (fun _ => rfl) $$ HR97
    ihave HR98 := rd 98 Facts₀.inb_S128x4096_S1x4096_98_0 (kernelRun0.sl.dma99 c i ft fh hlt) (fun _ => rfl) $$ HR98
    ihave HR99 := rd 99 Facts₀.inb_S128x4096_S1x4096_99_0 (kernelRun0.sl.dma100 c i ft fh hlt) (fun _ => rfl) $$ HR99
    ihave HR100 := rd 100 Facts₀.inb_S128x4096_S1x4096_100_0 (kernelRun0.sl.dma101 c i ft fh hlt) (fun _ => rfl) $$ HR100
    ihave HR101 := rd 101 Facts₀.inb_S128x4096_S1x4096_101_0 (kernelRun0.sl.dma102 c i ft fh hlt) (fun _ => rfl) $$ HR101
    ihave HR102 := rd 102 Facts₀.inb_S128x4096_S1x4096_102_0 (kernelRun0.sl.dma103 c i ft fh hlt) (fun _ => rfl) $$ HR102
    ihave HR103 := rd 103 Facts₀.inb_S128x4096_S1x4096_103_0 (kernelRun0.sl.dma104 c i ft fh hlt) (fun _ => rfl) $$ HR103
    ihave HR104 := rd 104 Facts₀.inb_S128x4096_S1x4096_104_0 (kernelRun0.sl.dma105 c i ft fh hlt) (fun _ => rfl) $$ HR104
    ihave HR105 := rd 105 Facts₀.inb_S128x4096_S1x4096_105_0 (kernelRun0.sl.dma106 c i ft fh hlt) (fun _ => rfl) $$ HR105
    ihave HR106 := rd 106 Facts₀.inb_S128x4096_S1x4096_106_0 (kernelRun0.sl.dma107 c i ft fh hlt) (fun _ => rfl) $$ HR106
    ihave HR107 := rd 107 Facts₀.inb_S128x4096_S1x4096_107_0 (kernelRun0.sl.dma108 c i ft fh hlt) (fun _ => rfl) $$ HR107
    ihave HR108 := rd 108 Facts₀.inb_S128x4096_S1x4096_108_0 (kernelRun0.sl.dma109 c i ft fh hlt) (fun _ => rfl) $$ HR108
    ihave HR109 := rd 109 Facts₀.inb_S128x4096_S1x4096_109_0 (kernelRun0.sl.dma110 c i ft fh hlt) (fun _ => rfl) $$ HR109
    ihave HR110 := rd 110 Facts₀.inb_S128x4096_S1x4096_110_0 (kernelRun0.sl.dma111 c i ft fh hlt) (fun _ => rfl) $$ HR110
    ihave HR111 := rd 111 Facts₀.inb_S128x4096_S1x4096_111_0 (kernelRun0.sl.dma112 c i ft fh hlt) (fun _ => rfl) $$ HR111
    ihave HR112 := rd 112 Facts₀.inb_S128x4096_S1x4096_112_0 (kernelRun0.sl.dma113 c i ft fh hlt) (fun _ => rfl) $$ HR112
    ihave HR113 := rd 113 Facts₀.inb_S128x4096_S1x4096_113_0 (kernelRun0.sl.dma114 c i ft fh hlt) (fun _ => rfl) $$ HR113
    ihave HR114 := rd 114 Facts₀.inb_S128x4096_S1x4096_114_0 (kernelRun0.sl.dma115 c i ft fh hlt) (fun _ => rfl) $$ HR114
    ihave HR115 := rd 115 Facts₀.inb_S128x4096_S1x4096_115_0 (kernelRun0.sl.dma116 c i ft fh hlt) (fun _ => rfl) $$ HR115
    ihave HR116 := rd 116 Facts₀.inb_S128x4096_S1x4096_116_0 (kernelRun0.sl.dma117 c i ft fh hlt) (fun _ => rfl) $$ HR116
    ihave HR117 := rd 117 Facts₀.inb_S128x4096_S1x4096_117_0 (kernelRun0.sl.dma118 c i ft fh hlt) (fun _ => rfl) $$ HR117
    ihave HR118 := rd 118 Facts₀.inb_S128x4096_S1x4096_118_0 (kernelRun0.sl.dma119 c i ft fh hlt) (fun _ => rfl) $$ HR118
    ihave HR119 := rd 119 Facts₀.inb_S128x4096_S1x4096_119_0 (kernelRun0.sl.dma120 c i ft fh hlt) (fun _ => rfl) $$ HR119
    ihave HR120 := rd 120 Facts₀.inb_S128x4096_S1x4096_120_0 (kernelRun0.sl.dma121 c i ft fh hlt) (fun _ => rfl) $$ HR120
    ihave HR121 := rd 121 Facts₀.inb_S128x4096_S1x4096_121_0 (kernelRun0.sl.dma122 c i ft fh hlt) (fun _ => rfl) $$ HR121
    ihave HR122 := rd 122 Facts₀.inb_S128x4096_S1x4096_122_0 (kernelRun0.sl.dma123 c i ft fh hlt) (fun _ => rfl) $$ HR122
    ihave HR123 := rd 123 Facts₀.inb_S128x4096_S1x4096_123_0 (kernelRun0.sl.dma124 c i ft fh hlt) (fun _ => rfl) $$ HR123
    ihave HR124 := rd 124 Facts₀.inb_S128x4096_S1x4096_124_0 (kernelRun0.sl.dma125 c i ft fh hlt) (fun _ => rfl) $$ HR124
    ihave HR125 := rd 125 Facts₀.inb_S128x4096_S1x4096_125_0 (kernelRun0.sl.dma126 c i ft fh hlt) (fun _ => rfl) $$ HR125
    ihave HR126 := rd 126 Facts₀.inb_S128x4096_S1x4096_126_0 (kernelRun0.sl.dma127 c i ft fh hlt) (fun _ => rfl) $$ HR126
    ihave HR127 := rd 127 Facts₀.inb_S128x4096_S1x4096_127_0 (kernelRun0.sl.dma128 c i ft fh hlt) (fun _ => rfl) $$ HR127
    ihave HS0 := (Entails.of_eq (rows_chain c (Gsc c i ft fh hlt)).symm) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76 HR77 HR78 HR79 HR80 HR81 HR82 HR83 HR84 HR85 HR86 HR87 HR88 HR89 HR90 HR91 HR92 HR93 HR94 HR95 HR96 HR97 HR98 HR99 HR100 HR101 HR102 HR103 HR104 HR105 HR106 HR107 HR108 HR109 HR110 HR111 HR112 HR113 HR114 HR115 HR116 HR117 HR118 HR119 HR120 HR121 HR122 HR123 HR124 HR125 HR126 HR127]
    · iframe
    sl_exec
    sl_step
    iapply Hk
    isplitl [H1]; · iexists _; iexact H1
    isplitl [HS0]; · iexists _; iexact HS0
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106 Hq107 Hq108 Hq109 Hq110 Hq111 Hq112 Hq113 Hq114 Hq115 Hq116 Hq117 Hq118 Hq119 Hq120 Hq121 Hq122 Hq123 Hq124 Hq125 Hq126 Hq127]
    · iframe
    isplitl [Hdrop Htk0 Htk1 Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hs64 Hs65 Hs66 Hs67 Hs68 Hs69 Hs70 Hs71 Hs72 Hs73 Hs74 Hs75 Hs76 Hs77 Hs78 Hs79 Hs80 Hs81 Hs82 Hs83 Hs84 Hs85 Hs86 Hs87 Hs88 Hs89 Hs90 Hs91 Hs92 Hs93 Hs94 Hs95 Hs96 Hs97 Hs98 Hs99 Hs100 Hs101 Hs102 Hs103 Hs104 Hs105 Hs106 Hs107 Hs108 Hs109 Hs110 Hs111 Hs112 Hs113 Hs114 Hs115 Hs116 Hs117 Hs118 Hs119 Hs120 Hs121 Hs122 Hs123 Hs124 Hs125 Hs126 Hs127]
    · iapply (toks_chain c fh).2
      iframe
    isplitl [Ht0]; · iexact Ht0
    iexists _; iexact HW

end Cert.Kernel.Hand

end
-- ==== Proof.LibRegionHeld.lean ====
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

section Exit

variable {gr : Nat} {Wn : Nat} (win : Fin Wn → WinSpec sig gr) (c : Dev nD) (V : Valuation τ sig Val)
  (A : (w : Fin Wn) → Buf Val ((win w).arr.view.loc (c : Thread nD τ)))

theorem withArrays_hF (hinj : Function.Injective (arrRef win)) (w : Fin Wn) :
    A w = withArrays win c V A (Proc.devRef .tc (arrRef win w)) :=
  (withArrays_arr win hinj c V A w).symm

theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

section Held

variable {U : Type} [URA U] {P : Type} [Fintype P]

local notation "𝕄" => MT nD τ sig Unit Val ℕ U ℕ

abbrev idleRest (c : Dev nD) : sProp 𝕄 :=
  iprop((∃ r, prngReg c r) ∗ ∃ S, owes (c : Thread nD τ) (0 : CellTallies nD τ sig Unit) S)

abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

set_option backward.isDefEq.respectTransparency.types false in
/-- A pipeline's region as one item of a program that holds every array whole between items: entered with the arrays at `W` and nothing owed, left with them at `W'`; for a kernel with no table to hold and no cell of its own. -/
def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'

  X c := iprop(∃ r, prngReg c r)
  Y c := iprop(∃ r, prngReg c r)

  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.LibRegionHeldDma.lean ====
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop
import proofs.«402818_j61933428412865_1_alg».proof.Proof.LibRegionHeld

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}
  {P : Type} [Fintype P] {K : Type} [Fintype K]

local notation "𝕄" => MT nD τ sig Unit Val ℕ (UD sig nD τ) ℕ

variable (pcs : P → PCfg sig Λ₀ Val) (a : (p : P) → (pcs p).Adm)
  (pdats : (p : P) → (c : Dev nD) → Dat τ Val Unit ℕ (UD sig nD τ) ℕ (pin pcs a p) c)
  (defs₀ : Defs nD τ sig Val Λ₀) (𝒱₀ : Variants)
  (L : GSem nD τ sig → Finset Unit) (lv : GSem nD τ sig → Unit → ℕ)

def ΦDT (osem : K → SemLoc sig) (p : P) (H : Finset (Ref sig .tc)) (W : Dev nD → Valuation τ sig Val) (c : Dev nD) :
    sProp 𝕄 :=
  iprop(scopedRest (Ix := Unit) (Name := ℕ) (U := UD sig nD τ) (Lvl := ℕ) (Val := Val) (pin pcs a p).spec c
    ∗ (∃ r, prngReg c r)
    ∗ ownSems0 (Ix := Unit) (Name := ℕ) (U := UD sig nD τ) (Lvl := ℕ) (Val := Val) (τ := τ) osem c
    ∗ (bigSep H fun b => ((c.tc : Thread nD τ).loc b) ↦{fullShare} W c (Proc.devRef .tc b))
    ∗ prefHeld (pcs p).pre c (fun _ => fullShare) (a p).1)

theorem ΦDT_eq (osem : K → SemLoc sig) (p : P) (H : Finset (Ref sig .tc)) (W : Dev nD → Valuation τ sig Val)
    (c : Dev nD) :
    ΦDT pcs a osem p H W c
      = iprop(scopedRest (Ix := Unit) (Name := ℕ) (U := UD sig nD τ) (Lvl := ℕ) (Val := Val) (pin pcs a p).spec c
          ∗ (∃ r, prngReg c r)
          ∗ ownSems0 (Ix := Unit) (Name := ℕ) (U := UD sig nD τ) (Lvl := ℕ) (Val := Val) (τ := τ) osem c
          ∗ (bigSep H fun b => ((c.tc : Thread nD τ).loc b) ↦{fullShare} W c (Proc.devRef .tc b))
          ∗ prefHeld (pcs p).pre c (fun _ => fullShare) (a p).1) := rfl

theorem unscopedRest_tables_read (p : P) (hp : PreFacts (pin pcs a p).spec (pcs p).pre)
    (H : Finset (Ref sig .tc)) (hH : H ⊆ restRefsP sig (pcs p).pre (pin pcs a p).spec)
    (c : Dev nD) (V : (b : Ref sig .tc) → Buf Val ((c.tc : Thread nD τ).loc b))
    (hpf : ∀ k : Fin (pcs p).pre.K, V ((pcs p).pre.ref k) = (a p).1 k) :
    (unscopedRest (Ix := Unit) (Name := ℕ) (U := UD sig nD τ) (Lvl := ℕ) (pin pcs a p).spec c V : sProp 𝕄)
      = iprop(prefHeld (pcs p).pre c (fun _ => fullShare) (a p).1
          ∗ (bigSep H fun b => ((c.tc : Thread nD τ).loc b) ↦{fullShare} V b)
          ∗ bigSep (restRefsP sig (pcs p).pre (pin pcs a p).spec \ H) fun b => ((c.tc : Thread nD τ).loc b) ↦{fullShare} V b) := by
  rw [unscopedRest_split hp c V, unscopedRestP_sdiff (pcs p).pre (pin pcs a p).spec H hH c V]
  have hV : (fun k => V ((pcs p).pre.ref k)) = (a p).1 := funext hpf
  rw [hV]

set_option backward.isDefEq.respectTransparency.types false in
/-- The same item for a kernel that holds tables, owns cells and reads further arrays `H` by copies of its own: the tables and `H` enter the invariant whole and leave it as they were. -/
def RegionSeg.ofHeldDma (p : P) (osem : K → SemLoc sig)
    (hw : WinFacts (pin pcs a p).spec) (hp : PreFacts (pin pcs a p).spec (pcs p).pre)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (ho : OwnSemFacts (pcs p).spec osem)
    (H : Finset (Ref sig .tc)) (hH : H ⊆ restRefsP sig (pcs p).pre (pin pcs a p).spec)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hpf : ∀ (c : Dev nD) (k : Fin (pcs p).pre.K), W c (Proc.devRef .tc ((pcs p).pre.ref k)) = (a p).1 k)
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦDT pcs a osem p H W c : sProp 𝕄) ⊢ (pdats p c).Φ 0)
    (hΦout : ∀ c : Dev nD, (pdats p c).Φ (Fin.last (pin pcs a p).N) ⊢ (ΦDT pcs a osem p H W c : sProp 𝕄)) :
    RegionSeg pcs a pdats () defs₀ 𝒱₀ L lv p where
  win := hw.to₀
  block_pos := hpos
  stage_whole := hstage
  K := K
  osem := osem
  ho := ho
  hbody c := (hbody c).loose
  hwaits := hwaits_of_owed_zero pcs a pdats () L lv p howed
  pre := heldIdle W
  post := heldIdle W'

  X c := iprop((∃ r, prngReg c r)
    ∗ ownSems0 (Ix := Unit) (Name := ℕ) (U := UD sig nD τ) (Lvl := ℕ) (Val := Val) (τ := τ) osem c
    ∗ bigSep H fun b => ((c.tc : Thread nD τ).loc b) ↦{fullShare} W c (Proc.devRef .tc b))

  Y c := iprop((∃ r, prngReg c r)
    ∗ (bigSep H fun b => ((c.tc : Thread nD τ).loc b) ↦{fullShare} W c (Proc.devRef .tc b))
    ∗ prefHeld (pcs p).pre c (fun _ => fullShare) (a p).1)

  Z c := bigSep (restRefsP sig (pcs p).pre (pin pcs a p).spec \ H)
    fun b => ((c.tc : Thread nD τ).loc b) ↦{fullShare} W c (Proc.devRef .tc b)
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    have hparts := unscopedRest_tables_read pcs a p hp H hH c (fun b => W c (Proc.devRef .tc b)) (hpf c)
    iintro ⟨⟨Hbufs, Hgen, Howe⟩, Hown, -⟩
    ihave Hsplit := hcut $$ Hbufs
    icases Hsplit with ⟨Harr, Hby⟩
    ihave Hby' := (Entails.of_eq hparts) $$ Hby
    icases Hby' with ⟨Hpre, HH, HZ⟩
    imodintro
    isplitl [Harr]; · iexact Harr
    isplitl [Hpre]; · iexact Hpre
    isplitl [Howe]
    · iapply ((pdats p c).owesAt_of_owes_nothing () 0 (howed c 0) (hrec c)); iexact Howe
    isplitr [HZ]
    · isplitl [Hgen]; · iexact Hgen
      isplitl [Hown]; · iexact Hown
      iexact HH
    · iexact HZ
  hin c := by
    refine Entails.trans ?_ (hΦin c)
    rw [ΦDT_eq]
    iintro ⟨⟨Hgen, Hown, HH⟩, Hpre, Hsc⟩
    isplitl [Hsc]; · iexact Hsc
    isplitl [Hgen]; · iexact Hgen
    isplitl [Hown]; · iexact Hown
    isplitl [HH]; · iexact HH
    iexact Hpre
  hout c := by
    refine (hΦout c).trans ?_
    rw [ΦDT_eq]
    iintro ⟨Hsc, Hgen, Hown, HH, Hpre⟩
    isplitl [Hgen HH Hpre]
    · isplitl [Hgen]; · iexact Hgen
      isplitl [HH]; · iexact HH
      iexact Hpre
    isplitl [Hown]; · iexact Hown
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    have hparts := unscopedRest_tables_read pcs a p hp H hH c (fun b => W c (Proc.devRef .tc b)) (hpf c)
    iintro ⟨Harr, Howe, ⟨Hgen, HH, Hpre⟩, HZ⟩
    imodintro
    isplitl [Harr HH Hpre HZ]
    · iapply hglue
      isplitl [Harr]; · iexact Harr
      iapply (Entails.of_eq hparts.symm)
      isplitl [Hpre]; · iexact Hpre
      isplitl [HH]; · iexact HH
      iexact HZ
    isplitl [Hgen]; · iexact Hgen
    iapply ((pdats p c).owes_nothing_of_owesAt () _ (howed c _)); iexact Howe

end Pipeline

end Idealize.ShloMosaic

end
-- ==== Proof.K.Region0.lean ====
import proofs.«402818_j61933428412865_1_alg».proof.Proof.Gen.Kernel.Launch
import proofs.«402818_j61933428412865_1_alg».proof.Proof.Gen.Kernel.Skeleton
import proofs.«402818_j61933428412865_1_alg».proof.Proof.Gen.Kernel.Points
import proofs.«402818_j61933428412865_1_alg».proof.Proof.Gen.Kernel.Regions
import proofs.«402818_j61933428412865_1_alg».proof.Proof.K.Common
import proofs.«402818_j61933428412865_1_alg».proof.Proof.K.Body0
import proofs.«402818_j61933428412865_1_alg».proof.Proof.LibRegionHeldDma
import Idealize.ShloMosaic.Lib.Ring
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (a0 : (pcfg0 (F := F)).Adm) (V : (c : Dev nD) → (b : Ref sig .tc) → Buf (Elt F) ((c : Thread nD τ).loc b))

abbrev tblOf (c : Dev nD) : HbBuf0 (F := F) c tbM0 := a0.1 ⟨0, Nat.zero_lt_one⟩

variable (hlt : ∀ (c : Dev nD) k, (tbM0.view.read (Elt F) (tblOf a0 c) k).toNat < 50264)

abbrev VO0_0 : View sig .tc .vmem S128x4096 .bf16 := (Memref.whole cc0_stg0_0 : Memref sig .tc .vmem S128x4096 .bf16).view

abbrev ms0_0 (t : Fin (cfg0 a0).N) : Memref sig .tc .vmem S128x4096 .bf16 := spec0_0.stage ((cfg0 a0).slots t 0)
abbrev hs0_0 (t : Fin (cfg0 a0).N) : (ms0_0 a0 t).IsWhole := hstage0_0 (((cfg0 a0).slots t 0).cast nbuf0_0)

def H0 : Finset (Ref sig .tc) := {main_arg1}
theorem H0_sub : H0 ⊆ Pipeline.restRefsP sig pre0 spec0 := by decide

theorem cover0_0 (c : Dev nD) (i : grid0.Coords) (arg3 : Memref sig .tc .vmem S128x4096 .bf16) (harg3 : arg3.IsWhole)
    (ft : HbBuf0 (F := F) c tbM0) (fh : HbBuf0 (F := F) c hbM0) (h : ∀ k, (tbM0.view.read (Elt F) ft k).toNat < 50264) (y : S128x4096.Idx) :
    ∃ pc ∈ (kernelRun0 c i arg3 harg3 ft fh h).1, y ∈ pc.1.set :=
  View.cover_of_tiledL (kernelRun0 c i arg3 harg3 ft fh h).1 S128x4096.size (by sl_kernel_rfl) y

def out0_0 (c : Dev nD) (i : grid0.Coords) (arg3 : Memref sig .tc .vmem S128x4096 .bf16) (harg3 : arg3.IsWhole)
    (ft : HbBuf0 (F := F) c tbM0) (fh : HbBuf0 (F := F) c hbM0) (h : ∀ k, (tbM0.view.read (Elt F) ft k).toNat < 50264) : Vec F S128x4096 .bf16 :=
  VO0_0.read (Elt F) (VO0_0.writes (Elt F) VO0_0.junk (kernelRun0 c i arg3 harg3 ft fh h).1)

attribute [irreducible] out0_0

def outsAt0 (c : Dev nD) (t : Fin (cfg0 a0).N) : Vec F S128x4096 .bf16 :=
  out0_0 c (grid0.coords t) (ms0_0 a0 t) (hs0_0 a0 t) (tblOf a0 c) (V c main_arg1) (hlt c)

def Phi0 (c : Dev nD) : sProp 𝕄 :=
  iprop(Pipeline.scopedRest (Ix := Unit) (Name := ℕ) (U := Pipeline.UD sig nD τ) (Lvl := ℕ) (Val := Elt F) spec0 c ∗ (∃ r, prngReg c r)
    ∗ Pipeline.ownSems0 (Ix := Unit) (Name := ℕ) (U := Pipeline.UD sig nD τ) (Lvl := ℕ) (Val := Elt F) (τ := τ) osem0 c
    ∗ (bigSep H0 fun b => (((c : Thread nD τ).loc b) ↦{fullShare} V c b))
    ∗ Pipeline.prefHeld pre0 c (fun _ => fullShare) a0.1)

def dat0 (c : Dev nD) : Dat τ (Elt F) Unit ℕ (Pipeline.UD sig nD τ) ℕ (cfg0 a0) c where
  A w := V c (Pipeline.arrRef spec0 w)
  after w t := match w with
    | ⟨0, _⟩ => outsAt0 a0 V hlt c t
  Φ _ := Phi0 a0 V c
  q _ := fullShare
  owed _ := 0

theorem A_eq0 (c : Dev nD) (w : Fin (cfg0 a0).W) : (dat0 a0 V hlt c).A w = V c (Pipeline.arrRef spec0 w) := by
  dsimp only [dat0]
theorem after0_0 (c : Dev nD) (t : Fin (cfg0 a0).N) : (dat0 a0 V hlt c).after 0 t = outsAt0 a0 V hlt c t := rfl

abbrev bodyAt0 (t : Fin (cfg0 a0).N) : Prog (TpuEff nD τ sig (Elt F) Λ₀ .tc) PUnit :=
  cc0__gather_kernel (grid0.coords t) (Memref.whole main_v0) (Memref.isWhole_whole _) (Memref.whole main_arg1) (Memref.isWhole_whole _)
    (spec0_0.stage ((cfg0 a0).slots t 0)) (hstage0_0 (((cfg0 a0).slots t 0).cast nbuf0_0)) (Memref.whole cc0_scratch0) (Memref.isWhole_whole _) cc0_scratch1

theorem hbm0_eq (c : Dev nD) :
    (bigSep H0 (fun b => (((c : Thread nD τ).loc b) ↦{fullShare} V c b)) : sProp 𝕄) = iprop(hbPt0 c hbM0 (V c main_arg1)) := by
  rw [BI.bigSep_eq_bigSepL_of_eq [main_arg1] (by decide) (by decide)]; rfl

theorem pref0_eq (c : Dev nD) :
    (Pipeline.prefHeld (Ix := Unit) (Name := ℕ) (U := Pipeline.UD sig nD τ) (Lvl := ℕ) pre0 c (fun _ => fullShare) a0.1 : sProp 𝕄) = iprop(hbPt0 c tbM0 (tblOf a0 c)) := by
  unfold Pipeline.prefHeld
  rw [bigSep_univ_eq_bigSepL [(0 : Fin 1)] (by decide) (by decide)]; rfl

theorem scratch_pt (c : Dev nD) (f : HbBuf0 (F := F) c scM0) :
    (scM0.view.loc (c : Thread nD τ) ↦[scM0.view.set]{fullShare} f : sProp 𝕄) = (((c : Thread nD τ).loc cc0_scratch0) ↦{fullShare} f) := by
  simp only [scM0, Memref.view_whole, View.set_whole]

def bodyPre0 (c : Dev nD) (t : Fin (cfg0 a0).N) : sProp 𝕄 :=
  iprop((dat0 a0 V hlt c).Φ t.castSucc ∗ (dat0 a0 V hlt c).owesAt () t.castSucc
    ∗ (∃ d, owns (c : Thread nD τ) (ms0_0 a0 t) fullShare ((dat0 a0 V hlt c).before 0 t d)))

def bodyPost0 (c : Dev nD) (t : Fin (cfg0 a0).N) : sProp 𝕄 :=
  iprop((dat0 a0 V hlt c).Φ t.succ ∗ (dat0 a0 V hlt c).owesAt () t.succ
    ∗ owns (c : Thread nD τ) (ms0_0 a0 t) fullShare ((dat0 a0 V hlt c).after 0 t))

set_option maxHeartbeats 2000000 in
/-- One grid point of the gather region: from the point's precondition the body runs to the point's postcondition. -/
theorem sound_body0 (c : Dev nD) (t : Fin (cfg0 a0).N) :
    bodyPre0 a0 V hlt c t ⊢ wp frame (wpE (defs₀ (F := F)) Variants.none c none) Set.univ (bodyAt0 a0 t) (fun _ => bodyPost0 a0 V hlt c t) := by
  unfold bodyPre0 bodyPost0 bodyAt0
  rw [show (dat0 a0 V hlt c).Φ t.succ = Phi0 a0 V c from rfl, show (dat0 a0 V hlt c).Φ t.castSucc = Phi0 a0 V c from rfl, after0_0]
  unfold Phi0
  rw [scopedRest0_eq, hbm0_eq, pref0_eq]
  unfold Dat.owesAt Pipeline.owesWithin
  rw [show (dat0 a0 V hlt c).owed t.castSucc = 0 from rfl, show (dat0 a0 V hlt c).owed t.succ = 0 from rfl]
  unfold outsAt0 out0_0
  iintro ⟨⟨⟨⟨%fs0, HS0⟩, Hr1, Hr2, Hr3, Hr4, Hr5⟩, Hg, Hsem, Hh0, Ht0⟩, ⟨%W, -, HW⟩, ⟨%d0, H0⟩⟩
  ihave HS0 := (Entails.of_eq (scratch_pt c fs0).symm) $$ HS0
  iapply ((kernelRun0 c (grid0.coords t) _ _ (tblOf a0 c) (V c main_arg1) (hlt c)).2 fs0 W _)
  isplitl [H0]; · iexists _; iexact H0
  isplitl [HS0]; · iexact HS0
  isplitl [Hsem]; · iexact Hsem
  isplitl [Hh0]; · iexact Hh0
  isplitl [Ht0]; · iexact Ht0
  isplitl [HW]; · iexact HW
  iintro ⟨⟨%e0, H0⟩, ⟨%fs1, HS0⟩, Hsem, Hh0, Ht0, ⟨%W', HW'⟩⟩
  ihave HS0 := (Entails.of_eq (scratch_pt c fs1)) $$ HS0
  isplitl [HS0 Hr1 Hr2 Hr3 Hr4 Hr5 Hg Hsem Hh0 Ht0]
  · isplitl [HS0 Hr1 Hr2 Hr3 Hr4 Hr5]
    · isplitl [HS0]; · iexists _; iexact HS0
      isplitl [Hr1]; · iexact Hr1
      isplitl [Hr2]; · iexact Hr2
      isplitl [Hr3]; · iexact Hr3
      isplitl [Hr4]; · iexact Hr4
      iexact Hr5
    isplitl [Hg]; · iexact Hg
    isplitl [Hsem]; · iexact Hsem
    isplitl [Hh0]; · iexact Hh0
    iexact Ht0
  isplitl [HW']
  · iexists W'; isplitr; · ipureintro; exact fun _ _ => Or.inl trivial
    iexact HW'
  unfold owns; iexists _; isplitr
  swap; · iexact H0
  ipureintro; exact View.read_writes_of_cover _ _ _ _ _ (cover0_0 c _ _ _ _ _ _)

set_option maxRecDepth 200000 in
theorem body_obligation0 (c : Dev nD) : BodyObligation (dat0 a0 V hlt c) (defs₀ (F := F)) Variants.none () Set.univ := fun t => by
  rw [bigSep_W0, bigSep_W0]
  exact sound_body0 a0 V hlt c t

end Cert.Kernel.Hand

end
-- ==== Proof.K.Runs1.lean ====
import proofs.«402818_j61933428412865_1_alg».proof.Proof.K.Common
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 128 = 0 :=
  (by decide +kernel : ∀ t : Fin grid1.N, cond1_0 (grid1.coords t) ↔ t.val % 128 = 0)

abbrev cond1_1 (i : grid1.Coords) : Prop := k1_cond2 i = 1#1

theorem hcond1_1 : ∀ t : Fin cfg1.N, cond1_1 (grid1.coords t) ↔ t.val % 128 = 127 :=
  (by decide +kernel : ∀ t : Fin grid1.N, cond1_1 (grid1.coords t) ↔ t.val % 128 = 127)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel

theorem noFlush1_2_A : ∀ t : Fin cfg1.N, cond1_0 (grid1.coords t) → ¬cond1_1 (grid1.coords t) → (cfg1.win 2).flush t = false := by decide +kernel

theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel

theorem liveAt1_2_C : ∀ t : Fin cfg1.N, ¬cond1_0 (grid1.coords t) → cond1_1 (grid1.coords t) → cfg1.idle 2 (grid1.coords t) = false := by decide +kernel

abbrev VO1_2 : View sig .tc .vmem S1x1 .f32 := (Memref.whole cc1_stg2_0 : Memref sig .tc .vmem S1x1 .f32).view

abbrev ms1_0 (t : Fin cfg1.N) : Memref sig .tc .vmem S128x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

abbrev VS1_0 : View sig .tc .vmem S1x1 .f32 := (accM1 : Memref sig .tc .vmem S1x1 .f32).view

abbrev heldAny (c : Dev nD) (b : Ref sig .tc) : sProp 𝕄 :=
  iprop(∃ f : Buf (Elt F) ((c : Thread nD τ).loc b), ((c : Thread nD τ).loc b) ↦{fullShare} f)

theorem PhiA1_eq (c : Dev nD) :
    (Pipeline.ΦA spec1 c : sProp 𝕄)
      = iprop(iprop(heldAny (F := F) c cc0_stg0_0 ∗ heldAny (F := F) c cc0_stg0_1 ∗ heldAny (F := F) c cc0_scratch0 ∗ (∃ d, owns (c : Thread nD τ) accM1 fullShare d)) ∗ (∃ r, prngReg c r)) := by
  unfold Pipeline.ΦA; rw [scopedRest1_eq]; simp only [accM1, owns_whole]; try rfl

end Cert.Kernel.Hand

end
-- ==== Proof.K.Run1A.lean ====
import proofs.«402818_j61933428412865_1_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_A (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S128x4096 .bf16) (x1 : Vec F S4096x4096 .bf16) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__mm_reduce_kernel i arg1 harg1 arg2 harg2 arg3 harg3 arg4 harg4) K } := by
  refine ⟨[], ?_, fun xi2 E K => ?run⟩
  case run =>
    simp only [cc1__mm_reduce_kernel_eq_skeleton]; unfold cc1__mm_reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.Run1B.lean ====
import proofs.«402818_j61933428412865_1_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_B (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S128x4096 .bf16) (x1 : Vec F S4096x4096 .bf16) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__mm_reduce_kernel i arg1 harg1 arg2 harg2 arg3 harg3 arg4 harg4) K } := by
  refine ⟨[], ?_, fun xi2 E K => ?run⟩
  case run =>
    simp only [cc1__mm_reduce_kernel_eq_skeleton]; unfold cc1__mm_reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.Run1C.lean ====
import proofs.«402818_j61933428412865_1_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_C (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x4096 .bf16) (x1 : Vec F S4096x4096 .bf16) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__mm_reduce_kernel i arg1 harg1 arg2 harg2 arg3 harg3 arg4 harg4) K } := by
  refine ⟨?_, ?_, fun E K => ?run⟩
  case run =>
    simp only [cc1__mm_reduce_kernel_eq_skeleton]; unfold cc1__mm_reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.Region1.lean ====
import proofs.«402818_j61933428412865_1_alg».proof.Proof.K.Run1C
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

section
variable (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole)

def out1_A_2 (hc0 : cond1_0 i) (hc1 : ¬cond1_1 i) (x0 : Vec F S128x4096 .bf16) (x1 : Vec F S4096x4096 .bf16) : Vec F S1x1 .f32 :=
  VO1_2.read (Elt F) (VO1_2.writes (Elt F) VO1_2.junk (kernelRun1_A c i arg1 harg1 arg2 harg2 arg3 harg3 arg4 harg4 hc0 hc1 x0 x1).1)

theorem scover1_A_0 (hc0 : cond1_0 i) (hc1 : ¬cond1_1 i) (x0 : Vec F S128x4096 .bf16) (x1 : Vec F S4096x4096 .bf16) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

def sout1_A_0 (hc0 : cond1_0 i) (hc1 : ¬cond1_1 i) (x0 : Vec F S128x4096 .bf16) (x1 : Vec F S4096x4096 .bf16) : Vec F S1x1 .f32 :=
  VS1_0.read (Elt F) (VS1_0.writes (Elt F) VS1_0.junk (kernelRun1_A c i arg1 harg1 arg2 harg2 arg3 harg3 arg4 harg4 hc0 hc1 x0 x1).2.1)

def out1_B_2 (hc0 : ¬cond1_0 i) (hc1 : ¬cond1_1 i) (x0 : Vec F S128x4096 .bf16) (x1 : Vec F S4096x4096 .bf16) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)

theorem scover1_B_0 (hc0 : ¬cond1_0 i) (hc1 : ¬cond1_1 i) (x0 : Vec F S128x4096 .bf16) (x1 : Vec F S4096x4096 .bf16) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y

def sout1_B_0 (hc0 : ¬cond1_0 i) (hc1 : ¬cond1_1 i) (x0 : Vec F S128x4096 .bf16) (x1 : Vec F S4096x4096 .bf16) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

theorem cover1_C_2 (hc0 : ¬cond1_0 i) (hc1 : cond1_1 i) (x0 : Vec F S128x4096 .bf16) (x1 : Vec F S4096x4096 .bf16) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y

def out1_C_2 (hc0 : ¬cond1_0 i) (hc1 : cond1_1 i) (x0 : Vec F S128x4096 .bf16) (x1 : Vec F S4096x4096 .bf16) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)

theorem scover1_C_0 (hc0 : ¬cond1_0 i) (hc1 : cond1_1 i) (x0 : Vec F S128x4096 .bf16) (x1 : Vec F S4096x4096 .bf16) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y

def sout1_C_0 (hc0 : ¬cond1_0 i) (hc1 : cond1_1 i) (x0 : Vec F S128x4096 .bf16) (x1 : Vec F S4096x4096 .bf16) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

end

def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 128 = 0 then
      if h1 : (n + 1) % 128 = 127 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 128 = 127 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 128 = 0) (h1 : ¬t.val % 128 = 127) :
    outsAt1 V c t.val t.isLt = (out1_A_2 c (grid1.coords t) (ms1_0 t) (hs1_0 t) (ms1_1 t) (hs1_1 t) (ms1_2 t) (hs1_2 t) accM1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) accM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 128 = 0) (h1 : ¬t.val % 128 = 127) :
    outsAt1 V c t.val t.isLt = (out1_B_2 c (grid1.coords t) (ms1_0 t) (hs1_0 t) (ms1_1 t) (hs1_1 t) (ms1_2 t) (hs1_2 t) accM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) accM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 128 = 0) (h1 : t.val % 128 = 127) :
    outsAt1 V c t.val t.isLt = (out1_C_2 c (grid1.coords t) (ms1_0 t) (hs1_0 t) (ms1_1 t) (hs1_1 t) (ms1_2 t) (hs1_2 t) accM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) accM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(heldAny (F := F) c cc0_stg0_0 ∗ heldAny (F := F) c cc0_stg0_1 ∗ heldAny (F := F) c cc0_scratch0 ∗ owns (c : Thread nD τ) accM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(heldAny (F := F) c cc0_stg0_0 ∗ heldAny (F := F) c cc0_stg0_1 ∗ heldAny (F := F) c cc0_scratch0 ∗ owns (c : Thread nD τ) accM1 fullShare ((outsAt1 V c n hn).2)) ∗ (∃ r, prngReg c r)) := rfl

theorem PhiS1_pos (c : Dev nD) (n : ℕ) (h : n ≤ cfg1.N) (hz : n ≠ 0) :
    PhiS1 V c n h = iprop(iprop(heldAny (F := F) c cc0_stg0_0 ∗ heldAny (F := F) c cc0_stg0_1 ∗ heldAny (F := F) c cc0_scratch0 ∗ owns (c : Thread nD τ) accM1 fullShare ((outsAt1 V c (n - 1) (by omega)).2)) ∗ (∃ r, prngReg c r)) := by
  cases n with
  | zero => exact absurd rfl hz
  | succ n => rfl

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 128 = 0
  · by_cases h1 : t.val % 128 = 127
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      have hz : t.val = 0 := by omega
      rw [PhiS1_castSucc V c t, PhiS1_zero V c _ _ hz, PhiA1_eq]
      iintro ⟨⟨⟨E0, E1, E2, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg E0 E1 E2]
      · isplitr [Hg]
        swap; · iexact Hg
        isplitl [E0]; · iexact E0
        isplitl [E1]; · iexact E1
        isplitl [E2]; · iexact E2
        unfold owns; iexists _; isplitr
        swap; · iexact HS0
        ipureintro; exact View.read_writes_of_cover _ _ _ _ _ (scover1_A_0 c _ _ _ _ _ _ _ _ _ _ _ _ _)
      isplitl [Ho]; · iexact Ho
      isplitl [H0]; · iexact H0
      isplitl [H1]; · iexact H1
      iexists _; iexact H2
  · by_cases h1 : t.val % 128 = 127
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨⟨E0, E1, E2, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg E0 E1 E2]
      · isplitr [Hg]
        swap; · iexact Hg
        isplitl [E0]; · iexact E0
        isplitl [E1]; · iexact E1
        isplitl [E2]; · iexact E2
        unfold owns; iexists _; isplitr
        swap; · iexact HS0
        ipureintro; exact View.read_writes_of_cover _ _ _ _ _ (scover1_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨E0, E1, E2, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg E0 E1 E2]
      · isplitr [Hg]
        swap; · iexact Hg
        isplitl [E0]; · iexact E0
        isplitl [E1]; · iexact E1
        isplitl [E2]; · iexact E2
        unfold owns; iexists _; isplitr
        swap; · iexact HS0
        ipureintro; exact View.read_writes_of_cover _ _ _ _ _ (scover1_B_0 c _ _ _ _ _ _ _ _ _ _ _ _ _ _)
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨E0, E1, E2, HS0⟩, Hg⟩
  isplitr [Hg]
  swap; · iexact Hg
  isplitl [E0]; · iexact E0
  isplitl [E1]; · iexact E1
  isplitl [E2]; · iexact E2
  iexists _; iexact HS0

theorem hout1 (c : Dev nD) : (dat1 V c).Φ (Fin.last cfg1.N) ⊢ Pipeline.ΦA spec1 c :=
  Phi1_out V c _ (by rw [Fin.val_last]; have : cfg1.N = 128 := N_1; omega)

theorem hz2 : (![0, 0] : Fin 2 → Nat) = fun _ => 0 := by funext a; fin_cases a <;> rfl

section
variable (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole)

theorem sout1_A_0_eq (hc0 : cond1_0 i) (hc1 : ¬cond1_1 i) (x0 : Vec F S128x4096 .bf16) (x1 : Vec F S4096x4096 .bf16) :
    sout1_A_0 c i arg1 harg1 arg2 harg2 arg3 harg3 arg4 harg4 hc0 hc1 x0 x1 = k1_pay2 x0 x1 (k1_pay1 (F := F)) := by
  unfold sout1_A_0
  rw [View.read_writes_eq_canon _ _ _ (scover1_A_0 c i arg1 harg1 arg2 harg2 arg3 harg3 arg4 harg4 hc0 hc1 x0 x1)]
  unfold kernelRun1_A
  dsimp only
  sl_unfold_words
  rw [View.canon_cons_unit_zero (S := S1x1) hz2, View.readCov_unit_zero (S := S1x1) _ hz2]
  simp only [View.readAt_eq_ld, harg1.read_unread, harg2.read_unread, View.ld_unit_zero (S := S128x4096) hz2, View.ld_unit_zero (S := S4096x4096) hz2]

theorem sout1_B_0_eq (hc0 : ¬cond1_0 i) (hc1 : ¬cond1_1 i) (x0 : Vec F S128x4096 .bf16) (x1 : Vec F S4096x4096 .bf16) (xs0 : Vec F S1x1 .f32) :
    sout1_B_0 c i arg1 harg1 arg2 harg2 arg3 harg3 arg4 harg4 hc0 hc1 x0 x1 xs0 = k1_pay2 x0 x1 xs0 := by
  unfold sout1_B_0
  rw [View.read_writes_eq_canon _ _ _ (scover1_B_0 c i arg1 harg1 arg2 harg2 arg3 harg3 arg4 harg4 hc0 hc1 x0 x1 xs0)]
  unfold kernelRun1_B
  dsimp only
  sl_unfold_words
  rw [View.canon_unit_zero (S := S1x1) hz2]
  simp only [View.readAt_eq_ld, harg1.read_unread, harg2.read_unread, harg4.read_unread, View.ld_unit_zero (S := S128x4096) hz2, View.ld_unit_zero (S := S4096x4096) hz2, View.ld_unit_zero (S := S1x1) hz2]

theorem sout1_C_0_eq (hc0 : ¬cond1_0 i) (hc1 : cond1_1 i) (x0 : Vec F S128x4096 .bf16) (x1 : Vec F S4096x4096 .bf16) (xs0 : Vec F S1x1 .f32) :
    sout1_C_0 c i arg1 harg1 arg2 harg2 arg3 harg3 arg4 harg4 hc0 hc1 x0 x1 xs0 = k1_pay2 x0 x1 xs0 := by
  unfold sout1_C_0
  rw [View.read_writes_eq_canon _ _ _ (scover1_C_0 c i arg1 harg1 arg2 harg2 arg3 harg3 arg4 harg4 hc0 hc1 x0 x1 xs0)]
  unfold kernelRun1_C
  dsimp only
  sl_unfold_words
  rw [View.canon_unit_zero (S := S1x1) hz2]
  simp only [View.readAt_eq_ld, harg1.read_unread, harg2.read_unread, harg4.read_unread, View.ld_unit_zero (S := S128x4096) hz2, View.ld_unit_zero (S := S4096x4096) hz2, View.ld_unit_zero (S := S1x1) hz2]

theorem out1_C_2_eq (hc0 : ¬cond1_0 i) (hc1 : cond1_1 i) (x0 : Vec F S128x4096 .bf16) (x1 : Vec F S4096x4096 .bf16) (xs0 : Vec F S1x1 .f32) :
    out1_C_2 c i arg1 harg1 arg2 harg2 arg3 harg3 arg4 harg4 hc0 hc1 x0 x1 xs0 = k1_pay2 x0 x1 xs0 := by
  unfold out1_C_2
  rw [View.read_writes_eq_canon _ _ _ (cover1_C_2 c i arg1 harg1 arg2 harg2 arg3 harg3 arg4 harg4 hc0 hc1 x0 x1 xs0)]
  unfold kernelRun1_C
  dsimp only
  sl_unfold_words
  rw [View.canon_unit_zero (S := S1x1) hz2, View.readCov_unit_zero (S := S1x1) _ hz2]
  simp only [View.readAt_eq_ld, harg1.read_unread, harg2.read_unread, harg4.read_unread, View.ld_unit_zero (S := S128x4096) hz2, View.ld_unit_zero (S := S4096x4096) hz2, View.ld_unit_zero (S := S1x1) hz2]

end

end Cert.Kernel.Hand

end
-- ==== Proof.K.Walk.lean ====
import proofs.«402818_j61933428412865_1_alg».proof.Proof.K.Common
import Idealize.ShloMosaic.Lib.Pipeline.FrameSuffix
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Contents

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)

variable (A0 : (c : Dev nD) → (w : Fin 1) → Buf (Elt F) ((spec0 w).arr.view.loc (c : Thread nD τ)))

def W2 (c : Dev nD) : Valuation τ sig (Elt F) := Pipeline.withArrays spec0 c (W1 m c) (A0 c)

abbrev W3 : Dev nD → Valuation τ sig (Elt F) := fun c => StableHlo.after hostOps1 (W2 m A0 c)

variable (A1 : (c : Dev nD) → (w : Fin 3) → Buf (Elt F) ((spec1 w).arr.view.loc (c : Thread nD τ)))

def W4 (c : Dev nD) : Valuation τ sig (Elt F) := Pipeline.withArrays spec1 c (W3 m A0 c) (A1 c)

abbrev W5 : Dev nD → Valuation τ sig (Elt F) := fun c => StableHlo.after hostOps2 (W4 m A0 A1 c)

end Contents

variable (m : (ℓ : Loc nD τ sig) → Buf (Elt F) ℓ)
variable (A0 : (c : Dev nD) → (w : Fin 1) → Buf (Elt F) ((spec0 w).arr.view.loc (c : Thread nD τ)))
variable (A1 : (c : Dev nD) → (w : Fin 3) → Buf (Elt F) ((spec1 w).arr.view.loc (c : Thread nD τ)))

theorem W1_of (c : Dev nD) (r : Ref sig .tc) (h : r ∉ hostOps0_W) : W1 m c (Proc.devRef .tc r) = W0 m c (Proc.devRef .tc r) :=
  StableHlo.after_of_writes_sub hostOps0 _ hostOps0_writes h

theorem W2_arr (c : Dev nD) (w : Fin 1) : W2 m A0 c (Proc.devRef .tc (Pipeline.arrRef spec0 w)) = A0 c w := by
  unfold W2; exact Pipeline.withArrays_arr spec0 winFacts0.arr_inj c _ _ w

theorem W2_of_ne (c : Dev nD) (b : Ref sig .tc) (hb : ∀ w, Pipeline.arrRef spec0 w ≠ b) :
    W2 m A0 c (Proc.devRef .tc b) = W1 m c (Proc.devRef .tc b) := by
  unfold W2; exact Pipeline.withArrays_of_ne spec0 c _ _ b hb

theorem W3_of (c : Dev nD) (r : Ref sig .tc) (h : r ∉ hostOps1_W) : W3 m A0 c (Proc.devRef .tc r) = W2 m A0 c (Proc.devRef .tc r) :=
  StableHlo.after_of_writes_sub hostOps1 _ hostOps1_writes h

theorem W4_arr (c : Dev nD) (w : Fin 3) : W4 m A0 A1 c (Proc.devRef .tc (Pipeline.arrRef spec1 w)) = A1 c w := by
  unfold W4; exact Pipeline.withArrays_arr spec1 winFacts1.arr_inj c _ _ w

theorem W4_of_ne (c : Dev nD) (b : Ref sig .tc) (hb : ∀ w, Pipeline.arrRef spec1 w ≠ b) :
    W4 m A0 A1 c (Proc.devRef .tc b) = W3 m A0 c (Proc.devRef .tc b) := by
  unfold W4; exact Pipeline.withArrays_of_ne spec1 c _ _ b hb

theorem W5_of (c : Dev nD) (r : Ref sig .tc) (h : r ∉ hostOps2_W) : W5 m A0 A1 c (Proc.devRef .tc r) = W4 m A0 A1 c (Proc.devRef .tc r) :=
  StableHlo.after_of_writes_sub hostOps2 _ hostOps2_writes h

theorem W5_arg0 (c : Dev nD) : W5 m A0 A1 c (Proc.devRef .tc main_arg0) = m ((c : Thread nD τ).loc main_arg0) :=
  (W5_of m A0 A1 c main_arg0 (by decide)).trans <| (W4_of_ne m A0 A1 c main_arg0 (by decide)).trans <| (W3_of m A0 c main_arg0 (by decide)).trans <| (W2_of_ne m A0 c main_arg0 (by decide)).trans <| (W1_of m c main_arg0 (by decide)).trans rfl
theorem W5_arg1 (c : Dev nD) : W5 m A0 A1 c (Proc.devRef .tc main_arg1) = m ((c : Thread nD τ).loc main_arg1) :=
  (W5_of m A0 A1 c main_arg1 (by decide)).trans <| (W4_of_ne m A0 A1 c main_arg1 (by decide)).trans <| (W3_of m A0 c main_arg1 (by decide)).trans <| (W2_of_ne m A0 c main_arg1 (by decide)).trans <| (W1_of m c main_arg1 (by decide)).trans rfl
theorem W5_arg2 (c : Dev nD) : W5 m A0 A1 c (Proc.devRef .tc main_arg2) = m ((c : Thread nD τ).loc main_arg2) :=
  (W5_of m A0 A1 c main_arg2 (by decide)).trans <| (W4_of_ne m A0 A1 c main_arg2 (by decide)).trans <| (W3_of m A0 c main_arg2 (by decide)).trans <| (W2_of_ne m A0 c main_arg2 (by decide)).trans <| (W1_of m c main_arg2 (by decide)).trans rfl
theorem W5_arg3 (c : Dev nD) : W5 m A0 A1 c (Proc.devRef .tc main_arg3) = m ((c : Thread nD τ).loc main_arg3) :=
  (W5_of m A0 A1 c main_arg3 (by decide)).trans <| (W4_of_ne m A0 A1 c main_arg3 (by decide)).trans <| (W3_of m A0 c main_arg3 (by decide)).trans <| (W2_of_ne m A0 c main_arg3 (by decide)).trans <| (W1_of m c main_arg3 (by decide)).trans rfl

theorem W1_v0 (c : Dev nD) :
    W1 m c (Proc.devRef .tc main_v0) = shapeCast S16384 (m ((c : Thread nD τ).loc main_arg0)) shapeCasts_S4x4096_S16384 := by
  show StableHlo.after hostOps0 _ _ = _
  after_results
  rfl

theorem W2_arg2 (c : Dev nD) : W2 m A0 c (Proc.devRef .tc main_arg2) = m ((c : Thread nD τ).loc main_arg2) :=
  (W2_of_ne m A0 c main_arg2 (by decide)).trans <| (W1_of m c main_arg2 (by decide)).trans rfl

theorem hostOps1_v2 (c : Dev nD) (V' : Valuation τ sig (Elt F))
    (h : V' (Proc.devRef .tc main_arg2) = m ((c : Thread nD τ).loc main_arg2)) :
    (StableHlo.after hostOps1 V' (Proc.devRef .tc main_v2) : Vec F S4096x4096 .bf16)
      = truncf .bf16 (m ((c : Thread nD τ).loc main_arg2) : Vec F S4096x4096 .f32) bitsLt_bf16_f32 := by
  after_results
  rw [h]

theorem W3_v2 (c : Dev nD) :
    (W3 m A0 c (Proc.devRef .tc main_v2) : Vec F S4096x4096 .bf16)
      = truncf .bf16 (m ((c : Thread nD τ).loc main_arg2) : Vec F S4096x4096 .f32) bitsLt_bf16_f32 :=
  hostOps1_v2 m c (W2 m A0 c) (W2_arg2 m A0 c)

theorem W3_v1 (c : Dev nD) : W3 m A0 c (Proc.devRef .tc main_v1) = A0 c 0 :=
  (W3_of m A0 c main_v1 (by decide)).trans (W2_arr m A0 c 0)

theorem W4_v3 (c : Dev nD) : W4 m A0 A1 c (Proc.devRef .tc main_v3) = A1 c 2 :=
  W4_arr m A0 A1 c 2

theorem W4_arg3 (c : Dev nD) : W4 m A0 A1 c (Proc.devRef .tc main_arg3) = m ((c : Thread nD τ).loc main_arg3) :=
  (W4_of_ne m A0 A1 c main_arg3 (by decide)).trans <| (W3_of m A0 c main_arg3 (by decide)).trans <| (W2_of_ne m A0 c main_arg3 (by decide)).trans <| (W1_of m c main_arg3 (by decide)).trans rfl

end Cert.Kernel.Hand

end
-- ==== Proof.K.Assembly.lean ====
import proofs.«402818_j61933428412865_1_alg».proof.Proof.Gen.Kernel.Launch
import proofs.«402818_j61933428412865_1_alg».proof.Proof.Gen.Kernel.Skeleton
import proofs.«402818_j61933428412865_1_alg».proof.Proof.Gen.Kernel.Points
import proofs.«402818_j61933428412865_1_alg».proof.Proof.Gen.Kernel.Regions
import proofs.«402818_j61933428412865_1_alg».proof.Proof.K.Common
import proofs.«402818_j61933428412865_1_alg».proof.Proof.K.TableFacts
import proofs.«402818_j61933428412865_1_alg».proof.Proof.K.Region0
import proofs.«402818_j61933428412865_1_alg».proof.Proof.K.Region1
import proofs.«402818_j61933428412865_1_alg».proof.Proof.K.Walk
import proofs.«402818_j61933428412865_1_alg».proof.Proof.LibRegionHeld
import proofs.«402818_j61933428412865_1_alg».proof.Proof.LibRegionHeldDma
import Idealize.ShloMosaic.Lib.Pipeline.Regions
import Idealize.ShloMosaic.Lib.Pipeline.RegionsLoop
import Idealize.ShloMosaic.Lib.Pipeline.FrameSuffix
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Pipeline (Seg HostSeg RegionSeg)

variable (m : (ℓ : Loc nD τ sig) → Buf (Elt F) ℓ) (ρ : Dev nD → PrngReg)

abbrev Vr1 : (c : Dev nD) → (b : Ref sig .tc) → Buf (Elt F) ((c : Thread nD τ).loc b) := fun c b => W1 m c b

abbrev a0 : (pcfg0 (F := F)).Adm := adm m ⟨0, by decide⟩

variable (hlt : ∀ (c : Dev nD) k, (tbM0.view.read (Elt F) (tblOf (a0 m) c) k).toNat < 50264)

def A0 (c : Dev nD) (w : Fin 1) : Buf (Elt F) ((spec0 w).arr.view.loc (c : Thread nD τ)) :=
  (dat0 (a0 m) (Vr1 m) hlt c).arrAt w (cfg0 (a0 m)).N

abbrev Vr3 : (c : Dev nD) → (b : Ref sig .tc) → Buf (Elt F) ((c : Thread nD τ).loc b) := fun c b => W3 m (A0 m hlt) c b

def A1 (c : Dev nD) (w : Fin 3) : Buf (Elt F) ((spec1 w).arr.view.loc (c : Thread nD τ)) :=
  (dat1 (Vr3 m hlt) c).arrAt w cfg1.N

def pdats : (p : Fin 2) → (c : Dev nD) → Dat τ (Elt F) Unit ℕ (Pipeline.UD sig nD τ) ℕ (Pipeline.pin (pcfgs (F := F)) (adm m) p) c
  | ⟨0, _⟩ => fun c => dat0 (a0 m) (Vr1 m) hlt c
  | ⟨1, _⟩ => fun c => dat1 (Vr3 m hlt) c

abbrev 𝒱₀ : Variants := Variants.none

abbrev L : GSem nD τ sig → Finset Unit := fun _ => ∅
abbrev lv : GSem nD τ sig → Unit → ℕ := fun _ _ => 0

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Pipeline.idleRest (U := Pipeline.UD sig nD τ))

set_option backward.isDefEq.respectTransparency.types false in
def reg0 : Pipeline.RegionSeg (pcfgs (F := F)) (adm m) (pdats m hlt) () defs₀ 𝒱₀ L lv 0 :=
  Pipeline.RegionSeg.ofHeldDma (pcfgs (F := F)) (adm m) (pdats m hlt) defs₀ 𝒱₀ L lv 0 osem0
    winFacts0 preFacts0 block_pos0 arr_whole0 stage_whole0 ownSemFacts0 H0 H0_sub
    (fun c => body_obligation0 (a0 m) (Vr1 m) hlt c)
    (fun _ _ => rfl) (fun _ _ => rfl) (fun _ => rfl)
    (W1 m) (W2 m (A0 m hlt))
    (fun _ _ => rfl) (fun c k => match k with | ⟨0, _⟩ => by obtain rfl : c = c0 := Subsingleton.elim _ _; rfl)
    (fun c w => (W2_arr m (A0 m hlt) c w).symm)
    (fun c b hb => W2_of_ne m (A0 m hlt) c b fun w e => hb (Finset.mem_image.mpr ⟨w, Finset.mem_univ _, e⟩))
    (fun c => .rfl) (fun c => .rfl)

set_option backward.isDefEq.respectTransparency.types false in
def reg1 : Pipeline.RegionSeg (pcfgs (F := F)) (adm m) (pdats m hlt) () defs₀ 𝒱₀ L lv 1 :=
  Pipeline.RegionSeg.ofHeld (pcfgs (F := F)) (adm m) (pdats m hlt) defs₀ 𝒱₀ L lv 1
    winFacts1 block_pos1 arr_whole1 stage_whole1
    (fun c => Pipeline.emp_prefHeld_of_no_table _ rfl c _ _)
    (fun c => body_obligation1 (Vr3 m hlt) c)
    (fun _ _ => rfl) (fun _ _ => rfl) (fun _ => rfl)
    (W3 m (A0 m hlt)) (W4 m (A0 m hlt) (A1 m hlt))
    (fun _ _ => rfl)
    (fun c w => (W4_arr m (A0 m hlt) (A1 m hlt) c w).symm)
    (fun c b hb => W4_of_ne m (A0 m hlt) (A1 m hlt) c b fun w e => hb (Finset.mem_image.mpr ⟨w, Finset.mem_univ _, e⟩))
    (fun c => hin1 (Vr3 m hlt) c) (fun c => hout1 (Vr3 m hlt) c)

abbrev segs : List (Pipeline.Seg (pcfgs (F := F)) (adm m) (pdats m hlt) () defs₀ 𝒱₀ L lv) :=
  [ .host (hseg hostOps0 hostOps0_sub hostOps0_fresh (W0 m)),
    .region (reg0 m hlt),
    .host (hseg hostOps1 hostOps1_sub hostOps1_fresh (W2 m (A0 m hlt))),
    .region (reg1 m hlt),
    .host (hseg hostOps2 hostOps2_sub hostOps2_fresh (W4 m (A0 m hlt) (A1 m hlt))) ]

theorem main_run (c : Dev nD) : main (F := F) c = Pipeline.Seg.run (segs m hlt) := (main_chain c).trans (by chain_rfl)

abbrev Tₙ (c : Dev nD) : sProp 𝕄 := iprop(StableHlo.held (c : Thread nD τ) (Pipeline.ucRefs τ sig) (W5 m (A0 m hlt) (A1 m hlt) c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The program is the chain of its host stretches and its two regions; run in order from the initial memory they end with every buffer at the last valuation of the walk. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m (A0 m hlt) (A1 m hlt) c b) :=
  Pipeline.θ_run_regions_kit (pcfgs (F := F)) (adm m) (pdats m hlt) () (cellOf_inj (adm m)) (embL) defs₀ 𝒱₀ L lv m ρ main (segs m hlt)
    (fun c Q => by rw [main_run m hlt c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.idleRest (U := Pipeline.UD sig nD τ) c)) (Tₙ := Tₙ m hlt)
    (hch := ⟨fun _ => .rfl, fun _ => .rfl, fun _ => .rfl, fun _ => .rfl, fun _ => .rfl, fun c => (show (iprop(StableHlo.held (c : Thread nD τ) (Pipeline.ucRefs τ sig) (W5 m (A0 m hlt) (A1 m hlt) c) ∗ Pipeline.idleRest (U := Pipeline.UD sig nD τ) c) : sProp 𝕄)
          ⊢ iprop(Tₙ m hlt c ∗ ∃ W, owes (c : Thread nD τ) (0 : CellTallies nD τ sig Unit) W) from by
        iintro ⟨Hh, Hg, HO⟩
        isplitl [Hh Hg]
        · isplitl [Hh]; · iexact Hh
          iexact Hg
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m (A0 m hlt) (A1 m hlt) c b)
    (hfin := fun c s' => by
      iintro ⟨⟨Hh, -⟩, HSI⟩
      unfold StableHlo.held
      imodintro
      iapply (pointsTo_read_all (Pipeline.ucRefs τ sig) (fun b => (((c : Thread nD τ)).1, b)) (W5 m (A0 m hlt) (A1 m hlt) c) s')
      isplitl [Hh] <;> iassumption)
    (hQ := fun s h c => h c)

end Cert.Kernel.Hand

end
-- ==== Proof.K.FrameClaim.lean ====
import proofs.«402818_j61933428412865_1_alg».proof.Proof.Gen.Kernel.Launch
import proofs.«402818_j61933428412865_1_alg».proof.Proof.Gen.Kernel.Skeleton
import proofs.«402818_j61933428412865_1_alg».proof.Proof.Gen.Kernel.Points
import proofs.«402818_j61933428412865_1_alg».proof.Proof.Gen.Kernel.Regions
import proofs.«402818_j61933428412865_1_alg».proof.Proof.K.Assembly
import proofs.«402818_j61933428412865_1_alg».proof.Proof.K.TableFacts
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hlt_of_ids (hids : ∀ i, ((idsOf m : S4x4096.Idx → BitVec 32) i).toNat < 50264) :
    ∀ (c : Dev nD) k, (tbM0.view.read (Elt F) (tblOf (a0 m) c) k).toNat < 50264 :=
  fun c k => tbl_lt m hids k

/-- With every id inside the table the program runs to its end, faults nowhere and leaves its arguments as they were. -/
theorem frame (hids : ∀ i, ((idsOf m : S4x4096.Idx → BitVec 32) i).toNat < 50264) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_arg0 m _ _ c),
     (h c _ (mem_uc main_arg1 (by decide))).trans (W5_arg1 m _ _ c),
     (h c _ (mem_uc main_arg2 (by decide))).trans (W5_arg2 m _ _ c),
     (h c _ (mem_uc main_arg3 (by decide))).trans (W5_arg3 m _ _ c)⟩)
    (run_all m ρ (hlt_of_ids m hids))

end Cert.Kernel.Hand

end
-- ==== Proof.KI.Common.lean ====
import proofs.«402818_j61933428412865_1_alg».proof.Proof.Gen.KernelIdeal.Launch
import proofs.«402818_j61933428412865_1_alg».proof.Proof.Gen.KernelIdeal.Skeleton
import proofs.«402818_j61933428412865_1_alg».proof.Proof.Gen.KernelIdeal.Points
import proofs.«402818_j61933428412865_1_alg».proof.Proof.Gen.KernelIdeal.Regions
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev c0 : Dev nD := 0

def tbl : pre0.Contents (Elt F) := fun k => match k with
  | ⟨0, _⟩ => V1 m c0 main_v0

def adm : (p : Fin 2) → (pcfgs (F := F) p).Adm
  | ⟨0, _⟩ => ⟨tbl m, trivial⟩
  | ⟨1, _⟩ => cfg1.toPCfg_adm

abbrev osem0 : Fin 128 → SemLoc sig := fun j => SemLoc.dma ⟨2 + j.val, by have := j.isLt; show 2 + j.val < 134; omega⟩

theorem ownSemFacts0 : Pipeline.OwnSemFacts spec0 osem0 := by decide

abbrev scM0 : Memref sig .tc .vmem S128x4096 .f32 := Memref.whole cc0_scratch0
abbrev hbM0 : Memref sig .tc .hbm S50264x4096 .f32 := Memref.whole main_arg1
abbrev tbM0 : Memref sig .tc .smem S16384 .i32 := Memref.whole main_v0
abbrev accM1 : Memref sig .tc .vmem S1x1 .f32 := Memref.whole cc1_scratch0

end Cert.KernelIdeal.Hand

end
-- ==== Proof.KI.TableFacts.lean ====
import proofs.«402818_j61933428412865_1_alg».proof.Proof.Gen.KernelIdeal.Launch
import proofs.«402818_j61933428412865_1_alg».proof.Proof.Gen.KernelIdeal.Skeleton
import proofs.«402818_j61933428412865_1_alg».proof.Proof.Gen.KernelIdeal.Points
import proofs.«402818_j61933428412865_1_alg».proof.Proof.Gen.KernelIdeal.Regions
import proofs.«402818_j61933428412865_1_alg».proof.Proof.KI.Common
import proofs.«402818_j61933428412865_1_alg».proof.Proof.Spec
import Idealize.ShloMosaic.Lib.Pipeline.Value
import Idealize.ShloMosaic.Lib.ValueIdx
import Idealize.ShloMosaic.Lib.StableHlo.Run
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ)

abbrev idsOf : Buf (Elt F) ((c0 : Thread nD τ).loc main_arg0) := m ((c0 : Thread nD τ).loc main_arg0)

theorem tbl_eq : (tbl m ⟨0, Nat.zero_lt_one⟩ : S16384.Idx → BitVec 32) = shapeCast S16384 (idsOf m) shapeCasts_S4x4096_S16384 := by
  show StableHlo.after hostOps0 (fun b => m (c0, b)) (Proc.devRef .tc main_v0) = _
  after_results
  rfl

theorem tbl_apply (n : Fin 16384) :
    (tbl m ⟨0, Nat.zero_lt_one⟩ : S16384.Idx → BitVec 32) (ix1 n)
      = (idsOf m : S4x4096.Idx → BitVec 32) (ix2 ⟨n.val / 4096, by have := n.isLt; omega⟩ ⟨n.val % 4096, Nat.mod_lt _ (by decide)⟩) := by
  rw [tbl_eq]
  refine shapeCast_apply _ _ _ _ ?_
  show ((⟨2, ![4, 4096]⟩ : Shape).rowMajor _).val = ((⟨1, ![16384]⟩ : Shape).rowMajor _).val
  rw [Shape.rowMajor_val_two, Shape.rowMajor_val_one]
  show (n.val / 4096) * 4096 + n.val % 4096 = n.val
  omega

theorem tbl_lt (h : ∀ i, ((idsOf m : S4x4096.Idx → BitVec 32) i).toNat < 50264) (k : S16384.Idx) :
    ((tbl m ⟨0, Nat.zero_lt_one⟩ : S16384.Idx → BitVec 32) k).toNat < 50264 := by
  obtain ⟨n, rfl⟩ : ∃ n : Fin 16384, k = ix1 n := ⟨k 0, eq_ix1 k⟩
  rw [tbl_apply]; exact h _

/-- Entry `n` of the flattened table is the id of token `n`. -/
theorem tbl_tok (n : Fin 16384) :
    (tbl m ⟨0, Nat.zero_lt_one⟩ : S16384.Idx → BitVec 32) (ix1 n) = Cert.Spec.tok (idsOf m : S4x4096.Idx → BitVec 32) n := by
  rw [tbl_apply]; rfl

end Cert.KernelIdeal.Hand

end
-- ==== Proof.KI.Rows0.lean ====
import proofs.«402818_j61933428412865_1_alg».proof.Proof.Gen.KernelIdeal.Launch
import proofs.«402818_j61933428412865_1_alg».proof.Proof.Gen.KernelIdeal.Skeleton
import proofs.«402818_j61933428412865_1_alg».proof.Proof.Gen.KernelIdeal.Points
import proofs.«402818_j61933428412865_1_alg».proof.Proof.KI.Common
import proofs.«402818_j61933428412865_1_alg».proof.Proof.LibRowsJoin
import Idealize.ShloMosaic.Lib.Pipeline.FrameBody
import Idealize.ShloMosaic.Lib.Pipeline.Frame
import Idealize.ShloMosaic.Lib.Transfers
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- A word below the array's height names a row inside it. -/
theorem chk_of_lt (v : BitVec 32) (h : v.toNat < 50264) : ∀ a : Fin 2, (![v.toNat, 0] : Fin 2 → Nat) a + S1x4096.size a ≤ S50264x4096.size a := by
  intro a; fin_cases a
  · show v.toNat + 1 ≤ 50264; omega
  · show 0 + 4096 ≤ 4096; omega

theorem rows_hinb (j : Fin 128) : ∀ a, (![j.val, 0] : Fin 2 → ℕ) a + (![1, 4096] : Fin 2 → ℕ) a ≤ (⟨2, ![128, 4096]⟩ : Shape).size a := RowsJoin.row_inb j.isLt
theorem rows_hsq (j : Fin 128) : (Rect.unit (s := (⟨2, ![128, 4096]⟩ : Shape)) ![j.val, 0] ![1, 4096] (rows_hinb j)).shape.Squeezes ⟨1, ![4096]⟩ := Facts₀.squeezes_S1x4096_S4096

/-- Row `j` of the scratch, a rank-1 memref: the destination of the kernel's `j`-th copy. -/
abbrev rowM0 (j : ℕ) (h : ∀ a, (![j, 0] : Fin 2 → Nat) a + S1x4096.size a ≤ S128x4096.size a) : Memref sig .tc .vmem S4096 .f32 :=
  (scM0.slice (Rect.unit (s := S128x4096) ![j, 0] S1x4096.size h) (fun _ => rfl)).squeeze S4096 Facts₀.squeezes_S1x4096_S4096

abbrev rowPt0 (c : Dev nD) (f : HbBuf0 (F := F) c scM0) (j : ℕ) (h : ∀ a, (![j, 0] : Fin 2 → Nat) a + S1x4096.size a ≤ S128x4096.size a) : sProp 𝕄 :=
  (rowM0 j h).view.loc (c : Thread nD τ) ↦[(rowM0 j h).view.set]{fullShare} f

abbrev semZ0 (c : Dev nD) (s : SemLoc sig) : sProp 𝕄 := semVal ((c : Thread nD τ), s) 0

abbrev tokN0 (c : Dev nD) (fh : HbBuf0 (F := F) c hbM0) (k : ℕ) : sProp 𝕄 :=
  hbM0.view.loc (c : Thread nD τ) ↦{Transfers.shareTokN fullShare k} fh

/-- The rows of a whole rank-2 buffer are pairwise disjoint and cover it. -/
theorem rows_chain (c : Dev nD) (f : HbBuf0 (F := F) c scM0) :
    (scM0.view.loc (c : Thread nD τ) ↦[scM0.view.set]{fullShare} f : sProp 𝕄)
      = iprop(rowPt0 c f 0 Facts₀.inb_S128x4096_S1x4096_0_0 ∗ rowPt0 c f 1 Facts₀.inb_S128x4096_S1x4096_1_0 ∗ rowPt0 c f 2 Facts₀.inb_S128x4096_S1x4096_2_0 ∗ rowPt0 c f 3 Facts₀.inb_S128x4096_S1x4096_3_0 ∗ rowPt0 c f 4 Facts₀.inb_S128x4096_S1x4096_4_0 ∗ rowPt0 c f 5 Facts₀.inb_S128x4096_S1x4096_5_0 ∗ rowPt0 c f 6 Facts₀.inb_S128x4096_S1x4096_6_0 ∗ rowPt0 c f 7 Facts₀.inb_S128x4096_S1x4096_7_0 ∗ rowPt0 c f 8 Facts₀.inb_S128x4096_S1x4096_8_0 ∗ rowPt0 c f 9 Facts₀.inb_S128x4096_S1x4096_9_0 ∗ rowPt0 c f 10 Facts₀.inb_S128x4096_S1x4096_10_0 ∗ rowPt0 c f 11 Facts₀.inb_S128x4096_S1x4096_11_0 ∗ rowPt0 c f 12 Facts₀.inb_S128x4096_S1x4096_12_0 ∗ rowPt0 c f 13 Facts₀.inb_S128x4096_S1x4096_13_0 ∗ rowPt0 c f 14 Facts₀.inb_S128x4096_S1x4096_14_0 ∗ rowPt0 c f 15 Facts₀.inb_S128x4096_S1x4096_15_0 ∗ rowPt0 c f 16 Facts₀.inb_S128x4096_S1x4096_16_0 ∗ rowPt0 c f 17 Facts₀.inb_S128x4096_S1x4096_17_0 ∗ rowPt0 c f 18 Facts₀.inb_S128x4096_S1x4096_18_0 ∗ rowPt0 c f 19 Facts₀.inb_S128x4096_S1x4096_19_0 ∗ rowPt0 c f 20 Facts₀.inb_S128x4096_S1x4096_20_0 ∗ rowPt0 c f 21 Facts₀.inb_S128x4096_S1x4096_21_0 ∗ rowPt0 c f 22 Facts₀.inb_S128x4096_S1x4096_22_0 ∗ rowPt0 c f 23 Facts₀.inb_S128x4096_S1x4096_23_0 ∗ rowPt0 c f 24 Facts₀.inb_S128x4096_S1x4096_24_0 ∗ rowPt0 c f 25 Facts₀.inb_S128x4096_S1x4096_25_0 ∗ rowPt0 c f 26 Facts₀.inb_S128x4096_S1x4096_26_0 ∗ rowPt0 c f 27 Facts₀.inb_S128x4096_S1x4096_27_0 ∗ rowPt0 c f 28 Facts₀.inb_S128x4096_S1x4096_28_0 ∗ rowPt0 c f 29 Facts₀.inb_S128x4096_S1x4096_29_0 ∗ rowPt0 c f 30 Facts₀.inb_S128x4096_S1x4096_30_0 ∗ rowPt0 c f 31 Facts₀.inb_S128x4096_S1x4096_31_0 ∗ rowPt0 c f 32 Facts₀.inb_S128x4096_S1x4096_32_0 ∗ rowPt0 c f 33 Facts₀.inb_S128x4096_S1x4096_33_0 ∗ rowPt0 c f 34 Facts₀.inb_S128x4096_S1x4096_34_0 ∗ rowPt0 c f 35 Facts₀.inb_S128x4096_S1x4096_35_0 ∗ rowPt0 c f 36 Facts₀.inb_S128x4096_S1x4096_36_0 ∗ rowPt0 c f 37 Facts₀.inb_S128x4096_S1x4096_37_0 ∗ rowPt0 c f 38 Facts₀.inb_S128x4096_S1x4096_38_0 ∗ rowPt0 c f 39 Facts₀.inb_S128x4096_S1x4096_39_0 ∗ rowPt0 c f 40 Facts₀.inb_S128x4096_S1x4096_40_0 ∗ rowPt0 c f 41 Facts₀.inb_S128x4096_S1x4096_41_0 ∗ rowPt0 c f 42 Facts₀.inb_S128x4096_S1x4096_42_0 ∗ rowPt0 c f 43 Facts₀.inb_S128x4096_S1x4096_43_0 ∗ rowPt0 c f 44 Facts₀.inb_S128x4096_S1x4096_44_0 ∗ rowPt0 c f 45 Facts₀.inb_S128x4096_S1x4096_45_0 ∗ rowPt0 c f 46 Facts₀.inb_S128x4096_S1x4096_46_0 ∗ rowPt0 c f 47 Facts₀.inb_S128x4096_S1x4096_47_0 ∗ rowPt0 c f 48 Facts₀.inb_S128x4096_S1x4096_48_0 ∗ rowPt0 c f 49 Facts₀.inb_S128x4096_S1x4096_49_0 ∗ rowPt0 c f 50 Facts₀.inb_S128x4096_S1x4096_50_0 ∗ rowPt0 c f 51 Facts₀.inb_S128x4096_S1x4096_51_0 ∗ rowPt0 c f 52 Facts₀.inb_S128x4096_S1x4096_52_0 ∗ rowPt0 c f 53 Facts₀.inb_S128x4096_S1x4096_53_0 ∗ rowPt0 c f 54 Facts₀.inb_S128x4096_S1x4096_54_0 ∗ rowPt0 c f 55 Facts₀.inb_S128x4096_S1x4096_55_0 ∗ rowPt0 c f 56 Facts₀.inb_S128x4096_S1x4096_56_0 ∗ rowPt0 c f 57 Facts₀.inb_S128x4096_S1x4096_57_0 ∗ rowPt0 c f 58 Facts₀.inb_S128x4096_S1x4096_58_0 ∗ rowPt0 c f 59 Facts₀.inb_S128x4096_S1x4096_59_0 ∗ rowPt0 c f 60 Facts₀.inb_S128x4096_S1x4096_60_0 ∗ rowPt0 c f 61 Facts₀.inb_S128x4096_S1x4096_61_0 ∗ rowPt0 c f 62 Facts₀.inb_S128x4096_S1x4096_62_0 ∗ rowPt0 c f 63 Facts₀.inb_S128x4096_S1x4096_63_0 ∗ rowPt0 c f 64 Facts₀.inb_S128x4096_S1x4096_64_0 ∗ rowPt0 c f 65 Facts₀.inb_S128x4096_S1x4096_65_0 ∗ rowPt0 c f 66 Facts₀.inb_S128x4096_S1x4096_66_0 ∗ rowPt0 c f 67 Facts₀.inb_S128x4096_S1x4096_67_0 ∗ rowPt0 c f 68 Facts₀.inb_S128x4096_S1x4096_68_0 ∗ rowPt0 c f 69 Facts₀.inb_S128x4096_S1x4096_69_0 ∗ rowPt0 c f 70 Facts₀.inb_S128x4096_S1x4096_70_0 ∗ rowPt0 c f 71 Facts₀.inb_S128x4096_S1x4096_71_0 ∗ rowPt0 c f 72 Facts₀.inb_S128x4096_S1x4096_72_0 ∗ rowPt0 c f 73 Facts₀.inb_S128x4096_S1x4096_73_0 ∗ rowPt0 c f 74 Facts₀.inb_S128x4096_S1x4096_74_0 ∗ rowPt0 c f 75 Facts₀.inb_S128x4096_S1x4096_75_0 ∗ rowPt0 c f 76 Facts₀.inb_S128x4096_S1x4096_76_0 ∗ rowPt0 c f 77 Facts₀.inb_S128x4096_S1x4096_77_0 ∗ rowPt0 c f 78 Facts₀.inb_S128x4096_S1x4096_78_0 ∗ rowPt0 c f 79 Facts₀.inb_S128x4096_S1x4096_79_0 ∗ rowPt0 c f 80 Facts₀.inb_S128x4096_S1x4096_80_0 ∗ rowPt0 c f 81 Facts₀.inb_S128x4096_S1x4096_81_0 ∗ rowPt0 c f 82 Facts₀.inb_S128x4096_S1x4096_82_0 ∗ rowPt0 c f 83 Facts₀.inb_S128x4096_S1x4096_83_0 ∗ rowPt0 c f 84 Facts₀.inb_S128x4096_S1x4096_84_0 ∗ rowPt0 c f 85 Facts₀.inb_S128x4096_S1x4096_85_0 ∗ rowPt0 c f 86 Facts₀.inb_S128x4096_S1x4096_86_0 ∗ rowPt0 c f 87 Facts₀.inb_S128x4096_S1x4096_87_0 ∗ rowPt0 c f 88 Facts₀.inb_S128x4096_S1x4096_88_0 ∗ rowPt0 c f 89 Facts₀.inb_S128x4096_S1x4096_89_0 ∗ rowPt0 c f 90 Facts₀.inb_S128x4096_S1x4096_90_0 ∗ rowPt0 c f 91 Facts₀.inb_S128x4096_S1x4096_91_0 ∗ rowPt0 c f 92 Facts₀.inb_S128x4096_S1x4096_92_0 ∗ rowPt0 c f 93 Facts₀.inb_S128x4096_S1x4096_93_0 ∗ rowPt0 c f 94 Facts₀.inb_S128x4096_S1x4096_94_0 ∗ rowPt0 c f 95 Facts₀.inb_S128x4096_S1x4096_95_0 ∗ rowPt0 c f 96 Facts₀.inb_S128x4096_S1x4096_96_0 ∗ rowPt0 c f 97 Facts₀.inb_S128x4096_S1x4096_97_0 ∗ rowPt0 c f 98 Facts₀.inb_S128x4096_S1x4096_98_0 ∗ rowPt0 c f 99 Facts₀.inb_S128x4096_S1x4096_99_0 ∗ rowPt0 c f 100 Facts₀.inb_S128x4096_S1x4096_100_0 ∗ rowPt0 c f 101 Facts₀.inb_S128x4096_S1x4096_101_0 ∗ rowPt0 c f 102 Facts₀.inb_S128x4096_S1x4096_102_0 ∗ rowPt0 c f 103 Facts₀.inb_S128x4096_S1x4096_103_0 ∗ rowPt0 c f 104 Facts₀.inb_S128x4096_S1x4096_104_0 ∗ rowPt0 c f 105 Facts₀.inb_S128x4096_S1x4096_105_0 ∗ rowPt0 c f 106 Facts₀.inb_S128x4096_S1x4096_106_0 ∗ rowPt0 c f 107 Facts₀.inb_S128x4096_S1x4096_107_0 ∗ rowPt0 c f 108 Facts₀.inb_S128x4096_S1x4096_108_0 ∗ rowPt0 c f 109 Facts₀.inb_S128x4096_S1x4096_109_0 ∗ rowPt0 c f 110 Facts₀.inb_S128x4096_S1x4096_110_0 ∗ rowPt0 c f 111 Facts₀.inb_S128x4096_S1x4096_111_0 ∗ rowPt0 c f 112 Facts₀.inb_S128x4096_S1x4096_112_0 ∗ rowPt0 c f 113 Facts₀.inb_S128x4096_S1x4096_113_0 ∗ rowPt0 c f 114 Facts₀.inb_S128x4096_S1x4096_114_0 ∗ rowPt0 c f 115 Facts₀.inb_S128x4096_S1x4096_115_0 ∗ rowPt0 c f 116 Facts₀.inb_S128x4096_S1x4096_116_0 ∗ rowPt0 c f 117 Facts₀.inb_S128x4096_S1x4096_117_0 ∗ rowPt0 c f 118 Facts₀.inb_S128x4096_S1x4096_118_0 ∗ rowPt0 c f 119 Facts₀.inb_S128x4096_S1x4096_119_0 ∗ rowPt0 c f 120 Facts₀.inb_S128x4096_S1x4096_120_0 ∗ rowPt0 c f 121 Facts₀.inb_S128x4096_S1x4096_121_0 ∗ rowPt0 c f 122 Facts₀.inb_S128x4096_S1x4096_122_0 ∗ rowPt0 c f 123 Facts₀.inb_S128x4096_S1x4096_123_0 ∗ rowPt0 c f 124 Facts₀.inb_S128x4096_S1x4096_124_0 ∗ rowPt0 c f 125 Facts₀.inb_S128x4096_S1x4096_125_0 ∗ rowPt0 c f 126 Facts₀.inb_S128x4096_S1x4096_126_0 ∗ rowPt0 c f 127 Facts₀.inb_S128x4096_S1x4096_127_0) := by
  rw [RowsJoin.rows_split (c : Thread nD τ) fullShare scM0 f rows_hinb (fun _ _ => rfl) rows_hsq,
    bigSep_univ_eq_bigSepL (List.finRange 128) (List.toFinset_finRange 128).symm (List.nodup_finRange 128)]
  rfl

theorem sems_chain (c : Dev nD) :
    (Pipeline.ownSems0 (Ix := Unit) (Name := ℕ) (U := Pipeline.UD sig nD τ) (Lvl := ℕ) (Val := Elt F) (τ := τ) osem0 c : sProp 𝕄)
      = iprop(semZ0 c (.dma ⟨2, by decide⟩) ∗ semZ0 c (.dma ⟨3, by decide⟩) ∗ semZ0 c (.dma ⟨4, by decide⟩) ∗ semZ0 c (.dma ⟨5, by decide⟩) ∗ semZ0 c (.dma ⟨6, by decide⟩) ∗ semZ0 c (.dma ⟨7, by decide⟩) ∗ semZ0 c (.dma ⟨8, by decide⟩) ∗ semZ0 c (.dma ⟨9, by decide⟩) ∗ semZ0 c (.dma ⟨10, by decide⟩) ∗ semZ0 c (.dma ⟨11, by decide⟩) ∗ semZ0 c (.dma ⟨12, by decide⟩) ∗ semZ0 c (.dma ⟨13, by decide⟩) ∗ semZ0 c (.dma ⟨14, by decide⟩) ∗ semZ0 c (.dma ⟨15, by decide⟩) ∗ semZ0 c (.dma ⟨16, by decide⟩) ∗ semZ0 c (.dma ⟨17, by decide⟩) ∗ semZ0 c (.dma ⟨18, by decide⟩) ∗ semZ0 c (.dma ⟨19, by decide⟩) ∗ semZ0 c (.dma ⟨20, by decide⟩) ∗ semZ0 c (.dma ⟨21, by decide⟩) ∗ semZ0 c (.dma ⟨22, by decide⟩) ∗ semZ0 c (.dma ⟨23, by decide⟩) ∗ semZ0 c (.dma ⟨24, by decide⟩) ∗ semZ0 c (.dma ⟨25, by decide⟩) ∗ semZ0 c (.dma ⟨26, by decide⟩) ∗ semZ0 c (.dma ⟨27, by decide⟩) ∗ semZ0 c (.dma ⟨28, by decide⟩) ∗ semZ0 c (.dma ⟨29, by decide⟩) ∗ semZ0 c (.dma ⟨30, by decide⟩) ∗ semZ0 c (.dma ⟨31, by decide⟩) ∗ semZ0 c (.dma ⟨32, by decide⟩) ∗ semZ0 c (.dma ⟨33, by decide⟩) ∗ semZ0 c (.dma ⟨34, by decide⟩) ∗ semZ0 c (.dma ⟨35, by decide⟩) ∗ semZ0 c (.dma ⟨36, by decide⟩) ∗ semZ0 c (.dma ⟨37, by decide⟩) ∗ semZ0 c (.dma ⟨38, by decide⟩) ∗ semZ0 c (.dma ⟨39, by decide⟩) ∗ semZ0 c (.dma ⟨40, by decide⟩) ∗ semZ0 c (.dma ⟨41, by decide⟩) ∗ semZ0 c (.dma ⟨42, by decide⟩) ∗ semZ0 c (.dma ⟨43, by decide⟩) ∗ semZ0 c (.dma ⟨44, by decide⟩) ∗ semZ0 c (.dma ⟨45, by decide⟩) ∗ semZ0 c (.dma ⟨46, by decide⟩) ∗ semZ0 c (.dma ⟨47, by decide⟩) ∗ semZ0 c (.dma ⟨48, by decide⟩) ∗ semZ0 c (.dma ⟨49, by decide⟩) ∗ semZ0 c (.dma ⟨50, by decide⟩) ∗ semZ0 c (.dma ⟨51, by decide⟩) ∗ semZ0 c (.dma ⟨52, by decide⟩) ∗ semZ0 c (.dma ⟨53, by decide⟩) ∗ semZ0 c (.dma ⟨54, by decide⟩) ∗ semZ0 c (.dma ⟨55, by decide⟩) ∗ semZ0 c (.dma ⟨56, by decide⟩) ∗ semZ0 c (.dma ⟨57, by decide⟩) ∗ semZ0 c (.dma ⟨58, by decide⟩) ∗ semZ0 c (.dma ⟨59, by decide⟩) ∗ semZ0 c (.dma ⟨60, by decide⟩) ∗ semZ0 c (.dma ⟨61, by decide⟩) ∗ semZ0 c (.dma ⟨62, by decide⟩) ∗ semZ0 c (.dma ⟨63, by decide⟩) ∗ semZ0 c (.dma ⟨64, by decide⟩) ∗ semZ0 c (.dma ⟨65, by decide⟩) ∗ semZ0 c (.dma ⟨66, by decide⟩) ∗ semZ0 c (.dma ⟨67, by decide⟩) ∗ semZ0 c (.dma ⟨68, by decide⟩) ∗ semZ0 c (.dma ⟨69, by decide⟩) ∗ semZ0 c (.dma ⟨70, by decide⟩) ∗ semZ0 c (.dma ⟨71, by decide⟩) ∗ semZ0 c (.dma ⟨72, by decide⟩) ∗ semZ0 c (.dma ⟨73, by decide⟩) ∗ semZ0 c (.dma ⟨74, by decide⟩) ∗ semZ0 c (.dma ⟨75, by decide⟩) ∗ semZ0 c (.dma ⟨76, by decide⟩) ∗ semZ0 c (.dma ⟨77, by decide⟩) ∗ semZ0 c (.dma ⟨78, by decide⟩) ∗ semZ0 c (.dma ⟨79, by decide⟩) ∗ semZ0 c (.dma ⟨80, by decide⟩) ∗ semZ0 c (.dma ⟨81, by decide⟩) ∗ semZ0 c (.dma ⟨82, by decide⟩) ∗ semZ0 c (.dma ⟨83, by decide⟩) ∗ semZ0 c (.dma ⟨84, by decide⟩) ∗ semZ0 c (.dma ⟨85, by decide⟩) ∗ semZ0 c (.dma ⟨86, by decide⟩) ∗ semZ0 c (.dma ⟨87, by decide⟩) ∗ semZ0 c (.dma ⟨88, by decide⟩) ∗ semZ0 c (.dma ⟨89, by decide⟩) ∗ semZ0 c (.dma ⟨90, by decide⟩) ∗ semZ0 c (.dma ⟨91, by decide⟩) ∗ semZ0 c (.dma ⟨92, by decide⟩) ∗ semZ0 c (.dma ⟨93, by decide⟩) ∗ semZ0 c (.dma ⟨94, by decide⟩) ∗ semZ0 c (.dma ⟨95, by decide⟩) ∗ semZ0 c (.dma ⟨96, by decide⟩) ∗ semZ0 c (.dma ⟨97, by decide⟩) ∗ semZ0 c (.dma ⟨98, by decide⟩) ∗ semZ0 c (.dma ⟨99, by decide⟩) ∗ semZ0 c (.dma ⟨100, by decide⟩) ∗ semZ0 c (.dma ⟨101, by decide⟩) ∗ semZ0 c (.dma ⟨102, by decide⟩) ∗ semZ0 c (.dma ⟨103, by decide⟩) ∗ semZ0 c (.dma ⟨104, by decide⟩) ∗ semZ0 c (.dma ⟨105, by decide⟩) ∗ semZ0 c (.dma ⟨106, by decide⟩) ∗ semZ0 c (.dma ⟨107, by decide⟩) ∗ semZ0 c (.dma ⟨108, by decide⟩) ∗ semZ0 c (.dma ⟨109, by decide⟩) ∗ semZ0 c (.dma ⟨110, by decide⟩) ∗ semZ0 c (.dma ⟨111, by decide⟩) ∗ semZ0 c (.dma ⟨112, by decide⟩) ∗ semZ0 c (.dma ⟨113, by decide⟩) ∗ semZ0 c (.dma ⟨114, by decide⟩) ∗ semZ0 c (.dma ⟨115, by decide⟩) ∗ semZ0 c (.dma ⟨116, by decide⟩) ∗ semZ0 c (.dma ⟨117, by decide⟩) ∗ semZ0 c (.dma ⟨118, by decide⟩) ∗ semZ0 c (.dma ⟨119, by decide⟩) ∗ semZ0 c (.dma ⟨120, by decide⟩) ∗ semZ0 c (.dma ⟨121, by decide⟩) ∗ semZ0 c (.dma ⟨122, by decide⟩) ∗ semZ0 c (.dma ⟨123, by decide⟩) ∗ semZ0 c (.dma ⟨124, by decide⟩) ∗ semZ0 c (.dma ⟨125, by decide⟩) ∗ semZ0 c (.dma ⟨126, by decide⟩) ∗ semZ0 c (.dma ⟨127, by decide⟩) ∗ semZ0 c (.dma ⟨128, by decide⟩) ∗ semZ0 c (.dma ⟨129, by decide⟩)) := by
  rw [Pipeline.ownSems0_eq_of_list c osem0 (List.finRange 128) (List.toFinset_finRange 128).symm (List.nodup_finRange 128)]; rfl

/-- One read share per semaphore cell, so that any number of copies may read the array at once. -/
theorem toks_chain (c : Dev nD) (fh : HbBuf0 (F := F) c hbM0) :
    (hbM0.view.loc (c : Thread nD τ) ↦{fullShare} fh : sProp 𝕄)
      ⊣⊢ iprop((hbM0.view.loc (c : Thread nD τ) ↦{Transfers.shareDrop fullShare 130} fh) ∗ tokN0 c fh 0 ∗ tokN0 c fh 1 ∗ tokN0 c fh 2 ∗ tokN0 c fh 3 ∗ tokN0 c fh 4 ∗ tokN0 c fh 5 ∗ tokN0 c fh 6 ∗ tokN0 c fh 7 ∗ tokN0 c fh 8 ∗ tokN0 c fh 9 ∗ tokN0 c fh 10 ∗ tokN0 c fh 11 ∗ tokN0 c fh 12 ∗ tokN0 c fh 13 ∗ tokN0 c fh 14 ∗ tokN0 c fh 15 ∗ tokN0 c fh 16 ∗ tokN0 c fh 17 ∗ tokN0 c fh 18 ∗ tokN0 c fh 19 ∗ tokN0 c fh 20 ∗ tokN0 c fh 21 ∗ tokN0 c fh 22 ∗ tokN0 c fh 23 ∗ tokN0 c fh 24 ∗ tokN0 c fh 25 ∗ tokN0 c fh 26 ∗ tokN0 c fh 27 ∗ tokN0 c fh 28 ∗ tokN0 c fh 29 ∗ tokN0 c fh 30 ∗ tokN0 c fh 31 ∗ tokN0 c fh 32 ∗ tokN0 c fh 33 ∗ tokN0 c fh 34 ∗ tokN0 c fh 35 ∗ tokN0 c fh 36 ∗ tokN0 c fh 37 ∗ tokN0 c fh 38 ∗ tokN0 c fh 39 ∗ tokN0 c fh 40 ∗ tokN0 c fh 41 ∗ tokN0 c fh 42 ∗ tokN0 c fh 43 ∗ tokN0 c fh 44 ∗ tokN0 c fh 45 ∗ tokN0 c fh 46 ∗ tokN0 c fh 47 ∗ tokN0 c fh 48 ∗ tokN0 c fh 49 ∗ tokN0 c fh 50 ∗ tokN0 c fh 51 ∗ tokN0 c fh 52 ∗ tokN0 c fh 53 ∗ tokN0 c fh 54 ∗ tokN0 c fh 55 ∗ tokN0 c fh 56 ∗ tokN0 c fh 57 ∗ tokN0 c fh 58 ∗ tokN0 c fh 59 ∗ tokN0 c fh 60 ∗ tokN0 c fh 61 ∗ tokN0 c fh 62 ∗ tokN0 c fh 63 ∗ tokN0 c fh 64 ∗ tokN0 c fh 65 ∗ tokN0 c fh 66 ∗ tokN0 c fh 67 ∗ tokN0 c fh 68 ∗ tokN0 c fh 69 ∗ tokN0 c fh 70 ∗ tokN0 c fh 71 ∗ tokN0 c fh 72 ∗ tokN0 c fh 73 ∗ tokN0 c fh 74 ∗ tokN0 c fh 75 ∗ tokN0 c fh 76 ∗ tokN0 c fh 77 ∗ tokN0 c fh 78 ∗ tokN0 c fh 79 ∗ tokN0 c fh 80 ∗ tokN0 c fh 81 ∗ tokN0 c fh 82 ∗ tokN0 c fh 83 ∗ tokN0 c fh 84 ∗ tokN0 c fh 85 ∗ tokN0 c fh 86 ∗ tokN0 c fh 87 ∗ tokN0 c fh 88 ∗ tokN0 c fh 89 ∗ tokN0 c fh 90 ∗ tokN0 c fh 91 ∗ tokN0 c fh 92 ∗ tokN0 c fh 93 ∗ tokN0 c fh 94 ∗ tokN0 c fh 95 ∗ tokN0 c fh 96 ∗ tokN0 c fh 97 ∗ tokN0 c fh 98 ∗ tokN0 c fh 99 ∗ tokN0 c fh 100 ∗ tokN0 c fh 101 ∗ tokN0 c fh 102 ∗ tokN0 c fh 103 ∗ tokN0 c fh 104 ∗ tokN0 c fh 105 ∗ tokN0 c fh 106 ∗ tokN0 c fh 107 ∗ tokN0 c fh 108 ∗ tokN0 c fh 109 ∗ tokN0 c fh 110 ∗ tokN0 c fh 111 ∗ tokN0 c fh 112 ∗ tokN0 c fh 113 ∗ tokN0 c fh 114 ∗ tokN0 c fh 115 ∗ tokN0 c fh 116 ∗ tokN0 c fh 117 ∗ tokN0 c fh 118 ∗ tokN0 c fh 119 ∗ tokN0 c fh 120 ∗ tokN0 c fh 121 ∗ tokN0 c fh 122 ∗ tokN0 c fh 123 ∗ tokN0 c fh 124 ∗ tokN0 c fh 125 ∗ tokN0 c fh 126 ∗ tokN0 c fh 127 ∗ tokN0 c fh 128 ∗ tokN0 c fh 129) := by
  have h : (hbM0.view.loc (c : Thread nD τ) ↦{fullShare} fh : sProp 𝕄) ⊣⊢ _ := Transfers.pointsTo_toks_range (ℓ := hbM0.view.loc (c : Thread nD τ)) (S := Finset.univ) (f := fh) fullShare 130
  rw [BI.bigSep_eq_bigSepL_of_eq (List.range 130) (List.toFinset_range 130).symm List.nodup_range] at h
  exact h

def offOf (i : grid0.Coords) (j : Fin 128) : Fin 1 → Nat :=
  ![(Scalar.indexCast (Scalar.addi (Scalar.muli (BitVec.ofNat 32 (i 0).val) 128#32) (BitVec.ofNat 32 j.val))).toNat]
theorem offOf_inb : ∀ (i : grid0.Coords) (j : Fin 128), ∀ a, (offOf i j) a + S1.size a ≤ S16384.size a := by decide +kernel
theorem offOf_val : ∀ (i : grid0.Coords) (j : Fin 128), offOf i j 0 = 128 * (i 0).val + j.val := by decide +kernel

def word (c : Dev nD) (i : grid0.Coords) (ft : HbBuf0 (F := F) c tbM0) (j : Fin 128) : Elt F .i32 :=
  View.readAt (Elt F) tbM0.view (Rect.unit (s := S16384) (offOf i j) S1.size (offOf_inb i j)).toLoadRect ft (Shape.Idx.first (Nat.lt_of_lt_of_eq Nat.one_pos Facts₀.numel1_S1.symm))

def XrowsAt (c : Dev nD) (i : grid0.Coords) (ft : HbBuf0 (F := F) c tbM0) (fh : HbBuf0 (F := F) c hbM0)
    (hlt : ∀ k, (tbM0.view.read (Elt F) ft k).toNat < 50264) (j : Fin 128) (d : Fin 4096) : Elt F .f32 :=
  ReadAs.same.apply (View.read (Elt F) ((hbM0.slice (Rect.unit (s := S50264x4096) ![(word c i ft j).toNat, 0] S1x4096.size (chk_of_lt _ (hlt _))) (fun _ => rfl)).squeeze S4096 Facts₀.squeezes_S1x4096_S4096).view fh) (ix1 d)
def Xrows (c : Dev nD) (i : grid0.Coords) (ft : HbBuf0 (F := F) c tbM0) (fh : HbBuf0 (F := F) c hbM0)
    (hlt : ∀ k, (tbM0.view.read (Elt F) ft k).toNat < 50264) : S128x4096.Idx → Elt F .f32 :=
  fun y => XrowsAt c i ft fh hlt (y 0) (y 1)
/-- The scratch's contents after the 128 copies: those whose read is the gathered block. -/
def Gsc (c : Dev nD) (i : grid0.Coords) (ft : HbBuf0 (F := F) c tbM0) (fh : HbBuf0 (F := F) c hbM0)
    (hlt : ∀ k, (tbM0.view.read (Elt F) ft k).toNat < 50264) : HbBuf0 (F := F) c scM0 :=
  (Memref.isWhole_whole cc0_scratch0).unread (Xrows c i ft fh hlt)

/-- On row `j` the contents that read the gathered block are any contents overwritten there by row `j` of the block. -/
theorem row_done (c : Dev nD) (i : grid0.Coords) (ft : HbBuf0 (F := F) c tbM0) (fh : HbBuf0 (F := F) c hbM0)
    (hlt : ∀ k, (tbM0.view.read (Elt F) ft k).toNat < 50264) (fs0 : HbBuf0 (F := F) c scM0) (j : ℕ)
    (h : ∀ a, (![j, 0] : Fin 2 → Nat) a + S1x4096.size a ≤ S128x4096.size a) (p : S4096.Idx → Elt F .f32)
    (hp : ∀ y : Fin 4096, p (ix1 y) = Xrows c i ft fh hlt (ix2 ⟨j, RowsJoin.row_lt (R := 128) (C := 4096) h⟩ y)) :
    rowPt0 c ((rowM0 j h).view.writes (Elt F) fs0 [⟨Rect.whole S4096, p⟩]) j h ⊢ rowPt0 c (Gsc c i ft fh hlt) j h :=
  Entails.of_eq (pointsTo_congr fun idx hidx =>
    (RowsJoin.unread_agrees_row_writes scM0 (Memref.isWhole_whole cc0_scratch0) (Xrows c i ft fh hlt) fs0
      ⟨j, RowsJoin.row_lt (R := 128) (C := 4096) h⟩ h (fun _ => rfl) Facts₀.squeezes_S1x4096_S4096 p hp idx hidx).symm)

end Cert.KernelIdeal.Hand

end
-- ==== Proof.KI.Body0.lean ====
import proofs.«402818_j61933428412865_1_alg».proof.Proof.Gen.KernelIdeal.Launch
import proofs.«402818_j61933428412865_1_alg».proof.Proof.Gen.KernelIdeal.Skeleton
import proofs.«402818_j61933428412865_1_alg».proof.Proof.Gen.KernelIdeal.Points
import proofs.«402818_j61933428412865_1_alg».proof.Proof.KI.Common
import proofs.«402818_j61933428412865_1_alg».proof.Proof.KI.Rows0
import proofs.«402818_j61933428412865_1_alg».proof.Proof.LibRowsJoin
import Idealize.ShloMosaic.Lib.Pipeline.FrameBody
import Idealize.ShloMosaic.Lib.Pipeline.Frame
import Idealize.ShloMosaic.Lib.Transfers
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- From the output block at anything, the scratch whole, the kernel's 128 cells at zero and the array and the table whole, the body at a grid point runs to its end and leaves the output block written with the pieces `L1`; every id's check holds since the table's entries are below the array's height. -/
noncomputable def kernelRun0 (c : Dev nD) (i : grid0.Coords) (arg3 : Memref sig .tc .vmem S128x4096 .bf16) (harg3 : arg3.IsWhole)
    (ft : HbBuf0 (F := F) c tbM0) (fh : HbBuf0 (F := F) c hbM0)
    (hlt : ∀ k, (tbM0.view.read (Elt F) ft k).toNat < 50264) :
    { L1 : List (View.Piece (Elt F) S128x4096 .bf16) //
      ∀ (fs0 : HbBuf0 (F := F) c scM0) (W : Waits sig Unit) (K : PUnit → sProp 𝕄),
        iprop((∃ d, owns (c : Thread nD τ) arg3 fullShare d) ∗ (scM0.view.loc (c : Thread nD τ) ↦[scM0.view.set]{fullShare} fs0)
            ∗ Pipeline.ownSems0 (Ix := Unit) (Name := ℕ) (U := Pipeline.UD sig nD τ) (Lvl := ℕ) (Val := Elt F) (τ := τ) osem0 c
            ∗ hbPt0 c hbM0 fh ∗ hbPt0 c tbM0 ft ∗ owes (c : Thread nD τ) 0 W
            ∗ (iprop((∃ f, arg3.view.loc (c : Thread nD τ) ↦[arg3.view.set]{fullShare} arg3.view.writes (Elt F) f L1)
                ∗ (∃ f, scM0.view.loc (c : Thread nD τ) ↦[scM0.view.set]{fullShare} f)
                ∗ Pipeline.ownSems0 (Ix := Unit) (Name := ℕ) (U := Pipeline.UD sig nD τ) (Lvl := ℕ) (Val := Elt F) (τ := τ) osem0 c
                ∗ hbPt0 c hbM0 fh ∗ hbPt0 c tbM0 ft ∗ (∃ W', owes (c : Thread nD τ) 0 W')) -∗ K ⟨⟩))
          ⊢ wp frame (wpE (defs₀ (F := F)) Variants.none c none) Set.univ (cc0__gather_kernel i tbM0 (Memref.isWhole_whole _) hbM0 (Memref.isWhole_whole _) arg3 harg3 scM0 (Memref.isWhole_whole _) cc0_scratch1) K } := by
  refine ⟨?_, fun fs0 W K => ?run⟩
  case run =>
    rw [sems_chain, rows_chain c fs0]
    unfold owns
    iintro ⟨⟨%d1, %f1, -, H1⟩, ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HR66, HR67, HR68, HR69, HR70, HR71, HR72, HR73, HR74, HR75, HR76, HR77, HR78, HR79, HR80, HR81, HR82, HR83, HR84, HR85, HR86, HR87, HR88, HR89, HR90, HR91, HR92, HR93, HR94, HR95, HR96, HR97, HR98, HR99, HR100, HR101, HR102, HR103, HR104, HR105, HR106, HR107, HR108, HR109, HR110, HR111, HR112, HR113, HR114, HR115, HR116, HR117, HR118, HR119, HR120, HR121, HR122, HR123, HR124, HR125, HR126, HR127⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127⟩, Hh, Ht0, HW, Hk⟩
    ihave Hh' := (toks_chain c fh).1 $$ Hh
    icases Hh' with ⟨Hdrop, Htk0, Htk1, Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hs58, Hs59, Hs60, Hs61, Hs62, Hs63, Hs64, Hs65, Hs66, Hs67, Hs68, Hs69, Hs70, Hs71, Hs72, Hs73, Hs74, Hs75, Hs76, Hs77, Hs78, Hs79, Hs80, Hs81, Hs82, Hs83, Hs84, Hs85, Hs86, Hs87, Hs88, Hs89, Hs90, Hs91, Hs92, Hs93, Hs94, Hs95, Hs96, Hs97, Hs98, Hs99, Hs100, Hs101, Hs102, Hs103, Hs104, Hs105, Hs106, Hs107, Hs108, Hs109, Hs110, Hs111, Hs112, Hs113, Hs114, Hs115, Hs116, Hs117, Hs118, Hs119, Hs120, Hs121, Hs122, Hs123, Hs124, Hs125, Hs126, Hs127⟩
    sl_exec_parts! (disch := first | exact ⟨chk_of_lt _ (hlt _), chk_of_lt _ (hlt _)⟩ | exact chk_of_lt _ (hlt _))
    have rd := row_done c i ft fh hlt fs0
    ihave HR0 := rd 0 Facts₀.inb_S128x4096_S1x4096_0_0 (kernelRun0.sl.dma1 c i ft fh hlt) (fun _ => rfl) $$ HR0
    ihave HR1 := rd 1 Facts₀.inb_S128x4096_S1x4096_1_0 (kernelRun0.sl.dma2 c i ft fh hlt) (fun _ => rfl) $$ HR1
    ihave HR2 := rd 2 Facts₀.inb_S128x4096_S1x4096_2_0 (kernelRun0.sl.dma3 c i ft fh hlt) (fun _ => rfl) $$ HR2
    ihave HR3 := rd 3 Facts₀.inb_S128x4096_S1x4096_3_0 (kernelRun0.sl.dma4 c i ft fh hlt) (fun _ => rfl) $$ HR3
    ihave HR4 := rd 4 Facts₀.inb_S128x4096_S1x4096_4_0 (kernelRun0.sl.dma5 c i ft fh hlt) (fun _ => rfl) $$ HR4
    ihave HR5 := rd 5 Facts₀.inb_S128x4096_S1x4096_5_0 (kernelRun0.sl.dma6 c i ft fh hlt) (fun _ => rfl) $$ HR5
    ihave HR6 := rd 6 Facts₀.inb_S128x4096_S1x4096_6_0 (kernelRun0.sl.dma7 c i ft fh hlt) (fun _ => rfl) $$ HR6
    ihave HR7 := rd 7 Facts₀.inb_S128x4096_S1x4096_7_0 (kernelRun0.sl.dma8 c i ft fh hlt) (fun _ => rfl) $$ HR7
    ihave HR8 := rd 8 Facts₀.inb_S128x4096_S1x4096_8_0 (kernelRun0.sl.dma9 c i ft fh hlt) (fun _ => rfl) $$ HR8
    ihave HR9 := rd 9 Facts₀.inb_S128x4096_S1x4096_9_0 (kernelRun0.sl.dma10 c i ft fh hlt) (fun _ => rfl) $$ HR9
    ihave HR10 := rd 10 Facts₀.inb_S128x4096_S1x4096_10_0 (kernelRun0.sl.dma11 c i ft fh hlt) (fun _ => rfl) $$ HR10
    ihave HR11 := rd 11 Facts₀.inb_S128x4096_S1x4096_11_0 (kernelRun0.sl.dma12 c i ft fh hlt) (fun _ => rfl) $$ HR11
    ihave HR12 := rd 12 Facts₀.inb_S128x4096_S1x4096_12_0 (kernelRun0.sl.dma13 c i ft fh hlt) (fun _ => rfl) $$ HR12
    ihave HR13 := rd 13 Facts₀.inb_S128x4096_S1x4096_13_0 (kernelRun0.sl.dma14 c i ft fh hlt) (fun _ => rfl) $$ HR13
    ihave HR14 := rd 14 Facts₀.inb_S128x4096_S1x4096_14_0 (kernelRun0.sl.dma15 c i ft fh hlt) (fun _ => rfl) $$ HR14
    ihave HR15 := rd 15 Facts₀.inb_S128x4096_S1x4096_15_0 (kernelRun0.sl.dma16 c i ft fh hlt) (fun _ => rfl) $$ HR15
    ihave HR16 := rd 16 Facts₀.inb_S128x4096_S1x4096_16_0 (kernelRun0.sl.dma17 c i ft fh hlt) (fun _ => rfl) $$ HR16
    ihave HR17 := rd 17 Facts₀.inb_S128x4096_S1x4096_17_0 (kernelRun0.sl.dma18 c i ft fh hlt) (fun _ => rfl) $$ HR17
    ihave HR18 := rd 18 Facts₀.inb_S128x4096_S1x4096_18_0 (kernelRun0.sl.dma19 c i ft fh hlt) (fun _ => rfl) $$ HR18
    ihave HR19 := rd 19 Facts₀.inb_S128x4096_S1x4096_19_0 (kernelRun0.sl.dma20 c i ft fh hlt) (fun _ => rfl) $$ HR19
    ihave HR20 := rd 20 Facts₀.inb_S128x4096_S1x4096_20_0 (kernelRun0.sl.dma21 c i ft fh hlt) (fun _ => rfl) $$ HR20
    ihave HR21 := rd 21 Facts₀.inb_S128x4096_S1x4096_21_0 (kernelRun0.sl.dma22 c i ft fh hlt) (fun _ => rfl) $$ HR21
    ihave HR22 := rd 22 Facts₀.inb_S128x4096_S1x4096_22_0 (kernelRun0.sl.dma23 c i ft fh hlt) (fun _ => rfl) $$ HR22
    ihave HR23 := rd 23 Facts₀.inb_S128x4096_S1x4096_23_0 (kernelRun0.sl.dma24 c i ft fh hlt) (fun _ => rfl) $$ HR23
    ihave HR24 := rd 24 Facts₀.inb_S128x4096_S1x4096_24_0 (kernelRun0.sl.dma25 c i ft fh hlt) (fun _ => rfl) $$ HR24
    ihave HR25 := rd 25 Facts₀.inb_S128x4096_S1x4096_25_0 (kernelRun0.sl.dma26 c i ft fh hlt) (fun _ => rfl) $$ HR25
    ihave HR26 := rd 26 Facts₀.inb_S128x4096_S1x4096_26_0 (kernelRun0.sl.dma27 c i ft fh hlt) (fun _ => rfl) $$ HR26
    ihave HR27 := rd 27 Facts₀.inb_S128x4096_S1x4096_27_0 (kernelRun0.sl.dma28 c i ft fh hlt) (fun _ => rfl) $$ HR27
    ihave HR28 := rd 28 Facts₀.inb_S128x4096_S1x4096_28_0 (kernelRun0.sl.dma29 c i ft fh hlt) (fun _ => rfl) $$ HR28
    ihave HR29 := rd 29 Facts₀.inb_S128x4096_S1x4096_29_0 (kernelRun0.sl.dma30 c i ft fh hlt) (fun _ => rfl) $$ HR29
    ihave HR30 := rd 30 Facts₀.inb_S128x4096_S1x4096_30_0 (kernelRun0.sl.dma31 c i ft fh hlt) (fun _ => rfl) $$ HR30
    ihave HR31 := rd 31 Facts₀.inb_S128x4096_S1x4096_31_0 (kernelRun0.sl.dma32 c i ft fh hlt) (fun _ => rfl) $$ HR31
    ihave HR32 := rd 32 Facts₀.inb_S128x4096_S1x4096_32_0 (kernelRun0.sl.dma33 c i ft fh hlt) (fun _ => rfl) $$ HR32
    ihave HR33 := rd 33 Facts₀.inb_S128x4096_S1x4096_33_0 (kernelRun0.sl.dma34 c i ft fh hlt) (fun _ => rfl) $$ HR33
    ihave HR34 := rd 34 Facts₀.inb_S128x4096_S1x4096_34_0 (kernelRun0.sl.dma35 c i ft fh hlt) (fun _ => rfl) $$ HR34
    ihave HR35 := rd 35 Facts₀.inb_S128x4096_S1x4096_35_0 (kernelRun0.sl.dma36 c i ft fh hlt) (fun _ => rfl) $$ HR35
    ihave HR36 := rd 36 Facts₀.inb_S128x4096_S1x4096_36_0 (kernelRun0.sl.dma37 c i ft fh hlt) (fun _ => rfl) $$ HR36
    ihave HR37 := rd 37 Facts₀.inb_S128x4096_S1x4096_37_0 (kernelRun0.sl.dma38 c i ft fh hlt) (fun _ => rfl) $$ HR37
    ihave HR38 := rd 38 Facts₀.inb_S128x4096_S1x4096_38_0 (kernelRun0.sl.dma39 c i ft fh hlt) (fun _ => rfl) $$ HR38
    ihave HR39 := rd 39 Facts₀.inb_S128x4096_S1x4096_39_0 (kernelRun0.sl.dma40 c i ft fh hlt) (fun _ => rfl) $$ HR39
    ihave HR40 := rd 40 Facts₀.inb_S128x4096_S1x4096_40_0 (kernelRun0.sl.dma41 c i ft fh hlt) (fun _ => rfl) $$ HR40
    ihave HR41 := rd 41 Facts₀.inb_S128x4096_S1x4096_41_0 (kernelRun0.sl.dma42 c i ft fh hlt) (fun _ => rfl) $$ HR41
    ihave HR42 := rd 42 Facts₀.inb_S128x4096_S1x4096_42_0 (kernelRun0.sl.dma43 c i ft fh hlt) (fun _ => rfl) $$ HR42
    ihave HR43 := rd 43 Facts₀.inb_S128x4096_S1x4096_43_0 (kernelRun0.sl.dma44 c i ft fh hlt) (fun _ => rfl) $$ HR43
    ihave HR44 := rd 44 Facts₀.inb_S128x4096_S1x4096_44_0 (kernelRun0.sl.dma45 c i ft fh hlt) (fun _ => rfl) $$ HR44
    ihave HR45 := rd 45 Facts₀.inb_S128x4096_S1x4096_45_0 (kernelRun0.sl.dma46 c i ft fh hlt) (fun _ => rfl) $$ HR45
    ihave HR46 := rd 46 Facts₀.inb_S128x4096_S1x4096_46_0 (kernelRun0.sl.dma47 c i ft fh hlt) (fun _ => rfl) $$ HR46
    ihave HR47 := rd 47 Facts₀.inb_S128x4096_S1x4096_47_0 (kernelRun0.sl.dma48 c i ft fh hlt) (fun _ => rfl) $$ HR47
    ihave HR48 := rd 48 Facts₀.inb_S128x4096_S1x4096_48_0 (kernelRun0.sl.dma49 c i ft fh hlt) (fun _ => rfl) $$ HR48
    ihave HR49 := rd 49 Facts₀.inb_S128x4096_S1x4096_49_0 (kernelRun0.sl.dma50 c i ft fh hlt) (fun _ => rfl) $$ HR49
    ihave HR50 := rd 50 Facts₀.inb_S128x4096_S1x4096_50_0 (kernelRun0.sl.dma51 c i ft fh hlt) (fun _ => rfl) $$ HR50
    ihave HR51 := rd 51 Facts₀.inb_S128x4096_S1x4096_51_0 (kernelRun0.sl.dma52 c i ft fh hlt) (fun _ => rfl) $$ HR51
    ihave HR52 := rd 52 Facts₀.inb_S128x4096_S1x4096_52_0 (kernelRun0.sl.dma53 c i ft fh hlt) (fun _ => rfl) $$ HR52
    ihave HR53 := rd 53 Facts₀.inb_S128x4096_S1x4096_53_0 (kernelRun0.sl.dma54 c i ft fh hlt) (fun _ => rfl) $$ HR53
    ihave HR54 := rd 54 Facts₀.inb_S128x4096_S1x4096_54_0 (kernelRun0.sl.dma55 c i ft fh hlt) (fun _ => rfl) $$ HR54
    ihave HR55 := rd 55 Facts₀.inb_S128x4096_S1x4096_55_0 (kernelRun0.sl.dma56 c i ft fh hlt) (fun _ => rfl) $$ HR55
    ihave HR56 := rd 56 Facts₀.inb_S128x4096_S1x4096_56_0 (kernelRun0.sl.dma57 c i ft fh hlt) (fun _ => rfl) $$ HR56
    ihave HR57 := rd 57 Facts₀.inb_S128x4096_S1x4096_57_0 (kernelRun0.sl.dma58 c i ft fh hlt) (fun _ => rfl) $$ HR57
    ihave HR58 := rd 58 Facts₀.inb_S128x4096_S1x4096_58_0 (kernelRun0.sl.dma59 c i ft fh hlt) (fun _ => rfl) $$ HR58
    ihave HR59 := rd 59 Facts₀.inb_S128x4096_S1x4096_59_0 (kernelRun0.sl.dma60 c i ft fh hlt) (fun _ => rfl) $$ HR59
    ihave HR60 := rd 60 Facts₀.inb_S128x4096_S1x4096_60_0 (kernelRun0.sl.dma61 c i ft fh hlt) (fun _ => rfl) $$ HR60
    ihave HR61 := rd 61 Facts₀.inb_S128x4096_S1x4096_61_0 (kernelRun0.sl.dma62 c i ft fh hlt) (fun _ => rfl) $$ HR61
    ihave HR62 := rd 62 Facts₀.inb_S128x4096_S1x4096_62_0 (kernelRun0.sl.dma63 c i ft fh hlt) (fun _ => rfl) $$ HR62
    ihave HR63 := rd 63 Facts₀.inb_S128x4096_S1x4096_63_0 (kernelRun0.sl.dma64 c i ft fh hlt) (fun _ => rfl) $$ HR63
    ihave HR64 := rd 64 Facts₀.inb_S128x4096_S1x4096_64_0 (kernelRun0.sl.dma65 c i ft fh hlt) (fun _ => rfl) $$ HR64
    ihave HR65 := rd 65 Facts₀.inb_S128x4096_S1x4096_65_0 (kernelRun0.sl.dma66 c i ft fh hlt) (fun _ => rfl) $$ HR65
    ihave HR66 := rd 66 Facts₀.inb_S128x4096_S1x4096_66_0 (kernelRun0.sl.dma67 c i ft fh hlt) (fun _ => rfl) $$ HR66
    ihave HR67 := rd 67 Facts₀.inb_S128x4096_S1x4096_67_0 (kernelRun0.sl.dma68 c i ft fh hlt) (fun _ => rfl) $$ HR67
    ihave HR68 := rd 68 Facts₀.inb_S128x4096_S1x4096_68_0 (kernelRun0.sl.dma69 c i ft fh hlt) (fun _ => rfl) $$ HR68
    ihave HR69 := rd 69 Facts₀.inb_S128x4096_S1x4096_69_0 (kernelRun0.sl.dma70 c i ft fh hlt) (fun _ => rfl) $$ HR69
    ihave HR70 := rd 70 Facts₀.inb_S128x4096_S1x4096_70_0 (kernelRun0.sl.dma71 c i ft fh hlt) (fun _ => rfl) $$ HR70
    ihave HR71 := rd 71 Facts₀.inb_S128x4096_S1x4096_71_0 (kernelRun0.sl.dma72 c i ft fh hlt) (fun _ => rfl) $$ HR71
    ihave HR72 := rd 72 Facts₀.inb_S128x4096_S1x4096_72_0 (kernelRun0.sl.dma73 c i ft fh hlt) (fun _ => rfl) $$ HR72
    ihave HR73 := rd 73 Facts₀.inb_S128x4096_S1x4096_73_0 (kernelRun0.sl.dma74 c i ft fh hlt) (fun _ => rfl) $$ HR73
    ihave HR74 := rd 74 Facts₀.inb_S128x4096_S1x4096_74_0 (kernelRun0.sl.dma75 c i ft fh hlt) (fun _ => rfl) $$ HR74
    ihave HR75 := rd 75 Facts₀.inb_S128x4096_S1x4096_75_0 (kernelRun0.sl.dma76 c i ft fh hlt) (fun _ => rfl) $$ HR75
    ihave HR76 := rd 76 Facts₀.inb_S128x4096_S1x4096_76_0 (kernelRun0.sl.dma77 c i ft fh hlt) (fun _ => rfl) $$ HR76
    ihave HR77 := rd 77 Facts₀.inb_S128x4096_S1x4096_77_0 (kernelRun0.sl.dma78 c i ft fh hlt) (fun _ => rfl) $$ HR77
    ihave HR78 := rd 78 Facts₀.inb_S128x4096_S1x4096_78_0 (kernelRun0.sl.dma79 c i ft fh hlt) (fun _ => rfl) $$ HR78
    ihave HR79 := rd 79 Facts₀.inb_S128x4096_S1x4096_79_0 (kernelRun0.sl.dma80 c i ft fh hlt) (fun _ => rfl) $$ HR79
    ihave HR80 := rd 80 Facts₀.inb_S128x4096_S1x4096_80_0 (kernelRun0.sl.dma81 c i ft fh hlt) (fun _ => rfl) $$ HR80
    ihave HR81 := rd 81 Facts₀.inb_S128x4096_S1x4096_81_0 (kernelRun0.sl.dma82 c i ft fh hlt) (fun _ => rfl) $$ HR81
    ihave HR82 := rd 82 Facts₀.inb_S128x4096_S1x4096_82_0 (kernelRun0.sl.dma83 c i ft fh hlt) (fun _ => rfl) $$ HR82
    ihave HR83 := rd 83 Facts₀.inb_S128x4096_S1x4096_83_0 (kernelRun0.sl.dma84 c i ft fh hlt) (fun _ => rfl) $$ HR83
    ihave HR84 := rd 84 Facts₀.inb_S128x4096_S1x4096_84_0 (kernelRun0.sl.dma85 c i ft fh hlt) (fun _ => rfl) $$ HR84
    ihave HR85 := rd 85 Facts₀.inb_S128x4096_S1x4096_85_0 (kernelRun0.sl.dma86 c i ft fh hlt) (fun _ => rfl) $$ HR85
    ihave HR86 := rd 86 Facts₀.inb_S128x4096_S1x4096_86_0 (kernelRun0.sl.dma87 c i ft fh hlt) (fun _ => rfl) $$ HR86
    ihave HR87 := rd 87 Facts₀.inb_S128x4096_S1x4096_87_0 (kernelRun0.sl.dma88 c i ft fh hlt) (fun _ => rfl) $$ HR87
    ihave HR88 := rd 88 Facts₀.inb_S128x4096_S1x4096_88_0 (kernelRun0.sl.dma89 c i ft fh hlt) (fun _ => rfl) $$ HR88
    ihave HR89 := rd 89 Facts₀.inb_S128x4096_S1x4096_89_0 (kernelRun0.sl.dma90 c i ft fh hlt) (fun _ => rfl) $$ HR89
    ihave HR90 := rd 90 Facts₀.inb_S128x4096_S1x4096_90_0 (kernelRun0.sl.dma91 c i ft fh hlt) (fun _ => rfl) $$ HR90
    ihave HR91 := rd 91 Facts₀.inb_S128x4096_S1x4096_91_0 (kernelRun0.sl.dma92 c i ft fh hlt) (fun _ => rfl) $$ HR91
    ihave HR92 := rd 92 Facts₀.inb_S128x4096_S1x4096_92_0 (kernelRun0.sl.dma93 c i ft fh hlt) (fun _ => rfl) $$ HR92
    ihave HR93 := rd 93 Facts₀.inb_S128x4096_S1x4096_93_0 (kernelRun0.sl.dma94 c i ft fh hlt) (fun _ => rfl) $$ HR93
    ihave HR94 := rd 94 Facts₀.inb_S128x4096_S1x4096_94_0 (kernelRun0.sl.dma95 c i ft fh hlt) (fun _ => rfl) $$ HR94
    ihave HR95 := rd 95 Facts₀.inb_S128x4096_S1x4096_95_0 (kernelRun0.sl.dma96 c i ft fh hlt) (fun _ => rfl) $$ HR95
    ihave HR96 := rd 96 Facts₀.inb_S128x4096_S1x4096_96_0 (kernelRun0.sl.dma97 c i ft fh hlt) (fun _ => rfl) $$ HR96
    ihave HR97 := rd 97 Facts₀.inb_S128x4096_S1x4096_97_0 (kernelRun0.sl.dma98 c i ft fh hlt) (fun _ => rfl) $$ HR97
    ihave HR98 := rd 98 Facts₀.inb_S128x4096_S1x4096_98_0 (kernelRun0.sl.dma99 c i ft fh hlt) (fun _ => rfl) $$ HR98
    ihave HR99 := rd 99 Facts₀.inb_S128x4096_S1x4096_99_0 (kernelRun0.sl.dma100 c i ft fh hlt) (fun _ => rfl) $$ HR99
    ihave HR100 := rd 100 Facts₀.inb_S128x4096_S1x4096_100_0 (kernelRun0.sl.dma101 c i ft fh hlt) (fun _ => rfl) $$ HR100
    ihave HR101 := rd 101 Facts₀.inb_S128x4096_S1x4096_101_0 (kernelRun0.sl.dma102 c i ft fh hlt) (fun _ => rfl) $$ HR101
    ihave HR102 := rd 102 Facts₀.inb_S128x4096_S1x4096_102_0 (kernelRun0.sl.dma103 c i ft fh hlt) (fun _ => rfl) $$ HR102
    ihave HR103 := rd 103 Facts₀.inb_S128x4096_S1x4096_103_0 (kernelRun0.sl.dma104 c i ft fh hlt) (fun _ => rfl) $$ HR103
    ihave HR104 := rd 104 Facts₀.inb_S128x4096_S1x4096_104_0 (kernelRun0.sl.dma105 c i ft fh hlt) (fun _ => rfl) $$ HR104
    ihave HR105 := rd 105 Facts₀.inb_S128x4096_S1x4096_105_0 (kernelRun0.sl.dma106 c i ft fh hlt) (fun _ => rfl) $$ HR105
    ihave HR106 := rd 106 Facts₀.inb_S128x4096_S1x4096_106_0 (kernelRun0.sl.dma107 c i ft fh hlt) (fun _ => rfl) $$ HR106
    ihave HR107 := rd 107 Facts₀.inb_S128x4096_S1x4096_107_0 (kernelRun0.sl.dma108 c i ft fh hlt) (fun _ => rfl) $$ HR107
    ihave HR108 := rd 108 Facts₀.inb_S128x4096_S1x4096_108_0 (kernelRun0.sl.dma109 c i ft fh hlt) (fun _ => rfl) $$ HR108
    ihave HR109 := rd 109 Facts₀.inb_S128x4096_S1x4096_109_0 (kernelRun0.sl.dma110 c i ft fh hlt) (fun _ => rfl) $$ HR109
    ihave HR110 := rd 110 Facts₀.inb_S128x4096_S1x4096_110_0 (kernelRun0.sl.dma111 c i ft fh hlt) (fun _ => rfl) $$ HR110
    ihave HR111 := rd 111 Facts₀.inb_S128x4096_S1x4096_111_0 (kernelRun0.sl.dma112 c i ft fh hlt) (fun _ => rfl) $$ HR111
    ihave HR112 := rd 112 Facts₀.inb_S128x4096_S1x4096_112_0 (kernelRun0.sl.dma113 c i ft fh hlt) (fun _ => rfl) $$ HR112
    ihave HR113 := rd 113 Facts₀.inb_S128x4096_S1x4096_113_0 (kernelRun0.sl.dma114 c i ft fh hlt) (fun _ => rfl) $$ HR113
    ihave HR114 := rd 114 Facts₀.inb_S128x4096_S1x4096_114_0 (kernelRun0.sl.dma115 c i ft fh hlt) (fun _ => rfl) $$ HR114
    ihave HR115 := rd 115 Facts₀.inb_S128x4096_S1x4096_115_0 (kernelRun0.sl.dma116 c i ft fh hlt) (fun _ => rfl) $$ HR115
    ihave HR116 := rd 116 Facts₀.inb_S128x4096_S1x4096_116_0 (kernelRun0.sl.dma117 c i ft fh hlt) (fun _ => rfl) $$ HR116
    ihave HR117 := rd 117 Facts₀.inb_S128x4096_S1x4096_117_0 (kernelRun0.sl.dma118 c i ft fh hlt) (fun _ => rfl) $$ HR117
    ihave HR118 := rd 118 Facts₀.inb_S128x4096_S1x4096_118_0 (kernelRun0.sl.dma119 c i ft fh hlt) (fun _ => rfl) $$ HR118
    ihave HR119 := rd 119 Facts₀.inb_S128x4096_S1x4096_119_0 (kernelRun0.sl.dma120 c i ft fh hlt) (fun _ => rfl) $$ HR119
    ihave HR120 := rd 120 Facts₀.inb_S128x4096_S1x4096_120_0 (kernelRun0.sl.dma121 c i ft fh hlt) (fun _ => rfl) $$ HR120
    ihave HR121 := rd 121 Facts₀.inb_S128x4096_S1x4096_121_0 (kernelRun0.sl.dma122 c i ft fh hlt) (fun _ => rfl) $$ HR121
    ihave HR122 := rd 122 Facts₀.inb_S128x4096_S1x4096_122_0 (kernelRun0.sl.dma123 c i ft fh hlt) (fun _ => rfl) $$ HR122
    ihave HR123 := rd 123 Facts₀.inb_S128x4096_S1x4096_123_0 (kernelRun0.sl.dma124 c i ft fh hlt) (fun _ => rfl) $$ HR123
    ihave HR124 := rd 124 Facts₀.inb_S128x4096_S1x4096_124_0 (kernelRun0.sl.dma125 c i ft fh hlt) (fun _ => rfl) $$ HR124
    ihave HR125 := rd 125 Facts₀.inb_S128x4096_S1x4096_125_0 (kernelRun0.sl.dma126 c i ft fh hlt) (fun _ => rfl) $$ HR125
    ihave HR126 := rd 126 Facts₀.inb_S128x4096_S1x4096_126_0 (kernelRun0.sl.dma127 c i ft fh hlt) (fun _ => rfl) $$ HR126
    ihave HR127 := rd 127 Facts₀.inb_S128x4096_S1x4096_127_0 (kernelRun0.sl.dma128 c i ft fh hlt) (fun _ => rfl) $$ HR127
    ihave HS0 := (Entails.of_eq (rows_chain c (Gsc c i ft fh hlt)).symm) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76 HR77 HR78 HR79 HR80 HR81 HR82 HR83 HR84 HR85 HR86 HR87 HR88 HR89 HR90 HR91 HR92 HR93 HR94 HR95 HR96 HR97 HR98 HR99 HR100 HR101 HR102 HR103 HR104 HR105 HR106 HR107 HR108 HR109 HR110 HR111 HR112 HR113 HR114 HR115 HR116 HR117 HR118 HR119 HR120 HR121 HR122 HR123 HR124 HR125 HR126 HR127]
    · iframe
    sl_exec
    sl_step
    iapply Hk
    isplitl [H1]; · iexists _; iexact H1
    isplitl [HS0]; · iexists _; iexact HS0
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106 Hq107 Hq108 Hq109 Hq110 Hq111 Hq112 Hq113 Hq114 Hq115 Hq116 Hq117 Hq118 Hq119 Hq120 Hq121 Hq122 Hq123 Hq124 Hq125 Hq126 Hq127]
    · iframe
    isplitl [Hdrop Htk0 Htk1 Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hs64 Hs65 Hs66 Hs67 Hs68 Hs69 Hs70 Hs71 Hs72 Hs73 Hs74 Hs75 Hs76 Hs77 Hs78 Hs79 Hs80 Hs81 Hs82 Hs83 Hs84 Hs85 Hs86 Hs87 Hs88 Hs89 Hs90 Hs91 Hs92 Hs93 Hs94 Hs95 Hs96 Hs97 Hs98 Hs99 Hs100 Hs101 Hs102 Hs103 Hs104 Hs105 Hs106 Hs107 Hs108 Hs109 Hs110 Hs111 Hs112 Hs113 Hs114 Hs115 Hs116 Hs117 Hs118 Hs119 Hs120 Hs121 Hs122 Hs123 Hs124 Hs125 Hs126 Hs127]
    · iapply (toks_chain c fh).2
      iframe
    isplitl [Ht0]; · iexact Ht0
    iexists _; iexact HW

end Cert.KernelIdeal.Hand

end
-- ==== Proof.KI.Region0.lean ====
import proofs.«402818_j61933428412865_1_alg».proof.Proof.Gen.KernelIdeal.Launch
import proofs.«402818_j61933428412865_1_alg».proof.Proof.Gen.KernelIdeal.Skeleton
import proofs.«402818_j61933428412865_1_alg».proof.Proof.Gen.KernelIdeal.Points
import proofs.«402818_j61933428412865_1_alg».proof.Proof.Gen.KernelIdeal.Regions
import proofs.«402818_j61933428412865_1_alg».proof.Proof.KI.Common
import proofs.«402818_j61933428412865_1_alg».proof.Proof.KI.Body0
import proofs.«402818_j61933428412865_1_alg».proof.Proof.LibRegionHeldDma
import Idealize.ShloMosaic.Lib.Ring
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (a0 : (pcfg0 (F := F)).Adm) (V : (c : Dev nD) → (b : Ref sig .tc) → Buf (Elt F) ((c : Thread nD τ).loc b))

abbrev tblOf (c : Dev nD) : HbBuf0 (F := F) c tbM0 := a0.1 ⟨0, Nat.zero_lt_one⟩

variable (hlt : ∀ (c : Dev nD) k, (tbM0.view.read (Elt F) (tblOf a0 c) k).toNat < 50264)

abbrev VO0_0 : View sig .tc .vmem S128x4096 .bf16 := (Memref.whole cc0_stg0_0 : Memref sig .tc .vmem S128x4096 .bf16).view

abbrev ms0_0 (t : Fin (cfg0 a0).N) : Memref sig .tc .vmem S128x4096 .bf16 := spec0_0.stage ((cfg0 a0).slots t 0)
abbrev hs0_0 (t : Fin (cfg0 a0).N) : (ms0_0 a0 t).IsWhole := hstage0_0 (((cfg0 a0).slots t 0).cast nbuf0_0)

def H0 : Finset (Ref sig .tc) := {main_arg1}
theorem H0_sub : H0 ⊆ Pipeline.restRefsP sig pre0 spec0 := by decide

theorem cover0_0 (c : Dev nD) (i : grid0.Coords) (arg3 : Memref sig .tc .vmem S128x4096 .bf16) (harg3 : arg3.IsWhole)
    (ft : HbBuf0 (F := F) c tbM0) (fh : HbBuf0 (F := F) c hbM0) (h : ∀ k, (tbM0.view.read (Elt F) ft k).toNat < 50264) (y : S128x4096.Idx) :
    ∃ pc ∈ (kernelRun0 c i arg3 harg3 ft fh h).1, y ∈ pc.1.set :=
  View.cover_of_tiledL (kernelRun0 c i arg3 harg3 ft fh h).1 S128x4096.size (by sl_kernel_rfl) y

def out0_0 (c : Dev nD) (i : grid0.Coords) (arg3 : Memref sig .tc .vmem S128x4096 .bf16) (harg3 : arg3.IsWhole)
    (ft : HbBuf0 (F := F) c tbM0) (fh : HbBuf0 (F := F) c hbM0) (h : ∀ k, (tbM0.view.read (Elt F) ft k).toNat < 50264) : Vec F S128x4096 .bf16 :=
  VO0_0.read (Elt F) (VO0_0.writes (Elt F) VO0_0.junk (kernelRun0 c i arg3 harg3 ft fh h).1)

attribute [irreducible] out0_0

def outsAt0 (c : Dev nD) (t : Fin (cfg0 a0).N) : Vec F S128x4096 .bf16 :=
  out0_0 c (grid0.coords t) (ms0_0 a0 t) (hs0_0 a0 t) (tblOf a0 c) (V c main_arg1) (hlt c)

def Phi0 (c : Dev nD) : sProp 𝕄 :=
  iprop(Pipeline.scopedRest (Ix := Unit) (Name := ℕ) (U := Pipeline.UD sig nD τ) (Lvl := ℕ) (Val := Elt F) spec0 c ∗ (∃ r, prngReg c r)
    ∗ Pipeline.ownSems0 (Ix := Unit) (Name := ℕ) (U := Pipeline.UD sig nD τ) (Lvl := ℕ) (Val := Elt F) (τ := τ) osem0 c
    ∗ (bigSep H0 fun b => (((c : Thread nD τ).loc b) ↦{fullShare} V c b))
    ∗ Pipeline.prefHeld pre0 c (fun _ => fullShare) a0.1)

def dat0 (c : Dev nD) : Dat τ (Elt F) Unit ℕ (Pipeline.UD sig nD τ) ℕ (cfg0 a0) c where
  A w := V c (Pipeline.arrRef spec0 w)
  after w t := match w with
    | ⟨0, _⟩ => outsAt0 a0 V hlt c t
  Φ _ := Phi0 a0 V c
  q _ := fullShare
  owed _ := 0

theorem A_eq0 (c : Dev nD) (w : Fin (cfg0 a0).W) : (dat0 a0 V hlt c).A w = V c (Pipeline.arrRef spec0 w) := by
  dsimp only [dat0]
theorem after0_0 (c : Dev nD) (t : Fin (cfg0 a0).N) : (dat0 a0 V hlt c).after 0 t = outsAt0 a0 V hlt c t := rfl

abbrev bodyAt0 (t : Fin (cfg0 a0).N) : Prog (TpuEff nD τ sig (Elt F) Λ₀ .tc) PUnit :=
  cc0__gather_kernel (grid0.coords t) (Memref.whole main_v0) (Memref.isWhole_whole _) (Memref.whole main_arg1) (Memref.isWhole_whole _)
    (spec0_0.stage ((cfg0 a0).slots t 0)) (hstage0_0 (((cfg0 a0).slots t 0).cast nbuf0_0)) (Memref.whole cc0_scratch0) (Memref.isWhole_whole _) cc0_scratch1

theorem hbm0_eq (c : Dev nD) :
    (bigSep H0 (fun b => (((c : Thread nD τ).loc b) ↦{fullShare} V c b)) : sProp 𝕄) = iprop(hbPt0 c hbM0 (V c main_arg1)) := by
  rw [BI.bigSep_eq_bigSepL_of_eq [main_arg1] (by decide) (by decide)]; rfl

theorem pref0_eq (c : Dev nD) :
    (Pipeline.prefHeld (Ix := Unit) (Name := ℕ) (U := Pipeline.UD sig nD τ) (Lvl := ℕ) pre0 c (fun _ => fullShare) a0.1 : sProp 𝕄) = iprop(hbPt0 c tbM0 (tblOf a0 c)) := by
  unfold Pipeline.prefHeld
  rw [bigSep_univ_eq_bigSepL [(0 : Fin 1)] (by decide) (by decide)]; rfl

theorem scratch_pt (c : Dev nD) (f : HbBuf0 (F := F) c scM0) :
    (scM0.view.loc (c : Thread nD τ) ↦[scM0.view.set]{fullShare} f : sProp 𝕄) = (((c : Thread nD τ).loc cc0_scratch0) ↦{fullShare} f) := by
  simp only [scM0, Memref.view_whole, View.set_whole]

def bodyPre0 (c : Dev nD) (t : Fin (cfg0 a0).N) : sProp 𝕄 :=
  iprop((dat0 a0 V hlt c).Φ t.castSucc ∗ (dat0 a0 V hlt c).owesAt () t.castSucc
    ∗ (∃ d, owns (c : Thread nD τ) (ms0_0 a0 t) fullShare ((dat0 a0 V hlt c).before 0 t d)))

def bodyPost0 (c : Dev nD) (t : Fin (cfg0 a0).N) : sProp 𝕄 :=
  iprop((dat0 a0 V hlt c).Φ t.succ ∗ (dat0 a0 V hlt c).owesAt () t.succ
    ∗ owns (c : Thread nD τ) (ms0_0 a0 t) fullShare ((dat0 a0 V hlt c).after 0 t))

set_option maxHeartbeats 2000000 in
/-- One grid point of the gather region: from the point's precondition the body runs to the point's postcondition. -/
theorem sound_body0 (c : Dev nD) (t : Fin (cfg0 a0).N) :
    bodyPre0 a0 V hlt c t ⊢ wp frame (wpE (defs₀ (F := F)) Variants.none c none) Set.univ (bodyAt0 a0 t) (fun _ => bodyPost0 a0 V hlt c t) := by
  unfold bodyPre0 bodyPost0 bodyAt0
  rw [show (dat0 a0 V hlt c).Φ t.succ = Phi0 a0 V c from rfl, show (dat0 a0 V hlt c).Φ t.castSucc = Phi0 a0 V c from rfl, after0_0]
  unfold Phi0
  rw [scopedRest0_eq, hbm0_eq, pref0_eq]
  unfold Dat.owesAt Pipeline.owesWithin
  rw [show (dat0 a0 V hlt c).owed t.castSucc = 0 from rfl, show (dat0 a0 V hlt c).owed t.succ = 0 from rfl]
  unfold outsAt0 out0_0
  iintro ⟨⟨⟨⟨%fs0, HS0⟩, Hr1, Hr2, Hr3, Hr4, Hr5⟩, Hg, Hsem, Hh0, Ht0⟩, ⟨%W, -, HW⟩, ⟨%d0, H0⟩⟩
  ihave HS0 := (Entails.of_eq (scratch_pt c fs0).symm) $$ HS0
  iapply ((kernelRun0 c (grid0.coords t) _ _ (tblOf a0 c) (V c main_arg1) (hlt c)).2 fs0 W _)
  isplitl [H0]; · iexists _; iexact H0
  isplitl [HS0]; · iexact HS0
  isplitl [Hsem]; · iexact Hsem
  isplitl [Hh0]; · iexact Hh0
  isplitl [Ht0]; · iexact Ht0
  isplitl [HW]; · iexact HW
  iintro ⟨⟨%e0, H0⟩, ⟨%fs1, HS0⟩, Hsem, Hh0, Ht0, ⟨%W', HW'⟩⟩
  ihave HS0 := (Entails.of_eq (scratch_pt c fs1)) $$ HS0
  isplitl [HS0 Hr1 Hr2 Hr3 Hr4 Hr5 Hg Hsem Hh0 Ht0]
  · isplitl [HS0 Hr1 Hr2 Hr3 Hr4 Hr5]
    · isplitl [HS0]; · iexists _; iexact HS0
      isplitl [Hr1]; · iexact Hr1
      isplitl [Hr2]; · iexact Hr2
      isplitl [Hr3]; · iexact Hr3
      isplitl [Hr4]; · iexact Hr4
      iexact Hr5
    isplitl [Hg]; · iexact Hg
    isplitl [Hsem]; · iexact Hsem
    isplitl [Hh0]; · iexact Hh0
    iexact Ht0
  isplitl [HW']
  · iexists W'; isplitr; · ipureintro; exact fun _ _ => Or.inl trivial
    iexact HW'
  unfold owns; iexists _; isplitr
  swap; · iexact H0
  ipureintro; exact View.read_writes_of_cover _ _ _ _ _ (cover0_0 c _ _ _ _ _ _)

set_option maxRecDepth 200000 in
theorem body_obligation0 (c : Dev nD) : BodyObligation (dat0 a0 V hlt c) (defs₀ (F := F)) Variants.none () Set.univ := fun t => by
  rw [bigSep_W0, bigSep_W0]
  exact sound_body0 a0 V hlt c t

end Cert.KernelIdeal.Hand

end
-- ==== Proof.KI.Runs1.lean ====
import proofs.«402818_j61933428412865_1_alg».proof.Proof.KI.Common
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 128 = 0 :=
  (by decide +kernel : ∀ t : Fin grid1.N, cond1_0 (grid1.coords t) ↔ t.val % 128 = 0)

abbrev cond1_1 (i : grid1.Coords) : Prop := k1_cond2 i = 1#1

theorem hcond1_1 : ∀ t : Fin cfg1.N, cond1_1 (grid1.coords t) ↔ t.val % 128 = 127 :=
  (by decide +kernel : ∀ t : Fin grid1.N, cond1_1 (grid1.coords t) ↔ t.val % 128 = 127)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2_A : ∀ t : Fin cfg1.N, cond1_0 (grid1.coords t) → ¬cond1_1 (grid1.coords t) → cfg1.idle 2 (grid1.coords t) = true := by decide +kernel

theorem noFlush1_2_A : ∀ t : Fin cfg1.N, cond1_0 (grid1.coords t) → ¬cond1_1 (grid1.coords t) → (cfg1.win 2).flush t = false := by decide +kernel

theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel

theorem liveAt1_2_C : ∀ t : Fin cfg1.N, ¬cond1_0 (grid1.coords t) → cond1_1 (grid1.coords t) → cfg1.idle 2 (grid1.coords t) = false := by decide +kernel

abbrev VO1_2 : View sig .tc .vmem S1x1 .f32 := (Memref.whole cc1_stg2_0 : Memref sig .tc .vmem S1x1 .f32).view

abbrev ms1_0 (t : Fin cfg1.N) : Memref sig .tc .vmem S128x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

abbrev VS1_0 : View sig .tc .vmem S1x1 .f32 := (accM1 : Memref sig .tc .vmem S1x1 .f32).view

abbrev heldAny (c : Dev nD) (b : Ref sig .tc) : sProp 𝕄 :=
  iprop(∃ f : Buf (Elt F) ((c : Thread nD τ).loc b), ((c : Thread nD τ).loc b) ↦{fullShare} f)

theorem PhiA1_eq (c : Dev nD) :
    (Pipeline.ΦA spec1 c : sProp 𝕄)
      = iprop(iprop(heldAny (F := F) c cc0_stg0_0 ∗ heldAny (F := F) c cc0_stg0_1 ∗ heldAny (F := F) c cc0_scratch0 ∗ (∃ d, owns (c : Thread nD τ) accM1 fullShare d)) ∗ (∃ r, prngReg c r)) := by
  unfold Pipeline.ΦA; rw [scopedRest1_eq]; simp only [accM1, owns_whole]; try rfl

end Cert.KernelIdeal.Hand

end
-- ==== Proof.KI.Run1A.lean ====
import proofs.«402818_j61933428412865_1_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_A (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S128x4096 .bf16) (x1 : Vec F S4096x4096 .bf16) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__mm_reduce_kernel i arg1 harg1 arg2 harg2 arg3 harg3 arg4 harg4) K } := by
  refine ⟨[], ?_, fun xi2 E K => ?run⟩
  case run =>
    simp only [cc1__mm_reduce_kernel_eq_skeleton]; unfold cc1__mm_reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.Run1B.lean ====
import proofs.«402818_j61933428412865_1_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_B (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S128x4096 .bf16) (x1 : Vec F S4096x4096 .bf16) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__mm_reduce_kernel i arg1 harg1 arg2 harg2 arg3 harg3 arg4 harg4) K } := by
  refine ⟨[], ?_, fun xi2 E K => ?run⟩
  case run =>
    simp only [cc1__mm_reduce_kernel_eq_skeleton]; unfold cc1__mm_reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.Run1C.lean ====
import proofs.«402818_j61933428412865_1_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_C (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x4096 .bf16) (x1 : Vec F S4096x4096 .bf16) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__mm_reduce_kernel i arg1 harg1 arg2 harg2 arg3 harg3 arg4 harg4) K } := by
  refine ⟨?_, ?_, fun E K => ?run⟩
  case run =>
    simp only [cc1__mm_reduce_kernel_eq_skeleton]; unfold cc1__mm_reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.Region1.lean ====
import proofs.«402818_j61933428412865_1_alg».proof.Proof.KI.Run1C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

section
variable (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole)

def out1_A_2 (hc0 : cond1_0 i) (hc1 : ¬cond1_1 i) (x0 : Vec F S128x4096 .bf16) (x1 : Vec F S4096x4096 .bf16) : Vec F S1x1 .f32 :=
  VO1_2.read (Elt F) (VO1_2.writes (Elt F) VO1_2.junk (kernelRun1_A c i arg1 harg1 arg2 harg2 arg3 harg3 arg4 harg4 hc0 hc1 x0 x1).1)

theorem scover1_A_0 (hc0 : cond1_0 i) (hc1 : ¬cond1_1 i) (x0 : Vec F S128x4096 .bf16) (x1 : Vec F S4096x4096 .bf16) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

def sout1_A_0 (hc0 : cond1_0 i) (hc1 : ¬cond1_1 i) (x0 : Vec F S128x4096 .bf16) (x1 : Vec F S4096x4096 .bf16) : Vec F S1x1 .f32 :=
  VS1_0.read (Elt F) (VS1_0.writes (Elt F) VS1_0.junk (kernelRun1_A c i arg1 harg1 arg2 harg2 arg3 harg3 arg4 harg4 hc0 hc1 x0 x1).2.1)

def out1_B_2 (hc0 : ¬cond1_0 i) (hc1 : ¬cond1_1 i) (x0 : Vec F S128x4096 .bf16) (x1 : Vec F S4096x4096 .bf16) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)

theorem scover1_B_0 (hc0 : ¬cond1_0 i) (hc1 : ¬cond1_1 i) (x0 : Vec F S128x4096 .bf16) (x1 : Vec F S4096x4096 .bf16) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y

def sout1_B_0 (hc0 : ¬cond1_0 i) (hc1 : ¬cond1_1 i) (x0 : Vec F S128x4096 .bf16) (x1 : Vec F S4096x4096 .bf16) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

theorem cover1_C_2 (hc0 : ¬cond1_0 i) (hc1 : cond1_1 i) (x0 : Vec F S128x4096 .bf16) (x1 : Vec F S4096x4096 .bf16) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y

def out1_C_2 (hc0 : ¬cond1_0 i) (hc1 : cond1_1 i) (x0 : Vec F S128x4096 .bf16) (x1 : Vec F S4096x4096 .bf16) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)

theorem scover1_C_0 (hc0 : ¬cond1_0 i) (hc1 : cond1_1 i) (x0 : Vec F S128x4096 .bf16) (x1 : Vec F S4096x4096 .bf16) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y

def sout1_C_0 (hc0 : ¬cond1_0 i) (hc1 : cond1_1 i) (x0 : Vec F S128x4096 .bf16) (x1 : Vec F S4096x4096 .bf16) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

end

def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 128 = 0 then
      if h1 : (n + 1) % 128 = 127 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 128 = 127 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 128 = 0) (h1 : ¬t.val % 128 = 127) :
    outsAt1 V c t.val t.isLt = (out1_A_2 c (grid1.coords t) (ms1_0 t) (hs1_0 t) (ms1_1 t) (hs1_1 t) (ms1_2 t) (hs1_2 t) accM1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) accM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 128 = 0) (h1 : ¬t.val % 128 = 127) :
    outsAt1 V c t.val t.isLt = (out1_B_2 c (grid1.coords t) (ms1_0 t) (hs1_0 t) (ms1_1 t) (hs1_1 t) (ms1_2 t) (hs1_2 t) accM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) accM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 128 = 0) (h1 : t.val % 128 = 127) :
    outsAt1 V c t.val t.isLt = (out1_C_2 c (grid1.coords t) (ms1_0 t) (hs1_0 t) (ms1_1 t) (hs1_1 t) (ms1_2 t) (hs1_2 t) accM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) accM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(heldAny (F := F) c cc0_stg0_0 ∗ heldAny (F := F) c cc0_stg0_1 ∗ heldAny (F := F) c cc0_scratch0 ∗ owns (c : Thread nD τ) accM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(heldAny (F := F) c cc0_stg0_0 ∗ heldAny (F := F) c cc0_stg0_1 ∗ heldAny (F := F) c cc0_scratch0 ∗ owns (c : Thread nD τ) accM1 fullShare ((outsAt1 V c n hn).2)) ∗ (∃ r, prngReg c r)) := rfl

theorem PhiS1_pos (c : Dev nD) (n : ℕ) (h : n ≤ cfg1.N) (hz : n ≠ 0) :
    PhiS1 V c n h = iprop(iprop(heldAny (F := F) c cc0_stg0_0 ∗ heldAny (F := F) c cc0_stg0_1 ∗ heldAny (F := F) c cc0_scratch0 ∗ owns (c : Thread nD τ) accM1 fullShare ((outsAt1 V c (n - 1) (by omega)).2)) ∗ (∃ r, prngReg c r)) := by
  cases n with
  | zero => exact absurd rfl hz
  | succ n => rfl

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 128 = 0
  · by_cases h1 : t.val % 128 = 127
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      have hz : t.val = 0 := by omega
      rw [PhiS1_castSucc V c t, PhiS1_zero V c _ _ hz, PhiA1_eq]
      iintro ⟨⟨⟨E0, E1, E2, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg E0 E1 E2]
      · isplitr [Hg]
        swap; · iexact Hg
        isplitl [E0]; · iexact E0
        isplitl [E1]; · iexact E1
        isplitl [E2]; · iexact E2
        unfold owns; iexists _; isplitr
        swap; · iexact HS0
        ipureintro; exact View.read_writes_of_cover _ _ _ _ _ (scover1_A_0 c _ _ _ _ _ _ _ _ _ _ _ _ _)
      isplitl [Ho]; · iexact Ho
      isplitl [H0]; · iexact H0
      isplitl [H1]; · iexact H1
      iexists _; iexact H2
  · by_cases h1 : t.val % 128 = 127
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨⟨E0, E1, E2, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg E0 E1 E2]
      · isplitr [Hg]
        swap; · iexact Hg
        isplitl [E0]; · iexact E0
        isplitl [E1]; · iexact E1
        isplitl [E2]; · iexact E2
        unfold owns; iexists _; isplitr
        swap; · iexact HS0
        ipureintro; exact View.read_writes_of_cover _ _ _ _ _ (scover1_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨E0, E1, E2, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg E0 E1 E2]
      · isplitr [Hg]
        swap; · iexact Hg
        isplitl [E0]; · iexact E0
        isplitl [E1]; · iexact E1
        isplitl [E2]; · iexact E2
        unfold owns; iexists _; isplitr
        swap; · iexact HS0
        ipureintro; exact View.read_writes_of_cover _ _ _ _ _ (scover1_B_0 c _ _ _ _ _ _ _ _ _ _ _ _ _ _)
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨E0, E1, E2, HS0⟩, Hg⟩
  isplitr [Hg]
  swap; · iexact Hg
  isplitl [E0]; · iexact E0
  isplitl [E1]; · iexact E1
  isplitl [E2]; · iexact E2
  iexists _; iexact HS0

theorem hout1 (c : Dev nD) : (dat1 V c).Φ (Fin.last cfg1.N) ⊢ Pipeline.ΦA spec1 c :=
  Phi1_out V c _ (by rw [Fin.val_last]; have : cfg1.N = 128 := N_1; omega)

theorem hz2 : (![0, 0] : Fin 2 → Nat) = fun _ => 0 := by funext a; fin_cases a <;> rfl

section
variable (c : Dev nD) (i : grid1.Coords) (arg1 : Memref sig .tc .vmem S128x4096 .bf16) (harg1 : arg1.IsWhole) (arg2 : Memref sig .tc .vmem S4096x4096 .bf16) (harg2 : arg2.IsWhole) (arg3 : Memref sig .tc .vmem S1x1 .f32) (harg3 : arg3.IsWhole) (arg4 : Memref sig .tc .vmem S1x1 .f32) (harg4 : arg4.IsWhole)

theorem sout1_A_0_eq (hc0 : cond1_0 i) (hc1 : ¬cond1_1 i) (x0 : Vec F S128x4096 .bf16) (x1 : Vec F S4096x4096 .bf16) :
    sout1_A_0 c i arg1 harg1 arg2 harg2 arg3 harg3 arg4 harg4 hc0 hc1 x0 x1 = k1_pay2 x0 x1 (k1_pay1 (F := F)) := by
  unfold sout1_A_0
  rw [View.read_writes_eq_canon _ _ _ (scover1_A_0 c i arg1 harg1 arg2 harg2 arg3 harg3 arg4 harg4 hc0 hc1 x0 x1)]
  unfold kernelRun1_A
  dsimp only
  sl_unfold_words
  rw [View.canon_cons_unit_zero (S := S1x1) hz2, View.readCov_unit_zero (S := S1x1) _ hz2]
  simp only [View.readAt_eq_ld, harg1.read_unread, harg2.read_unread, View.ld_unit_zero (S := S128x4096) hz2, View.ld_unit_zero (S := S4096x4096) hz2]

theorem sout1_B_0_eq (hc0 : ¬cond1_0 i) (hc1 : ¬cond1_1 i) (x0 : Vec F S128x4096 .bf16) (x1 : Vec F S4096x4096 .bf16) (xs0 : Vec F S1x1 .f32) :
    sout1_B_0 c i arg1 harg1 arg2 harg2 arg3 harg3 arg4 harg4 hc0 hc1 x0 x1 xs0 = k1_pay2 x0 x1 xs0 := by
  unfold sout1_B_0
  rw [View.read_writes_eq_canon _ _ _ (scover1_B_0 c i arg1 harg1 arg2 harg2 arg3 harg3 arg4 harg4 hc0 hc1 x0 x1 xs0)]
  unfold kernelRun1_B
  dsimp only
  sl_unfold_words
  rw [View.canon_unit_zero (S := S1x1) hz2]
  simp only [View.readAt_eq_ld, harg1.read_unread, harg2.read_unread, harg4.read_unread, View.ld_unit_zero (S := S128x4096) hz2, View.ld_unit_zero (S := S4096x4096) hz2, View.ld_unit_zero (S := S1x1) hz2]

theorem sout1_C_0_eq (hc0 : ¬cond1_0 i) (hc1 : cond1_1 i) (x0 : Vec F S128x4096 .bf16) (x1 : Vec F S4096x4096 .bf16) (xs0 : Vec F S1x1 .f32) :
    sout1_C_0 c i arg1 harg1 arg2 harg2 arg3 harg3 arg4 harg4 hc0 hc1 x0 x1 xs0 = k1_pay2 x0 x1 xs0 := by
  unfold sout1_C_0
  rw [View.read_writes_eq_canon _ _ _ (scover1_C_0 c i arg1 harg1 arg2 harg2 arg3 harg3 arg4 harg4 hc0 hc1 x0 x1 xs0)]
  unfold kernelRun1_C
  dsimp only
  sl_unfold_words
  rw [View.canon_unit_zero (S := S1x1) hz2]
  simp only [View.readAt_eq_ld, harg1.read_unread, harg2.read_unread, harg4.read_unread, View.ld_unit_zero (S := S128x4096) hz2, View.ld_unit_zero (S := S4096x4096) hz2, View.ld_unit_zero (S := S1x1) hz2]

theorem out1_C_2_eq (hc0 : ¬cond1_0 i) (hc1 : cond1_1 i) (x0 : Vec F S128x4096 .bf16) (x1 : Vec F S4096x4096 .bf16) (xs0 : Vec F S1x1 .f32) :
    out1_C_2 c i arg1 harg1 arg2 harg2 arg3 harg3 arg4 harg4 hc0 hc1 x0 x1 xs0 = k1_pay2 x0 x1 xs0 := by
  unfold out1_C_2
  rw [View.read_writes_eq_canon _ _ _ (cover1_C_2 c i arg1 harg1 arg2 harg2 arg3 harg3 arg4 harg4 hc0 hc1 x0 x1 xs0)]
  unfold kernelRun1_C
  dsimp only
  sl_unfold_words
  rw [View.canon_unit_zero (S := S1x1) hz2, View.readCov_unit_zero (S := S1x1) _ hz2]
  simp only [View.readAt_eq_ld, harg1.read_unread, harg2.read_unread, harg4.read_unread, View.ld_unit_zero (S := S128x4096) hz2, View.ld_unit_zero (S := S4096x4096) hz2, View.ld_unit_zero (S := S1x1) hz2]

end

end Cert.KernelIdeal.Hand

end
-- ==== Proof.KI.Walk.lean ====
import proofs.«402818_j61933428412865_1_alg».proof.Proof.KI.Common
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Contents

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)

variable (A0 : (c : Dev nD) → (w : Fin 1) → Buf (Elt F) ((spec0 w).arr.view.loc (c : Thread nD τ)))

def W2 (c : Dev nD) : Valuation τ sig (Elt F) := Pipeline.withArrays spec0 c (W1 m c) (A0 c)

abbrev W3 : Dev nD → Valuation τ sig (Elt F) := fun c => StableHlo.after hostOps1 (W2 m A0 c)

variable (A1 : (c : Dev nD) → (w : Fin 3) → Buf (Elt F) ((spec1 w).arr.view.loc (c : Thread nD τ)))

def W4 (c : Dev nD) : Valuation τ sig (Elt F) := Pipeline.withArrays spec1 c (W3 m A0 c) (A1 c)

abbrev W5 : Dev nD → Valuation τ sig (Elt F) := fun c => StableHlo.after hostOps2 (W4 m A0 A1 c)

end Contents

variable (m : (ℓ : Loc nD τ sig) → Buf (Elt F) ℓ)
variable (A0 : (c : Dev nD) → (w : Fin 1) → Buf (Elt F) ((spec0 w).arr.view.loc (c : Thread nD τ)))
variable (A1 : (c : Dev nD) → (w : Fin 3) → Buf (Elt F) ((spec1 w).arr.view.loc (c : Thread nD τ)))

theorem W1_of (c : Dev nD) (r : Ref sig .tc) (h : r ∉ hostOps0_W) : W1 m c (Proc.devRef .tc r) = W0 m c (Proc.devRef .tc r) :=
  StableHlo.after_of_writes_sub hostOps0 _ hostOps0_writes h

theorem W2_arr (c : Dev nD) (w : Fin 1) : W2 m A0 c (Proc.devRef .tc (Pipeline.arrRef spec0 w)) = A0 c w := by
  unfold W2; exact Pipeline.withArrays_arr spec0 winFacts0.arr_inj c _ _ w

theorem W2_of_ne (c : Dev nD) (b : Ref sig .tc) (hb : ∀ w, Pipeline.arrRef spec0 w ≠ b) :
    W2 m A0 c (Proc.devRef .tc b) = W1 m c (Proc.devRef .tc b) := by
  unfold W2; exact Pipeline.withArrays_of_ne spec0 c _ _ b hb

theorem W3_of (c : Dev nD) (r : Ref sig .tc) (h : r ∉ hostOps1_W) : W3 m A0 c (Proc.devRef .tc r) = W2 m A0 c (Proc.devRef .tc r) :=
  StableHlo.after_of_writes_sub hostOps1 _ hostOps1_writes h

theorem W4_arr (c : Dev nD) (w : Fin 3) : W4 m A0 A1 c (Proc.devRef .tc (Pipeline.arrRef spec1 w)) = A1 c w := by
  unfold W4; exact Pipeline.withArrays_arr spec1 winFacts1.arr_inj c _ _ w

theorem W4_of_ne (c : Dev nD) (b : Ref sig .tc) (hb : ∀ w, Pipeline.arrRef spec1 w ≠ b) :
    W4 m A0 A1 c (Proc.devRef .tc b) = W3 m A0 c (Proc.devRef .tc b) := by
  unfold W4; exact Pipeline.withArrays_of_ne spec1 c _ _ b hb

theorem W5_of (c : Dev nD) (r : Ref sig .tc) (h : r ∉ hostOps2_W) : W5 m A0 A1 c (Proc.devRef .tc r) = W4 m A0 A1 c (Proc.devRef .tc r) :=
  StableHlo.after_of_writes_sub hostOps2 _ hostOps2_writes h

theorem W5_arg0 (c : Dev nD) : W5 m A0 A1 c (Proc.devRef .tc main_arg0) = m ((c : Thread nD τ).loc main_arg0) :=
  (W5_of m A0 A1 c main_arg0 (by decide)).trans <| (W4_of_ne m A0 A1 c main_arg0 (by decide)).trans <| (W3_of m A0 c main_arg0 (by decide)).trans <| (W2_of_ne m A0 c main_arg0 (by decide)).trans <| (W1_of m c main_arg0 (by decide)).trans rfl
theorem W5_arg1 (c : Dev nD) : W5 m A0 A1 c (Proc.devRef .tc main_arg1) = m ((c : Thread nD τ).loc main_arg1) :=
  (W5_of m A0 A1 c main_arg1 (by decide)).trans <| (W4_of_ne m A0 A1 c main_arg1 (by decide)).trans <| (W3_of m A0 c main_arg1 (by decide)).trans <| (W2_of_ne m A0 c main_arg1 (by decide)).trans <| (W1_of m c main_arg1 (by decide)).trans rfl
theorem W5_arg2 (c : Dev nD) : W5 m A0 A1 c (Proc.devRef .tc main_arg2) = m ((c : Thread nD τ).loc main_arg2) :=
  (W5_of m A0 A1 c main_arg2 (by decide)).trans <| (W4_of_ne m A0 A1 c main_arg2 (by decide)).trans <| (W3_of m A0 c main_arg2 (by decide)).trans <| (W2_of_ne m A0 c main_arg2 (by decide)).trans <| (W1_of m c main_arg2 (by decide)).trans rfl
theorem W5_arg3 (c : Dev nD) : W5 m A0 A1 c (Proc.devRef .tc main_arg3) = m ((c : Thread nD τ).loc main_arg3) :=
  (W5_of m A0 A1 c main_arg3 (by decide)).trans <| (W4_of_ne m A0 A1 c main_arg3 (by decide)).trans <| (W3_of m A0 c main_arg3 (by decide)).trans <| (W2_of_ne m A0 c main_arg3 (by decide)).trans <| (W1_of m c main_arg3 (by decide)).trans rfl

theorem W1_v0 (c : Dev nD) :
    W1 m c (Proc.devRef .tc main_v0) = shapeCast S16384 (m ((c : Thread nD τ).loc main_arg0)) shapeCasts_S4x4096_S16384 := by
  show StableHlo.after hostOps0 _ _ = _
  after_results
  rfl

theorem W2_arg2 (c : Dev nD) : W2 m A0 c (Proc.devRef .tc main_arg2) = m ((c : Thread nD τ).loc main_arg2) :=
  (W2_of_ne m A0 c main_arg2 (by decide)).trans <| (W1_of m c main_arg2 (by decide)).trans rfl

theorem hostOps1_v2 (c : Dev nD) (V' : Valuation τ sig (Elt F))
    (h : V' (Proc.devRef .tc main_arg2) = m ((c : Thread nD τ).loc main_arg2)) :
    (StableHlo.after hostOps1 V' (Proc.devRef .tc main_v2) : Vec F S4096x4096 .bf16)
      = truncf .bf16 (m ((c : Thread nD τ).loc main_arg2) : Vec F S4096x4096 .f32) bitsLt_bf16_f32 := by
  after_results
  rw [h]

theorem W3_v2 (c : Dev nD) :
    (W3 m A0 c (Proc.devRef .tc main_v2) : Vec F S4096x4096 .bf16)
      = truncf .bf16 (m ((c : Thread nD τ).loc main_arg2) : Vec F S4096x4096 .f32) bitsLt_bf16_f32 :=
  hostOps1_v2 m c (W2 m A0 c) (W2_arg2 m A0 c)

theorem W3_v1 (c : Dev nD) : W3 m A0 c (Proc.devRef .tc main_v1) = A0 c 0 :=
  (W3_of m A0 c main_v1 (by decide)).trans (W2_arr m A0 c 0)

theorem W4_v3 (c : Dev nD) : W4 m A0 A1 c (Proc.devRef .tc main_v3) = A1 c 2 :=
  W4_arr m A0 A1 c 2

theorem W4_arg3 (c : Dev nD) : W4 m A0 A1 c (Proc.devRef .tc main_arg3) = m ((c : Thread nD τ).loc main_arg3) :=
  (W4_of_ne m A0 A1 c main_arg3 (by decide)).trans <| (W3_of m A0 c main_arg3 (by decide)).trans <| (W2_of_ne m A0 c main_arg3 (by decide)).trans <| (W1_of m c main_arg3 (by decide)).trans rfl

end Cert.KernelIdeal.Hand

end
-- ==== Proof.KI.Assembly.lean ====
import proofs.«402818_j61933428412865_1_alg».proof.Proof.Gen.KernelIdeal.Launch
import proofs.«402818_j61933428412865_1_alg».proof.Proof.Gen.KernelIdeal.Skeleton
import proofs.«402818_j61933428412865_1_alg».proof.Proof.Gen.KernelIdeal.Points
import proofs.«402818_j61933428412865_1_alg».proof.Proof.Gen.KernelIdeal.Regions
import proofs.«402818_j61933428412865_1_alg».proof.Proof.KI.Common
import proofs.«402818_j61933428412865_1_alg».proof.Proof.KI.TableFacts
import proofs.«402818_j61933428412865_1_alg».proof.Proof.KI.Region0
import proofs.«402818_j61933428412865_1_alg».proof.Proof.KI.Region1
import proofs.«402818_j61933428412865_1_alg».proof.Proof.KI.Walk
import proofs.«402818_j61933428412865_1_alg».proof.Proof.LibRegionHeld
import proofs.«402818_j61933428412865_1_alg».proof.Proof.LibRegionHeldDma
import Idealize.ShloMosaic.Lib.Pipeline.Regions
import Idealize.ShloMosaic.Lib.Pipeline.RegionsLoop
import Idealize.ShloMosaic.Lib.Pipeline.FrameSuffix
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Pipeline (Seg HostSeg RegionSeg)

variable (m : (ℓ : Loc nD τ sig) → Buf (Elt F) ℓ) (ρ : Dev nD → PrngReg)

abbrev Vr1 : (c : Dev nD) → (b : Ref sig .tc) → Buf (Elt F) ((c : Thread nD τ).loc b) := fun c b => W1 m c b

abbrev a0 : (pcfg0 (F := F)).Adm := adm m ⟨0, by decide⟩

variable (hlt : ∀ (c : Dev nD) k, (tbM0.view.read (Elt F) (tblOf (a0 m) c) k).toNat < 50264)

def A0 (c : Dev nD) (w : Fin 1) : Buf (Elt F) ((spec0 w).arr.view.loc (c : Thread nD τ)) :=
  (dat0 (a0 m) (Vr1 m) hlt c).arrAt w (cfg0 (a0 m)).N

abbrev Vr3 : (c : Dev nD) → (b : Ref sig .tc) → Buf (Elt F) ((c : Thread nD τ).loc b) := fun c b => W3 m (A0 m hlt) c b

def A1 (c : Dev nD) (w : Fin 3) : Buf (Elt F) ((spec1 w).arr.view.loc (c : Thread nD τ)) :=
  (dat1 (Vr3 m hlt) c).arrAt w cfg1.N

def pdats : (p : Fin 2) → (c : Dev nD) → Dat τ (Elt F) Unit ℕ (Pipeline.UD sig nD τ) ℕ (Pipeline.pin (pcfgs (F := F)) (adm m) p) c
  | ⟨0, _⟩ => fun c => dat0 (a0 m) (Vr1 m) hlt c
  | ⟨1, _⟩ => fun c => dat1 (Vr3 m hlt) c

abbrev 𝒱₀ : Variants := Variants.none

abbrev L : GSem nD τ sig → Finset Unit := fun _ => ∅
abbrev lv : GSem nD τ sig → Unit → ℕ := fun _ _ => 0

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Pipeline.idleRest (U := Pipeline.UD sig nD τ))

set_option backward.isDefEq.respectTransparency.types false in
def reg0 : Pipeline.RegionSeg (pcfgs (F := F)) (adm m) (pdats m hlt) () defs₀ 𝒱₀ L lv 0 :=
  Pipeline.RegionSeg.ofHeldDma (pcfgs (F := F)) (adm m) (pdats m hlt) defs₀ 𝒱₀ L lv 0 osem0
    winFacts0 preFacts0 block_pos0 arr_whole0 stage_whole0 ownSemFacts0 H0 H0_sub
    (fun c => body_obligation0 (a0 m) (Vr1 m) hlt c)
    (fun _ _ => rfl) (fun _ _ => rfl) (fun _ => rfl)
    (W1 m) (W2 m (A0 m hlt))
    (fun _ _ => rfl) (fun c k => match k with | ⟨0, _⟩ => by obtain rfl : c = c0 := Subsingleton.elim _ _; rfl)
    (fun c w => (W2_arr m (A0 m hlt) c w).symm)
    (fun c b hb => W2_of_ne m (A0 m hlt) c b fun w e => hb (Finset.mem_image.mpr ⟨w, Finset.mem_univ _, e⟩))
    (fun c => .rfl) (fun c => .rfl)

set_option backward.isDefEq.respectTransparency.types false in
def reg1 : Pipeline.RegionSeg (pcfgs (F := F)) (adm m) (pdats m hlt) () defs₀ 𝒱₀ L lv 1 :=
  Pipeline.RegionSeg.ofHeld (pcfgs (F := F)) (adm m) (pdats m hlt) defs₀ 𝒱₀ L lv 1
    winFacts1 block_pos1 arr_whole1 stage_whole1
    (fun c => Pipeline.emp_prefHeld_of_no_table _ rfl c _ _)
    (fun c => body_obligation1 (Vr3 m hlt) c)
    (fun _ _ => rfl) (fun _ _ => rfl) (fun _ => rfl)
    (W3 m (A0 m hlt)) (W4 m (A0 m hlt) (A1 m hlt))
    (fun _ _ => rfl)
    (fun c w => (W4_arr m (A0 m hlt) (A1 m hlt) c w).symm)
    (fun c b hb => W4_of_ne m (A0 m hlt) (A1 m hlt) c b fun w e => hb (Finset.mem_image.mpr ⟨w, Finset.mem_univ _, e⟩))
    (fun c => hin1 (Vr3 m hlt) c) (fun c => hout1 (Vr3 m hlt) c)

abbrev segs : List (Pipeline.Seg (pcfgs (F := F)) (adm m) (pdats m hlt) () defs₀ 𝒱₀ L lv) :=
  [ .host (hseg hostOps0 hostOps0_sub hostOps0_fresh (W0 m)),
    .region (reg0 m hlt),
    .host (hseg hostOps1 hostOps1_sub hostOps1_fresh (W2 m (A0 m hlt))),
    .region (reg1 m hlt),
    .host (hseg hostOps2 hostOps2_sub hostOps2_fresh (W4 m (A0 m hlt) (A1 m hlt))) ]

theorem main_run (c : Dev nD) : main (F := F) c = Pipeline.Seg.run (segs m hlt) := (main_chain c).trans (by chain_rfl)

abbrev Tₙ (c : Dev nD) : sProp 𝕄 := iprop(StableHlo.held (c : Thread nD τ) (Pipeline.ucRefs τ sig) (W5 m (A0 m hlt) (A1 m hlt) c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The program is the chain of its host stretches and its two regions; run in order from the initial memory they end with every buffer at the last valuation of the walk. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m (A0 m hlt) (A1 m hlt) c b) :=
  Pipeline.θ_run_regions_kit (pcfgs (F := F)) (adm m) (pdats m hlt) () (cellOf_inj (adm m)) (embL) defs₀ 𝒱₀ L lv m ρ main (segs m hlt)
    (fun c Q => by rw [main_run m hlt c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.idleRest (U := Pipeline.UD sig nD τ) c)) (Tₙ := Tₙ m hlt)
    (hch := ⟨fun _ => .rfl, fun _ => .rfl, fun _ => .rfl, fun _ => .rfl, fun _ => .rfl, fun c => (show (iprop(StableHlo.held (c : Thread nD τ) (Pipeline.ucRefs τ sig) (W5 m (A0 m hlt) (A1 m hlt) c) ∗ Pipeline.idleRest (U := Pipeline.UD sig nD τ) c) : sProp 𝕄)
          ⊢ iprop(Tₙ m hlt c ∗ ∃ W, owes (c : Thread nD τ) (0 : CellTallies nD τ sig Unit) W) from by
        iintro ⟨Hh, Hg, HO⟩
        isplitl [Hh Hg]
        · isplitl [Hh]; · iexact Hh
          iexact Hg
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m (A0 m hlt) (A1 m hlt) c b)
    (hfin := fun c s' => by
      iintro ⟨⟨Hh, -⟩, HSI⟩
      unfold StableHlo.held
      imodintro
      iapply (pointsTo_read_all (Pipeline.ucRefs τ sig) (fun b => (((c : Thread nD τ)).1, b)) (W5 m (A0 m hlt) (A1 m hlt) c) s')
      isplitl [Hh] <;> iassumption)
    (hQ := fun s h c => h c)

end Cert.KernelIdeal.Hand

end
-- ==== Proof.KI.FrameClaim.lean ====
import proofs.«402818_j61933428412865_1_alg».proof.Proof.Gen.KernelIdeal.Launch
import proofs.«402818_j61933428412865_1_alg».proof.Proof.Gen.KernelIdeal.Skeleton
import proofs.«402818_j61933428412865_1_alg».proof.Proof.Gen.KernelIdeal.Points
import proofs.«402818_j61933428412865_1_alg».proof.Proof.Gen.KernelIdeal.Regions
import proofs.«402818_j61933428412865_1_alg».proof.Proof.KI.Assembly
import proofs.«402818_j61933428412865_1_alg».proof.Proof.KI.TableFacts
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hlt_of_ids (hids : ∀ i, ((idsOf m : S4x4096.Idx → BitVec 32) i).toNat < 50264) :
    ∀ (c : Dev nD) k, (tbM0.view.read (Elt F) (tblOf (a0 m) c) k).toNat < 50264 :=
  fun c k => tbl_lt m hids k

/-- With every id inside the table the program runs to its end, faults nowhere and leaves its arguments as they were. -/
theorem frame (hids : ∀ i, ((idsOf m : S4x4096.Idx → BitVec 32) i).toNat < 50264) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_arg0 m _ _ c),
     (h c _ (mem_uc main_arg1 (by decide))).trans (W5_arg1 m _ _ c),
     (h c _ (mem_uc main_arg2 (by decide))).trans (W5_arg2 m _ _ c),
     (h c _ (mem_uc main_arg3 (by decide))).trans (W5_arg3 m _ _ c)⟩)
    (run_all m ρ (hlt_of_ids m hids))

end Cert.KernelIdeal.Hand

end
-- ==== Proof.KI.IdealPay.lean ====
import proofs.«402818_j61933428412865_1_alg».proof.Proof.Gen.KernelIdeal.Skeleton
import proofs.«402818_j61933428412865_1_alg».proof.Proof.Gen.KernelIdeal.Launch
import proofs.«402818_j61933428412865_1_alg».proof.Proof.Spec
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.Lib.StableHlo.Run

noncomputable section

namespace Cert.KernelIdeal.IdealPay

open Cert.KernelIdeal Cert.KernelIdeal.Gen Idealize.ShloMosaic Idealize.ShloMosaic.ValueIdx

theorem k0_pay1_apply (v : Vec Ideal S128x4096 .f32) (r : Fin 128) (d : Fin 4096) :
    k0_pay1 (F := Ideal) v (ix2 r d) = v (ix2 r d) := rfl

theorem k1_pay1_apply : k1_pay1 (F := Ideal) (ix2 0 0) = (0 : EReal) := by
  unfold k1_pay1
  rw [shapeCast_self]
  exact Ideal.ofBits_zero_f32

theorem lhs_mm_0 (i : S128x4096.Idx) (q : dot_S128x4096_S4096x4096_S128x4096_1_1_0_0_n_n.contr.Idx) :
    (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem lhs_mm_1 (i : S128x4096.Idx) (q : dot_S128x4096_S4096x4096_S128x4096_1_1_0_0_n_n.contr.Idx) :
    (dot_S128x4096_S4096x4096_S128x4096_1_1_0_0_n_n.lhsIdx i q 1).val = (q ⟨0, by decide⟩).val :=
  dot_S128x4096_S4096x4096_S128x4096_1_1_0_0_n_n.lhsIdx_val_of_single rfl i q
theorem rhs_mm_0 (i : S128x4096.Idx) (q : dot_S128x4096_S4096x4096_S128x4096_1_1_0_0_n_n.contr.Idx) :
    (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl
theorem rhs_mm_1 (i : S128x4096.Idx) (q : dot_S128x4096_S4096x4096_S128x4096_1_1_0_0_n_n.contr.Idx) :
    (dot_S128x4096_S4096x4096_S128x4096_1_1_0_0_n_n.rhsIdx i q 1).val = (q ⟨0, by decide⟩).val :=
  dot_S128x4096_S4096x4096_S128x4096_1_1_0_0_n_n.rhsIdx_val_of_single rfl i q

theorem mm_apply (x : FVec Ideal S128x4096 .bf16) (w : FVec Ideal S4096x4096 .bf16) (r : Fin 128) (e : Fin 4096) :
    matmul dot_S128x4096_S4096x4096_S128x4096_1_1_0_0_n_n none x w (constant (F := Ideal) S128x4096 .f32 0x00000000#32) (ix2 r e)
      = ∑ d : Fin 4096, x (ix2 r d) * w (ix2 e d) := by
  simp only [matmul]
  rw [Ideal.matmul_constant_zero_apply, ← Equiv.sum_comp (ValueIdx.contrEquiv1 dot_S128x4096_S4096x4096_S128x4096_1_1_0_0_n_n 4096 rfl rfl).symm]
  refine Finset.sum_congr rfl fun k _ => ?_
  have hk := ValueIdx.contrEquiv1_symm_val dot_S128x4096_S4096x4096_S128x4096_1_1_0_0_n_n 4096 rfl rfl k
  have el : dot_S128x4096_S4096x4096_S128x4096_1_1_0_0_n_n.lhsIdx (ix2 r e) ((ValueIdx.contrEquiv1 dot_S128x4096_S4096x4096_S128x4096_1_1_0_0_n_n 4096 rfl rfl).symm k) = ix2 r k := funext fun a => Fin.ext (by
    match a with
    | ⟨0, _⟩ => exact lhs_mm_0 _ _
    | ⟨1, _⟩ => exact (lhs_mm_1 _ _).trans hk)
  have er : dot_S128x4096_S4096x4096_S128x4096_1_1_0_0_n_n.rhsIdx (ix2 r e) ((ValueIdx.contrEquiv1 dot_S128x4096_S4096x4096_S128x4096_1_1_0_0_n_n 4096 rfl rfl).symm k) = ix2 e k := funext fun a => Fin.ext (by
    match a with
    | ⟨0, _⟩ => exact rhs_mm_0 _ _
    | ⟨1, _⟩ => exact (rhs_mm_1 _ _).trans hk)
  rw [el, er]

theorem rowSum_apply (v : FVec Ideal S128x4096 .f32) (r : Fin 128) :
    multiReduction .add [1] S128 v 0x00000000#32 reduces_S128x4096_S128 (.inl rfl) rfl (ValueIdx.ix1 r)
      = ∑ e : Fin 4096, v (ix2 r e) :=
  (Ideal.multiReduction_add_single v 0x00000000#32 reduces_S128x4096_S128 (.inl rfl) rfl (ValueIdx.ix1 r)).trans
    (Finset.sum_congr rfl fun e _ => congrArg v (funext fun a => Fin.ext (by
      match a with
      | ⟨0, _⟩ => rfl
      | ⟨1, _⟩ => rfl)))

theorem colSum_apply (v : FVec Ideal S128x1 .f32) :
    multiReduction .add [0] S1 v 0x00000000#32 reduces_S128x1_S1 (.inl rfl) rfl (ValueIdx.ix1 (0 : Fin 1))
      = ∑ r : Fin 128, v (ix2 r (0 : Fin 1)) :=
  (Ideal.multiReduction_add_single v 0x00000000#32 reduces_S128x1_S1 (.inl rfl) rfl (ValueIdx.ix1 (0 : Fin 1))).trans
    (Finset.sum_congr rfl fun r _ => congrArg v (funext fun a => Fin.ext (by
      match a with
      | ⟨0, _⟩ => rfl
      | ⟨1, _⟩ => rfl)))

theorem col_apply (v : FVec Ideal S128 .f32) (r : Fin 128) :
    shapeCast S128x1 v shapeCasts_S128_S128x1 (ix2 r (0 : Fin 1)) = v (ValueIdx.ix1 r) :=
  shapeCast_apply v shapeCasts_S128_S128x1 (ix2 r (0 : Fin 1)) (ValueIdx.ix1 r) (by
    rw [Shape.rowMajor_val_one, Shape.rowMajor_val_two]; show r.val = r.val * 1 + 0; omega)

theorem cell_apply (v : FVec Ideal S1 .f32) :
    shapeCast S1x1 v shapeCasts_S1_S1x1 (ix2 (0 : Fin 1) (0 : Fin 1)) = v (ValueIdx.ix1 (0 : Fin 1)) :=
  shapeCast_apply v shapeCasts_S1_S1x1 (ix2 (0 : Fin 1) (0 : Fin 1)) (ValueIdx.ix1 (0 : Fin 1)) (by
    rw [Shape.rowMajor_val_one, Shape.rowMajor_val_two]; rfl)

theorem k1_pay2_apply (x : Vec Ideal S128x4096 .bf16) (w : Vec Ideal S4096x4096 .bf16) (acc : Vec Ideal S1x1 .f32) :
    k1_pay2 (F := Ideal) x w acc (ix2 0 0)
      = acc (ix2 0 0) + ∑ r : Fin 128, ∑ e : Fin 4096, ∑ d : Fin 4096, x (ix2 r d) * w (ix2 e d) := by
  unfold k1_pay2
  simp only [shapeCast_self]
  rw [addf_apply, cell_apply, colSum_apply]
  refine congrArg (acc (ix2 0 0) + ·) (Finset.sum_congr rfl fun r _ => ?_)
  rw [col_apply, rowSum_apply]
  exact Finset.sum_congr rfl fun e _ => mm_apply x w r e

theorem hostOps1_apply (V : Valuation τ sig (Elt Ideal)) (e d : Fin 4096) :
    (StableHlo.after (hostOps1 (F := Ideal)) V (Proc.devRef .tc main_v2) : S4096x4096.Idx → EReal) (ix2 e d)
      = (V (Proc.devRef .tc main_arg2) : S4096x4096.Idx → EReal) (ix2 e d) := by
  show StableHlo.after (hostOps1 (F := Ideal)) V (Proc.devRef .tc main_v2) (ix2 e d) = _
  after_results
  rfl

theorem ofBits_16384 : Ideal.ofBits .f32 0x46800000#32 = ((16384 : ℝ) : EReal) := by
  simp [Ideal.ofBits, Ideal.ieee, -EReal.coe_mul]; norm_num

def tail (x : FVec Ideal S1x1 .f32) (b : FVec Ideal S4096 .f32) : FVec Ideal S_ .f32 :=
  addf (shapeCast S_ x shapeCasts_S1x1_S_)
    (mulf (Host.reduceAdd (F := Ideal) b (constant (F := Ideal) S_ .f32 0x00000000#32) reducesTo_S4096_S_d0 h_S_)
      (constant (F := Ideal) S_ .f32 0x46800000#32))

theorem tail_apply (x : FVec Ideal S1x1 .f32) (b : FVec Ideal S4096 .f32) :
    tail x b ValueIdx.ix0 = x (ix2 0 0) + (∑ e : Fin 4096, b (ValueIdx.ix1 e)) * ((16384 : ℝ) : EReal) := by
  unfold tail
  rw [addf_apply, mulf_apply, constant_apply, ofBits_16384, hostReduceAdd_apply,
    Ideal.hostReduceAdd_total reducesTo_S4096_S_d0 (fun a => a.elim0), constant_apply, Ideal.ofBits_zero_f32, zero_add,
    shapeCast_apply x shapeCasts_S1x1_S_ ValueIdx.ix0 (ix2 0 0) (by
      have h0 : (S_.rowMajor ValueIdx.ix0).val = 0 := Shape.rowMajorPi_zero _ _
      rw [Shape.rowMajor_val_two, h0]; rfl),
    ← Equiv.sum_comp (idxEquiv1 (n := 4096)).symm]
  rfl

theorem hostOps2_eq_tail (V : Valuation τ sig (Elt Ideal)) :
    StableHlo.after (hostOps2 (F := Ideal)) V (Proc.devRef .tc main_v7)
      = tail (V (Proc.devRef .tc main_v3)) (V (Proc.devRef .tc main_arg3)) := by
  after_results
  rfl

theorem hostOps2_apply (V : Valuation τ sig (Elt Ideal)) :
    (StableHlo.after (hostOps2 (F := Ideal)) V (Proc.devRef .tc main_v7) : S_.Idx → EReal) ValueIdx.ix0
      = @HAdd.hAdd EReal EReal EReal _ (V (Proc.devRef .tc main_v3) (ix2 0 0))
          (@HMul.hMul EReal EReal EReal _ (∑ e : Fin 4096, (V (Proc.devRef .tc main_arg3) (ValueIdx.ix1 e) : EReal)) ((16384 : ℝ) : EReal)) := by
  rw [hostOps2_eq_tail]
  exact tail_apply _ _

theorem hostOps2_apply_of (V : Valuation τ sig (Elt Ideal)) (x : FVec Ideal S1x1 .f32) (b : FVec Ideal S4096 .f32)
    (hx : V (Proc.devRef .tc main_v3) = x) (hb : V (Proc.devRef .tc main_arg3) = b) :
    (StableHlo.after (hostOps2 (F := Ideal)) V (Proc.devRef .tc main_v7) : S_.Idx → EReal) ValueIdx.ix0
      = x (ix2 0 0) + (∑ e : Fin 4096, b (ValueIdx.ix1 e)) * ((16384 : ℝ) : EReal) := by
  subst hx hb
  exact hostOps2_apply V

end Cert.KernelIdeal.IdealPay

end
-- ==== Proof.KI.Value1.lean ====
import proofs.«402818_j61933428412865_1_alg».proof.Proof.KI.Region1
import proofs.«402818_j61933428412865_1_alg».proof.Proof.KI.IdealPay
import Idealize.ShloMosaic.Lib.Pipeline.Value
import Idealize.ShloMosaic.Lib.ValueIdx
import Mathlib.Algebra.BigOperators.Fin
import Mathlib.Logic.Equiv.Fin.Basic

set_option maxRecDepth 16384

noncomputable section

open scoped BigOperators

namespace Cert.KernelIdeal.Value1

open Cert.KernelIdeal Cert.KernelIdeal.Gen Cert.KernelIdeal.Hand Idealize.ShloMosaic.ValueIdx
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

abbrev xarr (c : Dev nD) : Vec Ideal S16384x4096 .bf16 := V c main_v1
abbrev warr (c : Dev nD) : Vec Ideal S4096x4096 .bf16 := V c main_v2

theorem index0_facts : ∀ t : Fin cfg1.N, win1_0.index t 0 = t.val ∧ win1_0.index t 1 = 0 :=
  (by decide +kernel : ∀ t : Fin grid1.N, win1_0.index t 0 = t.val ∧ win1_0.index t 1 = 0)

theorem index1_facts : ∀ t : Fin cfg1.N, win1_1.index t 0 = 0 ∧ win1_1.index t 1 = 0 :=
  (by decide +kernel : ∀ t : Fin grid1.N, win1_1.index t 0 = 0 ∧ win1_1.index t 1 = 0)

theorem index2_facts : ∀ t : Fin cfg1.N, win1_2.index t 0 = 0 ∧ win1_2.index t 1 = 0 :=
  (by decide +kernel : ∀ t : Fin grid1.N, win1_2.index t 0 = 0 ∧ win1_2.index t 1 = 0)

theorem row_lt (s : Fin cfg1.N) (r : Fin 128) : 128 * s.val + r.val < 16384 := by
  have h1 := lt_of_lt_of_eq s.isLt (show cfg1.N = 128 from N_1); have h2 := r.isLt; omega

theorem xblk_at (c : Dev nD) (t : Fin cfg1.N) (x : S128x4096.Idx) (k : S16384x4096.Idx)
    (hk0 : (k 0).val = 128 * t.val + (x 0).val) (hk1 : (k 1).val = (x 1).val) :
    (iblk1 (F := Ideal) V c 0 t : Vec Ideal S128x4096 .bf16) x = xarr V c k := by
  have hi := index0_facts t
  unfold iblk1
  rw [View.read_apply]
  show V c main_v1 _ = V c main_v1 _
  congr 1
  funext a
  apply Fin.ext
  match a with
  | ⟨0, _⟩ => show win1_0.index t 0 * 128 + 1 * (x 0).val = (k 0).val; rw [hi.1, hk0]; omega
  | ⟨1, _⟩ => show win1_0.index t 1 * 4096 + 1 * (x 1).val = (k 1).val; rw [hi.2, hk1]; omega

theorem wblk_at (c : Dev nD) (t : Fin cfg1.N) (x : S4096x4096.Idx) :
    (iblk1 (F := Ideal) V c 1 t : Vec Ideal S4096x4096 .bf16) x = warr V c x := by
  have hi := index1_facts t
  unfold iblk1
  rw [View.read_apply]
  show V c main_v2 _ = V c main_v2 _
  congr 1
  funext a
  apply Fin.ext
  match a with
  | ⟨0, _⟩ => show win1_1.index t 0 * 4096 + 1 * (x 0).val = (x 0).val; rw [hi.1]; omega
  | ⟨1, _⟩ => show win1_1.index t 1 * 4096 + 1 * (x 1).val = (x 1).val; rw [hi.2]; omega

theorem xblk_apply (c : Dev nD) (s : Fin cfg1.N) (r : Fin 128) (d : Fin 4096) :
    (iblk1 (F := Ideal) V c 0 s : Vec Ideal S128x4096 .bf16) (ix2 r d) = xarr V c (ix2 ⟨128 * s.val + r.val, row_lt s r⟩ d) :=
  xblk_at V c s (ix2 r d) (ix2 ⟨128 * s.val + r.val, row_lt s r⟩ d) rfl rfl

theorem wblk_apply (c : Dev nD) (s : Fin cfg1.N) (e d : Fin 4096) :
    (iblk1 (F := Ideal) V c 1 s : Vec Ideal S4096x4096 .bf16) (ix2 e d) = warr V c (ix2 e d) :=
  wblk_at V c s (ix2 e d)

/-- One block's share: the sum over its 128 rows and the 4096 features of row times weight row. -/
def blockSum (x : Vec Ideal S128x4096 .bf16) (w : Vec Ideal S4096x4096 .bf16) : EReal :=
  ∑ r : Fin 128, ∑ e : Fin 4096, ∑ d : Fin 4096, x (ix2 r d) * w (ix2 e d)

abbrev xblk (c : Dev nD) (s : Fin cfg1.N) : Vec Ideal S128x4096 .bf16 := iblk1 (F := Ideal) V c 0 s
abbrev wblk (c : Dev nD) (s : Fin cfg1.N) : Vec Ideal S4096x4096 .bf16 := iblk1 (F := Ideal) V c 1 s

def accSum (c : Dev nD) : (n : ℕ) → n < cfg1.N → EReal
  | 0, hn => 0 + blockSum (xblk V c ⟨0, hn⟩) (wblk V c ⟨0, hn⟩)
  | n + 1, hn => accSum c n (Nat.lt_of_succ_lt hn) + blockSum (xblk V c ⟨n + 1, hn⟩) (wblk V c ⟨n + 1, hn⟩)

theorem acc_first (c : Dev nD) (t : Fin cfg1.N) (h0 : t.val % 128 = 0) (h1 : ¬t.val % 128 = 127) :
    ((outsAt1 (F := Ideal) V c t.val t.isLt).2 : S1x1.Idx → EReal) (ix2 0 0) = 0 + blockSum (xblk V c t) (wblk V c t) := by
  rw [outsAt1_A V c t h0 h1]
  dsimp only
  refine (congrFun (sout1_A_0_eq (F := Ideal) c (grid1.coords t) (ms1_0 t) (hs1_0 t) (ms1_1 t) (hs1_1 t) (ms1_2 t) (hs1_2 t) accM1 (Memref.isWhole_whole _) ((hcond1_0 t).mpr h0) (fun h => h1 ((hcond1_1 t).mp h)) (iblk1 V c 0 t) (iblk1 V c 1 t)) (ix2 0 0)).trans ?_
  refine (IdealPay.k1_pay2_apply (xblk V c t) (wblk V c t) (k1_pay1 (F := Ideal))).trans ?_
  rw [IdealPay.k1_pay1_apply]
  rfl

theorem acc_step (c : Dev nD) (t : Fin cfg1.N) (h0 : ¬t.val % 128 = 0) :
    ((outsAt1 (F := Ideal) V c t.val t.isLt).2 : S1x1.Idx → EReal) (ix2 0 0)
      = ((outsAt1 V c (t.val - 1) (Nat.lt_of_le_of_lt (Nat.sub_le _ _) t.isLt)).2 : S1x1.Idx → EReal) (ix2 0 0) + blockSum (xblk V c t) (wblk V c t) := by
  by_cases h1 : t.val % 128 = 127
  · rw [outsAt1_C V c t h0 h1]
    dsimp only
    refine (congrFun (sout1_C_0_eq (F := Ideal) c (grid1.coords t) (ms1_0 t) (hs1_0 t) (ms1_1 t) (hs1_1 t) (ms1_2 t) (hs1_2 t) accM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 0 0)).trans ?_
    exact IdealPay.k1_pay2_apply (xblk V c t) (wblk V c t) (outsAt1 V c (t.val - 1) (Nat.lt_of_le_of_lt (Nat.sub_le _ _) t.isLt)).2
  · rw [outsAt1_B V c t h0 h1]
    dsimp only
    refine (congrFun (sout1_B_0_eq (F := Ideal) c (grid1.coords t) (ms1_0 t) (hs1_0 t) (ms1_1 t) (hs1_1 t) (ms1_2 t) (hs1_2 t) accM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) (ix2 0 0)).trans ?_
    exact IdealPay.k1_pay2_apply (xblk V c t) (wblk V c t) (outsAt1 V c (t.val - 1) (Nat.lt_of_le_of_lt (Nat.sub_le _ _) t.isLt)).2

theorem res_last (c : Dev nD) (t : Fin cfg1.N) (h0 : ¬t.val % 128 = 0) (h1 : t.val % 128 = 127) :
    (outsAt1 (F := Ideal) V c t.val t.isLt).1 = (outsAt1 (F := Ideal) V c t.val t.isLt).2 := by
  rw [outsAt1_C V c t h0 h1]
  dsimp only
  exact (out1_C_2_eq (F := Ideal) c (grid1.coords t) (ms1_0 t) (hs1_0 t) (ms1_1 t) (hs1_1 t) (ms1_2 t) (hs1_2 t) accM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2).trans
    (sout1_C_0_eq (F := Ideal) c (grid1.coords t) (ms1_0 t) (hs1_0 t) (ms1_1 t) (hs1_1 t) (ms1_2 t) (hs1_2 t) accM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2).symm

theorem acc_at_nat (c : Dev nD) : ∀ (n : ℕ) (hn : n < cfg1.N),
    ((outsAt1 (F := Ideal) V c n hn).2 : S1x1.Idx → EReal) (ix2 0 0) = accSum V c n hn
  | 0, hn => acc_first V c ⟨0, hn⟩ (Nat.zero_mod _) (show ¬(0 : ℕ) % 128 = 127 by decide)
  | n + 1, hn => by
    have hN : n + 1 < 128 := lt_of_lt_of_eq hn (show cfg1.N = 128 from N_1)
    have h0 : ¬(n + 1) % 128 = 0 := by omega
    refine (acc_step V c ⟨n + 1, hn⟩ h0).trans ?_
    show ((outsAt1 (F := Ideal) V c n (Nat.lt_of_succ_lt hn)).2 : S1x1.Idx → EReal) (ix2 0 0) + _ = accSum V c n (Nat.lt_of_succ_lt hn) + _
    rw [acc_at_nat c n (Nat.lt_of_succ_lt hn)]

theorem acc_at (c : Dev nD) (t : Fin cfg1.N) :
    ((outsAt1 (F := Ideal) V c t.val t.isLt).2 : S1x1.Idx → EReal) (ix2 0 0) = accSum V c t.val t.isLt :=
  acc_at_nat V c t.val t.isLt

/-- The accumulator after point `n` is the sum of the first `n + 1` blocks' shares. -/
theorem accSum_eq_sum (c : Dev nD) : ∀ (n : ℕ) (hn : n < cfg1.N),
    accSum V c n hn = ∑ s : Fin (n + 1), blockSum (xblk V c ⟨s.val, lt_of_lt_of_le s.isLt hn⟩) (wblk V c ⟨s.val, lt_of_lt_of_le s.isLt hn⟩)
  | 0, hn => by
    rw [Fin.sum_univ_one]
    exact zero_add _
  | n + 1, hn => by
    rw [Fin.sum_univ_castSucc]
    show accSum V c n (Nat.lt_of_succ_lt hn) + _ = _
    rw [accSum_eq_sum c n (Nat.lt_of_succ_lt hn)]
    rfl

abbrev tLast : Fin cfg1.N := ⟨127, lt_of_lt_of_eq (by decide : 127 < 128) (show 128 = cfg1.N from N_1.symm)⟩

theorem cut_last_eq (c : Dev nD) (X : Buf (Elt Ideal) ((c : Thread nD τ).loc main_v3)) :
    (cfg1.win 2).cut (grid1.coords tLast) X = ((cfg1.win 2).blk tLast).view.read (Elt Ideal) X := by
  have hi := index2_facts tLast
  have hz' : (fun a => win1_2.index tLast a * main_v3.ty.shape.size a) = fun _ => 0 := funext fun a => by
    match a with
    | ⟨0, _⟩ => show win1_2.index tLast 0 * 1 = 0; rw [hi.1]
    | ⟨1, _⟩ => show win1_2.index tLast 1 * 1 = 0; rw [hi.2]
  exact (Memref.read_access_unit_zero (Elt Ideal) main_v3 hz' (fun a => by rw [congrFun hz' a]; simp) X).symm

theorem flushed_eq (c : Dev nD) (t : Fin cfg1.N) (hf : (cfg1.win 2).flush t = true) :
    (dat1 (F := Ideal) V c).flushed 2 t = ((cfg1.win 2).blk t).view.read (Elt Ideal) ((dat1 (F := Ideal) V c).after 2 tLast) := by
  have hN : cfg1.N = 128 := N_1
  have h1 : t.val = 127 := by have := (flush1_2 t).mp hf; have := t.isLt; omega
  have ht : t = tLast := Fin.ext h1
  subst ht
  exact cut_last_eq c ((dat1 (F := Ideal) V c).after 2 tLast)

theorem cover_last (i : S1x1.Idx) : i ∈ ((cfg1.win 2).blk tLast).view.set := by
  have hi := index2_facts tLast
  show i ∈ ((View.whole main_v3).slice (win1_2.rect tLast)).set
  rw [View.set_slice_whole, Rect.mem_set_unit]
  intro a
  have h0 : (i 0 : Nat) < 1 := (i 0).isLt
  have h1 : (i 1 : Nat) < 1 := (i 1).isLt
  match a with
  | ⟨0, _⟩ => show win1_2.index tLast 0 * win1_2.size 0 ≤ (i 0 : Nat) ∧ (i 0 : Nat) < win1_2.index tLast 0 * win1_2.size 0 + win1_2.xsize (grid1.coords tLast) 0
              rw [hi.1, show win1_2.xsize (grid1.coords tLast) 0 = 1 from by decide +kernel]; omega
  | ⟨1, _⟩ => show win1_2.index tLast 1 * win1_2.size 1 ≤ (i 1 : Nat) ∧ (i 1 : Nat) < win1_2.index tLast 1 * win1_2.size 1 + win1_2.xsize (grid1.coords tLast) 1
              rw [hi.2, show win1_2.xsize (grid1.coords tLast) 1 = 1 from by decide +kernel]; omega

theorem final_result (c : Dev nD) : (dat1 (F := Ideal) V c).arrAt 2 cfg1.N = (dat1 (F := Ideal) V c).after 2 tLast :=
  (dat1 (F := Ideal) V c).arrAt_eq_of_cover 2 ((dat1 (F := Ideal) V c).after 2 tLast) (flushed_eq V c) fun i =>
    ⟨tLast, (flush1_2 tLast).mpr rfl, cover_last i⟩

theorem blockSum_rows (c : Dev nD) (t : Fin cfg1.N) :
    blockSum (xblk V c t) (wblk V c t)
      = ∑ r : Fin 128, ∑ e : Fin 4096, ∑ d : Fin 4096, xarr V c (ix2 ⟨128 * t.val + r.val, row_lt t r⟩ d) * warr V c (ix2 e d) := by
  unfold blockSum
  exact Finset.sum_congr rfl fun r _ => Finset.sum_congr rfl fun e _ => Finset.sum_congr rfl fun d _ =>
    congrArg₂ (fun a b : EReal => a * b) (xblk_apply V c t r d) (wblk_apply V c t e d)

theorem sum_blocks_rows (g : Fin 16384 → EReal) :
    ∑ s : Fin 128, ∑ r : Fin 128, g ⟨128 * s.val + r.val, by have := s.isLt; have := r.isLt; omega⟩ = ∑ n : Fin 16384, g n := by
  rw [← Equiv.sum_comp (finProdFinEquiv : Fin 128 × Fin 128 ≃ Fin 16384) g, Fintype.sum_prod_type]
  refine Finset.sum_congr rfl fun s _ => Finset.sum_congr rfl fun r _ => congrArg g (Fin.ext ?_)
  show 128 * s.val + r.val = r.val + 128 * s.val
  omega

theorem result_value (c : Dev nD) :
    ((dat1 (F := Ideal) V c).arrAt 2 cfg1.N : S1x1.Idx → EReal) (ix2 0 0)
      = ∑ n : Fin 16384, ∑ e : Fin 4096, ∑ d : Fin 4096, xarr V c (ix2 n d) * warr V c (ix2 e d) := by
  have h0 : ¬tLast.val % 128 = 0 := by decide
  have h1 : tLast.val % 128 = 127 := by decide
  refine (congrFun (final_result V c) (ix2 0 0)).trans ?_
  refine (congrFun (after1_2 V c tLast) (ix2 0 0)).trans ?_
  refine (congrFun (res_last V c tLast h0 h1) (ix2 0 0)).trans ?_
  refine (acc_at V c tLast).trans ?_
  refine (accSum_eq_sum V c tLast.val tLast.isLt).trans ?_
  rw [← sum_blocks_rows (fun n => ∑ e : Fin 4096, ∑ d : Fin 4096, xarr V c (ix2 n d) * warr V c (ix2 e d))]
  exact Finset.sum_congr rfl fun s _ => blockSum_rows V c ⟨s.val, lt_of_lt_of_le s.isLt tLast.isLt⟩

end Cert.KernelIdeal.Value1

end
-- ==== Proof.KI.Gather0.lean ====
import proofs.«402818_j61933428412865_1_alg».proof.Proof.Gen.KernelIdeal.Launch
import proofs.«402818_j61933428412865_1_alg».proof.Proof.Gen.KernelIdeal.Skeleton
import proofs.«402818_j61933428412865_1_alg».proof.Proof.Gen.KernelIdeal.Points
import proofs.«402818_j61933428412865_1_alg».proof.Proof.Gen.KernelIdeal.Regions
import proofs.«402818_j61933428412865_1_alg».proof.Proof.KI.Common
import proofs.«402818_j61933428412865_1_alg».proof.Proof.KI.Rows0
import proofs.«402818_j61933428412865_1_alg».proof.Proof.LibRowsJoin
import proofs.«402818_j61933428412865_1_alg».proof.Proof.Spec
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem off_lt (i : grid0.Coords) (j : Fin 128) : 128 * (i 0).val + j.val < 16384 := by
  have h := offOf_inb i j 0
  rw [offOf_val] at h
  exact h

theorem word_eq (c : Dev nD) (i : grid0.Coords) (ft : HbBuf0 (F := F) c tbM0) (j : Fin 128) :
    word c i ft j = (ft : S16384.Idx → BitVec 32) (ValueIdx.ix1 ⟨128 * (i 0).val + j.val, off_lt i j⟩) := by
  have hidx : (Rect.unit (s := S16384) (offOf i j) S1.size (offOf_inb i j)).toLoadRect.idx
        (Shape.Idx.first (Nat.lt_of_lt_of_eq Nat.one_pos Facts₀.numel1_S1.symm))
      = ValueIdx.ix1 ⟨128 * (i 0).val + j.val, off_lt i j⟩ :=
    funext fun a => Fin.ext (by
      match a with
      | ⟨0, _⟩ =>
        show offOf i j 0 + 1 * 0 = 128 * (i 0).val + j.val
        rw [offOf_val]; omega)
  show (ft : S16384.Idx → BitVec 32) _ = _
  exact congrArg (ft : S16384.Idx → BitVec 32) hidx

theorem word_lt (c : Dev nD) (i : grid0.Coords) (ft : HbBuf0 (F := F) c tbM0)
    (hlt : ∀ k, (tbM0.view.read (Elt F) ft k).toNat < 50264) (j : Fin 128) : (word c i ft j).toNat < 50264 :=
  hlt _

theorem XrowsAt_eq (c : Dev nD) (i : grid0.Coords) (ft : HbBuf0 (F := F) c tbM0) (fh : HbBuf0 (F := F) c hbM0)
    (hlt : ∀ k, (tbM0.view.read (Elt F) ft k).toNat < 50264) (j : Fin 128) (d : Fin 4096) :
    XrowsAt c i ft fh hlt j d
      = (fh : S50264x4096.Idx → Elt F .f32) (ValueIdx.ix2 (Cert.Spec.rowOf (word c i ft j)) d) := by
  have hw : (word c i ft j).toNat < 50264 := word_lt c i ft hlt j
  have hrow : (⟨(word c i ft j).toNat, hw⟩ : Fin 50264) = Cert.Spec.rowOf (word c i ft j) :=
    Fin.ext (Cert.Spec.rowOf_val_of_lt hw).symm
  have hemb := RowsJoin.rowOf_emb hbM0 (word c i ft j).toNat (chk_of_lt _ hw) (fun _ => rfl)
    Facts₀.squeezes_S1x4096_S4096 hw d
  rw [← hrow]
  unfold XrowsAt
  show (fh : S50264x4096.Idx → Elt F .f32)
      ((RowsJoin.rowOf hbM0 (word c i ft j).toNat (chk_of_lt _ hw) (fun _ => rfl) Facts₀.squeezes_S1x4096_S4096).view.emb (ValueIdx.ix1 d)) = _
  rw [hemb]
  rfl

theorem Xrows_apply (c : Dev nD) (i : grid0.Coords) (ft : HbBuf0 (F := F) c tbM0) (fh : HbBuf0 (F := F) c hbM0)
    (hlt : ∀ k, (tbM0.view.read (Elt F) ft k).toNat < 50264) (j : Fin 128) (d : Fin 4096) :
    Xrows c i ft fh hlt (ValueIdx.ix2 j d)
      = (fh : S50264x4096.Idx → Elt F .f32)
          (ValueIdx.ix2 (Cert.Spec.rowOf ((ft : S16384.Idx → BitVec 32) (ValueIdx.ix1 ⟨128 * (i 0).val + j.val, off_lt i j⟩))) d) := by
  show XrowsAt c i ft fh hlt j d = _
  rw [XrowsAt_eq, word_eq]

end Cert.KernelIdeal.Hand

end
-- ==== Proof.KI.Out0.lean ====
import proofs.«402818_j61933428412865_1_alg».proof.Proof.Gen.KernelIdeal.Launch
import proofs.«402818_j61933428412865_1_alg».proof.Proof.Gen.KernelIdeal.Skeleton
import proofs.«402818_j61933428412865_1_alg».proof.Proof.Gen.KernelIdeal.Points
import proofs.«402818_j61933428412865_1_alg».proof.Proof.Gen.KernelIdeal.Regions
import proofs.«402818_j61933428412865_1_alg».proof.Proof.KI.Common
import proofs.«402818_j61933428412865_1_alg».proof.Proof.KI.Region0
import proofs.«402818_j61933428412865_1_alg».proof.Proof.KI.Gather0
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem zeroOffs2 : (![0, 0] : Fin 2 → Nat) = fun _ => 0 := by funext a; fin_cases a <;> rfl

theorem out0_0_eq (c : Dev nD) (i : grid0.Coords) (arg3 : Memref sig .tc .vmem S128x4096 .bf16) (harg3 : arg3.IsWhole)
    (ft : HbBuf0 (F := F) c tbM0) (fh : HbBuf0 (F := F) c hbM0) (h : ∀ k, (tbM0.view.read (Elt F) ft k).toNat < 50264) :
    out0_0 c i arg3 harg3 ft fh h = k0_pay1 (Xrows c i ft fh h) := by
  unfold out0_0
  rw [View.read_writes_eq_canon _ _ _ (cover0_0 c i arg3 harg3 ft fh h)]
  unfold kernelRun0
  dsimp only
  sl_unfold_words
  rw [View.canon_unit_zero (S := S128x4096) zeroOffs2]
  simp only [View.readAt_eq_ld, Gsc, (Memref.isWhole_whole cc0_scratch0).read_unread, View.ld_unit_zero (S := S128x4096) zeroOffs2]

end Cert.KernelIdeal.Hand

end
-- ==== Proof.KI.Value0.lean ====
import proofs.«402818_j61933428412865_1_alg».proof.Proof.KI.Out0
import proofs.«402818_j61933428412865_1_alg».proof.Proof.KI.IdealPay
import Idealize.ShloMosaic.Lib.Pipeline.Value
import Idealize.ShloMosaic.Lib.ValueIdx

set_option maxRecDepth 16384

noncomputable section

namespace Cert.KernelIdeal.Value0

open Cert.KernelIdeal Cert.KernelIdeal.Gen Cert.KernelIdeal.Hand Idealize.ShloMosaic.ValueIdx
open Idealize.ShloMosaic Idealize.ShloMosaic.TcCoe Idealize.SL.Sem
open Idealize.ShloMosaic.Pipeline (Dat)

variable (a0 : (pcfg0 (F := Ideal)).Adm) (V : (c : Dev nD) → (b : Ref sig .tc) → Buf (Elt Ideal) ((c : Thread nD τ).loc b))
variable (hlt : ∀ (c : Dev nD) k, (tbM0.view.read (Elt Ideal) (tblOf a0 c) k).toNat < 50264)

abbrev earr (c : Dev nD) : Vec Ideal S50264x4096 .f32 := V c main_arg1
abbrev tarr (c : Dev nD) : S16384.Idx → BitVec 32 := tblOf a0 c

def gathered (c : Dev nD) : S16384x4096.Idx → EReal :=
  fun k => earr V c (ix2 (Cert.Spec.rowOf (tarr a0 c (ValueIdx.ix1 (⟨(k 0).val, idx2_lt0 k⟩ : Fin 16384)))) (⟨(k 1).val, idx2_lt1 k⟩ : Fin 4096))

theorem gathered_apply (c : Dev nD) (n : Fin 16384) (d : Fin 4096) :
    gathered a0 V c (ix2 n d) = earr V c (ix2 (Cert.Spec.rowOf (tarr a0 c (ValueIdx.ix1 n))) d) := rfl

theorem index_facts : ∀ t : Fin grid0.N,
    cc0_transform_1 (grid0.coords t) 0 = t.val ∧ cc0_transform_1 (grid0.coords t) 1 = 0 ∧ (grid0.coords t 0).val = t.val := by
  decide +kernel

theorem index_moves : ∀ t : Fin grid0.N, ∀ h : t.val + 1 < grid0.N,
    cc0_transform_1 (grid0.coords ⟨t.val + 1, h⟩) 0 ≠ cc0_transform_1 (grid0.coords t) 0 := by
  decide +kernel

theorem index_eq (t : Fin (cfg0 a0).N) : ((cfg0 a0).win 0).index t = cc0_transform_1 (grid0.coords t) := rfl

theorem row_of_blk (i t x : ℕ) (h : i = t) : i * 128 + 1 * x = 128 * t + x := by subst h; omega
theorem col_of_blk (i x : ℕ) (h : i = 0) : i * 4096 + 1 * x = x := by subst h; omega
theorem row_in_blk (i n : ℕ) (h : i = n / 128) : i * 128 ≤ n ∧ n < i * 128 + 128 := by subst h; omega
theorem col_in_blk (i n : ℕ) (h : i = 0) (hn : n < 4096) : i * 4096 ≤ n ∧ n < i * 4096 + 4096 := by subst h; omega

theorem flush_all (t : Fin (cfg0 a0).N) : ((cfg0 a0).win 0).flush t = true := by
  have hN : (cfg0 a0).grid.N = 128 := N_0
  have ht : t.val < 128 := lt_of_lt_of_eq t.isLt hN
  unfold Pipeline.Window.flush
  rw [show ((cfg0 a0).win 0).isOut = true from rfl, Bool.true_and, Bool.or_eq_true, decide_eq_true_eq, decide_eq_true_eq]
  by_cases h : t.val + 1 = 128
  · exact Or.inl (h.trans hN.symm)
  · have hlt' : t.val + 1 < (cfg0 a0).grid.N := by rw [hN]; omega
    exact Or.inr ⟨hlt', fun e => index_moves t hlt' (congrFun e (⟨0, Nat.zero_lt_two⟩ : Fin 2))⟩

theorem out_at (c : Dev nD) (t : Fin (cfg0 a0).N) (x : S128x4096.Idx) (k : S16384x4096.Idx)
    (hk0 : (k 0).val = 128 * t.val + (x 0).val) (hk1 : (k 1).val = (x 1).val) :
    (outsAt0 (F := Ideal) a0 V hlt c t : Vec Ideal S128x4096 .bf16) x = gathered a0 V c k := by
  have hi := index_facts t
  obtain ⟨r, d, rfl⟩ : ∃ (r : Fin 128) (d : Fin 4096), x = ix2 r d := ⟨x 0, x 1, eq_ix2 x⟩
  unfold outsAt0
  refine (congrFun (out0_0_eq (F := Ideal) c (grid0.coords t) (ms0_0 a0 t) (hs0_0 a0 t) (tblOf a0 c) (V c main_arg1) (hlt c)) (ix2 r d)).trans ?_
  refine (IdealPay.k0_pay1_apply (Xrows c (grid0.coords t) (tblOf a0 c) (V c main_arg1) (hlt c)) r d).trans ?_
  refine (Xrows_apply c (grid0.coords t) (tblOf a0 c) (V c main_arg1) (hlt c) r d).trans ?_
  have e0 : (⟨128 * (grid0.coords t 0).val + r.val, off_lt (grid0.coords t) r⟩ : Fin 16384) = ⟨(k 0).val, idx2_lt0 k⟩ :=
    Fin.ext (by show 128 * (grid0.coords t 0).val + r.val = (k 0).val; rw [hi.2.2, hk0])
  have e1 : d = (⟨(k 1).val, idx2_lt1 k⟩ : Fin 4096) := Fin.ext hk1.symm
  unfold gathered
  rw [e0, ← e1]

theorem flushed_eq (c : Dev nD) (t : Fin (cfg0 a0).N) :
    (dat0 (F := Ideal) a0 V hlt c).flushed 0 t = (((cfg0 a0).win 0).blk t).view.read (Elt Ideal) (gathered a0 V c) := by
  have hi := index_facts t
  show ((cfg0 a0).win 0).cut (grid0.coords t) ((dat0 (F := Ideal) a0 V hlt c).after 0 t) = _
  rw [after0_0]
  funext j
  exact out_at a0 V hlt c t (((cfg0 a0).win 0).xinj (grid0.coords t) j) ((((cfg0 a0).win 0).blk t).view.emb j)
    (row_of_blk _ _ _ hi.1) (col_of_blk _ _ hi.2.1)

theorem cover (k : S16384x4096.Idx) :
    ∃ t : Fin (cfg0 a0).N, ((cfg0 a0).win 0).flush t = true ∧ k ∈ (((cfg0 a0).win 0).blk t).view.set := by
  have h0 : (k 0).val < 16384 := idx2_lt0 k
  have h1 : (k 1).val < 4096 := idx2_lt1 k
  have hN : (cfg0 a0).N = 128 := N_0
  obtain ⟨t, ht⟩ : ∃ t : Fin (cfg0 a0).N, t.val = (k 0).val / 128 :=
    ⟨⟨(k 0).val / 128, lt_of_lt_of_eq (Nat.div_lt_of_lt_mul h0) hN.symm⟩, rfl⟩
  have hi := index_facts t
  refine ⟨t, flush_all a0 t, ?_⟩
  have b0 : cc0_transform_1 (grid0.coords t) 0 * 128 ≤ (k 0).val ∧ (k 0).val < cc0_transform_1 (grid0.coords t) 0 * 128 + 128 :=
    row_in_blk _ _ (hi.1.trans ht)
  have b1 : cc0_transform_1 (grid0.coords t) 1 * 4096 ≤ (k 1).val ∧ (k 1).val < cc0_transform_1 (grid0.coords t) 1 * 4096 + 4096 :=
    col_in_blk _ _ hi.2.1 h1
  have hmem : k ∈ (((cfg0 a0).win 0).rect t).set := Rect.mem_set_unit.mpr (Fin.forall_fin_two.mpr ⟨b0, b1⟩)
  exact (Finset.ext_iff.mp (View.set_slice_whole main_v1 (((cfg0 a0).win 0).rect t)) k).mpr hmem

theorem final_gathered (c : Dev nD) : (dat0 (F := Ideal) a0 V hlt c).arrAt 0 (cfg0 a0).N = gathered a0 V c :=
  (dat0 (F := Ideal) a0 V hlt c).arrAt_eq_of_cover 0 (gathered a0 V c) (fun t _ => flushed_eq a0 V hlt c t) (cover a0)

theorem gather_value (c : Dev nD) (n : Fin 16384) (d : Fin 4096) :
    ((dat0 (F := Ideal) a0 V hlt c).arrAt 0 (cfg0 a0).N : S16384x4096.Idx → EReal) (ix2 n d)
      = earr V c (ix2 (Cert.Spec.rowOf (tarr a0 c (ValueIdx.ix1 n))) d) :=
  (congrFun (final_gathered a0 V hlt c) (ix2 n d)).trans (gathered_apply a0 V c n d)

end Cert.KernelIdeal.Value0

end
-- ==== Proof.KI.ValueAll.lean ====
import proofs.«402818_j61933428412865_1_alg».proof.Proof.KI.Value1
import proofs.«402818_j61933428412865_1_alg».proof.Proof.KI.IdealPay
import proofs.«402818_j61933428412865_1_alg».proof.Proof.KI.TableFacts
import proofs.«402818_j61933428412865_1_alg».proof.Proof.KI.Walk
import proofs.«402818_j61933428412865_1_alg».proof.Proof.Spec
import proofs.«402818_j61933428412865_1_alg».proof.Proof.KI.FrameClaim
import proofs.«402818_j61933428412865_1_alg».proof.Proof.KI.Value0

set_option maxRecDepth 16384

noncomputable section

open scoped BigOperators

namespace Cert.KernelIdeal.ValueAll

open Cert.KernelIdeal Cert.KernelIdeal.Gen Cert.KernelIdeal.Hand Idealize.ShloMosaic.ValueIdx
open Idealize.ShloMosaic Idealize.ShloMosaic.TcCoe Idealize.SL.Sem
open Idealize.ShloMosaic.Pipeline (Dat)

section General

variable (m : (ℓ : Loc nD τ sig) → Buf (Elt Ideal) ℓ)
variable (A0 : (c : Dev nD) → (w : Fin 1) → Buf (Elt Ideal) ((spec0 w).arr.view.loc (c : Thread nD τ)))
variable (A1 : (c : Dev nD) → (w : Fin 3) → Buf (Elt Ideal) ((spec1 w).arr.view.loc (c : Thread nD τ)))

abbrev V3of : (c : Dev nD) → (b : Ref sig .tc) → Buf (Elt Ideal) ((c : Thread nD τ).loc b) := fun c b => W3 m A0 c b

abbrev tabOf : Cert.Spec.STab.Idx → EReal := m ((c0 : Thread nD τ).loc main_arg1)
abbrev wOf : Cert.Spec.SW.Idx → EReal := m ((c0 : Thread nD τ).loc main_arg2)
abbrev bOf : Cert.Spec.SB.Idx → EReal := m ((c0 : Thread nD τ).loc main_arg3)

theorem xarr_emb (hg : ∀ (n : Fin 16384) (d : Fin 4096),
      (A0 c0 0 : S16384x4096.Idx → EReal) (ix2 n d) = tabOf m (ix2 (Cert.Spec.rowOf (Cert.Spec.tok (idsOf m) n)) d))
    (n : Fin 16384) (d : Fin 4096) :
    Value1.xarr (V3of m A0) c0 (ix2 n d) = Cert.Spec.emb (idsOf m) (tabOf m) n d :=
  (congrFun (W3_v1 m A0 c0) (ix2 n d)).trans (hg n d)

theorem warr_w (e d : Fin 4096) : Value1.warr (V3of m A0) c0 (ix2 e d) = wOf m (ix2 e d) :=
  (IdealPay.hostOps1_apply (W2 m A0 c0) e d).trans (congrFun (W2_arg2 m A0 c0) (ix2 e d))

theorem cell_mm (hg : ∀ (n : Fin 16384) (d : Fin 4096),
      (A0 c0 0 : S16384x4096.Idx → EReal) (ix2 n d) = tabOf m (ix2 (Cert.Spec.rowOf (Cert.Spec.tok (idsOf m) n)) d)) :
    @Eq EReal (((dat1 (F := Ideal) (V3of m A0) c0).arrAt 2 cfg1.N : S1x1.Idx → EReal) (ix2 0 0))
      (Cert.Spec.mm (idsOf m) (tabOf m) (wOf m)) := by
  refine (Value1.result_value (V3of m A0) c0).trans ?_
  show @Eq EReal _ _
  unfold Cert.Spec.mm
  exact Finset.sum_congr rfl fun n _ => Finset.sum_congr rfl fun e _ => Finset.sum_congr rfl fun d _ =>
    congrArg₂ (fun a b : EReal => a * b) (xarr_emb m A0 hg n d) (warr_w m A0 e d)

/-- The tail adds the bias' sum times the token count to the accumulated cell. -/
theorem total_of_cell (ids : Cert.Spec.SIds.Idx → BitVec 32) (E : Cert.Spec.STab.Idx → EReal) (Wt : Cert.Spec.SW.Idx → EReal)
    (b : Cert.Spec.SB.Idx → EReal) (cell : EReal) (h : cell = Cert.Spec.mm ids E Wt) :
    cell + (∑ e : Fin 4096, b (ix1 e)) * ((16384 : ℝ) : EReal) = Cert.Spec.total ids E Wt b := by
  unfold Cert.Spec.total
  rw [h]

theorem result_total_of (hg : ∀ (n : Fin 16384) (d : Fin 4096),
      (A0 c0 0 : S16384x4096.Idx → EReal) (ix2 n d) = tabOf m (ix2 (Cert.Spec.rowOf (Cert.Spec.tok (idsOf m) n)) d))
    (hA1 : A1 c0 2 = (dat1 (F := Ideal) (V3of m A0) c0).arrAt 2 cfg1.N) :
    (W5 m A0 A1 c0 (Proc.devRef .tc main_v7) : S_.Idx → EReal) ValueIdx.ix0
      = Cert.Spec.total (idsOf m) (tabOf m) (wOf m) (bOf m) := by
  refine (IdealPay.hostOps2_apply_of (W4 m A0 A1 c0) ((dat1 (F := Ideal) (V3of m A0) c0).arrAt 2 cfg1.N) (bOf m)
    ((W4_v3 m A0 A1 c0).trans hA1) (W4_arg3 m A0 A1 c0)).trans ?_
  exact total_of_cell (idsOf m) (tabOf m) (wOf m) (bOf m) _ (cell_mm m A0 hg)

abbrev tabA : (pcfg0 (F := Ideal)).Adm := adm m ⟨0, by decide⟩

theorem gathered_of (G0 : S16384x4096.Idx → EReal)
    (hgv : ∀ (n : Fin 16384) (d : Fin 4096), G0 (ix2 n d)
      = (W1 m c0 (Proc.devRef .tc main_arg1) : S50264x4096.Idx → EReal)
          (ix2 (Cert.Spec.rowOf (((tabA m).1 ⟨0, Nat.zero_lt_one⟩ : S16384.Idx → BitVec 32) (ix1 n))) d))
    (n : Fin 16384) (d : Fin 4096) :
    G0 (ix2 n d) = tabOf m (ix2 (Cert.Spec.rowOf (Cert.Spec.tok (idsOf m) n)) d) := by
  refine (hgv n d).trans ?_
  rw [show ((tabA m).1 ⟨0, Nat.zero_lt_one⟩ : S16384.Idx → BitVec 32) (ix1 n) = Cert.Spec.tok (idsOf m) n from tbl_tok m n]
  exact congrFun (W1_of m c0 main_arg1 (by decide)) _

end General

/-- The kernel's result buffer ends at the common value. -/
theorem result_total (m : (ℓ : Loc nD τ sig) → Buf (Elt Ideal) ℓ)
    (hlt : ∀ (c : Dev nD) k, (tbM0.view.read (Elt Ideal) (tblOf (a0 m) c) k).toNat < 50264) :
    (W5 m (A0 m hlt) (A1 m hlt) c0 (Proc.devRef .tc main_v7) : S_.Idx → EReal) ValueIdx.ix0
      = Cert.Spec.total (idsOf m) (tabOf m) (wOf m) (bOf m) :=
  result_total_of m (A0 m hlt) (A1 m hlt)
    (gathered_of m (A0 m hlt c0 0) fun n d => Value0.gather_value (a0 m) (Vr1 m) hlt c0 n d)
    rfl

end Cert.KernelIdeal.ValueAll

end
-- ==== Proof.lean ====
/-
  The gather, the projection and the total sum against the reference, for ids inside the table. Both programs end at
  Σ_n Σ_e (Σ_d E[id n, d] · W[e, d] + b e) over the 16384 tokens; the kernel adds the bias' share apart, as
  16384 · Σ_e b e, and that regrouping is where finiteness of the inputs is used.
-/
import proofs.«402818_j61933428412865_1_alg».proof.Defs
import proofs.«402818_j61933428412865_1_alg».proof.Proof.Gen.Kernel
import proofs.«402818_j61933428412865_1_alg».proof.Proof.Gen.KernelIdeal
import proofs.«402818_j61933428412865_1_alg».proof.Proof.Gen.ReferenceIdeal
import proofs.«402818_j61933428412865_1_alg».proof.Proof.Gen.Pre_finite_inputs
import proofs.«402818_j61933428412865_1_alg».proof.Proof.Gen.ReferenceIdeal.Run
import proofs.«402818_j61933428412865_1_alg».proof.Proof.Gen.ReferenceIdeal.Read
import proofs.«402818_j61933428412865_1_alg».proof.Proof.PreFacts
import proofs.«402818_j61933428412865_1_alg».proof.Proof.RefValue
import proofs.«402818_j61933428412865_1_alg».proof.Proof.K.FrameClaim
import proofs.«402818_j61933428412865_1_alg».proof.Proof.KI.FrameClaim
import proofs.«402818_j61933428412865_1_alg».proof.Proof.KI.ValueAll
import Idealize.ShloMosaic.Adequacy
import Idealize.ShloMosaic.Init

noncomputable section

namespace Cert.Proof

open Idealize.ShloMosaic Idealize.SL.Sem

theorem frame_p : @Cert.frame_Kernel Cert.Kernel.Gen.facts Cert.Pre_finite_inputs.Gen.facts := fun m ρ hpre =>
  Cert.Kernel.Hand.frame m ρ (Cert.PreFacts.ids_lt _ _ _ _ (hpre Cert.Kernel.Hand.c0))

theorem frame_pi : @Cert.frame_KernelIdeal Cert.KernelIdeal.Gen.facts Cert.Pre_finite_inputs.Gen.facts := fun m ρ hpre =>
  Cert.KernelIdeal.Hand.frame m ρ (Cert.PreFacts.ids_lt _ _ _ _ (hpre Cert.KernelIdeal.Hand.c0))

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.Hand in
theorem algebraic : @Cert.algebraic_KernelIdeal_ReferenceIdeal Cert.KernelIdeal.Gen.facts Cert.ReferenceIdeal.Gen.facts Cert.Pre_finite_inputs.Gen.facts := by
  intro m ρ m' ρ' hpre hagree
  have hids := Cert.PreFacts.ids_lt _ _ _ _ (hpre c0)
  have hE := Cert.PreFacts.finite_E _ _ _ _ (hpre c0)
  have hW := Cert.PreFacts.finite_W _ _ _ _ (hpre c0)
  have hb := Cert.PreFacts.finite_b _ _ _ _ (hpre c0)
  have hlt := hlt_of_ids m hids
  refine ⟨fun c => W5 m (A0 m hlt) (A1 m hlt) c (Proc.devRef .tc Cert.KernelIdeal.main_v7), ?_, ?_⟩
  · exact (θ_run Cert.KernelIdeal.defs _ _).mono (fun r h c =>
      ⟨h c _ (mem_uc Cert.KernelIdeal.main_v7 (by decide)),
       (h c _ (mem_uc Cert.KernelIdeal.main_arg0 (by decide))).trans (W5_arg0 m _ _ c),
       (h c _ (mem_uc Cert.KernelIdeal.main_arg1 (by decide))).trans (W5_arg1 m _ _ c),
       (h c _ (mem_uc Cert.KernelIdeal.main_arg2 (by decide))).trans (W5_arg2 m _ _ c),
       (h c _ (mem_uc Cert.KernelIdeal.main_arg3 (by decide))).trans (W5_arg3 m _ _ c)⟩)
      (run_all m ρ hlt)
  · refine (θ_run Cert.ReferenceIdeal.defs _ _).mono (fun r h c => ⟨(h c).1.trans ?_, (h c).2⟩)
      (Cert.ReferenceIdeal.Value.run (F := Ideal) m' ρ')
    obtain rfl : c = c0 := Subsingleton.elim _ _
    rw [(hagree c0).1, (hagree c0).2.1, (hagree c0).2.2.1, (hagree c0).2.2.2]
    refine (Cert.ReferenceIdeal.Read.val_main_v13_eq _ _ _ _).trans ?_
    rw [Cert.RefValue.ref_eq _ _ _ _ hids hE hW hb]
    funext j
    rw [Idealize.ShloMosaic.ValueIdx.eq_ix0 j]
    exact (Cert.KernelIdeal.ValueAll.result_total m hlt).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_p, Cert.Proof.frame_pi, Cert.Proof.frame_ri, Cert.Proof.preserves, Cert.Proof.algebraic⟩

end
